-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v106)) (v1 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_v95) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v246) = v0 c
          ∧ r.2.mem ((c.tc : Thread Cert.ReferenceIdeal.nD Cert.ReferenceIdeal.τ).loc Cert.ReferenceIdeal.main_v218) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S50000x3 : Shape := ⟨2, ![50000, 3]⟩
abbrev S2x800000 : Shape := ⟨2, ![2, 800000]⟩
abbrev S800000x4 : Shape := ⟨2, ![800000, 4]⟩
abbrev S100x64 : Shape := ⟨2, ![100, 64]⟩
abbrev S2x129x64 : Shape := ⟨3, ![2, 129, 64]⟩
abbrev S2x64 : Shape := ⟨2, ![2, 64]⟩
abbrev S2x64x64 : Shape := ⟨3, ![2, 64, 64]⟩
abbrev S2x128x64 : Shape := ⟨3, ![2, 128, 64]⟩
abbrev S2x64x1 : Shape := ⟨3, ![2, 64, 1]⟩
abbrev S2x1 : Shape := ⟨2, ![2, 1]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S800000x4 : S_.BroadcastsInDim S800000x4 (![] : Fin 0 → Fin S800000x4.rank)
  reducesTo_S800000x4_S_d0_1 : S800000x4.ReducesTo [0, 1] S_
  bcast_S_S100x64 : S_.BroadcastsInDim S100x64 (![] : Fin 0 → Fin S100x64.rank)
  reducesTo_S100x64_S_d0_1 : S100x64.ReducesTo [0, 1] S_
  bcast_S_S2x129x64 : S_.BroadcastsInDim S2x129x64 (![] : Fin 0 → Fin S2x129x64.rank)
  reducesTo_S2x129x64_S_d0_1_2 : S2x129x64.ReducesTo [0, 1, 2] S_
  bcast_S_S2x64 : S_.BroadcastsInDim S2x64 (![] : Fin 0 → Fin S2x64.rank)
  reducesTo_S2x64_S_d0_1 : S2x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x128x64 : S_.BroadcastsInDim S2x128x64 (![] : Fin 0 → Fin S2x128x64.rank)
  reducesTo_S2x128x64_S_d0_1_2 : S2x128x64.ReducesTo [0, 1, 2] S_
  bcast_S_S2x64x1 : S_.BroadcastsInDim S2x64x1 (![] : Fin 0 → Fin S2x64x1.rank)
  reducesTo_S2x64x1_S_d0_1_2 : S2x64x1.ReducesTo [0, 1, 2] S_
  bcast_S_S2x1 : S_.BroadcastsInDim S2x1 (![] : Fin 0 → Fin S2x1.rank)
  reducesTo_S2x1_S_d0_1 : S2x1.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_arg2 : IVec S2x800000 32) (main_arg16 : FVec F S2x1 .f32) (main_v63 : IVec S_ 1) (main_v67 : IVec S_ 1) : IVec S_ 1 :=
  let main_v68 : IVec S_ 1 := andi main_v63 main_v67
  let main_v69 : FVec F S2x1 .f32 := Host.absf main_arg16
  let main_cst_26 : FVec F S_ .f32 := constant S_ .f32 0x7F800000#32
  let main_v70 : FVec F S2x1 .f32 := broadcastInDim S2x1 ![] bcast_S_S2x1 main_cst_26
  let main_v71 : IVec S2x1 1 := cmpf .olt main_v69 main_v70
  let main_c_27 : IVec S_ 1 := constantI S_ 1 1#1
  let main_v72 : IVec S_ 1 := (fun x v => Host.reduce IntOp.andi x v reducesTo_S2x1_S_d0_1 h_S_) main_v71 main_c_27
  let main_v73 : IVec S_ 1 := andi main_v68 main_v72
  let main_c_28 : IVec S_ 32 := constantI S_ 32 0#32
  let main_v74 : IVec S2x800000 32 := broadcastInDim S2x800000 ![] bcast_S_S2x800000 main_c_28
  let main_v75 : IVec S2x800000 1 := cmpi .sge main_arg2 main_v74
  let main_c_29 : IVec S_ 32 := constantI S_ 32 50000#32
  let main_v76 : IVec S2x800000 32 := broadcastInDim S2x800000 ![] bcast_S_S2x800000 main_c_29
  let main_v77 : IVec S2x800000 1 := cmpi .slt main_arg2 main_v76
  let main_v78 : IVec S2x800000 1 := andi main_v75 main_v77
  let main_c_30 : IVec S_ 1 := constantI S_ 1 1#1
  let main_v79 : IVec S_ 1 := (fun x v => Host.reduce IntOp.andi x v reducesTo_S2x800000_S_d0_1 h_S_) main_v78 main_c_30
  let main_v80 : IVec S_ 1 := andi main_v73 main_v79
  main_v80

def fn_part3 {F : FTy → Type} [FloatOps F] (main_arg2 : IVec S2x800000 32) (main_arg13 : FVec F S2x64x64 .f32) (main_arg14 : FVec F S2x64 .f32) (main_arg15 : FVec F S2x64x1 .f32) (main_arg16 : FVec F S2x1 .f32) (main_v48 : IVec S_ 1) (main_v49 : FVec F S2x64 .f32) (main_v50 : FVec F S2x64 .f32) : IVec S_ 1 :=
  let main_v51 : IVec S2x64 1 := cmpf .olt main_v49 main_v50
  let main_c_19 : IVec S_ 1 := constantI S_ 1 1#1
  let main_v52 : IVec S_ 1 := (fun x v => Host.reduce IntOp.andi x v reducesTo_S2x64_S_d0_1 h_S_) main_v51 main_c_19
  let main_v53 : IVec S_ 1 := andi main_v48 main_v52
  let main_v54 : FVec F S2x64x64 .f32 := Host.absf main_arg13
  let main_cst_20 : FVec F S_ .f32 := constant S_ .f32 0x7F800000#32
  let main_v55 : FVec F S2x64x64 .f32 := broadcastInDim S2x64x64 ![] bcast_S_S2x64x64 main_cst_20
  let main_v56 : IVec S2x64x64 1 := cmpf .olt main_v54 main_v55
  let main_c_21 : IVec S_ 1 := constantI S_ 1 1#1
  let main_v57 : IVec S_ 1 := (fun x v => Host.reduce IntOp.andi x v reducesTo_S2x64x64_S_d0_1_2 h_S_) main_v56 main_c_21
  let main_v58 : IVec S_ 1 := andi main_v53 main_v57
  let main_v59 : FVec F S2x64 .f32 := Host.absf main_arg14
  let main_cst_22 : FVec F S_ .f32 := constant S_ .f32 0x7F800000#32
  let main_v60 : FVec F S2x64 .f32 := broadcastInDim S2x64 ![] bcast_S_S2x64 main_cst_22
  let main_v61 : IVec S2x64 1 := cmpf .olt main_v59 main_v60
  let main_c_23 : IVec S_ 1 := constantI S_ 1 1#1
  let main_v62 : IVec S_ 1 := (fun x v => Host.reduce IntOp.andi x v reducesTo_S2x64_S_d0_1 h_S_) main_v61 main_c_23
  let main_v63 : IVec S_ 1 := andi main_v58 main_v62
  let main_v64 : FVec F S2x64x1 .f32 := Host.absf main_arg15
  let main_cst_24 : FVec F S_ .f32 := constant S_ .f32 0x7F800000#32
  let main_v65 : FVec F S2x64x1 .f32 := broadcastInDim S2x64x1 ![] bcast_S_S2x64x1 main_cst_24
  let main_v66 : IVec S2x64x1 1 := cmpf .olt main_v64 main_v65
  let main_c_25 : IVec S_ 1 := constantI S_ 1 1#1
  let main_v67 : IVec S_ 1 := (fun x v => Host.reduce IntOp.andi x v reducesTo_S2x64x1_S_d0_1_2 h_S_) main_v66 main_c_25
  fn_part4 (F := F) main_arg2 main_arg16 main_v63 main_v67

def fn_part2 {F : FTy → Type} [FloatOps F] (main_arg2 : IVec S2x800000 32) (main_arg9 : FVec F S2x128x64 .f32) (main_arg10 : FVec F S2x64 .f32) (main_arg11 : FVec F S2x64x64 .f32) (main_arg12 : FVec F S2x64 .f32) (main_arg13 : FVec F S2x64x64 .f32) (main_arg14 : FVec F S2x64 .f32) (main_arg15 : FVec F S2x64x1 .f32) (main_arg16 : FVec F S2x1 .f32) (main_v33 : IVec S_ 1) : IVec S_ 1 :=
  let main_v34 : FVec F S2x128x64 .f32 := Host.absf main_arg9
  let main_cst_12 : FVec F S_ .f32 := constant S_ .f32 0x7F800000#32
  let main_v35 : FVec F S2x128x64 .f32 := broadcastInDim S2x128x64 ![] bcast_S_S2x128x64 main_cst_12
  let main_v36 : IVec S2x128x64 1 := cmpf .olt main_v34 main_v35
  let main_c_13 : IVec S_ 1 := constantI S_ 1 1#1
  let main_v37 : IVec S_ 1 := (fun x v => Host.reduce IntOp.andi x v reducesTo_S2x128x64_S_d0_1_2 h_S_) main_v36 main_c_13
  let main_v38 : IVec S_ 1 := andi main_v33 main_v37
  let main_v39 : FVec F S2x64 .f32 := Host.absf main_arg10
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S2x64x64 .f32 := Host.absf main_arg11
  let main_cst_16 : FVec F S_ .f32 := constant S_ .f32 0x7F800000#32
  let main_v45 : FVec F S2x64x64 .f32 := broadcastInDim S2x64x64 ![] bcast_S_S2x64x64 main_cst_16
  let main_v46 : IVec S2x64x64 1 := cmpf .olt main_v44 main_v45
  let main_c_17 : IVec S_ 1 := constantI S_ 1 1#1
  let main_v47 : IVec S_ 1 := (fun x v => Host.reduce IntOp.andi x v reducesTo_S2x64x64_S_d0_1_2 h_S_) main_v46 main_c_17
  let main_v48 : IVec S_ 1 := andi main_v43 main_v47
  let main_v49 : FVec F S2x64 .f32 := Host.absf main_arg12
  let main_cst_18 : FVec F S_ .f32 := constant S_ .f32 0x7F800000#32
  let main_v50 : FVec F S2x64 .f32 := broadcastInDim S2x64 ![] bcast_S_S2x64 main_cst_18
  fn_part3 (F := F) main_arg2 main_arg13 main_arg14 main_arg15 main_arg16 main_v48 main_v49 main_v50

def fn_part1 {F : FTy → Type} [FloatOps F] (main_arg2 : IVec S2x800000 32) (main_arg6 : FVec F S2x64 .f32) (main_arg7 : FVec F S2x64x64 .f32) (main_arg8 : FVec F S2x64 .f32) (main_arg9 : FVec F S2x128x64 .f32) (main_arg10 : FVec F S2x64 .f32) (main_arg11 : FVec F S2x64x64 .f32) (main_arg12 : FVec F S2x64 .f32) (main_arg13 : FVec F S2x64x64 .f32) (main_arg14 : FVec F S2x64 .f32) (main_arg15 : FVec F S2x64x1 .f32) (main_arg16 : FVec F S2x1 .f32) (main_v13 : IVec S_ 1) (main_v16 : IVec S2x129x64 1) : IVec S_ 1 :=
  let main_c_5 : IVec S_ 1 := constantI S_ 1 1#1
  let main_v17 : IVec S_ 1 := (fun x v => Host.reduce IntOp.andi x v reducesTo_S2x129x64_S_d0_1_2 h_S_) main_v16 main_c_5
  let main_v18 : IVec S_ 1 := andi main_v13 main_v17
  let main_v19 : FVec F S2x64 .f32 := Host.absf main_arg6
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2x64x64 .f32 := Host.absf main_arg7
  let main_cst_8 : FVec F S_ .f32 := constant S_ .f32 0x7F800000#32
  let main_v25 : FVec F S2x64x64 .f32 := broadcastInDim S2x64x64 ![] bcast_S_S2x64x64 main_cst_8
  let main_v26 : IVec S2x64x64 1 := cmpf .olt main_v24 main_v25
  let main_c_9 : IVec S_ 1 := constantI S_ 1 1#1
  let main_v27 : IVec S_ 1 := (fun x v => Host.reduce IntOp.andi x v reducesTo_S2x64x64_S_d0_1_2 h_S_) main_v26 main_c_9
  let main_v28 : IVec S_ 1 := andi main_v23 main_v27
  let main_v29 : FVec F S2x64 .f32 := Host.absf main_arg8
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg2 main_arg9 main_arg10 main_arg11 main_arg12 main_arg13 main_arg14 main_arg15 main_arg16 main_v33

def fn {F : FTy → Type} [FloatOps F] (main_arg0 : IVec S50000 32) (main_arg1 : FVec F S50000x3 .f32) (main_arg2 : IVec S2x800000 32) (main_arg3 : FVec F S800000x4 .f32) (main_arg4 : FVec F S100x64 .f32) (main_arg5 : FVec F S2x129x64 .f32) (main_arg6 : FVec F S2x64 .f32) (main_arg7 : FVec F S2x64x64 .f32) (main_arg8 : FVec F S2x64 .f32) (main_arg9 : FVec F S2x128x64 .f32) (main_arg10 : FVec F S2x64 .f32) (main_arg11 : FVec F S2x64x64 .f32) (main_arg12 : FVec F S2x64 .f32) (main_arg13 : FVec F S2x64x64 .f32) (main_arg14 : FVec F S2x64 .f32) (main_arg15 : FVec F S2x64x1 .f32) (main_arg16 : FVec F S2x1 .f32) : IVec S_ 1 :=
  let main_v0 : FVec F S50000x3 .f32 := Host.absf main_arg1
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S800000x4 .f32 := Host.absf main_arg3
  let main_cst_0 : FVec F S_ .f32 := constant S_ .f32 0x7F800000#32
  let main_v5 : FVec F S800000x4 .f32 := broadcastInDim S800000x4 ![] bcast_S_S800000x4 main_cst_0
  let main_v6 : IVec S800000x4 1 := cmpf .olt main_v4 main_v5
  let main_c_1 : IVec S_ 1 := constantI S_ 1 1#1
  let main_v7 : IVec S_ 1 := (fun x v => Host.reduce IntOp.andi x v reducesTo_S800000x4_S_d0_1 h_S_) main_v6 main_c_1
  let main_v8 : IVec S_ 1 := andi main_v3 main_v7
  let main_v9 : FVec F S100x64 .f32 := Host.absf main_arg4
  let main_cst_2 : FVec F S_ .f32 := constant S_ .f32 0x7F800000#32
  let main_v10 : FVec F S100x64 .f32 := broadcastInDim S100x64 ![] bcast_S_S100x64 main_cst_2
  let main_v11 : IVec S100x64 1 := cmpf .olt main_v9 main_v10
  let main_c_3 : IVec S_ 1 := constantI S_ 1 1#1
  let main_v12 : IVec S_ 1 := (fun x v => Host.reduce IntOp.andi x v reducesTo_S100x64_S_d0_1 h_S_) main_v11 main_c_3
  let main_v13 : IVec S_ 1 := andi main_v8 main_v12
  let main_v14 : FVec F S2x129x64 .f32 := Host.absf main_arg5
  let main_cst_4 : FVec F S_ .f32 := constant S_ .f32 0x7F800000#32
  let main_v15 : FVec F S2x129x64 .f32 := broadcastInDim S2x129x64 ![] bcast_S_S2x129x64 main_cst_4
  let main_v16 : IVec S2x129x64 1 := cmpf .olt main_v14 main_v15
  fn_part1 (F := F) main_arg2 main_arg6 main_arg7 main_arg8 main_arg9 main_arg10 main_arg11 main_arg12 main_arg13 main_arg14 main_arg15 main_arg16 main_v13 main_v16
-- ==== Kernel.lean ====
abbrev S50000 : Shape := ⟨1, ![50000]⟩
abbrev S50000x3 : Shape := ⟨2, ![50000, 3]⟩
abbrev S2x800000 : Shape := ⟨2, ![2, 800000]⟩
abbrev S800000x4 : Shape := ⟨2, ![800000, 4]⟩
abbrev S100x64 : Shape := ⟨2, ![100, 64]⟩
abbrev S2x129x64 : Shape := ⟨3, ![2, 129, 64]⟩
abbrev S2x64 : Shape := ⟨2, ![2, 64]⟩
abbrev S2x64x64 : Shape := ⟨3, ![2, 64, 64]⟩
abbrev S2x128x64 : Shape := ⟨3, ![2, 128, 64]⟩
abbrev S2x64x1 : Shape := ⟨3, ![2, 64, 1]⟩
abbrev S2x1 : Shape := ⟨2, ![2, 1]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S50000x64 : Shape := ⟨2, ![50000, 64]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S800000x3 : Shape := ⟨2, ![800000, 3]⟩
abbrev S1x129x64 : Shape := ⟨3, ![1, 129, 64]⟩
abbrev S129x64 : Shape := ⟨2, ![129, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩
abbrev S1x64x1 : Shape := ⟨3, ![1, 64, 1]⟩
abbrev S64x1 : Shape := ⟨2, ![64, 1]⟩
abbrev S5000x64 : Shape := ⟨2, ![5000, 64]⟩
abbrev S5000x4 : Shape := ⟨2, ![5000, 4]⟩
abbrev S5000x3 : Shape := ⟨2, ![5000, 3]⟩
abbrev S5000x1 : Shape := ⟨2, ![5000, 1]⟩
abbrev S1x128x64 : Shape := ⟨3, ![1, 128, 64]⟩
abbrev S128x64 : Shape := ⟨2, ![128, 64]⟩

abbrev nBuf : Space → Nat
  | .hbm => 316
  | .vmem => 56
  | .smem => 0
  | _ => 0

abbrev hbmTy0_0 (i : Nat) : BufTy := match i % 128 with
  | 0 => ⟨S50000, .i32⟩
  | 1 => ⟨S50000x3, .f32⟩
  | 2 => ⟨S2x800000, .i32⟩
  | 3 => ⟨S800000x4, .f32⟩
  | 4 => ⟨S100x64, .f32⟩
  | 5 => ⟨S2x129x64, .f32⟩
  | 6 => ⟨S2x64, .f32⟩
  | 7 => ⟨S2x64x64, .f32⟩
  | 8 => ⟨S2x64, .f32⟩
  | 9 => ⟨S2x128x64, .f32⟩
  | 10 => ⟨S2x64, .f32⟩
  | 11 => ⟨S2x64x64, .f32⟩
  | 12 => ⟨S2x64, .f32⟩
  | 13 => ⟨S2x64x64, .f32⟩
  | 14 => ⟨S2x64, .f32⟩
  | 15 => ⟨S2x64x1, .f32⟩
  | 16 => ⟨S2x1, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S50000, .i32⟩
  | 23 => ⟨S50000, .i1⟩
  | 24 => ⟨S_, .i32⟩
  | 25 => ⟨S50000, .i32⟩
  | 26 => ⟨S50000, .i32⟩
  | 27 => ⟨S50000, .i32⟩
  | 28 => ⟨S50000x1, .i32⟩
  | 29 => ⟨S50000x64, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S1, .i32⟩
  | 39 => ⟨S_, .i32⟩
  | 40 => ⟨S800000x1, .i32⟩
  | 41 => ⟨S800000x1, .i1⟩
  | 42 => ⟨S1x1, .i32⟩
  | 43 => ⟨S800000x1, .i32⟩
  | 44 => ⟨S800000x1, .i1⟩
  | 45 => ⟨S800000x1, .i1⟩
  | 46 => ⟨S_, .i1⟩
  | 47 => ⟨S800000, .i1⟩
  | 48 => ⟨S800000x64, .f32⟩
  | 49 => ⟨S800000x64, .i1⟩
  | 50 => ⟨S_, .f32⟩
  | 51 => ⟨S800000x64, .f32⟩
  | 52 => ⟨S800000x64, .f32⟩
  | 53 => ⟨S800000x64, .bf16⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S1, .i32⟩
  | 63 => ⟨S_, .i32⟩
  | 64 => ⟨S800000x1, .i32⟩
  | 65 => ⟨S800000x1, .i1⟩
  | 66 => ⟨S1x1, .i32⟩
  | 67 => ⟨S800000x1, .i32⟩
  | 68 => ⟨S800000x1, .i1⟩
  | 69 => ⟨S800000x1, .i1⟩
  | 70 => ⟨S_, .i1⟩
  | 71 => ⟨S800000, .i1⟩
  | 72 => ⟨S800000x64, .f32⟩
  | 73 => ⟨S800000x64, .i1⟩
  | 74 => ⟨S_, .f32⟩
  | 75 => ⟨S800000x64, .f32⟩
  | 76 => ⟨S800000x64, .f32⟩
  | 77 => ⟨S800000x64, .bf16⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S1, .i32⟩
  | 87 => ⟨S_, .i32⟩
  | 88 => ⟨S800000x1, .i32⟩
  | 89 => ⟨S800000x1, .i1⟩
  | 90 => ⟨S1x1, .i32⟩
  | 91 => ⟨S800000x1, .i32⟩
  | 92 => ⟨S800000x1, .i1⟩
  | 93 => ⟨S800000x1, .i1⟩
  | 94 => ⟨S_, .i1⟩
  | 95 => ⟨S800000, .i1⟩
  | 96 => ⟨S800000x3, .f32⟩
  | 97 => ⟨S800000x3, .i1⟩
  | 98 => ⟨S_, .f32⟩
  | 99 => ⟨S800000x3, .f32⟩
  | 100 => ⟨S800000x3, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S1, .i32⟩
  | 110 => ⟨S_, .i32⟩
  | 111 => ⟨S800000x1, .i32⟩
  | 112 => ⟨S800000x1, .i1⟩
  | 113 => ⟨S1x1, .i32⟩
  | 114 => ⟨S800000x1, .i32⟩
  | 115 => ⟨S800000x1, .i1⟩
  | 116 => ⟨S800000x1, .i1⟩
  | 117 => ⟨S_, .i1⟩
  | 118 => ⟨S800000, .i1⟩
  | 119 => ⟨S800000x3, .f32⟩
  | 120 => ⟨S800000x3, .i1⟩
  | 121 => ⟨S_, .f32⟩
  | 122 => ⟨S800000x3, .f32⟩
  | 123 => ⟨S800000x3, .f32⟩
  | 124 => ⟨S800000x3, .f32⟩
  | 125 => ⟨S800000x3, .f32⟩
  | 126 => ⟨S_, .f32⟩
  | 127 => ⟨S800000, .f32⟩
  | _ => ⟨S50000, .i32⟩

abbrev hbmTy0_1 (i : Nat) : BufTy := match i % 128 with
  | 0 => ⟨S800000x1, .f32⟩
  | 1 => ⟨S800000x1, .f32⟩
  | 2 => ⟨S800000x4, .f32⟩
  | 3 => ⟨S1x129x64, .f32⟩
  | 4 => ⟨S129x64, .f32⟩
  | 5 => ⟨S1x64, .f32⟩
  | 6 => ⟨S64, .f32⟩
  | 7 => ⟨S1x64, .f32⟩
  | 8 => ⟨S1x64x64, .f32⟩
  | 9 => ⟨S64x64, .f32⟩
  | 10 => ⟨S1x64, .f32⟩
  | 11 => ⟨S64, .f32⟩
  | 12 => ⟨S1x64, .f32⟩
  | 13 => ⟨S1x64x64, .f32⟩
  | 14 => ⟨S64x64, .f32⟩
  | 15 => ⟨S1x64, .f32⟩
  | 16 => ⟨S64, .f32⟩
  | 17 => ⟨S1x64, .f32⟩
  | 18 => ⟨S1x64x1, .f32⟩
  | 19 => ⟨S64x1, .f32⟩
  | 20 => ⟨S1x1, .f32⟩
  | 21 => ⟨S1, .f32⟩
  | 22 => ⟨S1x1, .f32⟩
  | 23 => ⟨S800000x64, .f32⟩
  | 24 => ⟨S800000x3, .f32⟩
  | 25 => ⟨S_, .f32⟩
  | 26 => ⟨S50000x3, .f32⟩
  | 27 => ⟨S800000x1, .i32⟩
  | 28 => ⟨S50000x3, .f32⟩
  | 29 => ⟨S_, .f32⟩
  | 30 => ⟨S50000x64, .f32⟩
  | 31 => ⟨S800000x1, .i32⟩
  | 32 => ⟨S50000x64, .f32⟩
  | 33 => ⟨S50000x3, .f32⟩
  | 34 => ⟨S1x128x64, .f32⟩
  | 35 => ⟨S128x64, .f32⟩
  | 36 => ⟨S1x64, .f32⟩
  | 37 => ⟨S64, .f32⟩
  | 38 => ⟨S1x64, .f32⟩
  | 39 => ⟨S1x64x64, .f32⟩
  | 40 => ⟨S64x64, .f32⟩
  | 41 => ⟨S1x64, .f32⟩
  | 42 => ⟨S64, .f32⟩
  | 43 => ⟨S1x64, .f32⟩
  | 44 => ⟨S50000x64, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S1, .i32⟩
  | 54 => ⟨S_, .i32⟩
  | 55 => ⟨S800000x1, .i32⟩
  | 56 => ⟨S800000x1, .i1⟩
  | 57 => ⟨S1x1, .i32⟩
  | 58 => ⟨S800000x1, .i32⟩
  | 59 => ⟨S800000x1, .i1⟩
  | 60 => ⟨S800000x1, .i1⟩
  | 61 => ⟨S_, .i1⟩
  | 62 => ⟨S800000, .i1⟩
  | 63 => ⟨S800000x64, .f32⟩
  | 64 => ⟨S800000x64, .i1⟩
  | 65 => ⟨S_, .f32⟩
  | 66 => ⟨S800000x64, .f32⟩
  | 67 => ⟨S800000x64, .f32⟩
  | 68 => ⟨S800000x64, .bf16⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S1, .i32⟩
  | 78 => ⟨S_, .i32⟩
  | 79 => ⟨S800000x1, .i32⟩
  | 80 => ⟨S800000x1, .i1⟩
  | 81 => ⟨S1x1, .i32⟩
  | 82 => ⟨S800000x1, .i32⟩
  | 83 => ⟨S800000x1, .i1⟩
  | 84 => ⟨S800000x1, .i1⟩
  | 85 => ⟨S_, .i1⟩
  | 86 => ⟨S800000, .i1⟩
  | 87 => ⟨S800000x64, .f32⟩
  | 88 => ⟨S800000x64, .i1⟩
  | 89 => ⟨S_, .f32⟩
  | 90 => ⟨S800000x64, .f32⟩
  | 91 => ⟨S800000x64, .f32⟩
  | 92 => ⟨S800000x64, .bf16⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S1, .i32⟩
  | 102 => ⟨S_, .i32⟩
  | 103 => ⟨S800000x1, .i32⟩
  | 104 => ⟨S800000x1, .i1⟩
  | 105 => ⟨S1x1, .i32⟩
  | 106 => ⟨S800000x1, .i32⟩
  | 107 => ⟨S800000x1, .i1⟩
  | 108 => ⟨S800000x1, .i1⟩
  | 109 => ⟨S_, .i1⟩
  | 110 => ⟨S800000, .i1⟩
  | 111 => ⟨S800000x3, .f32⟩
  | 112 => ⟨S800000x3, .i1⟩
  | 113 => ⟨S_, .f32⟩
  | 114 => ⟨S800000x3, .f32⟩
  | 115 => ⟨S800000x3, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S1, .i32⟩
  | 125 => ⟨S_, .i32⟩
  | 126 => ⟨S800000x1, .i32⟩
  | 127 => ⟨S800000x1, .i1⟩
  | _ => ⟨S50000, .i32⟩

abbrev hbmTy0_2 (i : Nat) : BufTy := match i % 128 with
  | 0 => ⟨S1x1, .i32⟩
  | 1 => ⟨S800000x1, .i32⟩
  | 2 => ⟨S800000x1, .i1⟩
  | 3 => ⟨S800000x1, .i1⟩
  | 4 => ⟨S_, .i1⟩
  | 5 => ⟨S800000, .i1⟩
  | 6 => ⟨S800000x3, .f32⟩
  | 7 => ⟨S800000x3, .i1⟩
  | 8 => ⟨S_, .f32⟩
  | 9 => ⟨S800000x3, .f32⟩
  | 10 => ⟨S800000x3, .f32⟩
  | 11 => ⟨S800000x3, .f32⟩
  | 12 => ⟨S800000x3, .f32⟩
  | 13 => ⟨S_, .f32⟩
  | 14 => ⟨S800000, .f32⟩
  | 15 => ⟨S800000x1, .f32⟩
  | 16 => ⟨S800000x1, .f32⟩
  | 17 => ⟨S800000x4, .f32⟩
  | 18 => ⟨S1x129x64, .f32⟩
  | 19 => ⟨S129x64, .f32⟩
  | 20 => ⟨S1x64, .f32⟩
  | 21 => ⟨S64, .f32⟩
  | 22 => ⟨S1x64, .f32⟩
  | 23 => ⟨S1x64x64, .f32⟩
  | 24 => ⟨S64x64, .f32⟩
  | 25 => ⟨S1x64, .f32⟩
  | 26 => ⟨S64, .f32⟩
  | 27 => ⟨S1x64, .f32⟩
  | 28 => ⟨S1x64x64, .f32⟩
  | 29 => ⟨S64x64, .f32⟩
  | 30 => ⟨S1x64, .f32⟩
  | 31 => ⟨S64, .f32⟩
  | 32 => ⟨S1x64, .f32⟩
  | 33 => ⟨S1x64x1, .f32⟩
  | 34 => ⟨S64x1, .f32⟩
  | 35 => ⟨S1x1, .f32⟩
  | 36 => ⟨S1, .f32⟩
  | 37 => ⟨S1x1, .f32⟩
  | 38 => ⟨S800000x64, .f32⟩
  | 39 => ⟨S800000x3, .f32⟩
  | 40 => ⟨S_, .f32⟩
  | 41 => ⟨S50000x3, .f32⟩
  | 42 => ⟨S800000x1, .i32⟩
  | 43 => ⟨S50000x3, .f32⟩
  | 44 => ⟨S_, .f32⟩
  | 45 => ⟨S50000x64, .f32⟩
  | 46 => ⟨S800000x1, .i32⟩
  | 47 => ⟨S50000x64, .f32⟩
  | 48 => ⟨S50000x3, .f32⟩
  | 49 => ⟨S1x128x64, .f32⟩
  | 50 => ⟨S128x64, .f32⟩
  | 51 => ⟨S1x64, .f32⟩
  | 52 => ⟨S64, .f32⟩
  | 53 => ⟨S1x64, .f32⟩
  | 54 => ⟨S1x64x64, .f32⟩
  | 55 => ⟨S64x64, .f32⟩
  | 56 => ⟨S1x64, .f32⟩
  | 57 => ⟨S64, .f32⟩
  | 58 => ⟨S1x64, .f32⟩
  | 59 => ⟨S50000x64, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | .local _ .vmem, ⟨0, _⟩ => ⟨S5000x64, .bf16⟩
  | .local _ .vmem, ⟨1, _⟩ => ⟨S5000x64, .bf16⟩
  | .local _ .vmem, ⟨2, _⟩ => ⟨S5000x64, .bf16⟩
  | .local _ .vmem, ⟨3, _⟩ => ⟨S5000x64, .bf16⟩
  | .local _ .vmem, ⟨4, _⟩ => ⟨S5000x4, .f32⟩
  | .local _ .vmem, ⟨5, _⟩ => ⟨S5000x4, .f32⟩
  | .local _ .vmem, ⟨6, _⟩ => ⟨S129x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x1, .f32⟩
  | .local _ .vmem, ⟨13, _⟩ => ⟨S1x1, .f32⟩
  | .local _ .vmem, ⟨14, _⟩ => ⟨S5000x64, .f32⟩
  | .local _ .vmem, ⟨15, _⟩ => ⟨S5000x64, .f32⟩
  | .local _ .vmem, ⟨16, _⟩ => ⟨S5000x3, .f32⟩
  | .local _ .vmem, ⟨17, _⟩ => ⟨S5000x3, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S128x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .bf16⟩
  | .local _ .vmem, ⟨29, _⟩ => ⟨S5000x64, .bf16⟩
  | .local _ .vmem, ⟨30, _⟩ => ⟨S5000x64, .bf16⟩
  | .local _ .vmem, ⟨31, _⟩ => ⟨S5000x64, .bf16⟩
  | .local _ .vmem, ⟨32, _⟩ => ⟨S5000x4, .f32⟩
  | .local _ .vmem, ⟨33, _⟩ => ⟨S5000x4, .f32⟩
  | .local _ .vmem, ⟨34, _⟩ => ⟨S129x64, .f32⟩
  | .local _ .vmem, ⟨35, _⟩ => ⟨S1x64, .f32⟩
  | .local _ .vmem, ⟨36, _⟩ => ⟨S64x64, .f32⟩
  | .local _ .vmem, ⟨37, _⟩ => ⟨S1x64, .f32⟩
  | .local _ .vmem, ⟨38, _⟩ => ⟨S64x64, .f32⟩
  | .local _ .vmem, ⟨39, _⟩ => ⟨S1x64, .f32⟩
  | .local _ .vmem, ⟨40, _⟩ => ⟨S64x1, .f32⟩
  | .local _ .vmem, ⟨41, _⟩ => ⟨S1x1, .f32⟩
  | .local _ .vmem, ⟨42, _⟩ => ⟨S5000x64, .f32⟩
  | .local _ .vmem, ⟨43, _⟩ => ⟨S5000x64, .f32⟩
  | .local _ .vmem, ⟨44, _⟩ => ⟨S5000x3, .f32⟩
  | .local _ .vmem, ⟨45, _⟩ => ⟨S5000x3, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S128x64, .f32⟩
  | .local _ .vmem, ⟨51, _⟩ => ⟨S1x64, .f32⟩
  | .local _ .vmem, ⟨52, _⟩ => ⟨S64x64, .f32⟩
  | .local _ .vmem, ⟨53, _⟩ => ⟨S1x64, .f32⟩
  | .local _ .vmem, ⟨54, _⟩ => ⟨S5000x64, .f32⟩
  | .local _ .vmem, ⟨55, _⟩ => ⟨S5000x64, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v11 : Ref sig .tc := ⟨.hbm, 52, rfl⟩
abbrev main_v12 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v13 : Ref sig .tc := ⟨.hbm, 76, rfl⟩
abbrev main_v14 : Ref sig .tc := ⟨.hbm, 77, rfl⟩
abbrev main_call2_c : Ref sig .tc := ⟨.hbm, 78, rfl⟩
abbrev main_call2_v0 : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_c_1 : Ref sig .tc := ⟨.hbm, 86, rfl⟩
abbrev main_call2_c_2 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_c_3 : Ref sig .tc := ⟨.hbm, 94, rfl⟩
abbrev main_call2_v12 : Ref sig .tc := ⟨.hbm, 95, rfl⟩
abbrev main_call2_v13 : Ref sig .tc := ⟨.hbm, 96, rfl⟩
abbrev main_call2_v14 : Ref sig .tc := ⟨.hbm, 97, rfl⟩
abbrev main_call2_cst : Ref sig .tc := ⟨.hbm, 98, rfl⟩
abbrev main_call2_v15 : Ref sig .tc := ⟨.hbm, 99, rfl⟩
abbrev main_v15 : Ref sig .tc := ⟨.hbm, 100, rfl⟩
abbrev main_call3_c : Ref sig .tc := ⟨.hbm, 101, rfl⟩
abbrev main_call3_v0 : Ref sig .tc := ⟨.hbm, 102, rfl⟩
abbrev main_call3_v1 : Ref sig .tc := ⟨.hbm, 103, rfl⟩
abbrev main_call3_c_0 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_c_1 : Ref sig .tc := ⟨.hbm, 109, rfl⟩
abbrev main_call3_c_2 : Ref sig .tc := ⟨.hbm, 110, rfl⟩
abbrev main_call3_v6 : Ref sig .tc := ⟨.hbm, 111, rfl⟩
abbrev main_call3_v7 : Ref sig .tc := ⟨.hbm, 112, rfl⟩
abbrev main_call3_v8 : Ref sig .tc := ⟨.hbm, 113, rfl⟩
abbrev main_call3_v9 : Ref sig .tc := ⟨.hbm, 114, rfl⟩
abbrev main_call3_v10 : Ref sig .tc := ⟨.hbm, 115, rfl⟩
abbrev main_call3_v11 : Ref sig .tc := ⟨.hbm, 116, rfl⟩
abbrev main_call3_c_3 : Ref sig .tc := ⟨.hbm, 117, rfl⟩
abbrev main_call3_v12 : Ref sig .tc := ⟨.hbm, 118, rfl⟩
abbrev main_call3_v13 : Ref sig .tc := ⟨.hbm, 119, rfl⟩
abbrev main_call3_v14 : Ref sig .tc := ⟨.hbm, 120, rfl⟩
abbrev main_call3_cst : Ref sig .tc := ⟨.hbm, 121, rfl⟩
abbrev main_call3_v15 : Ref sig .tc := ⟨.hbm, 122, rfl⟩
abbrev main_v16 : Ref sig .tc := ⟨.hbm, 123, rfl⟩
abbrev main_v17 : Ref sig .tc := ⟨.hbm, 124, rfl⟩
abbrev main_call4_v0 : Ref sig .tc := ⟨.hbm, 125, rfl⟩
abbrev main_call4_cst : Ref sig .tc := ⟨.hbm, 126, rfl⟩
abbrev main_call4_v1 : Ref sig .tc := ⟨.hbm, 127, rfl⟩
abbrev main_call4_v2 : Ref sig .tc := ⟨.hbm, 128, rfl⟩
abbrev main_v18 : Ref sig .tc := ⟨.hbm, 129, rfl⟩
abbrev main_v19 : Ref sig .tc := ⟨.hbm, 130, rfl⟩
abbrev main_v20 : Ref sig .tc := ⟨.hbm, 131, rfl⟩
abbrev main_v21 : Ref sig .tc := ⟨.hbm, 132, rfl⟩
abbrev main_v22 : Ref sig .tc := ⟨.hbm, 133, rfl⟩
abbrev main_v23 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_v40_0 : Ref sig .tc := ⟨.hbm, 151, rfl⟩
abbrev main_v40_1 : Ref sig .tc := ⟨.hbm, 152, rfl⟩
abbrev main_cst : Ref sig .tc := ⟨.hbm, 153, rfl⟩
abbrev main_v41 : Ref sig .tc := ⟨.hbm, 154, rfl⟩
abbrev main_v42 : Ref sig .tc := ⟨.hbm, 155, rfl⟩
abbrev main_v43 : Ref sig .tc := ⟨.hbm, 156, rfl⟩
abbrev main_cst_1 : Ref sig .tc := ⟨.hbm, 157, rfl⟩
abbrev main_v44 : Ref sig .tc := ⟨.hbm, 158, rfl⟩
abbrev main_v45 : Ref sig .tc := ⟨.hbm, 159, rfl⟩
abbrev main_v46 : Ref sig .tc := ⟨.hbm, 160, rfl⟩
abbrev main_v47 : Ref sig .tc := ⟨.hbm, 161, rfl⟩
abbrev main_v48 : Ref sig .tc := ⟨.hbm, 162, rfl⟩
abbrev main_v49 : Ref sig .tc := ⟨.hbm, 163, rfl⟩
abbrev main_v50 : Ref sig .tc := ⟨.hbm, 164, rfl⟩
abbrev main_v51 : Ref sig .tc := ⟨.hbm, 165, rfl⟩
abbrev main_v52 : Ref sig .tc := ⟨.hbm, 166, rfl⟩
abbrev main_v53 : Ref sig .tc := ⟨.hbm, 167, rfl⟩
abbrev main_v54 : Ref sig .tc := ⟨.hbm, 168, rfl⟩
abbrev main_v55 : Ref sig .tc := ⟨.hbm, 169, rfl⟩
abbrev main_v56 : Ref sig .tc := ⟨.hbm, 170, rfl⟩
abbrev main_v57 : Ref sig .tc := ⟨.hbm, 171, rfl⟩
abbrev main_v58 : Ref sig .tc := ⟨.hbm, 172, rfl⟩
abbrev main_call5_c : Ref sig .tc := ⟨.hbm, 173, rfl⟩
abbrev main_call5_v0 : Ref sig .tc := ⟨.hbm, 174, rfl⟩
abbrev main_call5_v1 : Ref sig .tc := ⟨.hbm, 175, rfl⟩
abbrev main_call5_c_0 : Ref sig .tc := ⟨.hbm, 176, rfl⟩
abbrev main_call5_v2 : Ref sig .tc := ⟨.hbm, 177, rfl⟩
abbrev main_call5_v3 : Ref sig .tc := ⟨.hbm, 178, rfl⟩
abbrev main_call5_v4 : Ref sig .tc := ⟨.hbm, 179, rfl⟩
abbrev main_call5_v5 : Ref sig .tc := ⟨.hbm, 180, rfl⟩
abbrev main_call5_c_1 : Ref sig .tc := ⟨.hbm, 181, rfl⟩
abbrev main_call5_c_2 : Ref sig .tc := ⟨.hbm, 182, rfl⟩
abbrev main_call5_v6 : Ref sig .tc := ⟨.hbm, 183, rfl⟩
abbrev main_call5_v7 : Ref sig .tc := ⟨.hbm, 184, rfl⟩
abbrev main_call5_v8 : Ref sig .tc := ⟨.hbm, 185, rfl⟩
abbrev main_call5_v9 : Ref sig .tc := ⟨.hbm, 186, rfl⟩
abbrev main_call5_v10 : Ref sig .tc := ⟨.hbm, 187, rfl⟩
abbrev main_call5_v11 : Ref sig .tc := ⟨.hbm, 188, rfl⟩
abbrev main_call5_c_3 : Ref sig .tc := ⟨.hbm, 189, rfl⟩
abbrev main_call5_v12 : Ref sig .tc := ⟨.hbm, 190, rfl⟩
abbrev main_call5_v13 : Ref sig .tc := ⟨.hbm, 191, rfl⟩
abbrev main_call5_v14 : Ref sig .tc := ⟨.hbm, 192, rfl⟩
abbrev main_call5_cst : Ref sig .tc := ⟨.hbm, 193, rfl⟩
abbrev main_call5_v15 : Ref sig .tc := ⟨.hbm, 194, rfl⟩
abbrev main_v59 : Ref sig .tc := ⟨.hbm, 195, rfl⟩
abbrev main_v60 : Ref sig .tc := ⟨.hbm, 196, rfl⟩
abbrev main_call6_c : Ref sig .tc := ⟨.hbm, 197, rfl⟩
abbrev main_call6_v0 : Ref sig .tc := ⟨.hbm, 198, rfl⟩
abbrev main_call6_v1 : Ref sig .tc := ⟨.hbm, 199, rfl⟩
abbrev main_call6_c_0 : Ref sig .tc := ⟨.hbm, 200, rfl⟩
abbrev main_call6_v2 : Ref sig .tc := ⟨.hbm, 201, rfl⟩
abbrev main_call6_v3 : Ref sig .tc := ⟨.hbm, 202, rfl⟩
abbrev main_call6_v4 : Ref sig .tc := ⟨.hbm, 203, rfl⟩
abbrev main_call6_v5 : Ref sig .tc := ⟨.hbm, 204, rfl⟩
abbrev main_call6_c_1 : Ref sig .tc := ⟨.hbm, 205, rfl⟩
abbrev main_call6_c_2 : Ref sig .tc := ⟨.hbm, 206, rfl⟩
abbrev main_call6_v6 : Ref sig .tc := ⟨.hbm, 207, rfl⟩
abbrev main_call6_v7 : Ref sig .tc := ⟨.hbm, 208, rfl⟩
abbrev main_call6_v8 : Ref sig .tc := ⟨.hbm, 209, rfl⟩
abbrev main_call6_v9 : Ref sig .tc := ⟨.hbm, 210, rfl⟩
abbrev main_call6_v10 : Ref sig .tc := ⟨.hbm, 211, rfl⟩
abbrev main_call6_v11 : Ref sig .tc := ⟨.hbm, 212, rfl⟩
abbrev main_call6_c_3 : Ref sig .tc := ⟨.hbm, 213, rfl⟩
abbrev main_call6_v12 : Ref sig .tc := ⟨.hbm, 214, rfl⟩
abbrev main_call6_v13 : Ref sig .tc := ⟨.hbm, 215, rfl⟩
abbrev main_call6_v14 : Ref sig .tc := ⟨.hbm, 216, rfl⟩
abbrev main_call6_cst : Ref sig .tc := ⟨.hbm, 217, rfl⟩
abbrev main_call6_v15 : Ref sig .tc := ⟨.hbm, 218, rfl⟩
abbrev main_v61 : Ref sig .tc := ⟨.hbm, 219, rfl⟩
abbrev main_v62 : Ref sig .tc := ⟨.hbm, 220, rfl⟩
abbrev main_call7_c : Ref sig .tc := ⟨.hbm, 221, rfl⟩
abbrev main_call7_v0 : Ref sig .tc := ⟨.hbm, 222, rfl⟩
abbrev main_call7_v1 : Ref sig .tc := ⟨.hbm, 223, rfl⟩
abbrev main_call7_c_0 : Ref sig .tc := ⟨.hbm, 224, rfl⟩
abbrev main_call7_v2 : Ref sig .tc := ⟨.hbm, 225, rfl⟩
abbrev main_call7_v3 : Ref sig .tc := ⟨.hbm, 226, rfl⟩
abbrev main_call7_v4 : Ref sig .tc := ⟨.hbm, 227, rfl⟩
abbrev main_call7_v5 : Ref sig .tc := ⟨.hbm, 228, rfl⟩
abbrev main_call7_c_1 : Ref sig .tc := ⟨.hbm, 229, rfl⟩
abbrev main_call7_c_2 : Ref sig .tc := ⟨.hbm, 230, rfl⟩
abbrev main_call7_v6 : Ref sig .tc := ⟨.hbm, 231, rfl⟩
abbrev main_call7_v7 : Ref sig .tc := ⟨.hbm, 232, rfl⟩
abbrev main_call7_v8 : Ref sig .tc := ⟨.hbm, 233, rfl⟩
abbrev main_call7_v9 : Ref sig .tc := ⟨.hbm, 234, rfl⟩
abbrev main_call7_v10 : Ref sig .tc := ⟨.hbm, 235, rfl⟩
abbrev main_call7_v11 : Ref sig .tc := ⟨.hbm, 236, rfl⟩
abbrev main_call7_c_3 : Ref sig .tc := ⟨.hbm, 237, rfl⟩
abbrev main_call7_v12 : Ref sig .tc := ⟨.hbm, 238, rfl⟩
abbrev main_call7_v13 : Ref sig .tc := ⟨.hbm, 239, rfl⟩
abbrev main_call7_v14 : Ref sig .tc := ⟨.hbm, 240, rfl⟩
abbrev main_call7_cst : Ref sig .tc := ⟨.hbm, 241, rfl⟩
abbrev main_call7_v15 : Ref sig .tc := ⟨.hbm, 242, rfl⟩
abbrev main_v63 : Ref sig .tc := ⟨.hbm, 243, rfl⟩
abbrev main_call8_c : Ref sig .tc := ⟨.hbm, 244, rfl⟩
abbrev main_call8_v0 : Ref sig .tc := ⟨.hbm, 245, rfl⟩
abbrev main_call8_v1 : Ref sig .tc := ⟨.hbm, 246, rfl⟩
abbrev main_call8_c_0 : Ref sig .tc := ⟨.hbm, 247, rfl⟩
abbrev main_call8_v2 : Ref sig .tc := ⟨.hbm, 248, rfl⟩
abbrev main_call8_v3 : Ref sig .tc := ⟨.hbm, 249, rfl⟩
abbrev main_call8_v4 : Ref sig .tc := ⟨.hbm, 250, rfl⟩
abbrev main_call8_v5 : Ref sig .tc := ⟨.hbm, 251, rfl⟩
abbrev main_call8_c_1 : Ref sig .tc := ⟨.hbm, 252, rfl⟩
abbrev main_call8_c_2 : Ref sig .tc := ⟨.hbm, 253, rfl⟩
abbrev main_call8_v6 : Ref sig .tc := ⟨.hbm, 254, rfl⟩
abbrev main_call8_v7 : Ref sig .tc := ⟨.hbm, 255, rfl⟩
abbrev main_call8_v8 : Ref sig .tc := ⟨.hbm, 256, rfl⟩
abbrev main_call8_v9 : Ref sig .tc := ⟨.hbm, 257, rfl⟩
abbrev main_call8_v10 : Ref sig .tc := ⟨.hbm, 258, rfl⟩
abbrev main_call8_v11 : Ref sig .tc := ⟨.hbm, 259, rfl⟩
abbrev main_call8_c_3 : Ref sig .tc := ⟨.hbm, 260, rfl⟩
abbrev main_call8_v12 : Ref sig .tc := ⟨.hbm, 261, rfl⟩
abbrev main_call8_v13 : Ref sig .tc := ⟨.hbm, 262, rfl⟩
abbrev main_call8_v14 : Ref sig .tc := ⟨.hbm, 263, rfl⟩
abbrev main_call8_cst : Ref sig .tc := ⟨.hbm, 264, rfl⟩
abbrev main_call8_v15 : Ref sig .tc := ⟨.hbm, 265, rfl⟩
abbrev main_v64 : Ref sig .tc := ⟨.hbm, 266, rfl⟩
abbrev main_v65 : Ref sig .tc := ⟨.hbm, 267, rfl⟩
abbrev main_call9_v0 : Ref sig .tc := ⟨.hbm, 268, rfl⟩
abbrev main_call9_cst : Ref sig .tc := ⟨.hbm, 269, rfl⟩
abbrev main_call9_v1 : Ref sig .tc := ⟨.hbm, 270, rfl⟩
abbrev main_call9_v2 : Ref sig .tc := ⟨.hbm, 271, rfl⟩
abbrev main_v66 : Ref sig .tc := ⟨.hbm, 272, rfl⟩
abbrev main_v67 : Ref sig .tc := ⟨.hbm, 273, rfl⟩
abbrev main_v68 : Ref sig .tc := ⟨.hbm, 274, rfl⟩
abbrev main_v69 : Ref sig .tc := ⟨.hbm, 275, rfl⟩
abbrev main_v70 : Ref sig .tc := ⟨.hbm, 276, rfl⟩
abbrev main_v71 : Ref sig .tc := ⟨.hbm, 277, rfl⟩
abbrev main_v72 : Ref sig .tc := ⟨.hbm, 278, rfl⟩
abbrev main_v73 : Ref sig .tc := ⟨.hbm, 279, rfl⟩
abbrev main_v74 : Ref sig .tc := ⟨.hbm, 280, rfl⟩
abbrev main_v75 : Ref sig .tc := ⟨.hbm, 281, rfl⟩
abbrev main_v76 : Ref sig .tc := ⟨.hbm, 282, rfl⟩
abbrev main_v77 : Ref sig .tc := ⟨.hbm, 283, rfl⟩
abbrev main_v78 : Ref sig .tc := ⟨.hbm, 284, rfl⟩
abbrev main_v79 : Ref sig .tc := ⟨.hbm, 285, rfl⟩
abbrev main_v80 : Ref sig .tc := ⟨.hbm, 286, rfl⟩
abbrev main_v81 : Ref sig .tc := ⟨.hbm, 287, rfl⟩
abbrev main_v82 : Ref sig .tc := ⟨.hbm, 288, rfl⟩
abbrev main_v83 : Ref sig .tc := ⟨.hbm, 289, rfl⟩
abbrev main_v84 : Ref sig .tc := ⟨.hbm, 290, rfl⟩
abbrev main_v85 : Ref sig .tc := ⟨.hbm, 291, rfl⟩
abbrev main_v86 : Ref sig .tc := ⟨.hbm, 292, rfl⟩
abbrev main_v87 : Ref sig .tc := ⟨.hbm, 293, rfl⟩
abbrev main_v88_0 : Ref sig .tc := ⟨.hbm, 294, rfl⟩
abbrev main_v88_1 : Ref sig .tc := ⟨.hbm, 295, rfl⟩
abbrev main_cst_2 : Ref sig .tc := ⟨.hbm, 296, rfl⟩
abbrev main_v89 : Ref sig .tc := ⟨.hbm, 297, rfl⟩
abbrev main_v90 : Ref sig .tc := ⟨.hbm, 298, rfl⟩
abbrev main_v91 : Ref sig .tc := ⟨.hbm, 299, rfl⟩
abbrev main_cst_3 : Ref sig .tc := ⟨.hbm, 300, rfl⟩
abbrev main_v92 : Ref sig .tc := ⟨.hbm, 301, rfl⟩
abbrev main_v93 : Ref sig .tc := ⟨.hbm, 302, rfl⟩
abbrev main_v94 : Ref sig .tc := ⟨.hbm, 303, rfl⟩
abbrev main_v95 : Ref sig .tc := ⟨.hbm, 304, rfl⟩
abbrev main_v96 : Ref sig .tc := ⟨.hbm, 305, rfl⟩
abbrev main_v97 : Ref sig .tc := ⟨.hbm, 306, rfl⟩
abbrev main_v98 : Ref sig .tc := ⟨.hbm, 307, rfl⟩
abbrev main_v99 : Ref sig .tc := ⟨.hbm, 308, rfl⟩
abbrev main_v100 : Ref sig .tc := ⟨.hbm, 309, rfl⟩
abbrev main_v101 : Ref sig .tc := ⟨.hbm, 310, rfl⟩
abbrev main_v102 : Ref sig .tc := ⟨.hbm, 311, rfl⟩
abbrev main_v103 : Ref sig .tc := ⟨.hbm, 312, rfl⟩
abbrev main_v104 : Ref sig .tc := ⟨.hbm, 313, rfl⟩
abbrev main_v105 : Ref sig .tc := ⟨.hbm, 314, rfl⟩
abbrev main_v106 : Ref sig .tc := ⟨.hbm, 315, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg10_0 : Ref sig .tc := ⟨.vmem, 41, rfl⟩
abbrev cc2_stg11_0 : Ref sig .tc := ⟨.vmem, 42, rfl⟩
abbrev cc2_stg11_1 : Ref sig .tc := ⟨.vmem, 43, rfl⟩
abbrev cc2_stg12_0 : Ref sig .tc := ⟨.vmem, 44, rfl⟩
abbrev cc2_stg12_1 : Ref sig .tc := ⟨.vmem, 45, rfl⟩
abbrev cc3_stg0_0 : Ref sig .tc := ⟨.vmem, 46, rfl⟩
abbrev cc3_stg0_1 : Ref sig .tc := ⟨.vmem, 47, rfl⟩
abbrev cc3_stg1_0 : Ref sig .tc := ⟨.vmem, 48, rfl⟩
abbrev cc3_stg1_1 : Ref sig .tc := ⟨.vmem, 49, rfl⟩
abbrev cc3_stg2_0 : Ref sig .tc := ⟨.vmem, 50, rfl⟩
abbrev cc3_stg3_0 : Ref sig .tc := ⟨.vmem, 51, rfl⟩
abbrev cc3_stg4_0 : Ref sig .tc := ⟨.vmem, 52, rfl⟩
abbrev cc3_stg5_0 : Ref sig .tc := ⟨.vmem, 53, rfl⟩
abbrev cc3_stg6_0 : Ref sig .tc := ⟨.vmem, 54, rfl⟩
abbrev cc3_stg6_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem6_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem10_0 : DmaSem sig := 41
abbrev cc2_sem11_0 : DmaSem sig := 42
abbrev cc2_sem11_1 : DmaSem sig := 43
abbrev cc2_sem12_0 : DmaSem sig := 44
abbrev cc2_sem12_1 : DmaSem sig := 45
abbrev cc3_sem0_0 : DmaSem sig := 46
abbrev cc3_sem0_1 : DmaSem sig := 47
abbrev cc3_sem1_0 : DmaSem sig := 48
abbrev cc3_sem1_1 : DmaSem sig := 49
abbrev cc3_sem2_0 : DmaSem sig := 50
abbrev cc3_sem3_0 : DmaSem sig := 51
abbrev cc3_sem4_0 : DmaSem sig := 52
abbrev cc3_sem5_0 : DmaSem sig := 53
abbrev cc3_sem6_0 : DmaSem sig := 54
abbrev cc3_sem6_1 : DmaSem sig := 55

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S129x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S5000x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S129x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S5000x64 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S5000x3 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bitsLt_bf16_f32 : FTy.bits .bf16 < FTy.bits .f32
  bcast_S800000_S800000x3_0 : S800000.BroadcastsInDim S800000x3 (![0] : Fin 1 → Fin S800000x3.rank)
  bcast_S_S800000x3 : S_.BroadcastsInDim S800000x3 (![] : Fin 0 → Fin S800000x3.rank)
  reducesTo_S800000x3_S800000_d1 : S800000x3.ReducesTo [1] S800000
  concatenates_S800000x1_S800000x3_S800000x4_d1 : Shape.Concatenates [S800000x1, S800000x3] S800000x4 1
  slices_S2x129x64_S1x129x64_0_0_0 : S2x129x64.Slices ![0, 0, 0] S1x129x64
  shapeCasts_S1x129x64_S129x64 : S1x129x64.ShapeCasts S129x64
  slices_S2x64_S1x64_0_0 : S2x64.Slices ![0, 0] S1x64
  shapeCasts_S1x64_S64 : S1x64.ShapeCasts S64
  shapeCasts_S64_S1x64 : S64.ShapeCasts S1x64
  slices_S2x64x64_S1x64x64_0_0_0 : S2x64x64.Slices ![0, 0, 0] S1x64x64
  shapeCasts_S1x64x64_S64x64 : S1x64x64.ShapeCasts S64x64
  slices_S2x64x1_S1x64x1_0_0_0 : S2x64x1.Slices ![0, 0, 0] S1x64x1
  shapeCasts_S1x64x1_S64x1 : S1x64x1.ShapeCasts S64x1
  slices_S2x1_S1x1_0_0 : S2x1.Slices ![0, 0] S1x1
  shapeCasts_S1x1_S1 : S1x1.ShapeCasts S1
  shapeCasts_S1_S1x1 : S1.ShapeCasts S1x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  slices_S5000x4_o0_0_S5000x1 : S5000x4.Slices ![0, 0] S5000x1
  slices_S5000x4_o0_1_S5000x3 : S5000x4.Slices ![0, 1] S5000x3
  inb_S129x64_S129x64_0_0 : ∀ a, (![0, 0] : Fin 2 → Nat) a + S129x64.size a ≤ S129x64.size a
  h_S129x64 : 0 < S129x64.numel
  shapeCasts_S129x64_S129x64 : S129x64.ShapeCasts S129x64
  slices_S129x64_o0_0_S64x64 : S129x64.Slices ![0, 0] S64x64
  slices_S129x64_o64_0_S64x64 : S129x64.Slices ![64, 0] S64x64
  slices_S129x64_o128_0_S1x64 : S129x64.Slices ![128, 0] S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  broadcasts_S5000x1_S5000x3 : S5000x1.Broadcasts S5000x3
  inb_S5000x3_S5000x3_0_0 : ∀ a, (![0, 0] : Fin 2 → Nat) a + S5000x3.size a ≤ S5000x3.size a
  h_S5000x3 : 0 < S5000x3.numel
  bcast_S_S50000x3 : S_.BroadcastsInDim S50000x3 (![] : Fin 0 → Fin S50000x3.rank)
  bcast_S_S50000x64 : S_.BroadcastsInDim S50000x64 (![] : Fin 0 → Fin S50000x64.rank)
  slices_S2x128x64_S1x128x64_0_0_0 : S2x128x64.Slices ![0, 0, 0] S1x128x64
  shapeCasts_S1x128x64_S128x64 : S1x128x64.ShapeCasts S128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  slices_S128x64_o0_0_S64x64 : S128x64.Slices ![0, 0] S64x64
  slices_S128x64_o64_0_S64x64 : S128x64.Slices ![64, 0] S64x64
  slices_S2x129x64_S1x129x64_1_0_0 : S2x129x64.Slices ![1, 0, 0] S1x129x64
  slices_S2x64_S1x64_1_0 : S2x64.Slices ![1, 0] S1x64
  slices_S2x64x64_S1x64x64_1_0_0 : S2x64x64.Slices ![1, 0, 0] S1x64x64
  slices_S2x64x1_S1x64x1_1_0_0 : S2x64x1.Slices ![1, 0, 0] S1x64x1
  slices_S2x1_S1x1_1_0 : S2x1.Slices ![1, 0] S1x1
  slices_S2x128x64_S1x128x64_1_0_0 : S2x128x64.Slices ![1, 0, 0] S1x128x64
  gather_S100x64_S50000x1_S50000x64_1_0_n_n_0_1_164_wf : GatherDims.WF S100x64 S50000x1 S50000x64 [1] [0] [] [0] [] 1 ![1, 64]
  gather_S50000x64_S800000x1_S800000x64_1_0_n_n_0_1_164_wf : GatherDims.WF S50000x64 S800000x1 S800000x64 [1] [0] [] [0] [] 1 ![1, 64]
  gather_S50000x3_S800000x1_S800000x3_1_0_n_n_0_1_13_wf : GatherDims.WF S50000x3 S800000x1 S800000x3 [1] [0] [] [0] [] 1 ![1, 3]
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  scatter_S50000x3_S800000x1_S800000x3_1_0_0_1_wf : ScatterDims.WF S50000x3 S800000x1 S800000x3 [1] [0] [0] 1
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S800000x64.size a
  hwx0_0 : ∀ i : grid0.Coords, EltTy.bits .bf16 = 32 ∨ (Rect.block (s := S800000x64) S5000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S800000x64.size a
  hwx0_1 : ∀ i : grid0.Coords, EltTy.bits .bf16 = 32 ∨ (Rect.block (s := S800000x64) S5000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x4.size a ≤ S800000x4.size a
  hwx0_2 : ∀ i : grid0.Coords, EltTy.bits .f32 = 32 ∨ (Rect.block (s := S800000x4) S5000x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S129x64.size a ≤ S129x64.size a
  hwx0_3 : ∀ i : grid0.Coords, EltTy.bits .f32 = 32 ∨ (Rect.block (s := S129x64) S129x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x1.size a ≤ S64x1.size a
  hwx0_9 : ∀ i : grid0.Coords, EltTy.bits .f32 = 32 ∨ (Rect.block (s := S64x1) S64x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x64.size a ≤ S800000x64.size a
  hwx0_11 : ∀ i : grid0.Coords, EltTy.bits .f32 = 32 ∨ (Rect.block (s := S800000x64) S5000x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S5000x3.size a ≤ S800000x3.size a
  hwx0_12 : ∀ i : grid0.Coords, EltTy.bits .f32 = 32 ∨ (Rect.block (s := S800000x3) S5000x3.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S800000x64.size a
  hwx2_0 : ∀ i : grid2.Coords, EltTy.bits .bf16 = 32 ∨ (Rect.block (s := S800000x64) S5000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S800000x64.size a
  hwx2_1 : ∀ i : grid2.Coords, EltTy.bits .bf16 = 32 ∨ (Rect.block (s := S800000x64) S5000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x4.size a ≤ S800000x4.size a
  hwx2_2 : ∀ i : grid2.Coords, EltTy.bits .f32 = 32 ∨ (Rect.block (s := S800000x4) S5000x4.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S129x64.size a ≤ S129x64.size a
  hwx2_3 : ∀ i : grid2.Coords, EltTy.bits .f32 = 32 ∨ (Rect.block (s := S129x64) S129x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x1.size a ≤ S64x1.size a
  hwx2_9 : ∀ i : grid2.Coords, EltTy.bits .f32 = 32 ∨ (Rect.block (s := S64x1) S64x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x1.size a ≤ S1x1.size a
  hwx2_10 : ∀ i : grid2.Coords, EltTy.bits .f32 = 32 ∨ (Rect.block (s := S1x1) S1x1.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S5000x64.size a ≤ S800000x64.size a
  hwx2_11 : ∀ i : grid2.Coords, EltTy.bits .f32 = 32 ∨ (Rect.block (s := S800000x64) S5000x64.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S5000x3.size a ≤ S800000x3.size a
  hwx2_12 : ∀ i : grid2.Coords, EltTy.bits .f32 = 32 ∨ (Rect.block (s := S800000x3) S5000x3.size (cc2_transform_12 i) (hinb2_12 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)

variable [Facts₀]

def gather_S100x64_S50000x1_S50000x64_1_0_n_n_0_1_164 : GatherDims S100x64 S50000x1 S50000x64 where
  offsetDims := [1]
  collapsedSliceDims := [0]
  operandBatchingDims := []
  startIndicesBatchingDims := []
  startIndexMap := [0]
  indexVectorDim := 1
  sliceSizes := ![1, 64]
  wf := gather_S100x64_S50000x1_S50000x64_1_0_n_n_0_1_164_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v12) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S5000x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S129x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v36) S64x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v39) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v40_0) S5000x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v40_1) S5000x3.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v10) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v58) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v60) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v67) S5000x4.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v69) S129x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v72) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v74) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v77) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v79) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v82) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v84) S64x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v87) S1x1.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v88_0) S5000x64.size cc2_transform_11 reads2_11 true false 2 stage2_11 sem2_11
    hrank2 hreads2_11 hinb2_11 nbuf2_11 (Memref.isWhole_whole _) hwx2_11 hstage2_11

abbrev win2_12 : Pipeline.Window sig grid2 :=
  Pipeline.Window.ofSpec (Memref.whole main_v88_1) S5000x3.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v94) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v97) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v100) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v102) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v105) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v106) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000 : Shape := ⟨1, ![50000]⟩
abbrev S50000x3 : Shape := ⟨2, ![50000, 3]⟩
abbrev S2x800000 : Shape := ⟨2, ![2, 800000]⟩
abbrev S800000x4 : Shape := ⟨2, ![800000, 4]⟩
abbrev S100x64 : Shape := ⟨2, ![100, 64]⟩
abbrev S2x129x64 : Shape := ⟨3, ![2, 129, 64]⟩
abbrev S2x64 : Shape := ⟨2, ![2, 64]⟩
abbrev S2x64x64 : Shape := ⟨3, ![2, 64, 64]⟩
abbrev S2x128x64 : Shape := ⟨3, ![2, 128, 64]⟩
abbrev S2x64x1 : Shape := ⟨3, ![2, 64, 1]⟩
abbrev S2x1 : Shape := ⟨2, ![2, 1]⟩
abbrev S1x800000 : Shape := ⟨2, ![1, 800000]⟩
abbrev S800000 : Shape := ⟨1, ![800000]⟩
abbrev S_ : Shape := ⟨0, ![]⟩
abbrev S50000x1 : Shape := ⟨2, ![50000, 1]⟩
abbrev S50000x64 : Shape := ⟨2, ![50000, 64]⟩
abbrev S800000x1 : Shape := ⟨2, ![800000, 1]⟩
abbrev S800000x3 : Shape := ⟨2, ![800000, 3]⟩
abbrev S800000x64 : Shape := ⟨2, ![800000, 64]⟩
abbrev S800000x129 : Shape := ⟨2, ![800000, 129]⟩
abbrev S1x129x64 : Shape := ⟨3, ![1, 129, 64]⟩
abbrev S129x64 : Shape := ⟨2, ![129, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩
abbrev S1x64x1 : Shape := ⟨3, ![1, 64, 1]⟩
abbrev S64x1 : Shape := ⟨2, ![64, 1]⟩
abbrev S1x1 : Shape := ⟨2, ![1, 1]⟩
abbrev S1 : Shape := ⟨1, ![1]⟩
abbrev S50000x128 : Shape := ⟨2, ![50000, 128]⟩
abbrev S1x128x64 : Shape := ⟨3, ![1, 128, 64]⟩
abbrev S128x64 : Shape := ⟨2, ![128, 64]⟩

abbrev nBuf : Space → Nat
  | .hbm => 310
  | .vmem => 0
  | .smem => 0
  | _ => 0

abbrev hbmTy0_0 (i : Nat) : BufTy := match i % 128 with
  | 0 => ⟨S50000, .i32⟩
  | 1 => ⟨S50000x3, .f32⟩
  | 2 => ⟨S2x800000, .i32⟩
  | 3 => ⟨S800000x4, .f32⟩
  | 4 => ⟨S100x64, .f32⟩
  | 5 => ⟨S2x129x64, .f32⟩
  | 6 => ⟨S2x64, .f32⟩
  | 7 => ⟨S2x64x64, .f32⟩
  | 8 => ⟨S2x64, .f32⟩
  | 9 => ⟨S2x128x64, .f32⟩
  | 10 => ⟨S2x64, .f32⟩
  | 11 => ⟨S2x64x64, .f32⟩
  | 12 => ⟨S2x64, .f32⟩
  | 13 => ⟨S2x64x64, .f32⟩
  | 14 => ⟨S2x64, .f32⟩
  | 15 => ⟨S2x64x1, .f32⟩
  | 16 => ⟨S2x1, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S50000, .i32⟩
  | 23 => ⟨S50000, .i1⟩
  | 24 => ⟨S_, .i32⟩
  | 25 => ⟨S50000, .i32⟩
  | 26 => ⟨S50000, .i32⟩
  | 27 => ⟨S50000, .i32⟩
  | 28 => ⟨S50000x1, .i32⟩
  | 29 => ⟨S50000x64, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x3, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x3, .f32⟩
  | 48 => ⟨S800000x3, .f32⟩
  | 49 => ⟨S800000x3, .f32⟩
  | 50 => ⟨S_, .f32⟩
  | 51 => ⟨S800000, .f32⟩
  | 52 => ⟨S800000x1, .f32⟩
  | 53 => ⟨S800000x1, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x64, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x64, .f32⟩
  | 72 => ⟨S800000x129, .f32⟩
  | 73 => ⟨S1x129x64, .f32⟩
  | 74 => ⟨S129x64, .f32⟩
  | 75 => ⟨S800000x64, .f32⟩
  | 76 => ⟨S1x64, .f32⟩
  | 77 => ⟨S64, .f32⟩
  | 78 => ⟨S1x64, .f32⟩
  | 79 => ⟨S800000x64, .f32⟩
  | 80 => ⟨S800000x64, .f32⟩
  | 81 => ⟨S800000x64, .f32⟩
  | 82 => ⟨S800000x64, .f32⟩
  | 83 => ⟨S_, .f32⟩
  | 84 => ⟨S800000x64, .f32⟩
  | 85 => ⟨S800000x64, .f32⟩
  | 86 => ⟨S_, .f32⟩
  | 87 => ⟨S800000x64, .f32⟩
  | 88 => ⟨S800000x64, .f32⟩
  | 89 => ⟨S800000x64, .f32⟩
  | 90 => ⟨S1x64x64, .f32⟩
  | 91 => ⟨S64x64, .f32⟩
  | 92 => ⟨S800000x64, .f32⟩
  | 93 => ⟨S1x64, .f32⟩
  | 94 => ⟨S64, .f32⟩
  | 95 => ⟨S1x64, .f32⟩
  | 96 => ⟨S800000x64, .f32⟩
  | 97 => ⟨S800000x64, .f32⟩
  | 98 => ⟨S800000x64, .f32⟩
  | 99 => ⟨S800000x64, .f32⟩
  | 100 => ⟨S_, .f32⟩
  | 101 => ⟨S800000x64, .f32⟩
  | 102 => ⟨S800000x64, .f32⟩
  | 103 => ⟨S_, .f32⟩
  | 104 => ⟨S800000x64, .f32⟩
  | 105 => ⟨S800000x64, .f32⟩
  | 106 => ⟨S800000x64, .f32⟩
  | 107 => ⟨S1x64x64, .f32⟩
  | 108 => ⟨S64x64, .f32⟩
  | 109 => ⟨S800000x64, .f32⟩
  | 110 => ⟨S1x64, .f32⟩
  | 111 => ⟨S64, .f32⟩
  | 112 => ⟨S1x64, .f32⟩
  | 113 => ⟨S800000x64, .f32⟩
  | 114 => ⟨S800000x64, .f32⟩
  | 115 => ⟨S800000x64, .f32⟩
  | 116 => ⟨S800000x64, .f32⟩
  | 117 => ⟨S_, .f32⟩
  | 118 => ⟨S800000x64, .f32⟩
  | 119 => ⟨S800000x64, .f32⟩
  | 120 => ⟨S_, .f32⟩
  | 121 => ⟨S800000x64, .f32⟩
  | 122 => ⟨S800000x64, .f32⟩
  | 123 => ⟨S800000x64, .f32⟩
  | 124 => ⟨S1x64x1, .f32⟩
  | 125 => ⟨S64x1, .f32⟩
  | 126 => ⟨S800000x1, .f32⟩
  | 127 => ⟨S1x1, .f32⟩
  | _ => ⟨S50000, .i32⟩

abbrev hbmTy0_1 (i : Nat) : BufTy := match i % 128 with
  | 0 => ⟨S1, .f32⟩
  | 1 => ⟨S1x1, .f32⟩
  | 2 => ⟨S800000x1, .f32⟩
  | 3 => ⟨S800000x1, .f32⟩
  | 4 => ⟨S800000x3, .f32⟩
  | 5 => ⟨S800000x3, .f32⟩
  | 6 => ⟨S_, .f32⟩
  | 7 => ⟨S50000x3, .f32⟩
  | 8 => ⟨S800000x1, .i32⟩
  | 9 => ⟨S50000x3, .f32⟩
  | 10 => ⟨S50000x3, .f32⟩
  | 11 => ⟨S_, .f32⟩
  | 12 => ⟨S50000x64, .f32⟩
  | 13 => ⟨S800000x1, .i32⟩
  | 14 => ⟨S50000x64, .f32⟩
  | 15 => ⟨S50000x128, .f32⟩
  | 16 => ⟨S1x128x64, .f32⟩
  | 17 => ⟨S128x64, .f32⟩
  | 18 => ⟨S50000x64, .f32⟩
  | 19 => ⟨S1x64, .f32⟩
  | 20 => ⟨S64, .f32⟩
  | 21 => ⟨S1x64, .f32⟩
  | 22 => ⟨S50000x64, .f32⟩
  | 23 => ⟨S50000x64, .f32⟩
  | 24 => ⟨S50000x64, .f32⟩
  | 25 => ⟨S50000x64, .f32⟩
  | 26 => ⟨S_, .f32⟩
  | 27 => ⟨S50000x64, .f32⟩
  | 28 => ⟨S50000x64, .f32⟩
  | 29 => ⟨S_, .f32⟩
  | 30 => ⟨S50000x64, .f32⟩
  | 31 => ⟨S50000x64, .f32⟩
  | 32 => ⟨S50000x64, .f32⟩
  | 33 => ⟨S1x64x64, .f32⟩
  | 34 => ⟨S64x64, .f32⟩
  | 35 => ⟨S50000x64, .f32⟩
  | 36 => ⟨S1x64, .f32⟩
  | 37 => ⟨S64, .f32⟩
  | 38 => ⟨S1x64, .f32⟩
  | 39 => ⟨S50000x64, .f32⟩
  | 40 => ⟨S50000x64, .f32⟩
  | 41 => ⟨S50000x64, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x3, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x3, .f32⟩
  | 60 => ⟨S800000x3, .f32⟩
  | 61 => ⟨S800000x3, .f32⟩
  | 62 => ⟨S_, .f32⟩
  | 63 => ⟨S800000, .f32⟩
  | 64 => ⟨S800000x1, .f32⟩
  | 65 => ⟨S800000x1, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x64, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x64, .f32⟩
  | 84 => ⟨S800000x129, .f32⟩
  | 85 => ⟨S1x129x64, .f32⟩
  | 86 => ⟨S129x64, .f32⟩
  | 87 => ⟨S800000x64, .f32⟩
  | 88 => ⟨S1x64, .f32⟩
  | 89 => ⟨S64, .f32⟩
  | 90 => ⟨S1x64, .f32⟩
  | 91 => ⟨S800000x64, .f32⟩
  | 92 => ⟨S800000x64, .f32⟩
  | 93 => ⟨S800000x64, .f32⟩
  | 94 => ⟨S800000x64, .f32⟩
  | 95 => ⟨S_, .f32⟩
  | 96 => ⟨S800000x64, .f32⟩
  | 97 => ⟨S800000x64, .f32⟩
  | 98 => ⟨S_, .f32⟩
  | 99 => ⟨S800000x64, .f32⟩
  | 100 => ⟨S800000x64, .f32⟩
  | 101 => ⟨S800000x64, .f32⟩
  | 102 => ⟨S1x64x64, .f32⟩
  | 103 => ⟨S64x64, .f32⟩
  | 104 => ⟨S800000x64, .f32⟩
  | 105 => ⟨S1x64, .f32⟩
  | 106 => ⟨S64, .f32⟩
  | 107 => ⟨S1x64, .f32⟩
  | 108 => ⟨S800000x64, .f32⟩
  | 109 => ⟨S800000x64, .f32⟩
  | 110 => ⟨S800000x64, .f32⟩
  | 111 => ⟨S800000x64, .f32⟩
  | 112 => ⟨S_, .f32⟩
  | 113 => ⟨S800000x64, .f32⟩
  | 114 => ⟨S800000x64, .f32⟩
  | 115 => ⟨S_, .f32⟩
  | 116 => ⟨S800000x64, .f32⟩
  | 117 => ⟨S800000x64, .f32⟩
  | 118 => ⟨S800000x64, .f32⟩
  | 119 => ⟨S1x64x64, .f32⟩
  | 120 => ⟨S64x64, .f32⟩
  | 121 => ⟨S800000x64, .f32⟩
  | 122 => ⟨S1x64, .f32⟩
  | 123 => ⟨S64, .f32⟩
  | 124 => ⟨S1x64, .f32⟩
  | 125 => ⟨S800000x64, .f32⟩
  | 126 => ⟨S800000x64, .f32⟩
  | 127 => ⟨S800000x64, .f32⟩
  | _ => ⟨S50000, .i32⟩

abbrev hbmTy0_2 (i : Nat) : BufTy := match i % 128 with
  | 0 => ⟨S800000x64, .f32⟩
  | 1 => ⟨S_, .f32⟩
  | 2 => ⟨S800000x64, .f32⟩
  | 3 => ⟨S800000x64, .f32⟩
  | 4 => ⟨S_, .f32⟩
  | 5 => ⟨S800000x64, .f32⟩
  | 6 => ⟨S800000x64, .f32⟩
  | 7 => ⟨S800000x64, .f32⟩
  | 8 => ⟨S1x64x1, .f32⟩
  | 9 => ⟨S64x1, .f32⟩
  | 10 => ⟨S800000x1, .f32⟩
  | 11 => ⟨S1x1, .f32⟩
  | 12 => ⟨S1, .f32⟩
  | 13 => ⟨S1x1, .f32⟩
  | 14 => ⟨S800000x1, .f32⟩
  | 15 => ⟨S800000x1, .f32⟩
  | 16 => ⟨S800000x3, .f32⟩
  | 17 => ⟨S800000x3, .f32⟩
  | 18 => ⟨S_, .f32⟩
  | 19 => ⟨S50000x3, .f32⟩
  | 20 => ⟨S800000x1, .i32⟩
  | 21 => ⟨S50000x3, .f32⟩
  | 22 => ⟨S50000x3, .f32⟩
  | 23 => ⟨S_, .f32⟩
  | 24 => ⟨S50000x64, .f32⟩
  | 25 => ⟨S800000x1, .i32⟩
  | 26 => ⟨S50000x64, .f32⟩
  | 27 => ⟨S50000x128, .f32⟩
  | 28 => ⟨S1x128x64, .f32⟩
  | 29 => ⟨S128x64, .f32⟩
  | 30 => ⟨S50000x64, .f32⟩
  | 31 => ⟨S1x64, .f32⟩
  | 32 => ⟨S64, .f32⟩
  | 33 => ⟨S1x64, .f32⟩
  | 34 => ⟨S50000x64, .f32⟩
  | 35 => ⟨S50000x64, .f32⟩
  | 36 => ⟨S50000x64, .f32⟩
  | 37 => ⟨S50000x64, .f32⟩
  | 38 => ⟨S_, .f32⟩
  | 39 => ⟨S50000x64, .f32⟩
  | 40 => ⟨S50000x64, .f32⟩
  | 41 => ⟨S_, .f32⟩
  | 42 => ⟨S50000x64, .f32⟩
  | 43 => ⟨S50000x64, .f32⟩
  | 44 => ⟨S50000x64, .f32⟩
  | 45 => ⟨S1x64x64, .f32⟩
  | 46 => ⟨S64x64, .f32⟩
  | 47 => ⟨S50000x64, .f32⟩
  | 48 => ⟨S1x64, .f32⟩
  | 49 => ⟨S64, .f32⟩
  | 50 => ⟨S1x64, .f32⟩
  | 51 => ⟨S50000x64, .f32⟩
  | 52 => ⟨S50000x64, .f32⟩
  | 53 => ⟨S50000x64, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_call0_v0 : Ref sig .tc := ⟨.hbm, 49, rfl⟩
abbrev main_call0_cst : Ref sig .tc := ⟨.hbm, 50, rfl⟩
abbrev main_call0_v1 : Ref sig .tc := ⟨.hbm, 51, rfl⟩
abbrev main_call0_v2 : Ref sig .tc := ⟨.hbm, 52, rfl⟩
abbrev main_v26 : Ref sig .tc := ⟨.hbm, 53, rfl⟩
abbrev main_c_5 : Ref sig .tc := ⟨.hbm, 54, rfl⟩
abbrev main_v27 : Ref sig .tc := ⟨.hbm, 55, rfl⟩
abbrev main_v28 : Ref sig .tc := ⟨.hbm, 56, rfl⟩
abbrev main_c_6 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_7 : Ref sig .tc := ⟨.hbm, 63, rfl⟩
abbrev main_v34 : Ref sig .tc := ⟨.hbm, 64, rfl⟩
abbrev main_v35 : Ref sig .tc := ⟨.hbm, 65, rfl⟩
abbrev main_c_8 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst : Ref sig .tc := ⟨.hbm, 83, rfl⟩
abbrev main_v52 : Ref sig .tc := ⟨.hbm, 84, rfl⟩
abbrev main_v53 : Ref sig .tc := ⟨.hbm, 85, rfl⟩
abbrev main_cst_9 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_10 : Ref sig .tc := ⟨.hbm, 100, rfl⟩
abbrev main_v67 : Ref sig .tc := ⟨.hbm, 101, rfl⟩
abbrev main_v68 : Ref sig .tc := ⟨.hbm, 102, rfl⟩
abbrev main_cst_11 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_12 : Ref sig .tc := ⟨.hbm, 117, rfl⟩
abbrev main_v82 : Ref sig .tc := ⟨.hbm, 118, rfl⟩
abbrev main_v83 : Ref sig .tc := ⟨.hbm, 119, rfl⟩
abbrev main_cst_13 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_14 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_15 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_16 : Ref sig .tc := ⟨.hbm, 154, rfl⟩
abbrev main_v115 : Ref sig .tc := ⟨.hbm, 155, rfl⟩
abbrev main_v116 : Ref sig .tc := ⟨.hbm, 156, rfl⟩
abbrev main_cst_17 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_c_18 : Ref sig .tc := ⟨.hbm, 170, rfl⟩
abbrev main_v129 : Ref sig .tc := ⟨.hbm, 171, rfl⟩
abbrev main_v130 : Ref sig .tc := ⟨.hbm, 172, rfl⟩
abbrev main_c_19 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_c_20 : Ref sig .tc := ⟨.hbm, 179, rfl⟩
abbrev main_v136 : Ref sig .tc := ⟨.hbm, 180, rfl⟩
abbrev main_v137 : Ref sig .tc := ⟨.hbm, 181, rfl⟩
abbrev main_c_21 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_call1_v0 : Ref sig .tc := ⟨.hbm, 189, rfl⟩
abbrev main_call1_cst : Ref sig .tc := ⟨.hbm, 190, rfl⟩
abbrev main_call1_v1 : Ref sig .tc := ⟨.hbm, 191, rfl⟩
abbrev main_call1_v2 : Ref sig .tc := ⟨.hbm, 192, rfl⟩
abbrev main_v144 : Ref sig .tc := ⟨.hbm, 193, rfl⟩
abbrev main_c_22 : Ref sig .tc := ⟨.hbm, 194, rfl⟩
abbrev main_v145 : Ref sig .tc := ⟨.hbm, 195, rfl⟩
abbrev main_v146 : Ref sig .tc := ⟨.hbm, 196, rfl⟩
abbrev main_c_23 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_c_24 : Ref sig .tc := ⟨.hbm, 203, rfl⟩
abbrev main_v152 : Ref sig .tc := ⟨.hbm, 204, rfl⟩
abbrev main_v153 : Ref sig .tc := ⟨.hbm, 205, rfl⟩
abbrev main_c_25 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_cst_26 : Ref sig .tc := ⟨.hbm, 223, rfl⟩
abbrev main_v170 : Ref sig .tc := ⟨.hbm, 224, rfl⟩
abbrev main_v171 : Ref sig .tc := ⟨.hbm, 225, rfl⟩
abbrev main_cst_27 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_cst_28 : Ref sig .tc := ⟨.hbm, 240, rfl⟩
abbrev main_v185 : Ref sig .tc := ⟨.hbm, 241, rfl⟩
abbrev main_v186 : Ref sig .tc := ⟨.hbm, 242, rfl⟩
abbrev main_cst_29 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_cst_30 : Ref sig .tc := ⟨.hbm, 257, rfl⟩
abbrev main_v200 : Ref sig .tc := ⟨.hbm, 258, rfl⟩
abbrev main_v201 : Ref sig .tc := ⟨.hbm, 259, rfl⟩
abbrev main_cst_31 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_cst_32 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_cst_33 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_cst_34 : Ref sig .tc := ⟨.hbm, 294, rfl⟩
abbrev main_v233 : Ref sig .tc := ⟨.hbm, 295, rfl⟩
abbrev main_v234 : Ref sig .tc := ⟨.hbm, 296, rfl⟩
abbrev main_cst_35 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x64_S800000x64_S800000x1_S800000x129_d1 : Shape.Concatenates [S800000x64, S800000x64, S800000x1] S800000x129 1
  slices_S2x129x64_S1x129x64_0_0_0 : S2x129x64.Slices ![0, 0, 0] S1x129x64
  shapeCasts_S1x129x64_S129x64 : S1x129x64.ShapeCasts S129x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  slices_S2x64x64_S1x64x64_0_0_0 : S2x64x64.Slices ![0, 0, 0] S1x64x64
  shapeCasts_S1x64x64_S64x64 : S1x64x64.ShapeCasts S64x64
  slices_S2x64x1_S1x64x1_0_0_0 : S2x64x1.Slices ![0, 0, 0] S1x64x1
  shapeCasts_S1x64x1_S64x1 : S1x64x1.ShapeCasts S64x1
  slices_S2x1_S1x1_0_0 : S2x1.Slices ![0, 0] S1x1
  shapeCasts_S1x1_S1 : S1x1.ShapeCasts S1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  bcast_S_S50000x64 : S_.BroadcastsInDim S50000x64 (![] : Fin 0 → Fin S50000x64.rank)
  concatenates_S50000x64_S50000x64_S50000x128_d1 : Shape.Concatenates [S50000x64, S50000x64] S50000x128 1
  slices_S2x128x64_S1x128x64_0_0_0 : S2x128x64.Slices ![0, 0, 0] S1x128x64
  shapeCasts_S1x128x64_S128x64 : S1x128x64.ShapeCasts S128x64
  bcast_S1x64_S50000x64_0_1 : S1x64.BroadcastsInDim S50000x64 (![0, 1] : Fin 2 → Fin S50000x64.rank)
  slices_S2x129x64_S1x129x64_1_0_0 : S2x129x64.Slices ![1, 0, 0] S1x129x64
  slices_S2x64_S1x64_1_0 : S2x64.Slices ![1, 0] S1x64
  slices_S2x64x64_S1x64x64_1_0_0 : S2x64x64.Slices ![1, 0, 0] S1x64x64
  slices_S2x64x1_S1x64x1_1_0_0 : S2x64x1.Slices ![1, 0, 0] S1x64x1
  slices_S2x1_S1x1_1_0 : S2x1.Slices ![1, 0] S1x1
  slices_S2x128x64_S1x128x64_1_0_0 : S2x128x64.Slices ![1, 0, 0] S1x128x64
  gather_S100x64_S50000x1_S50000x64_1_0_n_n_0_1_164_wf : GatherDims.WF S100x64 S50000x1 S50000x64 [1] [0] [] [0] [] 1 ![1, 64]
  gather_S50000x3_S800000x1_S800000x3_1_0_n_n_0_1_13_wf : GatherDims.WF S50000x3 S800000x1 S800000x3 [1] [0] [] [0] [] 1 ![1, 3]
  gather_S50000x64_S800000x1_S800000x64_1_0_n_n_0_1_164_wf : GatherDims.WF S50000x64 S800000x1 S800000x64 [1] [0] [] [0] [] 1 ![1, 64]
  dot_S800000x129_S129x64_S800000x64_1_0_0_1_n_n_wf : DotDims.WF S800000x129 S129x64 S800000x64 [1] [0] [0] [1] [] []
  dot_S800000x64_S64x64_S800000x64_1_0_0_1_n_n_wf : DotDims.WF S800000x64 S64x64 S800000x64 [1] [0] [0] [1] [] []
  dot_S800000x64_S64x1_S800000x1_1_0_0_1_n_n_wf : DotDims.WF S800000x64 S64x1 S800000x1 [1] [0] [0] [1] [] []
  scatter_S50000x3_S800000x1_S800000x3_1_0_0_1_wf : ScatterDims.WF S50000x3 S800000x1 S800000x3 [1] [0] [0] 1
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def gather_S100x64_S50000x1_S50000x64_1_0_n_n_0_1_164 : GatherDims S100x64 S50000x1 S50000x64 where
  offsetDims := [1]
  collapsedSliceDims := [0]
  operandBatchingDims := []
  startIndicesBatchingDims := []
  startIndexMap := [0]
  indexVectorDim := 1
  sliceSizes := ![1, 64]
  wf := gather_S100x64_S50000x1_S50000x64_1_0_n_n_0_1_164_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x129_S129x64_S800000x64_1_0_0_1_n_n : DotDims S800000x129 S129x64 S800000x64 where
  lhsContracting := [1]
  rhsContracting := [0]
  lhsNonContracting := [0]
  rhsNonContracting := [1]
  lhsBatch := []
  rhsBatch := []
  wf := dot_S800000x129_S129x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KFold.lean ====
import proofs.«428515_j67688684585222_1_alg».proof.Proof.Gen.KernelIdeal.Frame

/-! A buffer that no operation of a stretch of operations writes holds after the stretch what it held before. -/

namespace Cert.KernelIdeal.KFold

open Idealize.ShloMosaic Cert.KernelIdeal Cert.KernelIdeal.Gen

macro "stretch_skip" : tactic =>
  `(tactic| (
    refine StableHlo.after_of_forall_not_mem _ _ (List.forall_iff_forall_mem.mp ?_)
    simp only [hostOps0, hostOps0_1, hostOps0_2, hostOps0_3, hostOps0_4, hostOps0_5, hostOps0_6, hostOps0_7, hostOps0_8, hostOps0_9, hostOps1, hostOps2, hostOps2_1, hostOps2_2, hostOps2_3, hostOps2_4, hostOps2_5, hostOps2_6, hostOps2_7, hostOps2_8, hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Cert.KernelIdeal.KFold
-- ==== Proof.Take.lean ====
import proofs.«428515_j67688684585222_1_alg».proof.Defs
import proofs.«428515_j67688684585222_1_alg».proof.Proof.Gen.KernelIdeal
import proofs.«428515_j67688684585222_1_alg».proof.Proof.Gen.Pre_finite_inputs
import Idealize.ShloMosaic.Lib.StableHlo.Predicate
import Idealize.ShloMosaic.Lib.ReduceAll
import Idealize.ShloMosaic.Lib.ValueIdx
import Idealize.ShloMosaic.Lib.ValueLayout
import Idealize.ShloMosaic.Lib.Pipeline.Value

/-! A row lookup that wraps a negative index once and fills the rows whose index falls outside the table is the clamped lookup
    wherever every index is a row of the table; the precondition puts every edge index there. -/

noncomputable section

namespace Cert.KernelIdeal.Take

open Idealize.ShloMosaic Idealize.ShloMosaic.TcCoe Idealize.ShloMosaic.ValueIdx Idealize.SL.Sem Cert.KernelIdeal
open Cert.KernelIdeal.Facts₀ Cert.KernelIdeal.Facts

variable {F : FTy → Type} [FloatOps F]

private theorem wrap_word (x : BitVec 32) (h0 : IntOp.cmpi .sge x 0#32 = 1#1) :
    Scalar.select (IntOp.cmpi .slt x 0#32) (IntOp.addi x 50000#32) x = x := by
  have h := IntOp.cmpi_sge.1 h0
  have hz : IntOp.cmpi .slt x 0#32 = 0#1 :=
    eq_zero_of_ne_one fun hc => by have := IntOp.cmpi_slt.1 hc; omega
  rw [hz]; exact select_zero _ _

private theorem sle_of_slt (x : BitVec 32) (h1 : IntOp.cmpi .slt x 50000#32 = 1#1) :
    IntOp.cmpi .sle x 49999#32 = 1#1 := by
  have h := IntOp.cmpi_slt.1 h1
  rw [StableHlo.Predicate.toInt_ofNat_small 50000 (by norm_num)] at h
  refine IntOp.cmpi_sle.2 ?_
  rw [StableHlo.Predicate.toInt_ofNat_small 49999 (by norm_num)]
  omega

private theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

def InRange (idx : IVec S800000 32) : Prop :=
  ∀ i, IntOp.cmpi .sge (idx i) 0#32 = 1#1 ∧ IntOp.cmpi .slt (idx i) 50000#32 = 1#1

def wrap (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

def inb64 (idx : IVec S800000 32) : IVec S800000 1 :=
  Host.reduce IntOp.andi
    (andi (cmpi .sge (wrap idx) (broadcastInDim S800000x1 ![] bcast_S_S800000x1 (constantI S_ 32 0#32)))
          (cmpi .sle (wrap idx) (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

private theorem wrap_inb (idx : IVec S800000 32) (hr : InRange idx) (j : S800000x1.Idx) :
    IntOp.cmpi .sge (wrap idx j) 0#32 = 1#1 ∧ IntOp.cmpi .sle (wrap idx j) 49999#32 = 1#1 := by
  obtain ⟨k, hk⟩ : ∃ k, wrap idx j
      = Scalar.select (IntOp.cmpi .slt (idx k) 0#32) (IntOp.addi (idx k) 50000#32) (idx k) := ⟨_, rfl⟩
  rw [hk, wrap_word _ (hr k).1]
  exact ⟨(hr k).1, sle_of_slt _ (hr k).2⟩

private theorem inb64_one (idx : IVec S800000 32) (hr : InRange idx) (e : S800000.Idx) : inb64 idx e = 1#1 := by
  unfold inb64
  rw [Host.reduce_eq_foldl]
  refine foldl_andi_one _ _ fun n _ => ?_
  exact IntOp.andi_eq_one.2 (wrap_inb idx hr n)

def take64 (h : FVec F S50000x64 .f32) (idx : IVec S800000 32) : FVec F S800000x64 .f32 :=
  select (broadcastInDim S800000x64 ![0] bcast_S800000_S800000x64_0 (inb64 idx))
    (Host.gather gather_S50000x64_S800000x1_S800000x64_1_0_n_n_0_1_164 h (wrap idx))
    (broadcastInDim S800000x64 ![] bcast_S_S800000x64 (constant S_ .f32 0x7FC00000#32))

theorem take64_eq (h : FVec Ideal S50000x64 .f32) (idx : IVec S800000 32) (hr : InRange idx) :
    take64 (F := Ideal) h idx = Host.gather gather_S50000x64_S800000x1_S800000x64_1_0_n_n_0_1_164 h (wrap idx) := by
  funext i
  have hb : broadcastInDim S800000x64 ![0] bcast_S800000_S800000x64_0 (inb64 idx) i = 1#1 := inb64_one idx hr _
  unfold take64
  rw [select_apply, hb, select_one]

def inb3 (idx : IVec S800000 32) : IVec S800000 1 :=
  Host.reduce IntOp.andi
    (andi (cmpi .sge (wrap idx) (broadcastInDim S800000x1 ![] bcast_S_S800000x1 (constantI S_ 32 0#32)))
          (cmpi .sle (wrap idx) (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

def take3 (h : FVec F S50000x3 .f32) (idx : IVec S800000 32) : FVec F S800000x3 .f32 :=
  select (broadcastInDim S800000x3 ![0] bcast_S800000_S800000x3_0 (inb3 idx))
    (Host.gather gather_S50000x3_S800000x1_S800000x3_1_0_n_n_0_1_13 h (wrap idx))
    (broadcastInDim S800000x3 ![] bcast_S_S800000x3 (constant S_ .f32 0x7FC00000#32))

theorem take3_eq (h : FVec Ideal S50000x3 .f32) (idx : IVec S800000 32) (hr : InRange idx) :
    take3 (F := Ideal) h idx = Host.gather gather_S50000x3_S800000x1_S800000x3_1_0_n_n_0_1_13 h (wrap idx) := by
  funext i
  have hb : broadcastInDim S800000x3 ![0] bcast_S800000_S800000x3_0 (inb3 idx) i = 1#1 := inb64_one idx hr _
  unfold take3
  rw [select_apply, hb, select_one]

def src (a2 : IVec S2x800000 32) : IVec S800000 32 :=
  shapeCast S800000 (extractStridedSlice S1x800000 ![0, 0] a2 slices_S2x800000_S1x800000_0_0) shapeCasts_S1x800000_S800000

def dst (a2 : IVec S2x800000 32) : IVec S800000 32 :=
  shapeCast S800000 (extractStridedSlice S1x800000 ![1, 0] a2 slices_S2x800000_S1x800000_1_0) shapeCasts_S1x800000_S800000

private instance : Subsingleton Cert.Pre_finite_inputs.S_.Idx := ⟨fun a b => funext fun d => d.elim0⟩

private theorem last_of_part4 (a2 : IVec Cert.Pre_finite_inputs.S2x800000 32) (a16 : FVec Ideal Cert.Pre_finite_inputs.S2x1 .f32)
    (u v : IVec Cert.Pre_finite_inputs.S_ 1)
    (h : Cert.Pre_finite_inputs.fn_part4 (F := Ideal) a2 a16 u v ix0 = 1#1) :
    Host.reduce IntOp.andi
      (andi (cmpi .sge a2 (broadcastInDim Cert.Pre_finite_inputs.S2x800000 ![] Cert.Pre_finite_inputs.Facts.bcast_S_S2x800000
              (constantI Cert.Pre_finite_inputs.S_ 32 0#32)))
            (cmpi .slt a2 (broadcastInDim Cert.Pre_finite_inputs.S2x800000 ![] Cert.Pre_finite_inputs.Facts.bcast_S_S2x800000
              (constantI Cert.Pre_finite_inputs.S_ 32 50000#32))))
      (constantI Cert.Pre_finite_inputs.S_ 1 1#1) Cert.Pre_finite_inputs.Facts.reducesTo_S2x800000_S_d0_1
      Cert.Pre_finite_inputs.Facts.h_S_ ix0 = 1#1 :=
  (IntOp.andi_eq_one.1 h).2

private theorem arg2_range (a2 : IVec Cert.Pre_finite_inputs.S2x800000 32)
    (h : Host.reduce IntOp.andi
      (andi (cmpi .sge a2 (broadcastInDim Cert.Pre_finite_inputs.S2x800000 ![] Cert.Pre_finite_inputs.Facts.bcast_S_S2x800000
              (constantI Cert.Pre_finite_inputs.S_ 32 0#32)))
            (cmpi .slt a2 (broadcastInDim Cert.Pre_finite_inputs.S2x800000 ![] Cert.Pre_finite_inputs.Facts.bcast_S_S2x800000
              (constantI Cert.Pre_finite_inputs.S_ 32 50000#32))))
      (constantI Cert.Pre_finite_inputs.S_ 1 1#1) Cert.Pre_finite_inputs.Facts.reducesTo_S2x800000_S_d0_1
      Cert.Pre_finite_inputs.Facts.h_S_ ix0 = 1#1)
    (i : Cert.Pre_finite_inputs.S2x800000.Idx) :
    IntOp.cmpi .sge (a2 i) 0#32 = 1#1 ∧ IntOp.cmpi .slt (a2 i) 50000#32 = 1#1 :=
  IntOp.andi_eq_one.1 (Host.reduce_andi_all _ _ _ _ _ h i)

theorem inRange_of_pre (m : (ℓ : Loc nD τ sig) → Buf (Elt Ideal) ℓ) (hpre : Cert.Pre_KernelIdeal m) (c : Dev nD) :
    InRange (src (m ((c.tc : Thread nD τ).loc main_arg2))) ∧ InRange (dst (m ((c.tc : Thread nD τ).loc main_arg2))) := by
  have h4 : Cert.Pre_finite_inputs.fn_part4 (F := Ideal) (m ((c.tc : Thread nD τ).loc main_arg2))
      (m ((c.tc : Thread nD τ).loc main_arg16)) _ _ ix0 = 1#1 := congrFun (hpre c) ix0
  have hall := arg2_range _ (last_of_part4 _ _ _ _ h4)
  exact ⟨fun i => hall _, fun i => hall _⟩

end Cert.KernelIdeal.Take

end
-- ==== Proof.Spec.lean ====
import Idealize.ShloMosaic.PureOps.Ideal
import Mathlib.Algebra.BigOperators.Fin

/-! One row of the network over the extended reals: the gate x·σ(x), a dense layer, an edge's message row, an edge's scalar weight, a
    node's update; and the sum over a concatenated row, split at its joins. -/

noncomputable section

namespace Cert.Spec

open Idealize.ShloMosaic

def silu (x : EReal) : EReal := x * Ideal.logistic x

def dense {n o : ℕ} (a : Fin n → EReal) (W : Fin n → Fin o → EReal) (b : Fin o → EReal) (j : Fin o) : EReal :=
  (∑ k : Fin n, a k * W k j) + b j

def feat129 (hd hs : Fin 64 → EReal) (r : EReal) : Fin 129 → EReal := fun k =>
  if h : k.val < 64 then hd ⟨k.val, h⟩ else if h2 : k.val < 128 then hs ⟨k.val - 64, by omega⟩ else r

def cat128 (h mi : Fin 64 → EReal) : Fin 128 → EReal := fun k =>
  if h' : k.val < 64 then h ⟨k.val, h'⟩ else mi ⟨k.val - 64, by omega⟩

def edgeM (hd hs : Fin 64 → EReal) (r : EReal) (W1 : Fin 129 → Fin 64 → EReal) (b1 : Fin 64 → EReal)
    (W2 : Fin 64 → Fin 64 → EReal) (b2 : Fin 64 → EReal) : Fin 64 → EReal :=
  fun j => silu (dense (fun k => silu (dense (feat129 hd hs r) W1 b1 k)) W2 b2 j)

def edgeW (mrow : Fin 64 → EReal) (Wx1 : Fin 64 → Fin 64 → EReal) (bx1 : Fin 64 → EReal)
    (Wx2 : Fin 64 → Fin 1 → EReal) (bx2 : Fin 1 → EReal) : EReal :=
  dense (fun k => silu (dense mrow Wx1 bx1 k)) Wx2 bx2 0

def nodeH (h mi : Fin 64 → EReal) (W1 : Fin 128 → Fin 64 → EReal) (b1 : Fin 64 → EReal)
    (W2 : Fin 64 → Fin 64 → EReal) (b2 : Fin 64 → EReal) : Fin 64 → EReal :=
  fun j => h j + dense (fun k => silu (dense (cat128 h mi) W1 b1 k)) W2 b2 j

theorem sum_cat128 (h mi : Fin 64 → EReal) (w : Fin 128 → EReal) :
    (∑ k : Fin 128, cat128 h mi k * w k)
      = (∑ k : Fin 64, h k * w ⟨k.val, by omega⟩) + (∑ k : Fin 64, mi k * w ⟨64 + k.val, by omega⟩) := by
  refine (Fin.sum_univ_add (a := 64) (b := 64) (fun k : Fin (64 + 64) => cat128 h mi k * w k)).trans ?_
  refine congrArg₂ (· + ·) (Finset.sum_congr rfl fun k _ => ?_) (Finset.sum_congr rfl fun k _ => ?_)
  · have hk : (Fin.castAdd 64 k).val < 64 := k.isLt
    show cat128 h mi (Fin.castAdd 64 k) * w (Fin.castAdd 64 k) = _
    unfold cat128
    rw [dif_pos hk]
    rfl
  · have hk : ¬ (Fin.natAdd 64 k).val < 64 := by rw [Fin.coe_natAdd]; omega
    show cat128 h mi (Fin.natAdd 64 k) * w (Fin.natAdd 64 k) = _
    unfold cat128
    rw [dif_neg hk]
    have e : (⟨(Fin.natAdd 64 k).val - 64, by rw [Fin.coe_natAdd]; omega⟩ : Fin 64) = k :=
      Fin.ext (by show (Fin.natAdd 64 k).val - 64 = k.val; rw [Fin.coe_natAdd]; omega)
    rw [e]
    rfl

/-- Without its last entry the 129-long row is the 128-long one. -/
theorem sum_feat129 (hd hs : Fin 64 → EReal) (r : EReal) (w : Fin 129 → EReal) :
    (∑ k : Fin 129, feat129 hd hs r k * w k)
      = (∑ k : Fin 64, hd k * w ⟨k.val, by omega⟩) + (∑ k : Fin 64, hs k * w ⟨64 + k.val, by omega⟩)
        + r * w ⟨128, by omega⟩ := by
  refine (Fin.sum_univ_castSucc (n := 128) (fun k : Fin (128 + 1) => feat129 hd hs r k * w k)).trans ?_
  refine congrArg₂ (· + ·) ((Finset.sum_congr rfl fun k _ => ?_).trans (sum_cat128 hd hs fun k => w k.castSucc)) ?_
  · show feat129 hd hs r k.castSucc * _ = cat128 hd hs k * _
    unfold feat129 cat128
    by_cases h : k.val < 64
    · rw [dif_pos (show k.castSucc.val < 64 from h), dif_pos h]; rfl
    · rw [dif_neg (show ¬ k.castSucc.val < 64 from h), dif_pos (show k.castSucc.val < 128 from k.isLt), dif_neg h]; rfl
  · have hk : ¬ (Fin.last 128).val < 64 := by rw [Fin.val_last]; omega
    have hk2 : ¬ (Fin.last 128).val < 128 := by rw [Fin.val_last]; omega
    show feat129 hd hs r (Fin.last 128) * w (Fin.last 128) = _
    unfold feat129
    rw [dif_neg hk, dif_neg hk2]
    rfl

end Cert.Spec

end
-- ==== Proof.EdgePay.lean ====
import proofs.«428515_j67688684585222_1_alg».proof.Proof.Gen.KernelIdeal.Skeleton
import proofs.«428515_j67688684585222_1_alg».proof.Proof.Spec
import Idealize.ShloMosaic.Lib.ValueIdx
import Idealize.ShloMosaic.Lib.ValueLayout
import Idealize.ShloMosaic.Lib.Pipeline.Value
import Idealize.ShloMosaic.PureOps.Ideal.Laws

/-! The edge kernel's stored values at an index. An entry of a matrix product is a sum over the shared axis, and slices and
    broadcasts read one entry each, so the three values are `Spec`'s row functions of the block's rows. -/

noncomputable section

namespace Cert.KernelIdeal.EdgePay

open Idealize.ShloMosaic Idealize.ShloMosaic.ValueIdx Cert.KernelIdeal Cert.KernelIdeal.Gen

theorem lhsA_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsA_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhsA_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhsA_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem matmulA_apply (a : FVec Ideal S5000x64 .bf16) (w : FVec Ideal S64x64 .bf16) (p : Fin 5000) (j : Fin 64) :
    matmul dot_S5000x64_S64x64_S5000x64_1_0_0_1_n_n none a w (constant (F := Ideal) S5000x64 .f32 0x00000000#32) (ix2 p j)
      = ∑ k : Fin 64, a (ix2 p k) * w (ix2 k j) := by
  simp only [matmul]

  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p j) ((contrEquiv1 dot_S5000x64_S64x64_S5000x64_1_0_0_1_n_n 64 rfl rfl).symm k) = ix2 p k := funext fun a => Fin.ext (by
    match a with
    | ⟨0, _⟩ => exact lhsA_0 _ _
    | ⟨1, _⟩ => exact (lhsA_1 _ _).trans hk)
  have er : dot_S5000x64_S64x64_S5000x64_1_0_0_1_n_n.rhsIdx (ix2 p j) ((contrEquiv1 dot_S5000x64_S64x64_S5000x64_1_0_0_1_n_n 64 rfl rfl).symm k) = ix2 k j := funext fun a => Fin.ext (by
    match a with
    | ⟨0, _⟩ => exact (rhsA_0 _ _).trans hk
    | ⟨1, _⟩ => exact rhsA_1 _ _)
  rw [el, er]

theorem lhsB_0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem lhsB_1 (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
theorem rhsB_0 (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
theorem rhsB_1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

theorem matmulB_apply (a : FVec Ideal S5000x64 .bf16) (w : FVec Ideal S64x1 .bf16) (p : Fin 5000) (j : Fin 1) :
    matmul dot_S5000x64_S64x1_S5000x1_1_0_0_1_n_n none a w (constant (F := Ideal) S5000x1 .f32 0x00000000#32) (ix2 p j)
      = ∑ k : Fin 64, a (ix2 p k) * w (ix2 k j) := by
  simp only [matmul]

  rw [Ideal.matmul_constant_zero_apply, ← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx (ix2 p j) ((contrEquiv1 dot_S5000x64_S64x1_S5000x1_1_0_0_1_n_n 64 rfl rfl).symm k) = ix2 p k := funext fun a => Fin.ext (by
    match a with
    | ⟨0, _⟩ => exact lhsB_0 _ _
    | ⟨1, _⟩ => exact (lhsB_1 _ _).trans hk)
  have er : dot_S5000x64_S64x1_S5000x1_1_0_0_1_n_n.rhsIdx (ix2 p j) ((contrEquiv1 dot_S5000x64_S64x1_S5000x1_1_0_0_1_n_n 64 rfl rfl).symm k) = ix2 k j := funext fun a => Fin.ext (by
    match a with
    | ⟨0, _⟩ => exact (rhsB_0 _ _).trans hk
    | ⟨1, _⟩ => exact rhsB_1 _ _)
  rw [el, er]

theorem logistic_apply {s : Shape} (a : FVec Ideal s .f32) (i : s.Idx) : logistic a i = Ideal.logistic (a i) := rfl

theorem slice_w_top (x : FVec Ideal S129x64 .f32) (k j : Fin 64) :
    extractStridedSlice S64x64 ![0, 0] x slices_S129x64_o0_0_S64x64 (ix2 k j) = x (ix2 ⟨k.val, by omega⟩ j) :=
  extractStridedSlice_apply ![0, 0] x slices_S129x64_o0_0_S64x64 (ix2 k j) (ix2 ⟨k.val, by omega⟩ j) (fun a => match a with
    | ⟨0, _⟩ => by show k.val = 0 + k.val; omega
    | ⟨1, _⟩ => by show j.val = 0 + j.val; omega)

theorem slice_w_mid (x : FVec Ideal S129x64 .f32) (k j : Fin 64) :
    extractStridedSlice S64x64 ![64, 0] x slices_S129x64_o64_0_S64x64 (ix2 k j) = x (ix2 ⟨64 + k.val, by omega⟩ j) :=
  extractStridedSlice_apply ![64, 0] x slices_S129x64_o64_0_S64x64 (ix2 k j) (ix2 ⟨64 + k.val, by omega⟩ j) (fun a => match a with
    | ⟨0, _⟩ => by show 64 + k.val = 64 + k.val; rfl
    | ⟨1, _⟩ => by show j.val = 0 + j.val; omega)

theorem slice_w_last (x : FVec Ideal S129x64 .f32) (z : Fin 1) (j : Fin 64) :
    extractStridedSlice S1x64 ![128, 0] x slices_S129x64_o128_0_S1x64 (ix2 z j) = x (ix2 ⟨128, by omega⟩ j) :=
  extractStridedSlice_apply ![128, 0] x slices_S129x64_o128_0_S1x64 (ix2 z j) (ix2 ⟨128, by omega⟩ j) (fun a => match a with
    | ⟨0, _⟩ => by show 128 = 128 + z.val; omega
    | ⟨1, _⟩ => by show j.val = 0 + j.val; omega)

theorem slice_aux_r (x : FVec Ideal S5000x4 .f32) (p : Fin 5000) (z : Fin 1) :
    extractStridedSlice S5000x1 ![0, 0] x slices_S5000x4_o0_0_S5000x1 (ix2 p z) = x (ix2 p 0) :=
  extractStridedSlice_apply ![0, 0] x slices_S5000x4_o0_0_S5000x1 (ix2 p z) (ix2 p 0) (fun a => match a with
    | ⟨0, _⟩ => by show p.val = 0 + p.val; omega
    | ⟨1, _⟩ => by show 0 = 0 + z.val; omega)

theorem slice_aux_d (x : FVec Ideal S5000x4 .f32) (p : Fin 5000) (d : Fin 3) :
    extractStridedSlice S5000x3 ![0, 1] x slices_S5000x4_o0_1_S5000x3 (ix2 p d) = x (ix2 p ⟨d.val + 1, by omega⟩) :=
  extractStridedSlice_apply ![0, 1] x slices_S5000x4_o0_1_S5000x3 (ix2 p d) (ix2 p ⟨d.val + 1, by omega⟩) (fun a => match a with
    | ⟨0, _⟩ => by show p.val = 0 + p.val; omega
    | ⟨1, _⟩ => by show d.val + 1 = 1 + d.val; omega)

theorem bcast_col64 (x : FVec Ideal S5000x1 .f32) (p : Fin 5000) (j : Fin 64) :
    broadcastTo S5000x64 x broadcasts_S5000x1_S5000x64 (ix2 p j) = x (ix2 p 0) :=
  broadcastTo_apply x broadcasts_S5000x1_S5000x64 (ix2 p j) (ix2 p 0) (fun a => match a with
    | ⟨0, _⟩ => rfl
    | ⟨1, _⟩ => rfl)

theorem bcast_col3 (x : FVec Ideal S5000x1 .f32) (p : Fin 5000) (d : Fin 3) :
    broadcastTo S5000x3 x broadcasts_S5000x1_S5000x3 (ix2 p d) = x (ix2 p 0) :=
  broadcastTo_apply x broadcasts_S5000x1_S5000x3 (ix2 p d) (ix2 p 0) (fun a => match a with
    | ⟨0, _⟩ => rfl
    | ⟨1, _⟩ => rfl)

theorem bcast_row64 (x : FVec Ideal S1x64 .f32) (p : Fin 5000) (j : Fin 64) :
    broadcastTo S5000x64 x broadcasts_S1x64_S5000x64 (ix2 p j) = x (ix2 0 j) :=
  broadcastTo_apply x broadcasts_S1x64_S5000x64 (ix2 p j) (ix2 0 j) (fun a => match a with
    | ⟨0, _⟩ => rfl
    | ⟨1, _⟩ => rfl)

theorem bcast_row1 (x : FVec Ideal S1x1 .f32) (p : Fin 5000) (z : Fin 1) :
    broadcastTo S5000x1 x broadcasts_S1x1_S5000x1 (ix2 p z) = x (ix2 0 0) :=
  broadcastTo_apply x broadcasts_S1x1_S5000x1 (ix2 p z) (ix2 0 0) (fun a => match a with
    | ⟨0, _⟩ => rfl
    | ⟨1, _⟩ => rfl)

theorem pay4_apply (x0 x1 : Vec Ideal S5000x64 .bf16) (x2 : Vec Ideal S5000x4 .f32) (x3 : Vec Ideal S129x64 .f32)
    (x4 : Vec Ideal S1x64 .f32) (x5 : Vec Ideal S64x64 .f32) (x6 : Vec Ideal S1x64 .f32) (p : Fin 5000) (j : Fin 64) :
    k0_pay4 (F := Ideal) x0 x1 x2 x3 x4 x5 x6 (ix2 p j)
      = Cert.Spec.edgeM (fun k => x0 (ix2 p k)) (fun k => x1 (ix2 p k)) (x2 (ix2 p 0))
          (fun k j => x3 (ix2 k j)) (fun j => x4 (ix2 0 j)) (fun k j => x5 (ix2 k j)) (fun j => x6 (ix2 0 j)) j := by
  unfold k0_pay4 k0_pay2

  simp only [mulf_apply, addf_apply, truncf_apply, logistic_apply, shapeCast_self, matmulA_apply,
    slice_w_top, slice_w_mid, slice_w_last, slice_aux_r, bcast_col64, bcast_row64,
    Cert.Spec.edgeM, Cert.Spec.dense, Cert.Spec.silu, Cert.Spec.sum_feat129]

theorem pay3_apply (x2 : Vec Ideal S5000x4 .f32) (p : Fin 5000) (d : Fin 3) :
    k0_pay3 (F := Ideal) x2 (ix2 p d) = x2 (ix2 p ⟨d.val + 1, by omega⟩) := by
  unfold k0_pay3 k0_pay2
  simp only [shapeCast_self, slice_aux_d]

theorem pay1_apply (v7 : FVec Ideal S5000x3 .f32) (v38 : FVec Ideal S5000x64 .f32) (v39 : Vec Ideal S64x64 .f32)
    (v42 : Vec Ideal S1x64 .f32) (v50 : Vec Ideal S64x1 .f32) (v53 : Vec Ideal S1x1 .f32) (p : Fin 5000) (d : Fin 3) :
    k0_pay1 (F := Ideal) v7 v38 v39 v42 v50 v53 (ix2 p d)
      = Cert.Spec.edgeW (fun k => v38 (ix2 p k)) (fun k j => v39 (ix2 k j)) (fun j => v42 (ix2 0 j))
          (fun k j => v50 (ix2 k j)) (fun j => v53 (ix2 0 j)) * v7 (ix2 p d) := by
  unfold k0_pay1

  simp only [mulf_apply, addf_apply, truncf_apply, logistic_apply, shapeCast_self, matmulA_apply, matmulB_apply,
    bcast_col3, bcast_row64, bcast_row1, Cert.Spec.edgeW, Cert.Spec.dense, Cert.Spec.silu]

theorem k2_pay4_eq : k2_pay4 (F := Ideal) = k0_pay4 (F := Ideal) := rfl
theorem k2_pay3_eq : k2_pay3 (F := Ideal) = k0_pay3 (F := Ideal) := rfl
theorem k2_pay1_eq : k2_pay1 (F := Ideal) = k0_pay1 (F := Ideal) := rfl

end Cert.KernelIdeal.EdgePay

end
-- ==== Proof.EdgeArr2.lean ====
import proofs.«428515_j67688684585222_1_alg».proof.Proof.Gen.KernelIdeal.Frame
import proofs.«428515_j67688684585222_1_alg».proof.Proof.EdgePay

/-! The second layer's edge region: as the first layer's, over that layer's arrays. -/

set_option maxRecDepth 16384

noncomputable section

namespace Cert.KernelIdeal.EdgeArr2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

private theorem zero2 : (![0, 0] : Fin 2 → Nat) = fun _ => 0 := funext fun a => by fin_cases a <;> rfl

private theorem edgeIndex : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_11.index t (0 : Fin 2) = t.val ∧ win2_11.index t (1 : Fin 2) = 0)
    ∧ (win2_12.index t (0 : Fin 2) = t.val ∧ win2_12.index t (1 : Fin 2) = 0) :=
  (by decide +kernel : ∀ t : Fin grid2.N, _)

private theorem weightIndex : ∀ t : Fin cfg2.N,
    (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0) :=
  (by decide +kernel : ∀ t : Fin grid2.N, _)

theorem blk0 (c : Dev nD) (t : Fin cfg2.N) (p : Fin 5000) (e : Fin 800000) (he : e.val = t.val * 5000 + p.val) (k : Fin 64) :
    (iblk2 (F := Ideal) V c 0 t : Vec Ideal S5000x64 .bf16) (ix2 p k) = V c main_v60 (ix2 e k) := by
  obtain ⟨h0, h1⟩ := (edgeIndex t).1
  show V c main_v60 (((cfg2.win 0).blk t).view.emb (ix2 p k)) = V c main_v60 (ix2 e k)
  refine congrArg (V c main_v60) (funext fun a => Fin.ext ?_)
  match a with
  | ⟨0, _⟩ => show win2_0.index t (0 : Fin 2) * 5000 + 1 * p.val = e.val; omega
  | ⟨1, _⟩ => show win2_0.index t (1 : Fin 2) * 64 + 1 * k.val = k.val; omega

theorem blk1 (c : Dev nD) (t : Fin cfg2.N) (p : Fin 5000) (e : Fin 800000) (he : e.val = t.val * 5000 + p.val) (k : Fin 64) :
    (iblk2 (F := Ideal) V c 1 t : Vec Ideal S5000x64 .bf16) (ix2 p k) = V c main_v62 (ix2 e k) := by
  obtain ⟨h0, h1⟩ := (edgeIndex t).2.1
  show V c main_v62 (((cfg2.win 1).blk t).view.emb (ix2 p k)) = V c main_v62 (ix2 e k)
  refine congrArg (V c main_v62) (funext fun a => Fin.ext ?_)
  match a with
  | ⟨0, _⟩ => show win2_1.index t (0 : Fin 2) * 5000 + 1 * p.val = e.val; omega
  | ⟨1, _⟩ => show win2_1.index t (1 : Fin 2) * 64 + 1 * k.val = k.val; omega

theorem blk2 (c : Dev nD) (t : Fin cfg2.N) (p : Fin 5000) (e : Fin 800000) (he : e.val = t.val * 5000 + p.val) (k : Fin 4) :
    (iblk2 (F := Ideal) V c 2 t : Vec Ideal S5000x4 .f32) (ix2 p k) = V c main_v67 (ix2 e k) := by
  obtain ⟨h0, h1⟩ := (edgeIndex t).2.2.1
  show V c main_v67 (((cfg2.win 2).blk t).view.emb (ix2 p k)) = V c main_v67 (ix2 e k)
  refine congrArg (V c main_v67) (funext fun a => Fin.ext ?_)
  match a with
  | ⟨0, _⟩ => show win2_2.index t (0 : Fin 2) * 5000 + 1 * p.val = e.val; omega
  | ⟨1, _⟩ => show win2_2.index t (1 : Fin 2) * 4 + 1 * k.val = k.val; omega

theorem blk3 (c : Dev nD) (t : Fin cfg2.N) (k : Fin 129) (j : Fin 64) :
    (iblk2 (F := Ideal) V c 3 t : Vec Ideal S129x64 .f32) (ix2 k j) = V c main_v69 (ix2 k j) := by
  obtain ⟨h0, h1⟩ := (weightIndex t).1
  show V c main_v69 (((cfg2.win 3).blk t).view.emb (ix2 k j)) = V c main_v69 (ix2 k j)
  refine congrArg (V c main_v69) (funext fun a => Fin.ext ?_)
  match a with
  | ⟨0, _⟩ => show win2_3.index t (0 : Fin 2) * 129 + 1 * k.val = k.val; omega
  | ⟨1, _⟩ => show win2_3.index t (1 : Fin 2) * 64 + 1 * j.val = j.val; omega

theorem blk4 (c : Dev nD) (t : Fin cfg2.N) (k : Fin 1) (j : Fin 64) :
    (iblk2 (F := Ideal) V c 4 t : Vec Ideal S1x64 .f32) (ix2 k j) = V c main_v72 (ix2 k j) := by
  obtain ⟨h0, h1⟩ := (weightIndex t).2.1
  show V c main_v72 (((cfg2.win 4).blk t).view.emb (ix2 k j)) = V c main_v72 (ix2 k j)
  refine congrArg (V c main_v72) (funext fun a => Fin.ext ?_)
  match a with
  | ⟨0, _⟩ => show win2_4.index t (0 : Fin 2) * 1 + 1 * k.val = k.val; omega
  | ⟨1, _⟩ => show win2_4.index t (1 : Fin 2) * 64 + 1 * j.val = j.val; omega

theorem blk5 (c : Dev nD) (t : Fin cfg2.N) (k : Fin 64) (j : Fin 64) :
    (iblk2 (F := Ideal) V c 5 t : Vec Ideal S64x64 .f32) (ix2 k j) = V c main_v74 (ix2 k j) := by
  obtain ⟨h0, h1⟩ := (weightIndex t).2.2.1
  show V c main_v74 (((cfg2.win 5).blk t).view.emb (ix2 k j)) = V c main_v74 (ix2 k j)
  refine congrArg (V c main_v74) (funext fun a => Fin.ext ?_)
  match a with
  | ⟨0, _⟩ => show win2_5.index t (0 : Fin 2) * 64 + 1 * k.val = k.val; omega
  | ⟨1, _⟩ => show win2_5.index t (1 : Fin 2) * 64 + 1 * j.val = j.val; omega

theorem blk6 (c : Dev nD) (t : Fin cfg2.N) (k : Fin 1) (j : Fin 64) :
    (iblk2 (F := Ideal) V c 6 t : Vec Ideal S1x64 .f32) (ix2 k j) = V c main_v77 (ix2 k j) := by
  obtain ⟨h0, h1⟩ := (weightIndex t).2.2.2.1
  show V c main_v77 (((cfg2.win 6).blk t).view.emb (ix2 k j)) = V c main_v77 (ix2 k j)
  refine congrArg (V c main_v77) (funext fun a => Fin.ext ?_)
  match a with
  | ⟨0, _⟩ => show win2_6.index t (0 : Fin 2) * 1 + 1 * k.val = k.val; omega
  | ⟨1, _⟩ => show win2_6.index t (1 : Fin 2) * 64 + 1 * j.val = j.val; omega

theorem blk7 (c : Dev nD) (t : Fin cfg2.N) (k : Fin 64) (j : Fin 64) :
    (iblk2 (F := Ideal) V c 7 t : Vec Ideal S64x64 .f32) (ix2 k j) = V c main_v79 (ix2 k j) := by
  obtain ⟨h0, h1⟩ := (weightIndex t).2.2.2.2.1
  show V c main_v79 (((cfg2.win 7).blk t).view.emb (ix2 k j)) = V c main_v79 (ix2 k j)
  refine congrArg (V c main_v79) (funext fun a => Fin.ext ?_)
  match a with
  | ⟨0, _⟩ => show win2_7.index t (0 : Fin 2) * 64 + 1 * k.val = k.val; omega
  | ⟨1, _⟩ => show win2_7.index t (1 : Fin 2) * 64 + 1 * j.val = j.val; omega

theorem blk8 (c : Dev nD) (t : Fin cfg2.N) (k : Fin 1) (j : Fin 64) :
    (iblk2 (F := Ideal) V c 8 t : Vec Ideal S1x64 .f32) (ix2 k j) = V c main_v82 (ix2 k j) := by
  obtain ⟨h0, h1⟩ := (weightIndex t).2.2.2.2.2.1
  show V c main_v82 (((cfg2.win 8).blk t).view.emb (ix2 k j)) = V c main_v82 (ix2 k j)
  refine congrArg (V c main_v82) (funext fun a => Fin.ext ?_)
  match a with
  | ⟨0, _⟩ => show win2_8.index t (0 : Fin 2) * 1 + 1 * k.val = k.val; omega
  | ⟨1, _⟩ => show win2_8.index t (1 : Fin 2) * 64 + 1 * j.val = j.val; omega

theorem blk9 (c : Dev nD) (t : Fin cfg2.N) (k : Fin 64) (j : Fin 1) :
    (iblk2 (F := Ideal) V c 9 t : Vec Ideal S64x1 .f32) (ix2 k j) = V c main_v84 (ix2 k j) := by
  obtain ⟨h0, h1⟩ := (weightIndex t).2.2.2.2.2.2.1
  show V c main_v84 (((cfg2.win 9).blk t).view.emb (ix2 k j)) = V c main_v84 (ix2 k j)
  refine congrArg (V c main_v84) (funext fun a => Fin.ext ?_)
  match a with
  | ⟨0, _⟩ => show win2_9.index t (0 : Fin 2) * 64 + 1 * k.val = k.val; omega
  | ⟨1, _⟩ => show win2_9.index t (1 : Fin 2) * 1 + 1 * j.val = j.val; omega

theorem blk10 (c : Dev nD) (t : Fin cfg2.N) (k : Fin 1) (j : Fin 1) :
    (iblk2 (F := Ideal) V c 10 t : Vec Ideal S1x1 .f32) (ix2 k j) = V c main_v87 (ix2 k j) := by
  obtain ⟨h0, h1⟩ := (weightIndex t).2.2.2.2.2.2.2
  show V c main_v87 (((cfg2.win 10).blk t).view.emb (ix2 k j)) = V c main_v87 (ix2 k j)
  refine congrArg (V c main_v87) (funext fun a => Fin.ext ?_)
  match a with
  | ⟨0, _⟩ => show win2_10.index t (0 : Fin 2) * 1 + 1 * k.val = k.val; omega
  | ⟨1, _⟩ => show win2_10.index t (1 : Fin 2) * 1 + 1 * j.val = j.val; omega

private theorem msg_row (x0 x1 : Vec Ideal S5000x64 .bf16) (x2 : Vec Ideal S5000x4 .f32) (x3 : Vec Ideal S129x64 .f32)
    (x4 : Vec Ideal S1x64 .f32) (x5 : Vec Ideal S64x64 .f32) (x6 : Vec Ideal S1x64 .f32) (p : Fin 5000) (j : Fin 64)
    (hd hs : Fin 64 → EReal) (r : EReal) (W1 : Fin 129 → Fin 64 → EReal) (b1 : Fin 64 → EReal)
    (W2 : Fin 64 → Fin 64 → EReal) (b2 : Fin 64 → EReal)
    (h0 : ∀ k, x0 (ix2 p k) = hd k) (h1 : ∀ k, x1 (ix2 p k) = hs k) (h2 : x2 (ix2 p 0) = r)
    (h3 : ∀ k j, x3 (ix2 k j) = W1 k j) (h4 : ∀ j, x4 (ix2 0 j) = b1 j)
    (h5 : ∀ k j, x5 (ix2 k j) = W2 k j) (h6 : ∀ j, x6 (ix2 0 j) = b2 j) :
    k2_pay4 (F := Ideal) x0 x1 x2 x3 x4 x5 x6 (ix2 p j) = Cert.Spec.edgeM hd hs r W1 b1 W2 b2 j := by
  rw [EdgePay.k2_pay4_eq, EdgePay.pay4_apply]
  simp only [h0, h1, h2, h3, h4, h5, h6]

private theorem wx_row (x0 x1 : Vec Ideal S5000x64 .bf16) (x2 : Vec Ideal S5000x4 .f32) (x3 : Vec Ideal S129x64 .f32)
    (x4 : Vec Ideal S1x64 .f32) (x5 : Vec Ideal S64x64 .f32) (x6 : Vec Ideal S1x64 .f32) (x7 : Vec Ideal S64x64 .f32)
    (x8 : Vec Ideal S1x64 .f32) (x9 : Vec Ideal S64x1 .f32) (x10 : Vec Ideal S1x1 .f32) (p : Fin 5000) (d : Fin 3)
    (mrow : Fin 64 → EReal) (Wx1 : Fin 64 → Fin 64 → EReal) (bx1 : Fin 64 → EReal)
    (Wx2 : Fin 64 → Fin 1 → EReal) (bx2 : Fin 1 → EReal) (xd : EReal)
    (hm : ∀ k, k2_pay4 (F := Ideal) x0 x1 x2 x3 x4 x5 x6 (ix2 p k) = mrow k)
    (h7 : ∀ k j, x7 (ix2 k j) = Wx1 k j) (h8 : ∀ j, x8 (ix2 0 j) = bx1 j)
    (h9 : ∀ k j, x9 (ix2 k j) = Wx2 k j) (h10 : ∀ j, x10 (ix2 0 j) = bx2 j)
    (hx : x2 (ix2 p ⟨d.val + 1, by omega⟩) = xd) :
    k2_pay1 (F := Ideal) (k2_pay3 x2) (k2_pay4 x0 x1 x2 x3 x4 x5 x6) x7 x8 x9 x10 (ix2 p d)
      = Cert.Spec.edgeW mrow Wx1 bx1 Wx2 bx2 * xd := by
  rw [EdgePay.k2_pay1_eq, EdgePay.k2_pay3_eq, EdgePay.pay1_apply, EdgePay.pay3_apply]
  simp only [hm, h7, h8, h9, h10, hx]

def msgArr (c : Dev nD) : S800000x64.Idx → EReal := fun i =>
  Cert.Spec.edgeM (fun k => V c main_v60 (ix2 (i 0) k)) (fun k => V c main_v62 (ix2 (i 0) k)) (V c main_v67 (ix2 (i 0) 0))
    (fun k j => V c main_v69 (ix2 k j)) (fun j => V c main_v72 (ix2 0 j))
    (fun k j => V c main_v74 (ix2 k j)) (fun j => V c main_v77 (ix2 0 j)) (i 1)

def wxArr (c : Dev nD) : S800000x3.Idx → EReal := fun i =>
  Cert.Spec.edgeW (fun k => msgArr V c (ix2 (i 0) k))
      (fun k j => V c main_v79 (ix2 k j)) (fun j => V c main_v82 (ix2 0 j))
      (fun k j => V c main_v84 (ix2 k j)) (fun j => V c main_v87 (ix2 0 j))
    * V c main_v67 (ix2 (i 0) ⟨(i 1).val + 1, Nat.succ_lt_succ (idx2_lt1 i)⟩)

private theorem edge_lt (t : Fin cfg2.N) (p : Fin 5000) : t.val * 5000 + p.val < 800000 := by
  have ht : t.val < 160 := lt_of_lt_of_eq t.isLt N_2
  have hp := p.isLt
  omega

theorem flushed_msg (c : Dev nD) (t : Fin cfg2.N) :
    (dat2 (F := Ideal) V c).flushed 11 t = ((cfg2.win 11).blk t).view.read (Elt Ideal) (msgArr V c) := by
  show (cfg2.win 11).cut (grid2.coords t) ((dat2 (F := Ideal) V c).after 11 t) = _
  rw [after2_11]
  unfold out2_11
  rw [View.canon_unit_zero zero2]
  simp only [View.ld_unit_zero (S := S5000x64) zero2, View.ld_unit_zero (S := S5000x4) zero2,
    View.ld_unit_zero (S := S129x64) zero2, View.ld_unit_zero (S := S1x64) zero2, View.ld_unit_zero (S := S64x64) zero2]
  funext y
  revert y
  show ∀ y : S5000x64.Idx, k2_pay4 (F := Ideal) (iblk2 V c 0 t) (iblk2 V c 1 t) (iblk2 V c 2 t) (iblk2 V c 3 t)
    (iblk2 V c 4 t) (iblk2 V c 5 t) (iblk2 V c 6 t) y = msgArr V c (((cfg2.win 11).blk t).view.emb y)
  intro y
  obtain ⟨p, j, rfl⟩ : ∃ (p : Fin 5000) (j : Fin 64), y = ix2 p j := ⟨y 0, y 1, eq_ix2 y⟩
  have he : (⟨t.val * 5000 + p.val, edge_lt t p⟩ : Fin 800000).val = t.val * 5000 + p.val := rfl
  obtain ⟨h0, h1⟩ := (edgeIndex t).2.2.2.1
  have hemb : ((cfg2.win 11).blk t).view.emb (ix2 p j) = ix2 (⟨t.val * 5000 + p.val, edge_lt t p⟩ : Fin 800000) j := by
    funext a; apply Fin.ext
    match a with
    | ⟨0, _⟩ => show win2_11.index t (0 : Fin 2) * 5000 + 1 * p.val = t.val * 5000 + p.val; omega
    | ⟨1, _⟩ => show win2_11.index t (1 : Fin 2) * 64 + 1 * j.val = j.val; omega
  rw [hemb]
  exact msg_row (iblk2 V c 0 t) (iblk2 V c 1 t) (iblk2 V c 2 t) (iblk2 V c 3 t) (iblk2 V c 4 t) (iblk2 V c 5 t)
    (iblk2 V c 6 t) p j _ _ _ _ _ _ _
    (fun k => blk0 V c t p _ he k) (fun k => blk1 V c t p _ he k) (blk2 V c t p _ he 0)
    (fun k j => blk3 V c t k j) (fun j => blk4 V c t 0 j) (fun k j => blk5 V c t k j) (fun j => blk6 V c t 0 j)

theorem flushed_wx (c : Dev nD) (t : Fin cfg2.N) :
    (dat2 (F := Ideal) V c).flushed 12 t = ((cfg2.win 12).blk t).view.read (Elt Ideal) (wxArr V c) := by
  show (cfg2.win 12).cut (grid2.coords t) ((dat2 (F := Ideal) V c).after 12 t) = _
  rw [after2_12]
  unfold out2_12
  rw [View.canon_unit_zero zero2]
  simp only [View.ld_unit_zero (S := S5000x64) zero2, View.ld_unit_zero (S := S5000x4) zero2,
    View.ld_unit_zero (S := S129x64) zero2, View.ld_unit_zero (S := S1x64) zero2, View.ld_unit_zero (S := S64x64) zero2,
    View.ld_unit_zero (S := S64x1) zero2, View.ld_unit_zero (S := S1x1) zero2]
  funext y
  revert y
  show ∀ y : S5000x3.Idx, k2_pay1 (F := Ideal) (k2_pay3 (iblk2 V c 2 t))
    (k2_pay4 (iblk2 V c 0 t) (iblk2 V c 1 t) (iblk2 V c 2 t) (iblk2 V c 3 t) (iblk2 V c 4 t) (iblk2 V c 5 t) (iblk2 V c 6 t))
    (iblk2 V c 7 t) (iblk2 V c 8 t) (iblk2 V c 9 t) (iblk2 V c 10 t) y = wxArr V c (((cfg2.win 12).blk t).view.emb y)
  intro y
  obtain ⟨p, d, rfl⟩ : ∃ (p : Fin 5000) (d : Fin 3), y = ix2 p d := ⟨y 0, y 1, eq_ix2 y⟩
  have he : (⟨t.val * 5000 + p.val, edge_lt t p⟩ : Fin 800000).val = t.val * 5000 + p.val := rfl
  obtain ⟨h0, h1⟩ := (edgeIndex t).2.2.2.2
  have hemb : ((cfg2.win 12).blk t).view.emb (ix2 p d) = ix2 (⟨t.val * 5000 + p.val, edge_lt t p⟩ : Fin 800000) d := by
    funext a; apply Fin.ext
    match a with
    | ⟨0, _⟩ => show win2_12.index t (0 : Fin 2) * 5000 + 1 * p.val = t.val * 5000 + p.val; omega
    | ⟨1, _⟩ => show win2_12.index t (1 : Fin 2) * 3 + 1 * d.val = d.val; omega
  rw [hemb]
  exact wx_row (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) (iblk2 V c 10 t) p d
    (fun k => msgArr V c (ix2 (⟨t.val * 5000 + p.val, edge_lt t p⟩ : Fin 800000) k)) _ _ _ _ _
    (fun k => msg_row (iblk2 V c 0 t) (iblk2 V c 1 t) (iblk2 V c 2 t) (iblk2 V c 3 t) (iblk2 V c 4 t) (iblk2 V c 5 t)
      (iblk2 V c 6 t) p k _ _ _ _ _ _ _
      (fun k => blk0 V c t p _ he k) (fun k => blk1 V c t p _ he k) (blk2 V c t p _ he 0)
      (fun k j => blk3 V c t k j) (fun j => blk4 V c t 0 j) (fun k j => blk5 V c t k j) (fun j => blk6 V c t 0 j))
    (fun k j => blk7 V c t k j) (fun j => blk8 V c t 0 j) (fun k j => blk9 V c t k j) (fun j => blk10 V c t 0 j)
    (blk2 V c t p _ he ⟨d.val + 1, by omega⟩)

private theorem mem_blk_msg (t : Fin cfg2.N) (i : S800000x64.Idx) :
    i ∈ ((cfg2.win 11).blk t).view.set ↔ ∀ a : Fin 2, win2_11.index t a * S5000x64.size a ≤ (i a).val
      ∧ (i a).val < win2_11.index t a * S5000x64.size a + S5000x64.size a := by
  show i ∈ ((View.whole main_v88_0).slice (win2_11.rect t)).set ↔ _
  rw [View.set_slice_whole, Rect.mem_set_unit]
  exact Iff.rfl

private theorem mem_blk_wx (t : Fin cfg2.N) (i : S800000x3.Idx) :
    i ∈ ((cfg2.win 12).blk t).view.set ↔ ∀ a : Fin 2, win2_12.index t a * S5000x3.size a ≤ (i a).val
      ∧ (i a).val < win2_12.index t a * S5000x3.size a + S5000x3.size a := by
  show i ∈ ((View.whole main_v88_1).slice (win2_12.rect t)).set ↔ _
  rw [View.set_slice_whole, Rect.mem_set_unit]
  exact Iff.rfl

private def pointOf (e : Nat) (he : e < 800000) : Fin cfg2.N := ⟨e / 5000, lt_of_lt_of_eq (by omega) N_2.symm⟩

theorem cover_msg (i : S800000x64.Idx) :
    ∃ t : Fin cfg2.N, (cfg2.win 11).flush t = true ∧ i ∈ ((cfg2.win 11).blk t).view.set := by
  have hi0 : (i 0).val < 800000 := idx2_lt0 i
  have hi1 : (i 1).val < 64 := idx2_lt1 i
  refine ⟨pointOf (i 0).val hi0, flush2_11 _, ?_⟩
  rw [mem_blk_msg]
  obtain ⟨h0, h1⟩ := (edgeIndex (pointOf (i 0).val hi0)).2.2.2.1
  have hv : (pointOf (i 0).val hi0).val = (i 0).val / 5000 := rfl
  intro a
  match a with
  | ⟨0, _⟩ =>
    show win2_11.index (pointOf (i 0).val hi0) (0 : Fin 2) * 5000 ≤ (i 0).val
      ∧ (i 0).val < win2_11.index (pointOf (i 0).val hi0) (0 : Fin 2) * 5000 + 5000
    omega
  | ⟨1, _⟩ =>
    show win2_11.index (pointOf (i 0).val hi0) (1 : Fin 2) * 64 ≤ (i 1).val
      ∧ (i 1).val < win2_11.index (pointOf (i 0).val hi0) (1 : Fin 2) * 64 + 64
    omega

theorem cover_wx (i : S800000x3.Idx) :
    ∃ t : Fin cfg2.N, (cfg2.win 12).flush t = true ∧ i ∈ ((cfg2.win 12).blk t).view.set := by
  have hi0 : (i 0).val < 800000 := idx2_lt0 i
  have hi1 : (i 1).val < 3 := idx2_lt1 i
  refine ⟨pointOf (i 0).val hi0, flush2_12 _, ?_⟩
  rw [mem_blk_wx]
  obtain ⟨h0, h1⟩ := (edgeIndex (pointOf (i 0).val hi0)).2.2.2.2
  have hv : (pointOf (i 0).val hi0).val = (i 0).val / 5000 := rfl
  intro a
  match a with
  | ⟨0, _⟩ =>
    show win2_12.index (pointOf (i 0).val hi0) (0 : Fin 2) * 5000 ≤ (i 0).val
      ∧ (i 0).val < win2_12.index (pointOf (i 0).val hi0) (0 : Fin 2) * 5000 + 5000
    omega
  | ⟨1, _⟩ =>
    show win2_12.index (pointOf (i 0).val hi0) (1 : Fin 2) * 3 ≤ (i 1).val
      ∧ (i 1).val < win2_12.index (pointOf (i 0).val hi0) (1 : Fin 2) * 3 + 3
    omega

theorem final_msg (c : Dev nD) : (dat2 (F := Ideal) V c).arrAt 11 cfg2.N = msgArr V c :=
  (dat2 (F := Ideal) V c).arrAt_eq_of_cover 11 (msgArr V c) (fun t _ => flushed_msg V c t) cover_msg

theorem final_wx (c : Dev nD) : (dat2 (F := Ideal) V c).arrAt 12 cfg2.N = wxArr V c :=
  (dat2 (F := Ideal) V c).arrAt_eq_of_cover 12 (wxArr V c) (fun t _ => flushed_wx V c t) cover_wx

theorem m_apply (c : Dev nD) (e : Fin 800000) (j : Fin 64) :
    (dat2 (F := Ideal) V c).arrAt 11 cfg2.N (ix2 e j)
      = Cert.Spec.edgeM (fun k => V c main_v60 (ix2 e k)) (fun k => V c main_v62 (ix2 e k)) (V c main_v67 (ix2 e 0))
          (fun k j => V c main_v69 (ix2 k j)) (fun j => V c main_v72 (ix2 0 j))
          (fun k j => V c main_v74 (ix2 k j)) (fun j => V c main_v77 (ix2 0 j)) j := by
  rw [final_msg]
  rfl

theorem wx_apply (c : Dev nD) (e : Fin 800000) (d : Fin 3) :
    (dat2 (F := Ideal) V c).arrAt 12 cfg2.N (ix2 e d)
      = Cert.Spec.edgeW (fun k => (dat2 (F := Ideal) V c).arrAt 11 cfg2.N (ix2 e k))
          (fun k j => V c main_v79 (ix2 k j)) (fun j => V c main_v82 (ix2 0 j))
          (fun k j => V c main_v84 (ix2 k j)) (fun j => V c main_v87 (ix2 0 j))
        * V c main_v67 (ix2 e ⟨d.val + 1, by omega⟩) := by
  rw [final_wx, final_msg]
  rfl

end Cert.KernelIdeal.EdgeArr2

end
-- ==== Proof.NodePay.lean ====
import proofs.«428515_j67688684585222_1_alg».proof.Proof.Gen.KernelIdeal.Skeleton
import proofs.«428515_j67688684585222_1_alg».proof.Proof.Spec
import Idealize.ShloMosaic.Lib.ValueIdx
import Idealize.ShloMosaic.Lib.ValueLayout
import Idealize.ShloMosaic.Lib.Pipeline.Value
import Idealize.ShloMosaic.PureOps.Ideal.Laws

/-! The node kernel's stored value at an index: `Spec.nodeH` of the block's two rows and the whole weight arrays. -/

noncomputable section

namespace Cert.KernelIdeal.NodePay

open Idealize.ShloMosaic Idealize.ShloMosaic.ValueIdx Cert.KernelIdeal Cert.KernelIdeal.Gen

theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q

theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q

theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem mm_apply (A : FVec Ideal S5000x64 .bf16) (B : FVec Ideal S64x64 .bf16) (p : Fin 5000) (j : Fin 64) :
    matmul dot_S5000x64_S64x64_S5000x64_1_0_0_1_n_n none A B (constant (F := Ideal) S5000x64 .f32 0x00000000#32) (ix2 p j)
      = ∑ k : Fin 64, A (ix2 p k) * B (ix2 k j) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p j) ((ValueIdx.contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p j) ((ValueIdx.contrEquiv1 dot_S5000x64_S64x64_S5000x64_1_0_0_1_n_n 64 rfl rfl).symm k) = ix2 k j := funext fun a => Fin.ext (by
    match a with
    | ⟨0, _⟩ => exact (rhs_row _ _).trans hk
    | ⟨1, _⟩ => exact rhs_col _ _)
  rw [el, er]

theorem upper_apply (X : FVec Ideal S128x64 .f32) (k j : Fin 64) :
    extractStridedSlice S64x64 ![0, 0] X slices_S128x64_o0_0_S64x64 (ix2 k j) = X (ix2 (⟨k.val, by omega⟩ : Fin 128) j) :=
  slice2_axis0_apply 0 X slices_S128x64_o0_0_S64x64 k j ⟨k.val, by omega⟩ (Nat.zero_add _).symm

theorem lower_apply (X : FVec Ideal S128x64 .f32) (k j : Fin 64) :
    extractStridedSlice S64x64 ![64, 0] X slices_S128x64_o64_0_S64x64 (ix2 k j) = X (ix2 (⟨64 + k.val, by omega⟩ : Fin 128) j) :=
  slice2_axis0_apply 64 X slices_S128x64_o64_0_S64x64 k j ⟨64 + k.val, by omega⟩ rfl

theorem logistic_apply (a : FVec Ideal S5000x64 .f32) (i : S5000x64.Idx) : logistic a i = Ideal.logistic (a i) := rfl

theorem pay1_apply (v0 v2 : Vec Ideal S5000x64 .f32) (v6 : Vec Ideal S128x64 .f32) (v12 : Vec Ideal S1x64 .f32)
    (v21 : Vec Ideal S64x64 .f32) (v24 : Vec Ideal S1x64 .f32) (p : Fin 5000) (j : Fin 64) :
    k1_pay1 (F := Ideal) v0 v2 v6 v12 v21 v24 (ix2 p j)
      = Cert.Spec.nodeH (fun k => v0 (ix2 p k)) (fun k => v2 (ix2 p k)) (fun k j => v6 (ix2 k j)) (fun j => v12 (ix2 0 j))
          (fun k j => v21 (ix2 k j)) (fun j => v24 (ix2 0 j)) j := by
  unfold k1_pay1

  simp only [shapeCast_self, addf_apply, mulf_apply, logistic_apply, mm_apply, truncf_apply, upper_apply, lower_apply,
    broadcastTo_1b_ab_apply]

  unfold Cert.Spec.nodeH Cert.Spec.dense Cert.Spec.silu
  simp only [Cert.Spec.sum_cat128]

theorem k3_pay1_eq : k3_pay1 (F := Ideal) = k1_pay1 (F := Ideal) := by
  rfl

end Cert.KernelIdeal.NodePay

end
-- ==== Proof.NodeArr3.lean ====
import proofs.«428515_j67688684585222_1_alg».proof.Proof.Gen.KernelIdeal.Frame
import proofs.«428515_j67688684585222_1_alg».proof.Proof.NodePay

/-! The second layer's node region: as the first layer's, over that layer's arrays. -/

set_option maxRecDepth 16384

noncomputable section

namespace Cert.KernelIdeal.NodeArr3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

private theorem zero_off : (![0, 0] : Fin 2 → Nat) = fun _ => 0 :=
  funext fun a => by match a with | ⟨0, _⟩ => rfl | ⟨1, _⟩ => rfl

private theorem row_of_block (x0 x1 : Vec Ideal S5000x64 .f32) (x2 : Vec Ideal S128x64 .f32) (x3 : Vec Ideal S1x64 .f32)
    (x4 : Vec Ideal S64x64 .f32) (x5 : Vec Ideal S1x64 .f32)
    (A0 A1 : Vec Ideal S50000x64 .f32) (A2 : Vec Ideal S128x64 .f32) (A3 : Vec Ideal S1x64 .f32)
    (A4 : Vec Ideal S64x64 .f32) (A5 : Vec Ideal S1x64 .f32)
    (p : Fin 5000) (q : Fin 64) (n : Fin 50000) (j : Fin 64)
    (h0 : ∀ k : Fin 64, x0 (ix2 p k) = A0 (ix2 n k)) (h1 : ∀ k : Fin 64, x1 (ix2 p k) = A1 (ix2 n k))
    (h2 : ∀ (k : Fin 128) (l : Fin 64), x2 (ix2 k l) = A2 (ix2 k l)) (h3 : ∀ l : Fin 64, x3 (ix2 0 l) = A3 (ix2 0 l))
    (h4 : ∀ k l : Fin 64, x4 (ix2 k l) = A4 (ix2 k l)) (h5 : ∀ l : Fin 64, x5 (ix2 0 l) = A5 (ix2 0 l))
    (hq : q = j) :
    k3_pay1 (F := Ideal) x0 x1 x2 x3 x4 x5 (ix2 p q)
      = Cert.Spec.nodeH (fun k => A0 (ix2 n k)) (fun k => A1 (ix2 n k)) (fun k l => A2 (ix2 k l)) (fun l => A3 (ix2 0 l))
          (fun k l => A4 (ix2 k l)) (fun l => A5 (ix2 0 l)) j := by
  subst hq
  rw [NodePay.k3_pay1_eq, NodePay.pay1_apply]
  simp only [h0, h1, h2, h3, h4, h5]

private theorem block_index : ∀ t : Fin cfg3.N,
    win3_0.index t (0 : Fin 2) = win3_6.index t (0 : Fin 2) ∧ win3_0.index t (1 : Fin 2) = 0
    ∧ win3_1.index t (0 : Fin 2) = win3_6.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) ≤ 9 ∧ win3_6.index t (1 : Fin 2) = 0 :=
  (by decide +kernel : ∀ t : Fin grid3.N, _)

private theorem block_onto : ∀ b : Fin 10, ∃ t : Fin cfg3.N, win3_6.index t = ![b.val, 0] :=
  (by decide +kernel : ∀ b : Fin 10, ∃ t : Fin grid3.N, win3_6.index t = ![b.val, 0])

private theorem old_row (c : Dev nD) (t : Fin cfg3.N) (p : Fin 5000) (k : Fin 64) (n : Fin 50000)
    (hn : n.val = win3_6.index t (0 : Fin 2) * 5000 + p.val) :
    iblk3 (F := Ideal) V c 0 t (ix2 p k) = V c main_v58 (ix2 n k) := by
  obtain ⟨e0, e1, -⟩ := block_index t
  show V c main_v58 (((cfg3.win 0).blk t).view.emb (ix2 p k)) = _
  refine congrArg _ ?_
  funext a; apply Fin.ext
  match a with
  | ⟨0, _⟩ => show win3_0.index t (0 : Fin 2) * 5000 + 1 * p.val = n.val; omega
  | ⟨1, _⟩ => show win3_0.index t (1 : Fin 2) * 64 + 1 * k.val = k.val; omega

private theorem msg_row (c : Dev nD) (t : Fin cfg3.N) (p : Fin 5000) (k : Fin 64) (n : Fin 50000)
    (hn : n.val = win3_6.index t (0 : Fin 2) * 5000 + p.val) :
    iblk3 (F := Ideal) V c 1 t (ix2 p k) = V c main_v94 (ix2 n k) := by
  obtain ⟨-, -, e0, e1, -⟩ := block_index t
  show V c main_v94 (((cfg3.win 1).blk t).view.emb (ix2 p k)) = _
  refine congrArg _ ?_
  funext a; apply Fin.ext
  match a with
  | ⟨0, _⟩ => show win3_1.index t (0 : Fin 2) * 5000 + 1 * p.val = n.val; omega
  | ⟨1, _⟩ => show win3_1.index t (1 : Fin 2) * 64 + 1 * k.val = k.val; omega

private theorem w1_entry (c : Dev nD) (t : Fin cfg3.N) (k : Fin 128) (l : Fin 64) :
    iblk3 (F := Ideal) V c 2 t (ix2 k l) = V c main_v97 (ix2 k l) := by
  obtain ⟨-, -, -, -, e0, e1, -⟩ := block_index t
  show V c main_v97 (((cfg3.win 2).blk t).view.emb (ix2 k l)) = _
  refine congrArg _ ?_
  funext a; apply Fin.ext
  match a with
  | ⟨0, _⟩ => show win3_2.index t (0 : Fin 2) * 128 + 1 * k.val = k.val; omega
  | ⟨1, _⟩ => show win3_2.index t (1 : Fin 2) * 64 + 1 * l.val = l.val; omega

private theorem b1_entry (c : Dev nD) (t : Fin cfg3.N) (l : Fin 64) :
    iblk3 (F := Ideal) V c 3 t (ix2 0 l) = V c main_v100 (ix2 0 l) := by
  obtain ⟨-, -, -, -, -, -, e0, e1, -⟩ := block_index t
  show V c main_v100 (((cfg3.win 3).blk t).view.emb (ix2 0 l)) = _
  refine congrArg _ ?_
  funext a; apply Fin.ext
  match a with
  | ⟨0, _⟩ => show win3_3.index t (0 : Fin 2) * 1 + 1 * 0 = 0; omega
  | ⟨1, _⟩ => show win3_3.index t (1 : Fin 2) * 64 + 1 * l.val = l.val; omega

private theorem w2_entry (c : Dev nD) (t : Fin cfg3.N) (k l : Fin 64) :
    iblk3 (F := Ideal) V c 4 t (ix2 k l) = V c main_v102 (ix2 k l) := by
  obtain ⟨-, -, -, -, -, -, -, -, e0, e1, -⟩ := block_index t
  show V c main_v102 (((cfg3.win 4).blk t).view.emb (ix2 k l)) = _
  refine congrArg _ ?_
  funext a; apply Fin.ext
  match a with
  | ⟨0, _⟩ => show win3_4.index t (0 : Fin 2) * 64 + 1 * k.val = k.val; omega
  | ⟨1, _⟩ => show win3_4.index t (1 : Fin 2) * 64 + 1 * l.val = l.val; omega

private theorem b2_entry (c : Dev nD) (t : Fin cfg3.N) (l : Fin 64) :
    iblk3 (F := Ideal) V c 5 t (ix2 0 l) = V c main_v105 (ix2 0 l) := by
  obtain ⟨-, -, -, -, -, -, -, -, -, -, e0, e1, -⟩ := block_index t
  show V c main_v105 (((cfg3.win 5).blk t).view.emb (ix2 0 l)) = _
  refine congrArg _ ?_
  funext a; apply Fin.ext
  match a with
  | ⟨0, _⟩ => show win3_5.index t (0 : Fin 2) * 1 + 1 * 0 = 0; omega
  | ⟨1, _⟩ => show win3_5.index t (1 : Fin 2) * 64 + 1 * l.val = l.val; omega

private def newH (c : Dev nD) : Vec Ideal S50000x64 .f32 := fun i =>
  Cert.Spec.nodeH (fun k => V c main_v58 (ix2 (i 0) k)) (fun k => V c main_v94 (ix2 (i 0) k))
    (fun k l => V c main_v97 (ix2 k l)) (fun l => V c main_v100 (ix2 0 l))
    (fun k l => V c main_v102 (ix2 k l)) (fun l => V c main_v105 (ix2 0 l)) (i 1)

private theorem written_back (c : Dev nD) (t : Fin cfg3.N) :
    (dat3 (F := Ideal) V c).flushed 6 t = ((cfg3.win 6).blk t).view.read (Elt Ideal) (newH V c) := by
  show (cfg3.win 6).cut (grid3.coords t) ((dat3 (F := Ideal) V c).after 6 t) = _
  rw [after3_6]
  unfold out3_6
  rw [View.canon_unit_zero zero_off]
  simp only [View.ld_unit_zero (S := S5000x64) zero_off, View.ld_unit_zero (S := S128x64) zero_off,
    View.ld_unit_zero (S := S1x64) zero_off, View.ld_unit_zero (S := S64x64) zero_off]
  have e61 : win3_6.index t (1 : Fin 2) = 0 := (block_index t).2.2.2.2.2.2.2.2.2.2.2.2.2
  funext (y : S5000x64.Idx)
  obtain ⟨p, q, rfl⟩ : ∃ (p : Fin 5000) (q : Fin 64), y = ix2 p q := ⟨y 0, y 1, eq_ix2 y⟩
  show k3_pay1 (F := Ideal) (iblk3 V c 0 t) (iblk3 V c 1 t) (iblk3 V c 2 t) (iblk3 V c 3 t) (iblk3 V c 4 t)
      (iblk3 V c 5 t) (ix2 p q) = newH V c (((cfg3.win 6).blk t).view.emb (ix2 p q))
  have hrow : ((((cfg3.win 6).blk t).view.emb (ix2 p q)) 0).val = win3_6.index t (0 : Fin 2) * 5000 + p.val := by
    show win3_6.index t (0 : Fin 2) * 5000 + 1 * p.val = _; omega
  have hcol : q = (((cfg3.win 6).blk t).view.emb (ix2 p q)) 1 := by
    apply Fin.ext; show q.val = win3_6.index t (1 : Fin 2) * 64 + 1 * q.val; omega
  exact row_of_block (iblk3 V c 0 t) (iblk3 V c 1 t) (iblk3 V c 2 t) (iblk3 V c 3 t) (iblk3 V c 4 t) (iblk3 V c 5 t)
    (V c main_v58) (V c main_v94) (V c main_v97) (V c main_v100) (V c main_v102) (V c main_v105) p q
    ((((cfg3.win 6).blk t).view.emb (ix2 p q)) 0) ((((cfg3.win 6).blk t).view.emb (ix2 p q)) 1)
    (fun k => old_row V c t p k _ hrow) (fun k => msg_row V c t p k _ hrow) (w1_entry V c t) (b1_entry V c t)
    (w2_entry V c t) (b2_entry V c t) hcol

private theorem mem_block (t : Fin cfg3.N) (i : S50000x64.Idx) :
    i ∈ ((cfg3.win 6).blk t).view.set ↔ ∀ a : Fin 2, win3_6.index t a * S5000x64.size a ≤ (i a).val
      ∧ (i a).val < win3_6.index t a * S5000x64.size a + S5000x64.size a := by
  show i ∈ ((View.whole main_v106).slice (win3_6.rect t)).set ↔ _
  rw [View.set_slice_whole, Rect.mem_set_unit]
  exact Iff.rfl

private theorem covered (i : S50000x64.Idx) :
    ∃ t : Fin cfg3.N, (cfg3.win 6).flush t = true ∧ i ∈ ((cfg3.win 6).blk t).view.set := by
  have hi0 : (i 0).val < 50000 := (i 0).isLt
  have hi1 : (i 1).val < 64 := (i 1).isLt
  obtain ⟨t, ht⟩ := block_onto ⟨(i 0).val / 5000, by omega⟩
  have q0 : win3_6.index t (0 : Fin 2) = (i 0).val / 5000 := congrFun ht 0
  have q1 : win3_6.index t (1 : Fin 2) = 0 := congrFun ht 1
  refine ⟨t, flush3_6 t, ?_⟩
  rw [mem_block]
  intro a
  match a with
  | ⟨0, _⟩ =>
    show win3_6.index t (0 : Fin 2) * 5000 ≤ (i 0).val ∧ (i 0).val < win3_6.index t (0 : Fin 2) * 5000 + 5000; omega
  | ⟨1, _⟩ =>
    show win3_6.index t (1 : Fin 2) * 64 ≤ (i 1).val ∧ (i 1).val < win3_6.index t (1 : Fin 2) * 64 + 64; omega

private theorem array_after (c : Dev nD) : (dat3 (F := Ideal) V c).arrAt 6 cfg3.N = newH V c :=
  (dat3 (F := Ideal) V c).arrAt_eq_of_cover 6 (newH V c) (fun t _ => written_back V c t) covered

theorem h_apply (c : Dev nD) (n : Fin 50000) (j : Fin 64) :
    (dat3 (F := Ideal) V c).arrAt 6 cfg3.N (ix2 n j)
      = Cert.Spec.nodeH (fun k => V c main_v58 (ix2 n k)) (fun k => V c main_v94 (ix2 n k))
          (fun k j => V c main_v97 (ix2 k j)) (fun j => V c main_v100 (ix2 0 j))
          (fun k j => V c main_v102 (ix2 k j)) (fun j => V c main_v105 (ix2 0 j)) j := by
  rw [array_after]
  rfl

end Cert.KernelIdeal.NodeArr3

end
-- ==== Proof.RLayer1.lean ====
import proofs.«428515_j67688684585222_1_alg».proof.Proof.ReadP
import proofs.«428515_j67688684585222_1_alg».proof.Proof.Spec

/-! Layer 2 of the plain array program: its chains of whole-array operations, read at an index, are `Spec`'s row functions. -/

noncomputable section

namespace Cert.ReferenceIdeal.RLayer1

open Idealize.ShloMosaic Idealize.ShloMosaic.ValueIdx Cert.ReferenceIdeal Cert.ReferenceIdeal.ReadP

section Pieces

private theorem one_word : Ideal.ofBits .f32 0x3F800000#32 = 1 := by
  simp [Ideal.ofBits, Ideal.ieee, -EReal.coe_mul]; norm_num

private theorem silu_spelled (x : EReal) :
    x * Ideal.div (Ideal.ofBits .f32 0x3F800000#32) (Ideal.ofBits .f32 0x3F800000#32 + Ideal.exp (-x))
      = Cert.Spec.silu x := by
  rw [one_word]; rfl

private theorem cat129_apply (a b : (⟨S800000x64, .f32⟩ : BufTy).Contents (Elt Ideal))
    (c : (⟨S800000x1, .f32⟩ : BufTy).Contents (Elt Ideal))
    (hc : Shape.Concatenates [S800000x64, S800000x64, S800000x1] S800000x129 1) (e : Fin 800000) (k : Fin 129) :
    concatenate S800000x129 1 [⟨S800000x64, a⟩, ⟨S800000x64, b⟩, ⟨S800000x1, c⟩] hc (ix2 e k)
      = Cert.Spec.feat129 (fun k => a (ix2 e k)) (fun k => b (ix2 e k)) (c (ix2 e 0)) k := by
  unfold Cert.Spec.feat129
  by_cases h1 : k.val < 64
  · rw [dif_pos h1]
    exact concatenate_apply_piece 1 _ _ (ix2 e k) 0 (by simp) S800000x64 a rfl rfl 0 rfl (ix2 e ⟨k.val, h1⟩)
      (fun b hb => by match b with | ⟨0, _⟩ => rfl | ⟨1, _⟩ => exact absurd rfl hb) (Nat.zero_add _)
  · rw [dif_neg h1]
    by_cases h2 : k.val < 128
    · rw [dif_pos h2]
      exact concatenate_apply_piece 1 _ _ (ix2 e k) 1 (by simp) S800000x64 b rfl rfl 64 rfl
        (ix2 e ⟨k.val - 64, by omega⟩)
        (fun b hb => by match b with | ⟨0, _⟩ => rfl | ⟨1, _⟩ => exact absurd rfl hb)
        (by show 64 + (k.val - 64) = k.val; omega)
    · rw [dif_neg h2]
      exact concatenate_apply_piece 1 _ _ (ix2 e k) 2 (by simp) S800000x1 c rfl rfl 128 rfl (ix2 e 0)
        (fun b hb => by match b with | ⟨0, _⟩ => rfl | ⟨1, _⟩ => exact absurd rfl hb)
        (by show 128 + 0 = k.val; omega)

private theorem cat128_apply (a b : (⟨S50000x64, .f32⟩ : BufTy).Contents (Elt Ideal))
    (hc : Shape.Concatenates [S50000x64, S50000x64] S50000x128 1) (n : Fin 50000) (k : Fin 128) :
    concatenate S50000x128 1 [⟨S50000x64, a⟩, ⟨S50000x64, b⟩] hc (ix2 n k)
      = Cert.Spec.cat128 (fun k => a (ix2 n k)) (fun k => b (ix2 n k)) k := by
  unfold Cert.Spec.cat128
  by_cases h1 : k.val < 64
  · rw [dif_pos h1]
    exact concatenate_apply_piece 1 _ _ (ix2 n k) 0 (by simp) S50000x64 a rfl rfl 0 rfl (ix2 n ⟨k.val, h1⟩)
      (fun b hb => by match b with | ⟨0, _⟩ => rfl | ⟨1, _⟩ => exact absurd rfl hb) (Nat.zero_add _)
  · rw [dif_neg h1]
    exact concatenate_apply_piece 1 _ _ (ix2 n k) 1 (by simp) S50000x64 b rfl rfl 64 rfl
      (ix2 n ⟨k.val - 64, by omega⟩)
      (fun b hb => by match b with | ⟨0, _⟩ => rfl | ⟨1, _⟩ => exact absurd rfl hb)
      (by show 64 + (k.val - 64) = k.val; omega)

end Pieces

section Message
variable (x0 : (⟨S50000, .i32⟩ : BufTy).Contents (Elt Ideal)) (x1 : (⟨S50000x3, .f32⟩ : BufTy).Contents (Elt Ideal))
  (x2 : (⟨S2x800000, .i32⟩ : BufTy).Contents (Elt Ideal)) (x4 : (⟨S100x64, .f32⟩ : BufTy).Contents (Elt Ideal))
  (x5 : (⟨S2x129x64, .f32⟩ : BufTy).Contents (Elt Ideal)) (x6 : (⟨S2x64, .f32⟩ : BufTy).Contents (Elt Ideal))
  (x7 : (⟨S2x64x64, .f32⟩ : BufTy).Contents (Elt Ideal)) (x8 : (⟨S2x64, .f32⟩ : BufTy).Contents (Elt Ideal))
  (x9 : (⟨S2x128x64, .f32⟩ : BufTy).Contents (Elt Ideal)) (x10 : (⟨S2x64, .f32⟩ : BufTy).Contents (Elt Ideal))
  (x11 : (⟨S2x64x64, .f32⟩ : BufTy).Contents (Elt Ideal)) (x12 : (⟨S2x64, .f32⟩ : BufTy).Contents (Elt Ideal))
  (x13 : (⟨S2x64x64, .f32⟩ : BufTy).Contents (Elt Ideal)) (x14 : (⟨S2x64, .f32⟩ : BufTy).Contents (Elt Ideal))
  (x15 : (⟨S2x64x1, .f32⟩ : BufTy).Contents (Elt Ideal)) (x16 : (⟨S2x1, .f32⟩ : BufTy).Contents (Elt Ideal))

private theorem bias166 (e : Fin 800000) (j : Fin 64) :
    val_main_v166 (F := Ideal) x6 (ix2 e j) = x6 (ix2 1 j) := by
  rw [val_main_v166_apply, val_main_v165_apply, val_main_v164_apply, val_main_v163_apply]
  exact congrArg x6 (funext fun a => Fin.ext (by
    match a with
    | ⟨0, _⟩ => rfl
    | ⟨1, _⟩ => show j.val % 64 = j.val; omega))

private theorem w161 (e : Fin 800000) (j : Fin 64) (k : Fin 129) :
    val_main_v161 (F := Ideal) x5 (ridx_main_v162 (ix2 e j) k) = x5 (ix3 1 k j) := by
  rw [val_main_v161_apply, val_main_v160_apply]
  exact congrArg x5 (funext fun a => Fin.ext (by
    match a with
    | ⟨0, _⟩ => rfl
    | ⟨1, _⟩ => show (k.val * 64 + j.val) / 64 % 129 = k.val; omega
    | ⟨2, _⟩ => show (k.val * 64 + j.val) % 64 = j.val; omega))

private theorem cat159 (e : Fin 800000) (k : Fin 129) :
    val_main_v159 (F := Ideal) x0 x1 x2 x4 x5 x6 x7 x8 x9 x10 x11 x12 x13 x14 x15 x16 (ix2 e k)
      = Cert.Spec.feat129 (fun k => val_main_v151 (F := Ideal) x0 x1 x2 x4 x5 x6 x7 x8 x9 x10 x11 x12 (ix2 e k))
          (fun k => val_main_v158 (F := Ideal) x0 x1 x2 x4 x5 x6 x7 x8 x9 x10 x11 x12 (ix2 e k))
          (val_main_v144 (F := Ideal) x0 x1 x2 x4 x5 x6 x7 x8 x13 x14 x15 x16 (ix2 e 0)) k := by
  unfold val_main_v159
  exact cat129_apply _ _ _ _ e k

private theorem dense167 (e : Fin 800000) (j : Fin 64) :
    val_main_v167 (F := Ideal) x0 x1 x2 x4 x5 x6 x7 x8 x9 x10 x11 x12 x13 x14 x15 x16 (ix2 e j)
      = Cert.Spec.dense
          (Cert.Spec.feat129 (fun k => val_main_v151 (F := Ideal) x0 x1 x2 x4 x5 x6 x7 x8 x9 x10 x11 x12 (ix2 e k))
            (fun k => val_main_v158 (F := Ideal) x0 x1 x2 x4 x5 x6 x7 x8 x9 x10 x11 x12 (ix2 e k))
            (val_main_v144 (F := Ideal) x0 x1 x2 x4 x5 x6 x7 x8 x13 x14 x15 x16 (ix2 e 0)))
          (fun k j => x5 (ix3 1 k j)) (fun j => x6 (ix2 1 j)) j := by
  rw [val_main_v167_apply, val_main_v162_apply, bias166, Ideal.addf_def]
  unfold Cert.Spec.dense
  refine congrArg (· + x6 (ix2 1 j)) (Finset.sum_congr rfl fun k _ => ?_)
  have hl : lidx_main_v162 (ix2 e j) k = ix2 e k :=
    funext fun a => Fin.ext (by match a with | ⟨0, _⟩ => rfl | ⟨1, _⟩ => rfl)
  rw [w161, hl, cat159]

private theorem silu174 (i : S800000x64.Idx) :
    val_main_v174 (F := Ideal) x0 x1 x2 x4 x5 x6 x7 x8 x9 x10 x11 x12 x13 x14 x15 x16 i
      = Cert.Spec.silu (val_main_v167 (F := Ideal) x0 x1 x2 x4 x5 x6 x7 x8 x9 x10 x11 x12 x13 x14 x15 x16 i) := by
  rw [val_main_v174_apply, val_main_v173_apply, val_main_v172_apply, val_main_cst_27_apply, val_main_v171_apply,
    val_main_v170_apply, val_main_cst_26_apply, val_main_v169_apply, val_main_v168_apply]
  generalize val_main_v167 (F := Ideal) x0 x1 x2 x4 x5 x6 x7 x8 x9 x10 x11 x12 x13 x14 x15 x16 i = x
  exact silu_spelled x

private theorem bias181 (e : Fin 800000) (j : Fin 64) :
    val_main_v181 (F := Ideal) x8 (ix2 e j) = x8 (ix2 1 j) := by
  rw [val_main_v181_apply, val_main_v180_apply, val_main_v179_apply, val_main_v178_apply]
  exact congrArg x8 (funext fun a => Fin.ext (by
    match a with
    | ⟨0, _⟩ => rfl
    | ⟨1, _⟩ => show j.val % 64 = j.val; omega))

private theorem w176 (e : Fin 800000) (j : Fin 64) (k : Fin 64) :
    val_main_v176 (F := Ideal) x7 (ridx_main_v177 (ix2 e j) k) = x7 (ix3 1 k j) := by
  rw [val_main_v176_apply, val_main_v175_apply]
  exact congrArg x7 (funext fun a => Fin.ext (by
    match a with
    | ⟨0, _⟩ => rfl
    | ⟨1, _⟩ => show (k.val * 64 + j.val) / 64 % 64 = k.val; omega
    | ⟨2, _⟩ => show (k.val * 64 + j.val) % 64 = j.val; omega))

private theorem dense182 (e : Fin 800000) (j : Fin 64) :
    val_main_v182 (F := Ideal) x0 x1 x2 x4 x5 x6 x7 x8 x9 x10 x11 x12 x13 x14 x15 x16 (ix2 e j)
      = Cert.Spec.dense
          (fun k => val_main_v174 (F := Ideal) x0 x1 x2 x4 x5 x6 x7 x8 x9 x10 x11 x12 x13 x14 x15 x16 (ix2 e k))
          (fun k j => x7 (ix3 1 k j)) (fun j => x8 (ix2 1 j)) j := by
  rw [val_main_v182_apply, val_main_v177_apply, bias181, Ideal.addf_def]
  unfold Cert.Spec.dense
  refine congrArg (· + x8 (ix2 1 j)) (Finset.sum_congr rfl fun k _ => ?_)
  have hl : lidx_main_v177 (ix2 e j) k = ix2 e k :=
    funext fun a => Fin.ext (by match a with | ⟨0, _⟩ => rfl | ⟨1, _⟩ => rfl)
  rw [w176, hl]

private theorem silu189 (i : S800000x64.Idx) :
    val_main_v189 (F := Ideal) x0 x1 x2 x4 x5 x6 x7 x8 x9 x10 x11 x12 x13 x14 x15 x16 i
      = Cert.Spec.silu (val_main_v182 (F := Ideal) x0 x1 x2 x4 x5 x6 x7 x8 x9 x10 x11 x12 x13 x14 x15 x16 i) := by
  rw [val_main_v189_apply, val_main_v188_apply, val_main_v187_apply, val_main_cst_29_apply, val_main_v186_apply,
    val_main_v185_apply, val_main_cst_28_apply, val_main_v184_apply, val_main_v183_apply]
  generalize val_main_v182 (F := Ideal) x0 x1 x2 x4 x5 x6 x7 x8 x9 x10 x11 x12 x13 x14 x15 x16 i = x
  exact silu_spelled x

end Message

section Weight
variable (x0 : (⟨S50000, .i32⟩ : BufTy).Contents (Elt Ideal)) (x1 : (⟨S50000x3, .f32⟩ : BufTy).Contents (Elt Ideal))
  (x2 : (⟨S2x800000, .i32⟩ : BufTy).Contents (Elt Ideal)) (x4 : (⟨S100x64, .f32⟩ : BufTy).Contents (Elt Ideal))
  (x5 : (⟨S2x129x64, .f32⟩ : BufTy).Contents (Elt Ideal)) (x6 : (⟨S2x64, .f32⟩ : BufTy).Contents (Elt Ideal))
  (x7 : (⟨S2x64x64, .f32⟩ : BufTy).Contents (Elt Ideal)) (x8 : (⟨S2x64, .f32⟩ : BufTy).Contents (Elt Ideal))
  (x9 : (⟨S2x128x64, .f32⟩ : BufTy).Contents (Elt Ideal)) (x10 : (⟨S2x64, .f32⟩ : BufTy).Contents (Elt Ideal))
  (x11 : (⟨S2x64x64, .f32⟩ : BufTy).Contents (Elt Ideal)) (x12 : (⟨S2x64, .f32⟩ : BufTy).Contents (Elt Ideal))
  (x13 : (⟨S2x64x64, .f32⟩ : BufTy).Contents (Elt Ideal)) (x14 : (⟨S2x64, .f32⟩ : BufTy).Contents (Elt Ideal))
  (x15 : (⟨S2x64x1, .f32⟩ : BufTy).Contents (Elt Ideal)) (x16 : (⟨S2x1, .f32⟩ : BufTy).Contents (Elt Ideal))

private theorem w191 (e : Fin 800000) (j : Fin 64) (k : Fin 64) :
    val_main_v191 (F := Ideal) x13 (ridx_main_v192 (ix2 e j) k) = x13 (ix3 1 k j) := by
  rw [val_main_v191_apply, val_main_v190_apply]
  exact congrArg x13 (funext fun a => Fin.ext (by
    match a with
    | ⟨0, _⟩ => rfl
    | ⟨1, _⟩ => show (k.val * 64 + j.val) / 64 % 64 = k.val; omega
    | ⟨2, _⟩ => show (k.val * 64 + j.val) % 64 = j.val; omega))

private theorem bias196 (e : Fin 800000) (j : Fin 64) :
    val_main_v196 (F := Ideal) x14 (ix2 e j) = x14 (ix2 1 j) := by
  rw [val_main_v196_apply, val_main_v195_apply, val_main_v194_apply, val_main_v193_apply]
  exact congrArg x14 (funext fun a => Fin.ext (by
    match a with
    | ⟨0, _⟩ => rfl
    | ⟨1, _⟩ => show j.val % 64 = j.val; omega))

private theorem dense197 (e : Fin 800000) (j : Fin 64) :
    val_main_v197 (F := Ideal) x0 x1 x2 x4 x5 x6 x7 x8 x9 x10 x11 x12 x13 x14 x15 x16 (ix2 e j)
      = Cert.Spec.dense
          (fun k => val_main_v189 (F := Ideal) x0 x1 x2 x4 x5 x6 x7 x8 x9 x10 x11 x12 x13 x14 x15 x16 (ix2 e k))
          (fun k j => x13 (ix3 1 k j)) (fun j => x14 (ix2 1 j)) j := by
  rw [val_main_v197_apply, val_main_v192_apply, bias196, Ideal.addf_def]
  unfold Cert.Spec.dense
  refine congrArg (· + x14 (ix2 1 j)) (Finset.sum_congr rfl fun k _ => ?_)
  have hl : lidx_main_v192 (ix2 e j) k = ix2 e k :=
    funext fun a => Fin.ext (by match a with | ⟨0, _⟩ => rfl | ⟨1, _⟩ => rfl)
  rw [w191, hl]

private theorem silu204 (i : S800000x64.Idx) :
    val_main_v204 (F := Ideal) x0 x1 x2 x4 x5 x6 x7 x8 x9 x10 x11 x12 x13 x14 x15 x16 i
      = Cert.Spec.silu (val_main_v197 (F := Ideal) x0 x1 x2 x4 x5 x6 x7 x8 x9 x10 x11 x12 x13 x14 x15 x16 i) := by
  rw [val_main_v204_apply, val_main_v203_apply, val_main_v202_apply, val_main_cst_31_apply, val_main_v201_apply,
    val_main_v200_apply, val_main_cst_30_apply, val_main_v199_apply, val_main_v198_apply]
  generalize val_main_v197 (F := Ideal) x0 x1 x2 x4 x5 x6 x7 x8 x9 x10 x11 x12 x13 x14 x15 x16 i = x
  exact silu_spelled x

private theorem w206 (e : Fin 800000) (j : Fin 1) (k : Fin 64) :
    val_main_v206 (F := Ideal) x15 (ridx_main_v207 (ix2 e j) k) = x15 (ix3 1 k j) := by
  rw [val_main_v206_apply, val_main_v205_apply]
  exact congrArg x15 (funext fun a => Fin.ext (by
    match a with
    | ⟨0, _⟩ => rfl
    | ⟨1, _⟩ => show (k.val * 1 + j.val) / 1 % 64 = k.val; omega
    | ⟨2, _⟩ => show 0 = j.val; omega))

private theorem bias211 (e : Fin 800000) (j : Fin 1) :
    val_main_v211 (F := Ideal) x16 (ix2 e j) = x16 (ix2 1 j) := by
  rw [val_main_v211_apply, val_main_v210_apply, val_main_v209_apply, val_main_v208_apply]
  exact congrArg x16 (funext fun a => Fin.ext (by
    match a with
    | ⟨0, _⟩ => rfl
    | ⟨1, _⟩ => show 0 = j.val; omega))

private theorem dense212 (e : Fin 800000) (j : Fin 1) :
    val_main_v212 (F := Ideal) x0 x1 x2 x4 x5 x6 x7 x8 x9 x10 x11 x12 x13 x14 x15 x16 (ix2 e j)
      = Cert.Spec.dense
          (fun k => val_main_v204 (F := Ideal) x0 x1 x2 x4 x5 x6 x7 x8 x9 x10 x11 x12 x13 x14 x15 x16 (ix2 e k))
          (fun k j => x15 (ix3 1 k j)) (fun j => x16 (ix2 1 j)) j := by
  rw [val_main_v212_apply, val_main_v207_apply, bias211, Ideal.addf_def]
  unfold Cert.Spec.dense
  refine congrArg (· + x16 (ix2 1 j)) (Finset.sum_congr rfl fun k _ => ?_)
  have hl : lidx_main_v207 (ix2 e j) k = ix2 e k :=
    funext fun a => Fin.ext (by match a with | ⟨0, _⟩ => rfl | ⟨1, _⟩ => rfl)
  rw [w206, hl]

end Weight

section Node
variable (x0 : (⟨S50000, .i32⟩ : BufTy).Contents (Elt Ideal)) (x1 : (⟨S50000x3, .f32⟩ : BufTy).Contents (Elt Ideal))
  (x2 : (⟨S2x800000, .i32⟩ : BufTy).Contents (Elt Ideal)) (x4 : (⟨S100x64, .f32⟩ : BufTy).Contents (Elt Ideal))
  (x5 : (⟨S2x129x64, .f32⟩ : BufTy).Contents (Elt Ideal)) (x6 : (⟨S2x64, .f32⟩ : BufTy).Contents (Elt Ideal))
  (x7 : (⟨S2x64x64, .f32⟩ : BufTy).Contents (Elt Ideal)) (x8 : (⟨S2x64, .f32⟩ : BufTy).Contents (Elt Ideal))
  (x9 : (⟨S2x128x64, .f32⟩ : BufTy).Contents (Elt Ideal)) (x10 : (⟨S2x64, .f32⟩ : BufTy).Contents (Elt Ideal))
  (x11 : (⟨S2x64x64, .f32⟩ : BufTy).Contents (Elt Ideal)) (x12 : (⟨S2x64, .f32⟩ : BufTy).Contents (Elt Ideal))
  (x13 : (⟨S2x64x64, .f32⟩ : BufTy).Contents (Elt Ideal)) (x14 : (⟨S2x64, .f32⟩ : BufTy).Contents (Elt Ideal))
  (x15 : (⟨S2x64x1, .f32⟩ : BufTy).Contents (Elt Ideal)) (x16 : (⟨S2x1, .f32⟩ : BufTy).Contents (Elt Ideal))

private theorem cat222 (n : Fin 50000) (k : Fin 128) :
    val_main_v222 (F := Ideal) x0 x1 x2 x4 x5 x6 x7 x8 x9 x10 x11 x12 x13 x14 x15 x16 (ix2 n k)
      = Cert.Spec.cat128 (fun k => val_main_v128 (F := Ideal) x0 x1 x2 x4 x5 x6 x7 x8 x9 x10 x11 x12 (ix2 n k))
          (fun k => val_main_v221 (F := Ideal) x0 x1 x2 x4 x5 x6 x7 x8 x9 x10 x11 x12 x13 x14 x15 x16 (ix2 n k)) k := by
  unfold val_main_v222
  exact cat128_apply _ _ _ n k

private theorem w224 (n : Fin 50000) (j : Fin 64) (k : Fin 128) :
    val_main_v224 (F := Ideal) x9 (ridx_main_v225 (ix2 n j) k) = x9 (ix3 1 k j) := by
  rw [val_main_v224_apply, val_main_v223_apply]
  exact congrArg x9 (funext fun a => Fin.ext (by
    match a with
    | ⟨0, _⟩ => rfl
    | ⟨1, _⟩ => show (k.val * 64 + j.val) / 64 % 128 = k.val; omega
    | ⟨2, _⟩ => show (k.val * 64 + j.val) % 64 = j.val; omega))

private theorem bias229 (n : Fin 50000) (j : Fin 64) :
    val_main_v229 (F := Ideal) x10 (ix2 n j) = x10 (ix2 1 j) := by
  rw [val_main_v229_apply, val_main_v228_apply, val_main_v227_apply, val_main_v226_apply]
  exact congrArg x10 (funext fun a => Fin.ext (by
    match a with
    | ⟨0, _⟩ => rfl
    | ⟨1, _⟩ => show j.val % 64 = j.val; omega))

private theorem dense230 (n : Fin 50000) (j : Fin 64) :
    val_main_v230 (F := Ideal) x0 x1 x2 x4 x5 x6 x7 x8 x9 x10 x11 x12 x13 x14 x15 x16 (ix2 n j)
      = Cert.Spec.dense
          (Cert.Spec.cat128 (fun k => val_main_v128 (F := Ideal) x0 x1 x2 x4 x5 x6 x7 x8 x9 x10 x11 x12 (ix2 n k))
            (fun k => val_main_v221 (F := Ideal) x0 x1 x2 x4 x5 x6 x7 x8 x9 x10 x11 x12 x13 x14 x15 x16 (ix2 n k)))
          (fun k j => x9 (ix3 1 k j)) (fun j => x10 (ix2 1 j)) j := by
  rw [val_main_v230_apply, val_main_v225_apply, bias229, Ideal.addf_def]
  unfold Cert.Spec.dense
  refine congrArg (· + x10 (ix2 1 j)) (Finset.sum_congr rfl fun k _ => ?_)
  have hl : lidx_main_v225 (ix2 n j) k = ix2 n k :=
    funext fun a => Fin.ext (by match a with | ⟨0, _⟩ => rfl | ⟨1, _⟩ => rfl)
  rw [w224, hl, cat222]

private theorem silu237 (i : S50000x64.Idx) :
    val_main_v237 (F := Ideal) x0 x1 x2 x4 x5 x6 x7 x8 x9 x10 x11 x12 x13 x14 x15 x16 i
      = Cert.Spec.silu (val_main_v230 (F := Ideal) x0 x1 x2 x4 x5 x6 x7 x8 x9 x10 x11 x12 x13 x14 x15 x16 i) := by
  rw [val_main_v237_apply, val_main_v236_apply, val_main_v235_apply, val_main_cst_35_apply, val_main_v234_apply,
    val_main_v233_apply, val_main_cst_34_apply, val_main_v232_apply, val_main_v231_apply]
  generalize val_main_v230 (F := Ideal) x0 x1 x2 x4 x5 x6 x7 x8 x9 x10 x11 x12 x13 x14 x15 x16 i = x
  exact silu_spelled x

private theorem w239 (n : Fin 50000) (j : Fin 64) (k : Fin 64) :
    val_main_v239 (F := Ideal) x11 (ridx_main_v240 (ix2 n j) k) = x11 (ix3 1 k j) := by
  rw [val_main_v239_apply, val_main_v238_apply]
  exact congrArg x11 (funext fun a => Fin.ext (by
    match a with
    | ⟨0, _⟩ => rfl
    | ⟨1, _⟩ => show (k.val * 64 + j.val) / 64 % 64 = k.val; omega
    | ⟨2, _⟩ => show (k.val * 64 + j.val) % 64 = j.val; omega))

private theorem bias244 (n : Fin 50000) (j : Fin 64) :
    val_main_v244 (F := Ideal) x12 (ix2 n j) = x12 (ix2 1 j) := by
  rw [val_main_v244_apply, val_main_v243_apply, val_main_v242_apply, val_main_v241_apply]
  exact congrArg x12 (funext fun a => Fin.ext (by
    match a with
    | ⟨0, _⟩ => rfl
    | ⟨1, _⟩ => show j.val % 64 = j.val; omega))

private theorem dense245 (n : Fin 50000) (j : Fin 64) :
    val_main_v245 (F := Ideal) x0 x1 x2 x4 x5 x6 x7 x8 x9 x10 x11 x12 x13 x14 x15 x16 (ix2 n j)
      = Cert.Spec.dense
          (fun k => val_main_v237 (F := Ideal) x0 x1 x2 x4 x5 x6 x7 x8 x9 x10 x11 x12 x13 x14 x15 x16 (ix2 n k))
          (fun k j => x11 (ix3 1 k j)) (fun j => x12 (ix2 1 j)) j := by
  rw [val_main_v245_apply, val_main_v240_apply, bias244, Ideal.addf_def]
  unfold Cert.Spec.dense
  refine congrArg (· + x12 (ix2 1 j)) (Finset.sum_congr rfl fun k _ => ?_)
  have hl : lidx_main_v240 (ix2 n j) k = ix2 n k :=
    funext fun a => Fin.ext (by match a with | ⟨0, _⟩ => rfl | ⟨1, _⟩ => rfl)
  rw [w239, hl]

end Node

theorem m_apply (x0 : (⟨S50000, .i32⟩ : BufTy).Contents (Elt Ideal)) (x1 : (⟨S50000x3, .f32⟩ : BufTy).Contents (Elt Ideal)) (x2 : (⟨S2x800000, .i32⟩ : BufTy).Contents (Elt Ideal)) (x4 : (⟨S100x64, .f32⟩ : BufTy).Contents (Elt Ideal)) (x5 : (⟨S2x129x64, .f32⟩ : BufTy).Contents (Elt Ideal)) (x6 : (⟨S2x64, .f32⟩ : BufTy).Contents (Elt Ideal)) (x7 : (⟨S2x64x64, .f32⟩ : BufTy).Contents (Elt Ideal)) (x8 : (⟨S2x64, .f32⟩ : BufTy).Contents (Elt Ideal)) (x9 : (⟨S2x128x64, .f32⟩ : BufTy).Contents (Elt Ideal)) (x10 : (⟨S2x64, .f32⟩ : BufTy).Contents (Elt Ideal)) (x11 : (⟨S2x64x64, .f32⟩ : BufTy).Contents (Elt Ideal)) (x12 : (⟨S2x64, .f32⟩ : BufTy).Contents (Elt Ideal)) (x13 : (⟨S2x64x64, .f32⟩ : BufTy).Contents (Elt Ideal)) (x14 : (⟨S2x64, .f32⟩ : BufTy).Contents (Elt Ideal)) (x15 : (⟨S2x64x1, .f32⟩ : BufTy).Contents (Elt Ideal)) (x16 : (⟨S2x1, .f32⟩ : BufTy).Contents (Elt Ideal)) (e : Fin 800000) (j : Fin 64) :
    val_main_v189 (F := Ideal) x0 x1 x2 x4 x5 x6 x7 x8 x9 x10 x11 x12 x13 x14 x15 x16 (ix2 e j)
      = Cert.Spec.edgeM (fun k => val_main_v151 (F := Ideal) x0 x1 x2 x4 x5 x6 x7 x8 x9 x10 x11 x12 (ix2 e k)) (fun k => val_main_v158 (F := Ideal) x0 x1 x2 x4 x5 x6 x7 x8 x9 x10 x11 x12 (ix2 e k)) (val_main_v144 (F := Ideal) x0 x1 x2 x4 x5 x6 x7 x8 x13 x14 x15 x16 (ix2 e 0))
          (fun k j => x5 (ix3 1 k j)) (fun j => x6 (ix2 1 j)) (fun k j => x7 (ix3 1 k j)) (fun j => x8 (ix2 1 j)) j := by
  rw [silu189, dense182]
  unfold Cert.Spec.edgeM
  have h : (fun k => val_main_v174 (F := Ideal) x0 x1 x2 x4 x5 x6 x7 x8 x9 x10 x11 x12 x13 x14 x15 x16 (ix2 e k))
      = fun k => Cert.Spec.silu (Cert.Spec.dense
          (Cert.Spec.feat129 (fun k => val_main_v151 (F := Ideal) x0 x1 x2 x4 x5 x6 x7 x8 x9 x10 x11 x12 (ix2 e k))
            (fun k => val_main_v158 (F := Ideal) x0 x1 x2 x4 x5 x6 x7 x8 x9 x10 x11 x12 (ix2 e k))
            (val_main_v144 (F := Ideal) x0 x1 x2 x4 x5 x6 x7 x8 x13 x14 x15 x16 (ix2 e 0)))
          (fun k j => x5 (ix3 1 k j)) (fun j => x6 (ix2 1 j)) k) :=
    funext fun k => by rw [silu174, dense167]
  rw [h]

theorem wx_apply (x0 : (⟨S50000, .i32⟩ : BufTy).Contents (Elt Ideal)) (x1 : (⟨S50000x3, .f32⟩ : BufTy).Contents (Elt Ideal)) (x2 : (⟨S2x800000, .i32⟩ : BufTy).Contents (Elt Ideal)) (x4 : (⟨S100x64, .f32⟩ : BufTy).Contents (Elt Ideal)) (x5 : (⟨S2x129x64, .f32⟩ : BufTy).Contents (Elt Ideal)) (x6 : (⟨S2x64, .f32⟩ : BufTy).Contents (Elt Ideal)) (x7 : (⟨S2x64x64, .f32⟩ : BufTy).Contents (Elt Ideal)) (x8 : (⟨S2x64, .f32⟩ : BufTy).Contents (Elt Ideal)) (x9 : (⟨S2x128x64, .f32⟩ : BufTy).Contents (Elt Ideal)) (x10 : (⟨S2x64, .f32⟩ : BufTy).Contents (Elt Ideal)) (x11 : (⟨S2x64x64, .f32⟩ : BufTy).Contents (Elt Ideal)) (x12 : (⟨S2x64, .f32⟩ : BufTy).Contents (Elt Ideal)) (x13 : (⟨S2x64x64, .f32⟩ : BufTy).Contents (Elt Ideal)) (x14 : (⟨S2x64, .f32⟩ : BufTy).Contents (Elt Ideal)) (x15 : (⟨S2x64x1, .f32⟩ : BufTy).Contents (Elt Ideal)) (x16 : (⟨S2x1, .f32⟩ : BufTy).Contents (Elt Ideal)) (e : Fin 800000) (d : Fin 3) :
    val_main_v214 (F := Ideal) x0 x1 x2 x4 x5 x6 x7 x8 x9 x10 x11 x12 x13 x14 x15 x16 (ix2 e d)
      = Cert.Spec.edgeW (fun k => val_main_v189 (F := Ideal) x0 x1 x2 x4 x5 x6 x7 x8 x9 x10 x11 x12 x13 x14 x15 x16 (ix2 e k))
          (fun k j => x13 (ix3 1 k j)) (fun j => x14 (ix2 1 j)) (fun k j => x15 (ix3 1 k j)) (fun j => x16 (ix2 1 j))
        * val_main_v143 (F := Ideal) x0 x1 x2 x4 x5 x6 x7 x8 x13 x14 x15 x16 (ix2 e d) := by
  rw [val_main_v214_apply, val_main_v213_apply, Ideal.mulf_def]
  have hi : idx_main_v213 (ix2 e d) = ix2 e 0 :=
    funext fun a => Fin.ext (by match a with | ⟨0, _⟩ => rfl | ⟨1, _⟩ => rfl)
  rw [hi, dense212]
  unfold Cert.Spec.edgeW
  have h : (fun k => val_main_v204 (F := Ideal) x0 x1 x2 x4 x5 x6 x7 x8 x9 x10 x11 x12 x13 x14 x15 x16 (ix2 e k))
      = fun k => Cert.Spec.silu (Cert.Spec.dense
          (fun k => val_main_v189 (F := Ideal) x0 x1 x2 x4 x5 x6 x7 x8 x9 x10 x11 x12 x13 x14 x15 x16 (ix2 e k))
          (fun k j => x13 (ix3 1 k j)) (fun j => x14 (ix2 1 j)) k) :=
    funext fun k => by rw [silu204, dense197]
  rw [h]

theorem h_apply (x0 : (⟨S50000, .i32⟩ : BufTy).Contents (Elt Ideal)) (x1 : (⟨S50000x3, .f32⟩ : BufTy).Contents (Elt Ideal)) (x2 : (⟨S2x800000, .i32⟩ : BufTy).Contents (Elt Ideal)) (x4 : (⟨S100x64, .f32⟩ : BufTy).Contents (Elt Ideal)) (x5 : (⟨S2x129x64, .f32⟩ : BufTy).Contents (Elt Ideal)) (x6 : (⟨S2x64, .f32⟩ : BufTy).Contents (Elt Ideal)) (x7 : (⟨S2x64x64, .f32⟩ : BufTy).Contents (Elt Ideal)) (x8 : (⟨S2x64, .f32⟩ : BufTy).Contents (Elt Ideal)) (x9 : (⟨S2x128x64, .f32⟩ : BufTy).Contents (Elt Ideal)) (x10 : (⟨S2x64, .f32⟩ : BufTy).Contents (Elt Ideal)) (x11 : (⟨S2x64x64, .f32⟩ : BufTy).Contents (Elt Ideal)) (x12 : (⟨S2x64, .f32⟩ : BufTy).Contents (Elt Ideal)) (x13 : (⟨S2x64x64, .f32⟩ : BufTy).Contents (Elt Ideal)) (x14 : (⟨S2x64, .f32⟩ : BufTy).Contents (Elt Ideal)) (x15 : (⟨S2x64x1, .f32⟩ : BufTy).Contents (Elt Ideal)) (x16 : (⟨S2x1, .f32⟩ : BufTy).Contents (Elt Ideal)) (n : Fin 50000) (j : Fin 64) :
    val_main_v246 (F := Ideal) x0 x1 x2 x4 x5 x6 x7 x8 x9 x10 x11 x12 x13 x14 x15 x16 (ix2 n j)
      = Cert.Spec.nodeH (fun k => val_main_v128 (F := Ideal) x0 x1 x2 x4 x5 x6 x7 x8 x9 x10 x11 x12 (ix2 n k)) (fun k => val_main_v221 (F := Ideal) x0 x1 x2 x4 x5 x6 x7 x8 x9 x10 x11 x12 x13 x14 x15 x16 (ix2 n k))
          (fun k j => x9 (ix3 1 k j)) (fun j => x10 (ix2 1 j)) (fun k j => x11 (ix3 1 k j)) (fun j => x12 (ix2 1 j)) j := by
  rw [val_main_v246_apply, Ideal.addf_def, dense245]
  unfold Cert.Spec.nodeH
  have h : (fun k => val_main_v237 (F := Ideal) x0 x1 x2 x4 x5 x6 x7 x8 x9 x10 x11 x12 x13 x14 x15 x16 (ix2 n k))
      = fun k => Cert.Spec.silu (Cert.Spec.dense
          (Cert.Spec.cat128 (fun k => val_main_v128 (F := Ideal) x0 x1 x2 x4 x5 x6 x7 x8 x9 x10 x11 x12 (ix2 n k))
            (fun k => val_main_v221 (F := Ideal) x0 x1 x2 x4 x5 x6 x7 x8 x9 x10 x11 x12 x13 x14 x15 x16 (ix2 n k)))
          (fun k j => x9 (ix3 1 k j)) (fun j => x10 (ix2 1 j)) k) :=
    funext fun k => by rw [silu237, dense230]
  rw [h]

end Cert.ReferenceIdeal.RLayer1

end
-- ==== Proof.KCarry.lean ====
import proofs.«428515_j67688684585222_1_alg».proof.Proof.KFold
import Idealize.ShloMosaic.PureOps.Ideal

/-! Buffers that nothing between two points of the tiled program's run writes: the same contents at both. -/

set_option maxRecDepth 16384

noncomputable section

namespace Cert.KernelIdeal.KCarry

open Idealize.ShloMosaic Idealize.ShloMosaic.TcCoe Idealize.SL.Sem
open Cert.KernelIdeal Cert.KernelIdeal.Gen Cert.KernelIdeal.KFold
open Cert.KernelIdeal.Facts₀ Cert.KernelIdeal.Facts

variable (m : (ℓ : Loc nD τ sig) → Buf (Elt Ideal) ℓ) (ρ : Dev nD → PrngReg)

local macro "over_stretch" : tactic => `(tactic| refine Eq.trans (by stretch_skip) ?_)

local macro "over_region0" : tactic => `(tactic| refine Eq.trans (W11_of_ne _ _ _ _ (by decide)) ?_)

local macro "over_region1" : tactic => `(tactic| refine Eq.trans (W13_of_ne _ _ _ _ (by decide)) ?_)

local macro "over_region2" : tactic => `(tactic| refine Eq.trans (W23_of_ne _ _ _ _ (by decide)) ?_)

theorem arg1_W5 (c : Dev nD) :
    W5 m ρ c (Proc.devRef .tc main_arg1) = m ((c.tc : Thread nD τ).loc main_arg1) := by
  iterate 5 over_stretch
  rfl

theorem arg1_W6 (c : Dev nD) :
    W6 m ρ c (Proc.devRef .tc main_arg1) = m ((c.tc : Thread nD τ).loc main_arg1) := by
  over_stretch
  exact arg1_W5 m ρ c

theorem arg1_W11 (c : Dev nD) :
    W11 m ρ c (Proc.devRef .tc main_arg1) = m ((c.tc : Thread nD τ).loc main_arg1) := by
  over_region0
  iterate 4 over_stretch
  exact arg1_W6 m ρ c

theorem arg5_W9 (c : Dev nD) :
    W9 m ρ c (Proc.devRef .tc main_arg5) = m ((c.tc : Thread nD τ).loc main_arg5) := by
  iterate 9 over_stretch
  rfl

theorem arg5_W21 (c : Dev nD) :
    W21 m ρ c (Proc.devRef .tc main_arg5) = m ((c.tc : Thread nD τ).loc main_arg5) := by
  iterate 8 over_stretch
  over_region1
  over_stretch
  over_region0
  over_stretch
  exact arg5_W9 m ρ c

theorem arg6_W9 (c : Dev nD) :
    W9 m ρ c (Proc.devRef .tc main_arg6) = m ((c.tc : Thread nD τ).loc main_arg6) := by
  iterate 9 over_stretch
  rfl

theorem arg6_W21 (c : Dev nD) :
    W21 m ρ c (Proc.devRef .tc main_arg6) = m ((c.tc : Thread nD τ).loc main_arg6) := by
  iterate 8 over_stretch
  over_region1
  over_stretch
  over_region0
  over_stretch
  exact arg6_W9 m ρ c

theorem arg7_W9 (c : Dev nD) :
    W9 m ρ c (Proc.devRef .tc main_arg7) = m ((c.tc : Thread nD τ).loc main_arg7) := by
  iterate 9 over_stretch
  rfl

theorem arg7_W21 (c : Dev nD) :
    W21 m ρ c (Proc.devRef .tc main_arg7) = m ((c.tc : Thread nD τ).loc main_arg7) := by
  iterate 8 over_stretch
  over_region1
  over_stretch
  over_region0
  over_stretch
  exact arg7_W9 m ρ c

theorem arg8_W9 (c : Dev nD) :
    W9 m ρ c (Proc.devRef .tc main_arg8) = m ((c.tc : Thread nD τ).loc main_arg8) := by
  iterate 9 over_stretch
  rfl

theorem arg8_W21 (c : Dev nD) :
    W21 m ρ c (Proc.devRef .tc main_arg8) = m ((c.tc : Thread nD τ).loc main_arg8) := by
  iterate 8 over_stretch
  over_region1
  over_stretch
  over_region0
  over_stretch
  exact arg8_W9 m ρ c

theorem arg13_W9 (c : Dev nD) :
    W9 m ρ c (Proc.devRef .tc main_arg13) = m ((c.tc : Thread nD τ).loc main_arg13) := by
  iterate 9 over_stretch
  rfl

theorem arg13_W21 (c : Dev nD) :
    W21 m ρ c (Proc.devRef .tc main_arg13) = m ((c.tc : Thread nD τ).loc main_arg13) := by
  iterate 8 over_stretch
  over_region1
  over_stretch
  over_region0
  over_stretch
  exact arg13_W9 m ρ c

theorem arg14_W9 (c : Dev nD) :
    W9 m ρ c (Proc.devRef .tc main_arg14) = m ((c.tc : Thread nD τ).loc main_arg14) := by
  iterate 9 over_stretch
  rfl

theorem arg14_W21 (c : Dev nD) :
    W21 m ρ c (Proc.devRef .tc main_arg14) = m ((c.tc : Thread nD τ).loc main_arg14) := by
  iterate 8 over_stretch
  over_region1
  over_stretch
  over_region0
  over_stretch
  exact arg14_W9 m ρ c

theorem arg15_W9 (c : Dev nD) :
    W9 m ρ c (Proc.devRef .tc main_arg15) = m ((c.tc : Thread nD τ).loc main_arg15) := by
  iterate 9 over_stretch
  rfl

theorem arg15_W21 (c : Dev nD) :
    W21 m ρ c (Proc.devRef .tc main_arg15) = m ((c.tc : Thread nD τ).loc main_arg15) := by
  iterate 8 over_stretch
  over_region1
  over_stretch
  over_region0
  over_stretch
  exact arg15_W9 m ρ c

theorem arg16_W9 (c : Dev nD) :
    W9 m ρ c (Proc.devRef .tc main_arg16) = m ((c.tc : Thread nD τ).loc main_arg16) := by
  iterate 9 over_stretch
  rfl

theorem arg16_W21 (c : Dev nD) :
    W21 m ρ c (Proc.devRef .tc main_arg16) = m ((c.tc : Thread nD τ).loc main_arg16) := by
  iterate 8 over_stretch
  over_region1
  over_stretch
  over_region0
  over_stretch
  exact arg16_W9 m ρ c

theorem arg9_W11 (c : Dev nD) :
    W11 m ρ c (Proc.devRef .tc main_arg9) = m ((c.tc : Thread nD τ).loc main_arg9) := by
  over_region0
  iterate 10 over_stretch
  rfl

theorem arg9_W23 (c : Dev nD) :
    W23 m ρ c (Proc.devRef .tc main_arg9) = m ((c.tc : Thread nD τ).loc main_arg9) := by
  over_region2
  iterate 9 over_stretch
  over_region1
  over_stretch
  exact arg9_W11 m ρ c

theorem arg10_W11 (c : Dev nD) :
    W11 m ρ c (Proc.devRef .tc main_arg10) = m ((c.tc : Thread nD τ).loc main_arg10) := by
  over_region0
  iterate 10 over_stretch
  rfl

theorem arg10_W23 (c : Dev nD) :
    W23 m ρ c (Proc.devRef .tc main_arg10) = m ((c.tc : Thread nD τ).loc main_arg10) := by
  over_region2
  iterate 9 over_stretch
  over_region1
  over_stretch
  exact arg10_W11 m ρ c

theorem arg11_W11 (c : Dev nD) :
    W11 m ρ c (Proc.devRef .tc main_arg11) = m ((c.tc : Thread nD τ).loc main_arg11) := by
  over_region0
  iterate 10 over_stretch
  rfl

theorem arg11_W23 (c : Dev nD) :
    W23 m ρ c (Proc.devRef .tc main_arg11) = m ((c.tc : Thread nD τ).loc main_arg11) := by
  over_region2
  iterate 9 over_stretch
  over_region1
  over_stretch
  exact arg11_W11 m ρ c

theorem arg12_W11 (c : Dev nD) :
    W11 m ρ c (Proc.devRef .tc main_arg12) = m ((c.tc : Thread nD τ).loc main_arg12) := by
  over_region0
  iterate 10 over_stretch
  rfl

theorem arg12_W23 (c : Dev nD) :
    W23 m ρ c (Proc.devRef .tc main_arg12) = m ((c.tc : Thread nD τ).loc main_arg12) := by
  over_region2
  iterate 9 over_stretch
  over_region1
  over_stretch
  exact arg12_W11 m ρ c

theorem v3_W5 (c : Dev nD) :
    W5 m ρ c (Proc.devRef .tc main_v3) = W1 m ρ c (Proc.devRef .tc main_v3) := by
  iterate 4 over_stretch
  rfl

theorem v3_W11 (c : Dev nD) :
    W11 m ρ c (Proc.devRef .tc main_v3) = W1 m ρ c (Proc.devRef .tc main_v3) := by
  over_region0
  iterate 5 over_stretch
  exact v3_W5 m ρ c

theorem v3_W13 (c : Dev nD) :
    W13 m ρ c (Proc.devRef .tc main_v3) = W1 m ρ c (Proc.devRef .tc main_v3) := by
  over_region1
  over_stretch
  exact v3_W11 m ρ c

theorem v3_W17 (c : Dev nD) :
    W17 m ρ c (Proc.devRef .tc main_v3) = W1 m ρ c (Proc.devRef .tc main_v3) := by
  iterate 4 over_stretch
  exact v3_W13 m ρ c

theorem v3_W23 (c : Dev nD) :
    W23 m ρ c (Proc.devRef .tc main_v3) = W1 m ρ c (Proc.devRef .tc main_v3) := by
  over_region2
  iterate 5 over_stretch
  exact v3_W17 m ρ c

theorem v1_W3 (c : Dev nD) :
    W3 m ρ c (Proc.devRef .tc main_v1) = W1 m ρ c (Proc.devRef .tc main_v1) := by
  iterate 2 over_stretch
  rfl

theorem v1_W6 (c : Dev nD) :
    W6 m ρ c (Proc.devRef .tc main_v1) = W1 m ρ c (Proc.devRef .tc main_v1) := by
  iterate 3 over_stretch
  exact v1_W3 m ρ c

theorem v1_W15 (c : Dev nD) :
    W15 m ρ c (Proc.devRef .tc main_v1) = W1 m ρ c (Proc.devRef .tc main_v1) := by
  iterate 2 over_stretch
  over_region1
  over_stretch
  over_region0
  iterate 4 over_stretch
  exact v1_W6 m ρ c

theorem v1_W18 (c : Dev nD) :
    W18 m ρ c (Proc.devRef .tc main_v1) = W1 m ρ c (Proc.devRef .tc main_v1) := by
  iterate 3 over_stretch
  exact v1_W15 m ρ c

theorem v10_W3 (c : Dev nD) :
    W3 m ρ c (Proc.devRef .tc main_v10) = W1 m ρ c (Proc.devRef .tc main_v10) := by
  iterate 2 over_stretch
  rfl

theorem v10_W12 (c : Dev nD) :
    W12 m ρ c (Proc.devRef .tc main_v10) = W1 m ρ c (Proc.devRef .tc main_v10) := by
  over_stretch
  over_region0
  iterate 7 over_stretch
  exact v10_W3 m ρ c

theorem v47_W17 (c : Dev nD) :
    W17 m ρ c (Proc.devRef .tc main_v47) = W12 m ρ c (Proc.devRef .tc main_v47) := by
  iterate 4 over_stretch
  over_region1
  rfl

theorem v47_W18 (c : Dev nD) :
    W18 m ρ c (Proc.devRef .tc main_v47) = W12 m ρ c (Proc.devRef .tc main_v47) := by
  over_stretch
  exact v47_W17 m ρ c

theorem v47_W23 (c : Dev nD) :
    W23 m ρ c (Proc.devRef .tc main_v47) = W12 m ρ c (Proc.devRef .tc main_v47) := by
  over_region2
  iterate 4 over_stretch
  exact v47_W18 m ρ c

theorem v58_W15 (c : Dev nD) :
    W15 m ρ c (Proc.devRef .tc main_v58) = W13 m ρ c (Proc.devRef .tc main_v58) := by
  iterate 2 over_stretch
  rfl

theorem v58_W24 (c : Dev nD) :
    W24 m ρ c (Proc.devRef .tc main_v58) = W13 m ρ c (Proc.devRef .tc main_v58) := by
  over_stretch
  over_region2
  iterate 7 over_stretch
  exact v58_W15 m ρ c

end Cert.KernelIdeal.KCarry

end
-- ==== Proof.KTake.lean ====
import proofs.«428515_j67688684585222_1_alg».proof.Proof.KFold
import proofs.«428515_j67688684585222_1_alg».proof.Proof.Take

/-! The tiled program's eight guarded row lookups, each as one function of its table and its index vector. -/

set_option maxRecDepth 16384

noncomputable section

namespace Cert.KernelIdeal.KTake

open Idealize.ShloMosaic Idealize.ShloMosaic.TcCoe Idealize.SL.Sem
open Cert.KernelIdeal Cert.KernelIdeal.Gen
open Cert.KernelIdeal.Facts₀ Cert.KernelIdeal.Facts

theorem ofBuf_toBuf {T : BufTy} (x : StableHlo.TRef sig T) (v : T.Contents (Elt Ideal)) : x.ofBuf (x.toBuf v) = v := by
  obtain ⟨r, h, h2, h3⟩ := x; subst h; rfl

theorem leaf_v3 (V : Valuation τ sig (Elt Ideal)) (h1 h2 h3) :
    (StableHlo.TRef.of main_v3 h1 h2 h3 : StableHlo.TRef sig ⟨S800000, .i32⟩).ofBuf (V (Proc.devRef .tc main_v3))
      = V (Proc.devRef .tc main_v3) := rfl

theorem leaf_v1 (V : Valuation τ sig (Elt Ideal)) (h1 h2 h3) :
    (StableHlo.TRef.of main_v1 h1 h2 h3 : StableHlo.TRef sig ⟨S800000, .i32⟩).ofBuf (V (Proc.devRef .tc main_v1))
      = V (Proc.devRef .tc main_v1) := rfl

theorem leaf_v10 (V : Valuation τ sig (Elt Ideal)) (h1 h2 h3) :
    (StableHlo.TRef.of main_v10 h1 h2 h3 : StableHlo.TRef sig ⟨S50000x64, .f32⟩).ofBuf (V (Proc.devRef .tc main_v10))
      = V (Proc.devRef .tc main_v10) := rfl

theorem leaf_v58 (V : Valuation τ sig (Elt Ideal)) (h1 h2 h3) :
    (StableHlo.TRef.of main_v58 h1 h2 h3 : StableHlo.TRef sig ⟨S50000x64, .f32⟩).ofBuf (V (Proc.devRef .tc main_v58))
      = V (Proc.devRef .tc main_v58) := rfl

theorem leaf_arg1 (V : Valuation τ sig (Elt Ideal)) (h1 h2 h3) :
    (StableHlo.TRef.of main_arg1 h1 h2 h3 : StableHlo.TRef sig ⟨S50000x3, .f32⟩).ofBuf (V (Proc.devRef .tc main_arg1))
      = V (Proc.devRef .tc main_arg1) := rfl

theorem leaf_v47 (V : Valuation τ sig (Elt Ideal)) (h1 h2 h3) :
    (StableHlo.TRef.of main_v47 h1 h2 h3 : StableHlo.TRef sig ⟨S50000x3, .f32⟩).ofBuf (V (Proc.devRef .tc main_v47))
      = V (Proc.devRef .tc main_v47) := rfl

set_option maxHeartbeats 16000000 in

theorem take_v11 (V : Valuation τ sig (Elt Ideal)) :
    @Eq (FVec Ideal S800000x64 .f32) (StableHlo.after hostOps0_1 V (Proc.devRef .tc main_v11))
      (Take.take64 (F := Ideal) (V (Proc.devRef .tc main_v10)) (V (Proc.devRef .tc main_v3))) := by
  after_results
  simp only [ofBuf_toBuf, leaf_v3, leaf_v10]
  refine eq_of_heq ((cast_heq _ _).trans (heq_of_eq ?_))
  unfold Take.take64 Take.inb64 Take.wrap
  rfl

set_option maxHeartbeats 16000000 in

theorem take_v13 (V : Valuation τ sig (Elt Ideal)) :
    @Eq (FVec Ideal S800000x64 .f32) (StableHlo.after hostOps0_3 V (Proc.devRef .tc main_v13))
      (Take.take64 (F := Ideal) (V (Proc.devRef .tc main_v10)) (V (Proc.devRef .tc main_v1))) := by
  after_results
  simp only [ofBuf_toBuf, leaf_v1, leaf_v10]
  refine eq_of_heq ((cast_heq _ _).trans (heq_of_eq ?_))
  unfold Take.take64 Take.inb64 Take.wrap
  rfl

set_option maxHeartbeats 16000000 in

theorem take_v15 (V : Valuation τ sig (Elt Ideal)) :
    @Eq (FVec Ideal S800000x3 .f32) (StableHlo.after hostOps0_5 V (Proc.devRef .tc main_v15))
      (Take.take3 (F := Ideal) (V (Proc.devRef .tc main_arg1)) (V (Proc.devRef .tc main_v3))) := by
  after_results
  simp only [ofBuf_toBuf, leaf_v3, leaf_arg1]
  refine eq_of_heq ((cast_heq _ _).trans (heq_of_eq ?_))
  unfold Take.take3 Take.inb3 Take.wrap
  rfl

set_option maxHeartbeats 16000000 in

theorem take_v16 (V : Valuation τ sig (Elt Ideal)) :
    @Eq (FVec Ideal S800000x3 .f32) (StableHlo.after hostOps0_6 V (Proc.devRef .tc main_v16))
      (Take.take3 (F := Ideal) (V (Proc.devRef .tc main_arg1)) (V (Proc.devRef .tc main_v1))) := by
  after_results
  simp only [ofBuf_toBuf, leaf_v1, leaf_arg1]
  refine eq_of_heq ((cast_heq _ _).trans (heq_of_eq ?_))
  unfold Take.take3 Take.inb3 Take.wrap
  rfl

set_option maxHeartbeats 16000000 in

theorem take_v59 (V : Valuation τ sig (Elt Ideal)) :
    @Eq (FVec Ideal S800000x64 .f32) (StableHlo.after hostOps2 V (Proc.devRef .tc main_v59))
      (Take.take64 (F := Ideal) (V (Proc.devRef .tc main_v58)) (V (Proc.devRef .tc main_v3))) := by
  after_results
  simp only [ofBuf_toBuf, leaf_v3, leaf_v58]
  refine eq_of_heq ((cast_heq _ _).trans (heq_of_eq ?_))
  unfold Take.take64 Take.inb64 Take.wrap
  rfl

set_option maxHeartbeats 16000000 in

theorem take_v61 (V : Valuation τ sig (Elt Ideal)) :
    @Eq (FVec Ideal S800000x64 .f32) (StableHlo.after hostOps2_2 V (Proc.devRef .tc main_v61))
      (Take.take64 (F := Ideal) (V (Proc.devRef .tc main_v58)) (V (Proc.devRef .tc main_v1))) := by
  after_results
  simp only [ofBuf_toBuf, leaf_v1, leaf_v58]
  refine eq_of_heq ((cast_heq _ _).trans (heq_of_eq ?_))
  unfold Take.take64 Take.inb64 Take.wrap
  rfl

set_option maxHeartbeats 16000000 in

theorem take_v63 (V : Valuation τ sig (Elt Ideal)) :
    @Eq (FVec Ideal S800000x3 .f32) (StableHlo.after hostOps2_4 V (Proc.devRef .tc main_v63))
      (Take.take3 (F := Ideal) (V (Proc.devRef .tc main_v47)) (V (Proc.devRef .tc main_v3))) := by
  after_results
  simp only [ofBuf_toBuf, leaf_v3, leaf_v47]
  refine eq_of_heq ((cast_heq _ _).trans (heq_of_eq ?_))
  unfold Take.take3 Take.inb3 Take.wrap
  rfl

set_option maxHeartbeats 16000000 in

theorem take_v64 (V : Valuation τ sig (Elt Ideal)) :
    @Eq (FVec Ideal S800000x3 .f32) (StableHlo.after hostOps2_5 V (Proc.devRef .tc main_v64))
      (Take.take3 (F := Ideal) (V (Proc.devRef .tc main_v47)) (V (Proc.devRef .tc main_v1))) := by
  after_results
  simp only [ofBuf_toBuf, leaf_v1, leaf_v47]
  refine eq_of_heq ((cast_heq _ _).trans (heq_of_eq ?_))
  unfold Take.take3 Take.inb3 Take.wrap
  rfl

end Cert.KernelIdeal.KTake

end
-- ==== Proof.EdgeArr0.lean ====
import proofs.«428515_j67688684585222_1_alg».proof.Proof.Gen.KernelIdeal.Frame
import proofs.«428515_j67688684585222_1_alg».proof.Proof.EdgePay

/-! The first layer's edge region. Block t of each output is the body's value on block t of the edge-indexed inputs, and the 160
    blocks of 5000 edges tile the arrays: row e of the outputs is `Spec.edgeM` / `Spec.edgeW` of row e of the inputs. -/

set_option maxRecDepth 16384

noncomputable section

namespace Cert.KernelIdeal.EdgeArr0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

private theorem zero2 : (![0, 0] : Fin 2 → Nat) = fun _ => 0 := funext fun a => by fin_cases a <;> rfl

private theorem edgeIndex : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

private theorem weightIndex : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

theorem blk0 (c : Dev nD) (t : Fin cfg0.N) (p : Fin 5000) (e : Fin 800000) (he : e.val = t.val * 5000 + p.val) (k : Fin 64) :
    (iblk0 (F := Ideal) V c 0 t : Vec Ideal S5000x64 .bf16) (ix2 p k) = V c main_v12 (ix2 e k) := by
  obtain ⟨h0, h1⟩ := (edgeIndex t).1
  show V c main_v12 (((cfg0.win 0).blk t).view.emb (ix2 p k)) = V c main_v12 (ix2 e k)
  refine congrArg (V c main_v12) (funext fun a => Fin.ext ?_)
  match a with
  | ⟨0, _⟩ => show win0_0.index t (0 : Fin 2) * 5000 + 1 * p.val = e.val; omega
  | ⟨1, _⟩ => show win0_0.index t (1 : Fin 2) * 64 + 1 * k.val = k.val; omega

theorem blk1 (c : Dev nD) (t : Fin cfg0.N) (p : Fin 5000) (e : Fin 800000) (he : e.val = t.val * 5000 + p.val) (k : Fin 64) :
    (iblk0 (F := Ideal) V c 1 t : Vec Ideal S5000x64 .bf16) (ix2 p k) = V c main_v14 (ix2 e k) := by
  obtain ⟨h0, h1⟩ := (edgeIndex t).2.1
  show V c main_v14 (((cfg0.win 1).blk t).view.emb (ix2 p k)) = V c main_v14 (ix2 e k)
  refine congrArg (V c main_v14) (funext fun a => Fin.ext ?_)
  match a with
  | ⟨0, _⟩ => show win0_1.index t (0 : Fin 2) * 5000 + 1 * p.val = e.val; omega
  | ⟨1, _⟩ => show win0_1.index t (1 : Fin 2) * 64 + 1 * k.val = k.val; omega

theorem blk2 (c : Dev nD) (t : Fin cfg0.N) (p : Fin 5000) (e : Fin 800000) (he : e.val = t.val * 5000 + p.val) (k : Fin 4) :
    (iblk0 (F := Ideal) V c 2 t : Vec Ideal S5000x4 .f32) (ix2 p k) = V c main_v19 (ix2 e k) := by
  obtain ⟨h0, h1⟩ := (edgeIndex t).2.2.1
  show V c main_v19 (((cfg0.win 2).blk t).view.emb (ix2 p k)) = V c main_v19 (ix2 e k)
  refine congrArg (V c main_v19) (funext fun a => Fin.ext ?_)
  match a with
  | ⟨0, _⟩ => show win0_2.index t (0 : Fin 2) * 5000 + 1 * p.val = e.val; omega
  | ⟨1, _⟩ => show win0_2.index t (1 : Fin 2) * 4 + 1 * k.val = k.val; omega

theorem blk3 (c : Dev nD) (t : Fin cfg0.N) (k : Fin 129) (j : Fin 64) :
    (iblk0 (F := Ideal) V c 3 t : Vec Ideal S129x64 .f32) (ix2 k j) = V c main_v21 (ix2 k j) := by
  obtain ⟨h0, h1⟩ := (weightIndex t).1
  show V c main_v21 (((cfg0.win 3).blk t).view.emb (ix2 k j)) = V c main_v21 (ix2 k j)
  refine congrArg (V c main_v21) (funext fun a => Fin.ext ?_)
  match a with
  | ⟨0, _⟩ => show win0_3.index t (0 : Fin 2) * 129 + 1 * k.val = k.val; omega
  | ⟨1, _⟩ => show win0_3.index t (1 : Fin 2) * 64 + 1 * j.val = j.val; omega

theorem blk4 (c : Dev nD) (t : Fin cfg0.N) (k : Fin 1) (j : Fin 64) :
    (iblk0 (F := Ideal) V c 4 t : Vec Ideal S1x64 .f32) (ix2 k j) = V c main_v24 (ix2 k j) := by
  obtain ⟨h0, h1⟩ := (weightIndex t).2.1
  show V c main_v24 (((cfg0.win 4).blk t).view.emb (ix2 k j)) = V c main_v24 (ix2 k j)
  refine congrArg (V c main_v24) (funext fun a => Fin.ext ?_)
  match a with
  | ⟨0, _⟩ => show win0_4.index t (0 : Fin 2) * 1 + 1 * k.val = k.val; omega
  | ⟨1, _⟩ => show win0_4.index t (1 : Fin 2) * 64 + 1 * j.val = j.val; omega

theorem blk5 (c : Dev nD) (t : Fin cfg0.N) (k : Fin 64) (j : Fin 64) :
    (iblk0 (F := Ideal) V c 5 t : Vec Ideal S64x64 .f32) (ix2 k j) = V c main_v26 (ix2 k j) := by
  obtain ⟨h0, h1⟩ := (weightIndex t).2.2.1
  show V c main_v26 (((cfg0.win 5).blk t).view.emb (ix2 k j)) = V c main_v26 (ix2 k j)
  refine congrArg (V c main_v26) (funext fun a => Fin.ext ?_)
  match a with
  | ⟨0, _⟩ => show win0_5.index t (0 : Fin 2) * 64 + 1 * k.val = k.val; omega
  | ⟨1, _⟩ => show win0_5.index t (1 : Fin 2) * 64 + 1 * j.val = j.val; omega

theorem blk6 (c : Dev nD) (t : Fin cfg0.N) (k : Fin 1) (j : Fin 64) :
    (iblk0 (F := Ideal) V c 6 t : Vec Ideal S1x64 .f32) (ix2 k j) = V c main_v29 (ix2 k j) := by
  obtain ⟨h0, h1⟩ := (weightIndex t).2.2.2.1
  show V c main_v29 (((cfg0.win 6).blk t).view.emb (ix2 k j)) = V c main_v29 (ix2 k j)
  refine congrArg (V c main_v29) (funext fun a => Fin.ext ?_)
  match a with
  | ⟨0, _⟩ => show win0_6.index t (0 : Fin 2) * 1 + 1 * k.val = k.val; omega
  | ⟨1, _⟩ => show win0_6.index t (1 : Fin 2) * 64 + 1 * j.val = j.val; omega

theorem blk7 (c : Dev nD) (t : Fin cfg0.N) (k : Fin 64) (j : Fin 64) :
    (iblk0 (F := Ideal) V c 7 t : Vec Ideal S64x64 .f32) (ix2 k j) = V c main_v31 (ix2 k j) := by
  obtain ⟨h0, h1⟩ := (weightIndex t).2.2.2.2.1
  show V c main_v31 (((cfg0.win 7).blk t).view.emb (ix2 k j)) = V c main_v31 (ix2 k j)
  refine congrArg (V c main_v31) (funext fun a => Fin.ext ?_)
  match a with
  | ⟨0, _⟩ => show win0_7.index t (0 : Fin 2) * 64 + 1 * k.val = k.val; omega
  | ⟨1, _⟩ => show win0_7.index t (1 : Fin 2) * 64 + 1 * j.val = j.val; omega

theorem blk8 (c : Dev nD) (t : Fin cfg0.N) (k : Fin 1) (j : Fin 64) :
    (iblk0 (F := Ideal) V c 8 t : Vec Ideal S1x64 .f32) (ix2 k j) = V c main_v34 (ix2 k j) := by
  obtain ⟨h0, h1⟩ := (weightIndex t).2.2.2.2.2.1
  show V c main_v34 (((cfg0.win 8).blk t).view.emb (ix2 k j)) = V c main_v34 (ix2 k j)
  refine congrArg (V c main_v34) (funext fun a => Fin.ext ?_)
  match a with
  | ⟨0, _⟩ => show win0_8.index t (0 : Fin 2) * 1 + 1 * k.val = k.val; omega
  | ⟨1, _⟩ => show win0_8.index t (1 : Fin 2) * 64 + 1 * j.val = j.val; omega

theorem blk9 (c : Dev nD) (t : Fin cfg0.N) (k : Fin 64) (j : Fin 1) :
    (iblk0 (F := Ideal) V c 9 t : Vec Ideal S64x1 .f32) (ix2 k j) = V c main_v36 (ix2 k j) := by
  obtain ⟨h0, h1⟩ := (weightIndex t).2.2.2.2.2.2.1
  show V c main_v36 (((cfg0.win 9).blk t).view.emb (ix2 k j)) = V c main_v36 (ix2 k j)
  refine congrArg (V c main_v36) (funext fun a => Fin.ext ?_)
  match a with
  | ⟨0, _⟩ => show win0_9.index t (0 : Fin 2) * 64 + 1 * k.val = k.val; omega
  | ⟨1, _⟩ => show win0_9.index t (1 : Fin 2) * 1 + 1 * j.val = j.val; omega

theorem blk10 (c : Dev nD) (t : Fin cfg0.N) (k : Fin 1) (j : Fin 1) :
    (iblk0 (F := Ideal) V c 10 t : Vec Ideal S1x1 .f32) (ix2 k j) = V c main_v39 (ix2 k j) := by
  obtain ⟨h0, h1⟩ := (weightIndex t).2.2.2.2.2.2.2
  show V c main_v39 (((cfg0.win 10).blk t).view.emb (ix2 k j)) = V c main_v39 (ix2 k j)
  refine congrArg (V c main_v39) (funext fun a => Fin.ext ?_)
  match a with
  | ⟨0, _⟩ => show win0_10.index t (0 : Fin 2) * 1 + 1 * k.val = k.val; omega
  | ⟨1, _⟩ => show win0_10.index t (1 : Fin 2) * 1 + 1 * j.val = j.val; omega

private theorem msg_row (x0 x1 : Vec Ideal S5000x64 .bf16) (x2 : Vec Ideal S5000x4 .f32) (x3 : Vec Ideal S129x64 .f32)
    (x4 : Vec Ideal S1x64 .f32) (x5 : Vec Ideal S64x64 .f32) (x6 : Vec Ideal S1x64 .f32) (p : Fin 5000) (j : Fin 64)
    (hd hs : Fin 64 → EReal) (r : EReal) (W1 : Fin 129 → Fin 64 → EReal) (b1 : Fin 64 → EReal)
    (W2 : Fin 64 → Fin 64 → EReal) (b2 : Fin 64 → EReal)
    (h0 : ∀ k, x0 (ix2 p k) = hd k) (h1 : ∀ k, x1 (ix2 p k) = hs k) (h2 : x2 (ix2 p 0) = r)
    (h3 : ∀ k j, x3 (ix2 k j) = W1 k j) (h4 : ∀ j, x4 (ix2 0 j) = b1 j)
    (h5 : ∀ k j, x5 (ix2 k j) = W2 k j) (h6 : ∀ j, x6 (ix2 0 j) = b2 j) :
    k0_pay4 (F := Ideal) x0 x1 x2 x3 x4 x5 x6 (ix2 p j) = Cert.Spec.edgeM hd hs r W1 b1 W2 b2 j := by
  rw [EdgePay.pay4_apply]
  simp only [h0, h1, h2, h3, h4, h5, h6]

private theorem wx_row (x0 x1 : Vec Ideal S5000x64 .bf16) (x2 : Vec Ideal S5000x4 .f32) (x3 : Vec Ideal S129x64 .f32)
    (x4 : Vec Ideal S1x64 .f32) (x5 : Vec Ideal S64x64 .f32) (x6 : Vec Ideal S1x64 .f32) (x7 : Vec Ideal S64x64 .f32)
    (x8 : Vec Ideal S1x64 .f32) (x9 : Vec Ideal S64x1 .f32) (x10 : Vec Ideal S1x1 .f32) (p : Fin 5000) (d : Fin 3)
    (mrow : Fin 64 → EReal) (Wx1 : Fin 64 → Fin 64 → EReal) (bx1 : Fin 64 → EReal)
    (Wx2 : Fin 64 → Fin 1 → EReal) (bx2 : Fin 1 → EReal) (xd : EReal)
    (hm : ∀ k, k0_pay4 (F := Ideal) x0 x1 x2 x3 x4 x5 x6 (ix2 p k) = mrow k)
    (h7 : ∀ k j, x7 (ix2 k j) = Wx1 k j) (h8 : ∀ j, x8 (ix2 0 j) = bx1 j)
    (h9 : ∀ k j, x9 (ix2 k j) = Wx2 k j) (h10 : ∀ j, x10 (ix2 0 j) = bx2 j)
    (hx : x2 (ix2 p ⟨d.val + 1, by omega⟩) = xd) :
    k0_pay1 (F := Ideal) (k0_pay3 x2) (k0_pay4 x0 x1 x2 x3 x4 x5 x6) x7 x8 x9 x10 (ix2 p d)
      = Cert.Spec.edgeW mrow Wx1 bx1 Wx2 bx2 * xd := by
  rw [EdgePay.pay1_apply, EdgePay.pay3_apply]
  simp only [hm, h7, h8, h9, h10, hx]

def msgArr (c : Dev nD) : S800000x64.Idx → EReal := fun i =>
  Cert.Spec.edgeM (fun k => V c main_v12 (ix2 (i 0) k)) (fun k => V c main_v14 (ix2 (i 0) k)) (V c main_v19 (ix2 (i 0) 0))
    (fun k j => V c main_v21 (ix2 k j)) (fun j => V c main_v24 (ix2 0 j))
    (fun k j => V c main_v26 (ix2 k j)) (fun j => V c main_v29 (ix2 0 j)) (i 1)

def wxArr (c : Dev nD) : S800000x3.Idx → EReal := fun i =>
  Cert.Spec.edgeW (fun k => msgArr V c (ix2 (i 0) k))
      (fun k j => V c main_v31 (ix2 k j)) (fun j => V c main_v34 (ix2 0 j))
      (fun k j => V c main_v36 (ix2 k j)) (fun j => V c main_v39 (ix2 0 j))
    * V c main_v19 (ix2 (i 0) ⟨(i 1).val + 1, Nat.succ_lt_succ (idx2_lt1 i)⟩)

private theorem edge_lt (t : Fin cfg0.N) (p : Fin 5000) : t.val * 5000 + p.val < 800000 := by
  have ht : t.val < 160 := lt_of_lt_of_eq t.isLt N_0
  have hp := p.isLt
  omega

theorem flushed_msg (c : Dev nD) (t : Fin cfg0.N) :
    (dat0 (F := Ideal) V c).flushed 11 t = ((cfg0.win 11).blk t).view.read (Elt Ideal) (msgArr V c) := by
  show (cfg0.win 11).cut (grid0.coords t) ((dat0 (F := Ideal) V c).after 11 t) = _
  rw [after0_11]
  unfold out0_11
  rw [View.canon_unit_zero zero2]
  simp only [View.ld_unit_zero (S := S5000x64) zero2, View.ld_unit_zero (S := S5000x4) zero2,
    View.ld_unit_zero (S := S129x64) zero2, View.ld_unit_zero (S := S1x64) zero2, View.ld_unit_zero (S := S64x64) zero2]
  funext y
  revert y
  show ∀ y : S5000x64.Idx, k0_pay4 (F := Ideal) (iblk0 V c 0 t) (iblk0 V c 1 t) (iblk0 V c 2 t) (iblk0 V c 3 t)
    (iblk0 V c 4 t) (iblk0 V c 5 t) (iblk0 V c 6 t) y = msgArr V c (((cfg0.win 11).blk t).view.emb y)
  intro y
  obtain ⟨p, j, rfl⟩ : ∃ (p : Fin 5000) (j : Fin 64), y = ix2 p j := ⟨y 0, y 1, eq_ix2 y⟩
  have he : (⟨t.val * 5000 + p.val, edge_lt t p⟩ : Fin 800000).val = t.val * 5000 + p.val := rfl
  obtain ⟨h0, h1⟩ := (edgeIndex t).2.2.2.1
  have hemb : ((cfg0.win 11).blk t).view.emb (ix2 p j) = ix2 (⟨t.val * 5000 + p.val, edge_lt t p⟩ : Fin 800000) j := by
    funext a; apply Fin.ext
    match a with
    | ⟨0, _⟩ => show win0_11.index t (0 : Fin 2) * 5000 + 1 * p.val = t.val * 5000 + p.val; omega
    | ⟨1, _⟩ => show win0_11.index t (1 : Fin 2) * 64 + 1 * j.val = j.val; omega
  rw [hemb]
  exact msg_row (iblk0 V c 0 t) (iblk0 V c 1 t) (iblk0 V c 2 t) (iblk0 V c 3 t) (iblk0 V c 4 t) (iblk0 V c 5 t)
    (iblk0 V c 6 t) p j _ _ _ _ _ _ _
    (fun k => blk0 V c t p _ he k) (fun k => blk1 V c t p _ he k) (blk2 V c t p _ he 0)
    (fun k j => blk3 V c t k j) (fun j => blk4 V c t 0 j) (fun k j => blk5 V c t k j) (fun j => blk6 V c t 0 j)

theorem flushed_wx (c : Dev nD) (t : Fin cfg0.N) :
    (dat0 (F := Ideal) V c).flushed 12 t = ((cfg0.win 12).blk t).view.read (Elt Ideal) (wxArr V c) := by
  show (cfg0.win 12).cut (grid0.coords t) ((dat0 (F := Ideal) V c).after 12 t) = _
  rw [after0_12]
  unfold out0_12
  rw [View.canon_unit_zero zero2]
  simp only [View.ld_unit_zero (S := S5000x64) zero2, View.ld_unit_zero (S := S5000x4) zero2,
    View.ld_unit_zero (S := S129x64) zero2, View.ld_unit_zero (S := S1x64) zero2, View.ld_unit_zero (S := S64x64) zero2,
    View.ld_unit_zero (S := S64x1) zero2, View.ld_unit_zero (S := S1x1) zero2]
  funext y
  revert y
  show ∀ y : S5000x3.Idx, k0_pay1 (F := Ideal) (k0_pay3 (iblk0 V c 2 t))
    (k0_pay4 (iblk0 V c 0 t) (iblk0 V c 1 t) (iblk0 V c 2 t) (iblk0 V c 3 t) (iblk0 V c 4 t) (iblk0 V c 5 t) (iblk0 V c 6 t))
    (iblk0 V c 7 t) (iblk0 V c 8 t) (iblk0 V c 9 t) (iblk0 V c 10 t) y = wxArr V c (((cfg0.win 12).blk t).view.emb y)
  intro y
  obtain ⟨p, d, rfl⟩ : ∃ (p : Fin 5000) (d : Fin 3), y = ix2 p d := ⟨y 0, y 1, eq_ix2 y⟩
  have he : (⟨t.val * 5000 + p.val, edge_lt t p⟩ : Fin 800000).val = t.val * 5000 + p.val := rfl
  obtain ⟨h0, h1⟩ := (edgeIndex t).2.2.2.2
  have hemb : ((cfg0.win 12).blk t).view.emb (ix2 p d) = ix2 (⟨t.val * 5000 + p.val, edge_lt t p⟩ : Fin 800000) d := by
    funext a; apply Fin.ext
    match a with
    | ⟨0, _⟩ => show win0_12.index t (0 : Fin 2) * 5000 + 1 * p.val = t.val * 5000 + p.val; omega
    | ⟨1, _⟩ => show win0_12.index t (1 : Fin 2) * 3 + 1 * d.val = d.val; omega
  rw [hemb]
  exact wx_row (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) p d
    (fun k => msgArr V c (ix2 (⟨t.val * 5000 + p.val, edge_lt t p⟩ : Fin 800000) k)) _ _ _ _ _
    (fun k => msg_row (iblk0 V c 0 t) (iblk0 V c 1 t) (iblk0 V c 2 t) (iblk0 V c 3 t) (iblk0 V c 4 t) (iblk0 V c 5 t)
      (iblk0 V c 6 t) p k _ _ _ _ _ _ _
      (fun k => blk0 V c t p _ he k) (fun k => blk1 V c t p _ he k) (blk2 V c t p _ he 0)
      (fun k j => blk3 V c t k j) (fun j => blk4 V c t 0 j) (fun k j => blk5 V c t k j) (fun j => blk6 V c t 0 j))
    (fun k j => blk7 V c t k j) (fun j => blk8 V c t 0 j) (fun k j => blk9 V c t k j) (fun j => blk10 V c t 0 j)
    (blk2 V c t p _ he ⟨d.val + 1, by omega⟩)

private theorem mem_blk_msg (t : Fin cfg0.N) (i : S800000x64.Idx) :
    i ∈ ((cfg0.win 11).blk t).view.set ↔ ∀ a : Fin 2, win0_11.index t a * S5000x64.size a ≤ (i a).val
      ∧ (i a).val < win0_11.index t a * S5000x64.size a + S5000x64.size a := by
  show i ∈ ((View.whole main_v40_0).slice (win0_11.rect t)).set ↔ _
  rw [View.set_slice_whole, Rect.mem_set_unit]
  exact Iff.rfl

private theorem mem_blk_wx (t : Fin cfg0.N) (i : S800000x3.Idx) :
    i ∈ ((cfg0.win 12).blk t).view.set ↔ ∀ a : Fin 2, win0_12.index t a * S5000x3.size a ≤ (i a).val
      ∧ (i a).val < win0_12.index t a * S5000x3.size a + S5000x3.size a := by
  show i ∈ ((View.whole main_v40_1).slice (win0_12.rect t)).set ↔ _
  rw [View.set_slice_whole, Rect.mem_set_unit]
  exact Iff.rfl

private def pointOf (e : Nat) (he : e < 800000) : Fin cfg0.N := ⟨e / 5000, lt_of_lt_of_eq (by omega) N_0.symm⟩

theorem cover_msg (i : S800000x64.Idx) :
    ∃ t : Fin cfg0.N, (cfg0.win 11).flush t = true ∧ i ∈ ((cfg0.win 11).blk t).view.set := by
  have hi0 : (i 0).val < 800000 := idx2_lt0 i
  have hi1 : (i 1).val < 64 := idx2_lt1 i
  refine ⟨pointOf (i 0).val hi0, flush0_11 _, ?_⟩
  rw [mem_blk_msg]
  obtain ⟨h0, h1⟩ := (edgeIndex (pointOf (i 0).val hi0)).2.2.2.1
  have hv : (pointOf (i 0).val hi0).val = (i 0).val / 5000 := rfl
  intro a
  match a with
  | ⟨0, _⟩ =>
    show win0_11.index (pointOf (i 0).val hi0) (0 : Fin 2) * 5000 ≤ (i 0).val
      ∧ (i 0).val < win0_11.index (pointOf (i 0).val hi0) (0 : Fin 2) * 5000 + 5000
    omega
  | ⟨1, _⟩ =>
    show win0_11.index (pointOf (i 0).val hi0) (1 : Fin 2) * 64 ≤ (i 1).val
      ∧ (i 1).val < win0_11.index (pointOf (i 0).val hi0) (1 : Fin 2) * 64 + 64
    omega

theorem cover_wx (i : S800000x3.Idx) :
    ∃ t : Fin cfg0.N, (cfg0.win 12).flush t = true ∧ i ∈ ((cfg0.win 12).blk t).view.set := by
  have hi0 : (i 0).val < 800000 := idx2_lt0 i
  have hi1 : (i 1).val < 3 := idx2_lt1 i
  refine ⟨pointOf (i 0).val hi0, flush0_12 _, ?_⟩
  rw [mem_blk_wx]
  obtain ⟨h0, h1⟩ := (edgeIndex (pointOf (i 0).val hi0)).2.2.2.2
  have hv : (pointOf (i 0).val hi0).val = (i 0).val / 5000 := rfl
  intro a
  match a with
  | ⟨0, _⟩ =>
    show win0_12.index (pointOf (i 0).val hi0) (0 : Fin 2) * 5000 ≤ (i 0).val
      ∧ (i 0).val < win0_12.index (pointOf (i 0).val hi0) (0 : Fin 2) * 5000 + 5000
    omega
  | ⟨1, _⟩ =>
    show win0_12.index (pointOf (i 0).val hi0) (1 : Fin 2) * 3 ≤ (i 1).val
      ∧ (i 1).val < win0_12.index (pointOf (i 0).val hi0) (1 : Fin 2) * 3 + 3
    omega

theorem final_msg (c : Dev nD) : (dat0 (F := Ideal) V c).arrAt 11 cfg0.N = msgArr V c :=
  (dat0 (F := Ideal) V c).arrAt_eq_of_cover 11 (msgArr V c) (fun t _ => flushed_msg V c t) cover_msg

theorem final_wx (c : Dev nD) : (dat0 (F := Ideal) V c).arrAt 12 cfg0.N = wxArr V c :=
  (dat0 (F := Ideal) V c).arrAt_eq_of_cover 12 (wxArr V c) (fun t _ => flushed_wx V c t) cover_wx

theorem m_apply (c : Dev nD) (e : Fin 800000) (j : Fin 64) :
    (dat0 (F := Ideal) V c).arrAt 11 cfg0.N (ix2 e j)
      = Cert.Spec.edgeM (fun k => V c main_v12 (ix2 e k)) (fun k => V c main_v14 (ix2 e k)) (V c main_v19 (ix2 e 0))
          (fun k j => V c main_v21 (ix2 k j)) (fun j => V c main_v24 (ix2 0 j))
          (fun k j => V c main_v26 (ix2 k j)) (fun j => V c main_v29 (ix2 0 j)) j := by
  rw [final_msg]
  rfl

theorem wx_apply (c : Dev nD) (e : Fin 800000) (d : Fin 3) :
    (dat0 (F := Ideal) V c).arrAt 12 cfg0.N (ix2 e d)
      = Cert.Spec.edgeW (fun k => (dat0 (F := Ideal) V c).arrAt 11 cfg0.N (ix2 e k))
          (fun k j => V c main_v31 (ix2 k j)) (fun j => V c main_v34 (ix2 0 j))
          (fun k j => V c main_v36 (ix2 k j)) (fun j => V c main_v39 (ix2 0 j))
        * V c main_v19 (ix2 e ⟨d.val + 1, by omega⟩) := by
  rw [final_wx, final_msg]
  rfl

end Cert.KernelIdeal.EdgeArr0

end
-- ==== Proof.NodeArr1.lean ====
import proofs.«428515_j67688684585222_1_alg».proof.Proof.Gen.KernelIdeal.Frame
import proofs.«428515_j67688684585222_1_alg».proof.Proof.NodePay

/-! The first layer's node region. The 10 blocks of 5000 nodes tile the output: row n is `Spec.nodeH` of row n of the inputs. -/

set_option maxRecDepth 16384

noncomputable section

namespace Cert.KernelIdeal.NodeArr1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

private theorem zero_off : (![0, 0] : Fin 2 → Nat) = fun _ => 0 :=
  funext fun a => by match a with | ⟨0, _⟩ => rfl | ⟨1, _⟩ => rfl

private theorem row_of_block (x0 x1 : Vec Ideal S5000x64 .f32) (x2 : Vec Ideal S128x64 .f32) (x3 : Vec Ideal S1x64 .f32)
    (x4 : Vec Ideal S64x64 .f32) (x5 : Vec Ideal S1x64 .f32)
    (A0 A1 : Vec Ideal S50000x64 .f32) (A2 : Vec Ideal S128x64 .f32) (A3 : Vec Ideal S1x64 .f32)
    (A4 : Vec Ideal S64x64 .f32) (A5 : Vec Ideal S1x64 .f32)
    (p : Fin 5000) (q : Fin 64) (n : Fin 50000) (j : Fin 64)
    (h0 : ∀ k : Fin 64, x0 (ix2 p k) = A0 (ix2 n k)) (h1 : ∀ k : Fin 64, x1 (ix2 p k) = A1 (ix2 n k))
    (h2 : ∀ (k : Fin 128) (l : Fin 64), x2 (ix2 k l) = A2 (ix2 k l)) (h3 : ∀ l : Fin 64, x3 (ix2 0 l) = A3 (ix2 0 l))
    (h4 : ∀ k l : Fin 64, x4 (ix2 k l) = A4 (ix2 k l)) (h5 : ∀ l : Fin 64, x5 (ix2 0 l) = A5 (ix2 0 l))
    (hq : q = j) :
    k1_pay1 (F := Ideal) x0 x1 x2 x3 x4 x5 (ix2 p q)
      = Cert.Spec.nodeH (fun k => A0 (ix2 n k)) (fun k => A1 (ix2 n k)) (fun k l => A2 (ix2 k l)) (fun l => A3 (ix2 0 l))
          (fun k l => A4 (ix2 k l)) (fun l => A5 (ix2 0 l)) j := by
  subst hq
  rw [NodePay.pay1_apply]
  simp only [h0, h1, h2, h3, h4, h5]

private theorem block_index : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 9 ∧ win1_6.index t (1 : Fin 2) = 0 :=
  (by decide +kernel : ∀ t : Fin grid1.N, _)

private theorem block_onto : ∀ b : Fin 10, ∃ t : Fin cfg1.N, win1_6.index t = ![b.val, 0] :=
  (by decide +kernel : ∀ b : Fin 10, ∃ t : Fin grid1.N, win1_6.index t = ![b.val, 0])

private theorem old_row (c : Dev nD) (t : Fin cfg1.N) (p : Fin 5000) (k : Fin 64) (n : Fin 50000)
    (hn : n.val = win1_6.index t (0 : Fin 2) * 5000 + p.val) :
    iblk1 (F := Ideal) V c 0 t (ix2 p k) = V c main_v10 (ix2 n k) := by
  obtain ⟨e0, e1, -⟩ := block_index t
  show V c main_v10 (((cfg1.win 0).blk t).view.emb (ix2 p k)) = _
  refine congrArg _ ?_
  funext a; apply Fin.ext
  match a with
  | ⟨0, _⟩ => show win1_0.index t (0 : Fin 2) * 5000 + 1 * p.val = n.val; omega
  | ⟨1, _⟩ => show win1_0.index t (1 : Fin 2) * 64 + 1 * k.val = k.val; omega

private theorem msg_row (c : Dev nD) (t : Fin cfg1.N) (p : Fin 5000) (k : Fin 64) (n : Fin 50000)
    (hn : n.val = win1_6.index t (0 : Fin 2) * 5000 + p.val) :
    iblk1 (F := Ideal) V c 1 t (ix2 p k) = V c main_v46 (ix2 n k) := by
  obtain ⟨-, -, e0, e1, -⟩ := block_index t
  show V c main_v46 (((cfg1.win 1).blk t).view.emb (ix2 p k)) = _
  refine congrArg _ ?_
  funext a; apply Fin.ext
  match a with
  | ⟨0, _⟩ => show win1_1.index t (0 : Fin 2) * 5000 + 1 * p.val = n.val; omega
  | ⟨1, _⟩ => show win1_1.index t (1 : Fin 2) * 64 + 1 * k.val = k.val; omega

private theorem w1_entry (c : Dev nD) (t : Fin cfg1.N) (k : Fin 128) (l : Fin 64) :
    iblk1 (F := Ideal) V c 2 t (ix2 k l) = V c main_v49 (ix2 k l) := by
  obtain ⟨-, -, -, -, e0, e1, -⟩ := block_index t
  show V c main_v49 (((cfg1.win 2).blk t).view.emb (ix2 k l)) = _
  refine congrArg _ ?_
  funext a; apply Fin.ext
  match a with
  | ⟨0, _⟩ => show win1_2.index t (0 : Fin 2) * 128 + 1 * k.val = k.val; omega
  | ⟨1, _⟩ => show win1_2.index t (1 : Fin 2) * 64 + 1 * l.val = l.val; omega

private theorem b1_entry (c : Dev nD) (t : Fin cfg1.N) (l : Fin 64) :
    iblk1 (F := Ideal) V c 3 t (ix2 0 l) = V c main_v52 (ix2 0 l) := by
  obtain ⟨-, -, -, -, -, -, e0, e1, -⟩ := block_index t
  show V c main_v52 (((cfg1.win 3).blk t).view.emb (ix2 0 l)) = _
  refine congrArg _ ?_
  funext a; apply Fin.ext
  match a with
  | ⟨0, _⟩ => show win1_3.index t (0 : Fin 2) * 1 + 1 * 0 = 0; omega
  | ⟨1, _⟩ => show win1_3.index t (1 : Fin 2) * 64 + 1 * l.val = l.val; omega

private theorem w2_entry (c : Dev nD) (t : Fin cfg1.N) (k l : Fin 64) :
    iblk1 (F := Ideal) V c 4 t (ix2 k l) = V c main_v54 (ix2 k l) := by
  obtain ⟨-, -, -, -, -, -, -, -, e0, e1, -⟩ := block_index t
  show V c main_v54 (((cfg1.win 4).blk t).view.emb (ix2 k l)) = _
  refine congrArg _ ?_
  funext a; apply Fin.ext
  match a with
  | ⟨0, _⟩ => show win1_4.index t (0 : Fin 2) * 64 + 1 * k.val = k.val; omega
  | ⟨1, _⟩ => show win1_4.index t (1 : Fin 2) * 64 + 1 * l.val = l.val; omega

private theorem b2_entry (c : Dev nD) (t : Fin cfg1.N) (l : Fin 64) :
    iblk1 (F := Ideal) V c 5 t (ix2 0 l) = V c main_v57 (ix2 0 l) := by
  obtain ⟨-, -, -, -, -, -, -, -, -, -, e0, e1, -⟩ := block_index t
  show V c main_v57 (((cfg1.win 5).blk t).view.emb (ix2 0 l)) = _
  refine congrArg _ ?_
  funext a; apply Fin.ext
  match a with
  | ⟨0, _⟩ => show win1_5.index t (0 : Fin 2) * 1 + 1 * 0 = 0; omega
  | ⟨1, _⟩ => show win1_5.index t (1 : Fin 2) * 64 + 1 * l.val = l.val; omega

private def newH (c : Dev nD) : Vec Ideal S50000x64 .f32 := fun i =>
  Cert.Spec.nodeH (fun k => V c main_v10 (ix2 (i 0) k)) (fun k => V c main_v46 (ix2 (i 0) k))
    (fun k l => V c main_v49 (ix2 k l)) (fun l => V c main_v52 (ix2 0 l))
    (fun k l => V c main_v54 (ix2 k l)) (fun l => V c main_v57 (ix2 0 l)) (i 1)

private theorem written_back (c : Dev nD) (t : Fin cfg1.N) :
    (dat1 (F := Ideal) V c).flushed 6 t = ((cfg1.win 6).blk t).view.read (Elt Ideal) (newH V c) := by
  show (cfg1.win 6).cut (grid1.coords t) ((dat1 (F := Ideal) V c).after 6 t) = _
  rw [after1_6]
  unfold out1_6
  rw [View.canon_unit_zero zero_off]
  simp only [View.ld_unit_zero (S := S5000x64) zero_off, View.ld_unit_zero (S := S128x64) zero_off,
    View.ld_unit_zero (S := S1x64) zero_off, View.ld_unit_zero (S := S64x64) zero_off]
  have e61 : win1_6.index t (1 : Fin 2) = 0 := (block_index t).2.2.2.2.2.2.2.2.2.2.2.2.2
  funext (y : S5000x64.Idx)
  obtain ⟨p, q, rfl⟩ : ∃ (p : Fin 5000) (q : Fin 64), y = ix2 p q := ⟨y 0, y 1, eq_ix2 y⟩
  show k1_pay1 (F := Ideal) (iblk1 V c 0 t) (iblk1 V c 1 t) (iblk1 V c 2 t) (iblk1 V c 3 t) (iblk1 V c 4 t)
      (iblk1 V c 5 t) (ix2 p q) = newH V c (((cfg1.win 6).blk t).view.emb (ix2 p q))
  have hrow : ((((cfg1.win 6).blk t).view.emb (ix2 p q)) 0).val = win1_6.index t (0 : Fin 2) * 5000 + p.val := by
    show win1_6.index t (0 : Fin 2) * 5000 + 1 * p.val = _; omega
  have hcol : q = (((cfg1.win 6).blk t).view.emb (ix2 p q)) 1 := by
    apply Fin.ext; show q.val = win1_6.index t (1 : Fin 2) * 64 + 1 * q.val; omega
  exact row_of_block (iblk1 V c 0 t) (iblk1 V c 1 t) (iblk1 V c 2 t) (iblk1 V c 3 t) (iblk1 V c 4 t) (iblk1 V c 5 t)
    (V c main_v10) (V c main_v46) (V c main_v49) (V c main_v52) (V c main_v54) (V c main_v57) p q
    ((((cfg1.win 6).blk t).view.emb (ix2 p q)) 0) ((((cfg1.win 6).blk t).view.emb (ix2 p q)) 1)
    (fun k => old_row V c t p k _ hrow) (fun k => msg_row V c t p k _ hrow) (w1_entry V c t) (b1_entry V c t)
    (w2_entry V c t) (b2_entry V c t) hcol

private theorem mem_block (t : Fin cfg1.N) (i : S50000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v58).slice (win1_6.rect t)).set ↔ _
  rw [View.set_slice_whole, Rect.mem_set_unit]
  exact Iff.rfl

private theorem covered (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  obtain ⟨t, ht⟩ := block_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_block]
  intro a
  match a with
  | ⟨0, _⟩ =>
    show win1_6.index t (0 : Fin 2) * 5000 ≤ (i 0).val ∧ (i 0).val < win1_6.index t (0 : Fin 2) * 5000 + 5000; omega
  | ⟨1, _⟩ =>
    show win1_6.index t (1 : Fin 2) * 64 ≤ (i 1).val ∧ (i 1).val < win1_6.index t (1 : Fin 2) * 64 + 64; omega

private theorem array_after (c : Dev nD) : (dat1 (F := Ideal) V c).arrAt 6 cfg1.N = newH V c :=
  (dat1 (F := Ideal) V c).arrAt_eq_of_cover 6 (newH V c) (fun t _ => written_back V c t) covered

theorem h_apply (c : Dev nD) (n : Fin 50000) (j : Fin 64) :
    (dat1 (F := Ideal) V c).arrAt 6 cfg1.N (ix2 n j)
      = Cert.Spec.nodeH (fun k => V c main_v10 (ix2 n k)) (fun k => V c main_v46 (ix2 n k))
          (fun k j => V c main_v49 (ix2 k j)) (fun j => V c main_v52 (ix2 0 j))
          (fun k j => V c main_v54 (ix2 k j)) (fun j => V c main_v57 (ix2 0 j)) j := by
  rw [array_after]
  rfl

end Cert.KernelIdeal.NodeArr1

end
-- ==== Proof.RLayer0.lean ====
import proofs.«428515_j67688684585222_1_alg».proof.Proof.ReadP
import proofs.«428515_j67688684585222_1_alg».proof.Proof.Spec

/-! Layer 1 of the plain array program: its chains of whole-array operations, read at an index, are `Spec`'s row functions. -/

noncomputable section

namespace Cert.ReferenceIdeal.RLayer0

open Idealize.ShloMosaic Idealize.ShloMosaic.ValueIdx Cert.ReferenceIdeal Cert.ReferenceIdeal.ReadP

private theorem one_bits : Ideal.ofBits .f32 0x3F800000#32 = (1 : EReal) := by
  show Ideal.ieee 8 23 (0x3F800000#32) = 1
  have hex : ((0x3F800000#32).extractLsb' 23 8).toNat = 127 := by decide
  have hfr : ((0x3F800000#32).extractLsb' 0 23).toNat = 0 := by decide
  have hsg : ((0x3F800000#32).extractLsb' (8 + 23) 1 == 1#1) = false := by decide
  simp only [Ideal.ieee, hex, hfr, hsg]
  norm_num

private theorem silu_spelled (x : EReal) :
    FloatOps.mulf (F := Ideal) (φ := .f32) x (FloatOps.hostDivf (FloatOps.ofBits .f32 0x3F800000#32)
      (FloatOps.addf (FloatOps.ofBits .f32 0x3F800000#32) (FloatOps.hostUnary .exp (FloatOps.hostNegf x)))) = Cert.Spec.silu x := by
  simp only [Ideal.mulf_def, Ideal.hostDivf_def, Ideal.addf_def, Ideal.hostUnary_exp_def, Ideal.hostNegf_def, Ideal.negf_def,
    Ideal.ofBits_def, one_bits, Cert.Spec.silu, Ideal.logistic]

private theorem w1_apply (x5 : (⟨S2x129x64, .f32⟩ : BufTy).Contents (Elt Ideal)) (k : Fin 129) (j : Fin 64) :
    val_main_v43 (F := Ideal) x5 (ix2 k j) = x5 (ix3 0 k j) := by
  rw [val_main_v43_apply, val_main_v42_apply]
  congr 1
  funext a
  apply Fin.ext
  have hk := k.isLt
  have hj := j.isLt
  match a with
  | ⟨0, _⟩ => rfl
  | ⟨1, _⟩ => show (k.val * 64 + j.val) / 64 % 129 = k.val; omega
  | ⟨2, _⟩ => show (k.val * 64 + j.val) % 64 = j.val; omega

private theorem b1_apply (x6 : (⟨S2x64, .f32⟩ : BufTy).Contents (Elt Ideal)) (e : Fin 800000) (j : Fin 64) :
    val_main_v48 (F := Ideal) x6 (ix2 e j) = x6 (ix2 0 j) := by
  rw [val_main_v48_apply, val_main_v47_apply, val_main_v46_apply, val_main_v45_apply]
  congr 1
  funext a
  apply Fin.ext
  have hj := j.isLt
  match a with
  | ⟨0, _⟩ => rfl
  | ⟨1, _⟩ => show j.val % 64 = j.val; omega

private theorem cat_apply (x0 : (⟨S50000, .i32⟩ : BufTy).Contents (Elt Ideal)) (x1 : (⟨S50000x3, .f32⟩ : BufTy).Contents (Elt Ideal)) (x2 : (⟨S2x800000, .i32⟩ : BufTy).Contents (Elt Ideal)) (x4 : (⟨S100x64, .f32⟩ : BufTy).Contents (Elt Ideal)) (e : Fin 800000) (k : Fin 129) :
    val_main_v41 (F := Ideal) x0 x1 x2 x4 (ix2 e k)
      = Cert.Spec.feat129 (fun k => val_main_v33 (F := Ideal) x0 x2 x4 (ix2 e k)) (fun k => val_main_v40 (F := Ideal) x0 x2 x4 (ix2 e k))
          (val_main_v26 (F := Ideal) x1 x2 (ix2 e 0)) k := by
  unfold val_main_v41
  generalize val_main_v33 (F := Ideal) x0 x2 x4 = y0
  generalize val_main_v40 (F := Ideal) x0 x2 x4 = y1
  generalize val_main_v26 (F := Ideal) x1 x2 = y2
  have hk := k.isLt
  by_cases h : k.val < 64
  · have hs : Cert.Spec.feat129 (fun k => y0 (ix2 e k)) (fun k => y1 (ix2 e k)) (y2 (ix2 e 0)) k = y0 (ix2 e ⟨k.val, h⟩) := by
      unfold Cert.Spec.feat129; exact dif_pos h
    rw [hs]
    exact concatenate_apply_piece (1 : Fin S800000x129.rank) _ _ (ix2 e k) 0 (by show 0 < 3; omega) S800000x64 y0 rfl rfl 0 rfl
      (ix2 e ⟨k.val, h⟩) (fun b hb => match b with
        | ⟨0, _⟩ => rfl
        | ⟨1, _⟩ => absurd rfl hb) (Nat.zero_add _)
  · by_cases h2 : k.val < 128
    · have hs : Cert.Spec.feat129 (fun k => y0 (ix2 e k)) (fun k => y1 (ix2 e k)) (y2 (ix2 e 0)) k = y1 (ix2 e ⟨k.val - 64, by omega⟩) := by
        unfold Cert.Spec.feat129; exact (dif_neg h).trans (dif_pos h2)
      rw [hs]
      exact concatenate_apply_piece (1 : Fin S800000x129.rank) _ _ (ix2 e k) 1 (by show 1 < 3; omega) S800000x64 y1 rfl rfl 64 rfl
        (ix2 e ⟨k.val - 64, by omega⟩) (fun b hb => match b with
          | ⟨0, _⟩ => rfl
          | ⟨1, _⟩ => absurd rfl hb) (by show 64 + (k.val - 64) = k.val; omega)
    · have hs : Cert.Spec.feat129 (fun k => y0 (ix2 e k)) (fun k => y1 (ix2 e k)) (y2 (ix2 e 0)) k = y2 (ix2 e 0) := by
        unfold Cert.Spec.feat129; exact (dif_neg h).trans (dif_neg h2)
      rw [hs]
      exact concatenate_apply_piece (1 : Fin S800000x129.rank) _ _ (ix2 e k) 2 (by show 2 < 3; omega) S800000x1 y2 rfl rfl 128 rfl
        (ix2 e 0) (fun b hb => match b with
          | ⟨0, _⟩ => rfl
          | ⟨1, _⟩ => absurd rfl hb) (by show 128 + 0 = k.val; omega)

private theorem w2_apply (x7 : (⟨S2x64x64, .f32⟩ : BufTy).Contents (Elt Ideal)) (k : Fin 64) (j : Fin 64) :
    val_main_v58 (F := Ideal) x7 (ix2 k j) = x7 (ix3 0 k j) := by
  rw [val_main_v58_apply, val_main_v57_apply]
  congr 1
  funext a
  apply Fin.ext
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

private theorem b2_apply (x8 : (⟨S2x64, .f32⟩ : BufTy).Contents (Elt Ideal)) (e : Fin 800000) (j : Fin 64) :
    val_main_v63 (F := Ideal) x8 (ix2 e j) = x8 (ix2 0 j) := by
  rw [val_main_v63_apply, val_main_v62_apply, val_main_v61_apply, val_main_v60_apply]
  congr 1
  funext a
  apply Fin.ext
  have hj := j.isLt
  match a with
  | ⟨0, _⟩ => rfl
  | ⟨1, _⟩ => show j.val % 64 = j.val; omega

private theorem v49_row (x0 : (⟨S50000, .i32⟩ : BufTy).Contents (Elt Ideal)) (x1 : (⟨S50000x3, .f32⟩ : BufTy).Contents (Elt Ideal)) (x2 : (⟨S2x800000, .i32⟩ : BufTy).Contents (Elt Ideal)) (x4 : (⟨S100x64, .f32⟩ : BufTy).Contents (Elt Ideal)) (x5 : (⟨S2x129x64, .f32⟩ : BufTy).Contents (Elt Ideal)) (x6 : (⟨S2x64, .f32⟩ : BufTy).Contents (Elt Ideal)) (e : Fin 800000) (j : Fin 64) :
    val_main_v49 (F := Ideal) x0 x1 x2 x4 x5 x6 (ix2 e j)
      = Cert.Spec.dense (Cert.Spec.feat129 (fun k => val_main_v33 (F := Ideal) x0 x2 x4 (ix2 e k)) (fun k => val_main_v40 (F := Ideal) x0 x2 x4 (ix2 e k)) (val_main_v26 (F := Ideal) x1 x2 (ix2 e 0))) (fun k j => x5 (ix3 0 k j)) (fun j => x6 (ix2 0 j)) j := by
  rw [val_main_v49_apply, val_main_v44_apply, b1_apply, Ideal.addf_def]
  unfold Cert.Spec.dense
  refine congrArg₂ (· + ·) (Finset.sum_congr rfl fun k _ => ?_) rfl
  have el : lidx_main_v44 (ix2 e j) k = ix2 e k := funext fun a => Fin.ext (by match a with | ⟨0, _⟩ => rfl | ⟨1, _⟩ => rfl)
  have er : ridx_main_v44 (ix2 e j) k = ix2 k j := funext fun a => Fin.ext (by match a with | ⟨0, _⟩ => rfl | ⟨1, _⟩ => rfl)
  rw [el, er, cat_apply, w1_apply]

private theorem v56_silu (x0 : (⟨S50000, .i32⟩ : BufTy).Contents (Elt Ideal)) (x1 : (⟨S50000x3, .f32⟩ : BufTy).Contents (Elt Ideal)) (x2 : (⟨S2x800000, .i32⟩ : BufTy).Contents (Elt Ideal)) (x4 : (⟨S100x64, .f32⟩ : BufTy).Contents (Elt Ideal)) (x5 : (⟨S2x129x64, .f32⟩ : BufTy).Contents (Elt Ideal)) (x6 : (⟨S2x64, .f32⟩ : BufTy).Contents (Elt Ideal)) (i : S800000x64.Idx) :
    val_main_v56 (F := Ideal) x0 x1 x2 x4 x5 x6 i = Cert.Spec.silu (val_main_v49 (F := Ideal) x0 x1 x2 x4 x5 x6 i) := by
  rw [val_main_v56_apply, val_main_v55_apply, val_main_v54_apply, val_main_cst_9_apply, val_main_v53_apply, val_main_v52_apply,
    val_main_cst_apply, val_main_v51_apply, val_main_v50_apply]
  exact silu_spelled _

private theorem v64_row (x0 : (⟨S50000, .i32⟩ : BufTy).Contents (Elt Ideal)) (x1 : (⟨S50000x3, .f32⟩ : BufTy).Contents (Elt Ideal)) (x2 : (⟨S2x800000, .i32⟩ : BufTy).Contents (Elt Ideal)) (x4 : (⟨S100x64, .f32⟩ : BufTy).Contents (Elt Ideal)) (x5 : (⟨S2x129x64, .f32⟩ : BufTy).Contents (Elt Ideal)) (x6 : (⟨S2x64, .f32⟩ : BufTy).Contents (Elt Ideal)) (x7 : (⟨S2x64x64, .f32⟩ : BufTy).Contents (Elt Ideal)) (x8 : (⟨S2x64, .f32⟩ : BufTy).Contents (Elt Ideal)) (e : Fin 800000) (j : Fin 64) :
    val_main_v64 (F := Ideal) x0 x1 x2 x4 x5 x6 x7 x8 (ix2 e j)
      = Cert.Spec.dense (fun k => val_main_v56 (F := Ideal) x0 x1 x2 x4 x5 x6 (ix2 e k)) (fun k j => x7 (ix3 0 k j)) (fun j => x8 (ix2 0 j)) j := by
  rw [val_main_v64_apply, val_main_v59_apply, b2_apply, Ideal.addf_def]
  unfold Cert.Spec.dense
  refine congrArg₂ (· + ·) (Finset.sum_congr rfl fun k _ => ?_) rfl
  have el : lidx_main_v59 (ix2 e j) k = ix2 e k := funext fun a => Fin.ext (by match a with | ⟨0, _⟩ => rfl | ⟨1, _⟩ => rfl)
  have er : ridx_main_v59 (ix2 e j) k = ix2 k j := funext fun a => Fin.ext (by match a with | ⟨0, _⟩ => rfl | ⟨1, _⟩ => rfl)
  rw [el, er, w2_apply]

private theorem v71_silu (x0 : (⟨S50000, .i32⟩ : BufTy).Contents (Elt Ideal)) (x1 : (⟨S50000x3, .f32⟩ : BufTy).Contents (Elt Ideal)) (x2 : (⟨S2x800000, .i32⟩ : BufTy).Contents (Elt Ideal)) (x4 : (⟨S100x64, .f32⟩ : BufTy).Contents (Elt Ideal)) (x5 : (⟨S2x129x64, .f32⟩ : BufTy).Contents (Elt Ideal)) (x6 : (⟨S2x64, .f32⟩ : BufTy).Contents (Elt Ideal)) (x7 : (⟨S2x64x64, .f32⟩ : BufTy).Contents (Elt Ideal)) (x8 : (⟨S2x64, .f32⟩ : BufTy).Contents (Elt Ideal)) (i : S800000x64.Idx) :
    val_main_v71 (F := Ideal) x0 x1 x2 x4 x5 x6 x7 x8 i = Cert.Spec.silu (val_main_v64 (F := Ideal) x0 x1 x2 x4 x5 x6 x7 x8 i) := by
  rw [val_main_v71_apply, val_main_v70_apply, val_main_v69_apply, val_main_cst_11_apply, val_main_v68_apply, val_main_v67_apply,
    val_main_cst_10_apply, val_main_v66_apply, val_main_v65_apply]
  exact silu_spelled _

theorem m_apply (x0 : (⟨S50000, .i32⟩ : BufTy).Contents (Elt Ideal)) (x1 : (⟨S50000x3, .f32⟩ : BufTy).Contents (Elt Ideal)) (x2 : (⟨S2x800000, .i32⟩ : BufTy).Contents (Elt Ideal)) (x4 : (⟨S100x64, .f32⟩ : BufTy).Contents (Elt Ideal)) (x5 : (⟨S2x129x64, .f32⟩ : BufTy).Contents (Elt Ideal)) (x6 : (⟨S2x64, .f32⟩ : BufTy).Contents (Elt Ideal)) (x7 : (⟨S2x64x64, .f32⟩ : BufTy).Contents (Elt Ideal)) (x8 : (⟨S2x64, .f32⟩ : BufTy).Contents (Elt Ideal)) (x9 : (⟨S2x128x64, .f32⟩ : BufTy).Contents (Elt Ideal)) (x10 : (⟨S2x64, .f32⟩ : BufTy).Contents (Elt Ideal)) (x11 : (⟨S2x64x64, .f32⟩ : BufTy).Contents (Elt Ideal)) (x12 : (⟨S2x64, .f32⟩ : BufTy).Contents (Elt Ideal)) (x13 : (⟨S2x64x64, .f32⟩ : BufTy).Contents (Elt Ideal)) (x14 : (⟨S2x64, .f32⟩ : BufTy).Contents (Elt Ideal)) (x15 : (⟨S2x64x1, .f32⟩ : BufTy).Contents (Elt Ideal)) (x16 : (⟨S2x1, .f32⟩ : BufTy).Contents (Elt Ideal)) (e : Fin 800000) (j : Fin 64) :
    val_main_v71 (F := Ideal) x0 x1 x2 x4 x5 x6 x7 x8 (ix2 e j)
      = Cert.Spec.edgeM (fun k => val_main_v33 (F := Ideal) x0 x2 x4 (ix2 e k)) (fun k => val_main_v40 (F := Ideal) x0 x2 x4 (ix2 e k)) (val_main_v26 (F := Ideal) x1 x2 (ix2 e 0))
          (fun k j => x5 (ix3 0 k j)) (fun j => x6 (ix2 0 j)) (fun k j => x7 (ix3 0 k j)) (fun j => x8 (ix2 0 j)) j := by
  rw [v71_silu, v64_row]
  unfold Cert.Spec.edgeM
  simp only [v56_silu, v49_row]

private theorem wx1_apply (x13 : (⟨S2x64x64, .f32⟩ : BufTy).Contents (Elt Ideal)) (k : Fin 64) (j : Fin 64) :
    val_main_v73 (F := Ideal) x13 (ix2 k j) = x13 (ix3 0 k j) := by
  rw [val_main_v73_apply, val_main_v72_apply]
  congr 1
  funext a
  apply Fin.ext
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

private theorem bx1_apply (x14 : (⟨S2x64, .f32⟩ : BufTy).Contents (Elt Ideal)) (e : Fin 800000) (j : Fin 64) :
    val_main_v78 (F := Ideal) x14 (ix2 e j) = x14 (ix2 0 j) := by
  rw [val_main_v78_apply, val_main_v77_apply, val_main_v76_apply, val_main_v75_apply]
  congr 1
  funext a
  apply Fin.ext
  have hj := j.isLt
  match a with
  | ⟨0, _⟩ => rfl
  | ⟨1, _⟩ => show j.val % 64 = j.val; omega

private theorem wx2_apply (x15 : (⟨S2x64x1, .f32⟩ : BufTy).Contents (Elt Ideal)) (k : Fin 64) (j : Fin 1) :
    val_main_v88 (F := Ideal) x15 (ix2 k j) = x15 (ix3 0 k j) := by
  rw [val_main_v88_apply, val_main_v87_apply]
  congr 1
  funext a
  apply Fin.ext
  have hk := k.isLt
  have hj := j.isLt
  match a with
  | ⟨0, _⟩ => rfl
  | ⟨1, _⟩ => show (k.val * 1 + j.val) / 1 % 64 = k.val; omega
  | ⟨2, _⟩ => show 0 = j.val; omega

private theorem bx2_apply (x16 : (⟨S2x1, .f32⟩ : BufTy).Contents (Elt Ideal)) (e : Fin 800000) (j : Fin 1) :
    val_main_v93 (F := Ideal) x16 (ix2 e j) = x16 (ix2 0 j) := by
  rw [val_main_v93_apply, val_main_v92_apply, val_main_v91_apply, val_main_v90_apply]
  congr 1
  funext a
  apply Fin.ext
  have hj := j.isLt
  match a with
  | ⟨0, _⟩ => rfl
  | ⟨1, _⟩ => show 0 = j.val; omega

private theorem v79_row (x0 : (⟨S50000, .i32⟩ : BufTy).Contents (Elt Ideal)) (x1 : (⟨S50000x3, .f32⟩ : BufTy).Contents (Elt Ideal)) (x2 : (⟨S2x800000, .i32⟩ : BufTy).Contents (Elt Ideal)) (x4 : (⟨S100x64, .f32⟩ : BufTy).Contents (Elt Ideal)) (x5 : (⟨S2x129x64, .f32⟩ : BufTy).Contents (Elt Ideal)) (x6 : (⟨S2x64, .f32⟩ : BufTy).Contents (Elt Ideal)) (x7 : (⟨S2x64x64, .f32⟩ : BufTy).Contents (Elt Ideal)) (x8 : (⟨S2x64, .f32⟩ : BufTy).Contents (Elt Ideal)) (x13 : (⟨S2x64x64, .f32⟩ : BufTy).Contents (Elt Ideal)) (x14 : (⟨S2x64, .f32⟩ : BufTy).Contents (Elt Ideal)) (e : Fin 800000) (j : Fin 64) :
    val_main_v79 (F := Ideal) x0 x1 x2 x4 x5 x6 x7 x8 x13 x14 (ix2 e j)
      = Cert.Spec.dense (fun k => val_main_v71 (F := Ideal) x0 x1 x2 x4 x5 x6 x7 x8 (ix2 e k)) (fun k j => x13 (ix3 0 k j)) (fun j => x14 (ix2 0 j)) j := by
  rw [val_main_v79_apply, val_main_v74_apply, bx1_apply, Ideal.addf_def]
  unfold Cert.Spec.dense
  refine congrArg₂ (· + ·) (Finset.sum_congr rfl fun k _ => ?_) rfl
  have el : lidx_main_v74 (ix2 e j) k = ix2 e k := funext fun a => Fin.ext (by match a with | ⟨0, _⟩ => rfl | ⟨1, _⟩ => rfl)
  have er : ridx_main_v74 (ix2 e j) k = ix2 k j := funext fun a => Fin.ext (by match a with | ⟨0, _⟩ => rfl | ⟨1, _⟩ => rfl)
  rw [el, er, wx1_apply]

private theorem v86_silu (x0 : (⟨S50000, .i32⟩ : BufTy).Contents (Elt Ideal)) (x1 : (⟨S50000x3, .f32⟩ : BufTy).Contents (Elt Ideal)) (x2 : (⟨S2x800000, .i32⟩ : BufTy).Contents (Elt Ideal)) (x4 : (⟨S100x64, .f32⟩ : BufTy).Contents (Elt Ideal)) (x5 : (⟨S2x129x64, .f32⟩ : BufTy).Contents (Elt Ideal)) (x6 : (⟨S2x64, .f32⟩ : BufTy).Contents (Elt Ideal)) (x7 : (⟨S2x64x64, .f32⟩ : BufTy).Contents (Elt Ideal)) (x8 : (⟨S2x64, .f32⟩ : BufTy).Contents (Elt Ideal)) (x13 : (⟨S2x64x64, .f32⟩ : BufTy).Contents (Elt Ideal)) (x14 : (⟨S2x64, .f32⟩ : BufTy).Contents (Elt Ideal)) (i : S800000x64.Idx) :
    val_main_v86 (F := Ideal) x0 x1 x2 x4 x5 x6 x7 x8 x13 x14 i = Cert.Spec.silu (val_main_v79 (F := Ideal) x0 x1 x2 x4 x5 x6 x7 x8 x13 x14 i) := by
  rw [val_main_v86_apply, val_main_v85_apply, val_main_v84_apply, val_main_cst_13_apply, val_main_v83_apply, val_main_v82_apply,
    val_main_cst_12_apply, val_main_v81_apply, val_main_v80_apply]
  exact silu_spelled _

private theorem v94_row (x0 : (⟨S50000, .i32⟩ : BufTy).Contents (Elt Ideal)) (x1 : (⟨S50000x3, .f32⟩ : BufTy).Contents (Elt Ideal)) (x2 : (⟨S2x800000, .i32⟩ : BufTy).Contents (Elt Ideal)) (x4 : (⟨S100x64, .f32⟩ : BufTy).Contents (Elt Ideal)) (x5 : (⟨S2x129x64, .f32⟩ : BufTy).Contents (Elt Ideal)) (x6 : (⟨S2x64, .f32⟩ : BufTy).Contents (Elt Ideal)) (x7 : (⟨S2x64x64, .f32⟩ : BufTy).Contents (Elt Ideal)) (x8 : (⟨S2x64, .f32⟩ : BufTy).Contents (Elt Ideal)) (x13 : (⟨S2x64x64, .f32⟩ : BufTy).Contents (Elt Ideal)) (x14 : (⟨S2x64, .f32⟩ : BufTy).Contents (Elt Ideal)) (x15 : (⟨S2x64x1, .f32⟩ : BufTy).Contents (Elt Ideal)) (x16 : (⟨S2x1, .f32⟩ : BufTy).Contents (Elt Ideal)) (e : Fin 800000) (j : Fin 1) :
    val_main_v94 (F := Ideal) x0 x1 x2 x4 x5 x6 x7 x8 x13 x14 x15 x16 (ix2 e j)
      = Cert.Spec.dense (fun k => val_main_v86 (F := Ideal) x0 x1 x2 x4 x5 x6 x7 x8 x13 x14 (ix2 e k)) (fun k j => x15 (ix3 0 k j)) (fun j => x16 (ix2 0 j)) j := by
  rw [val_main_v94_apply, val_main_v89_apply, bx2_apply, Ideal.addf_def]
  unfold Cert.Spec.dense
  refine congrArg₂ (· + ·) (Finset.sum_congr rfl fun k _ => ?_) rfl
  have el : lidx_main_v89 (ix2 e j) k = ix2 e k := funext fun a => Fin.ext (by match a with | ⟨0, _⟩ => rfl | ⟨1, _⟩ => rfl)
  have er : ridx_main_v89 (ix2 e j) k = ix2 k j := funext fun a => Fin.ext (by match a with | ⟨0, _⟩ => rfl | ⟨1, _⟩ => rfl)
  rw [el, er, wx2_apply]

theorem wx_apply (x0 : (⟨S50000, .i32⟩ : BufTy).Contents (Elt Ideal)) (x1 : (⟨S50000x3, .f32⟩ : BufTy).Contents (Elt Ideal)) (x2 : (⟨S2x800000, .i32⟩ : BufTy).Contents (Elt Ideal)) (x4 : (⟨S100x64, .f32⟩ : BufTy).Contents (Elt Ideal)) (x5 : (⟨S2x129x64, .f32⟩ : BufTy).Contents (Elt Ideal)) (x6 : (⟨S2x64, .f32⟩ : BufTy).Contents (Elt Ideal)) (x7 : (⟨S2x64x64, .f32⟩ : BufTy).Contents (Elt Ideal)) (x8 : (⟨S2x64, .f32⟩ : BufTy).Contents (Elt Ideal)) (x9 : (⟨S2x128x64, .f32⟩ : BufTy).Contents (Elt Ideal)) (x10 : (⟨S2x64, .f32⟩ : BufTy).Contents (Elt Ideal)) (x11 : (⟨S2x64x64, .f32⟩ : BufTy).Contents (Elt Ideal)) (x12 : (⟨S2x64, .f32⟩ : BufTy).Contents (Elt Ideal)) (x13 : (⟨S2x64x64, .f32⟩ : BufTy).Contents (Elt Ideal)) (x14 : (⟨S2x64, .f32⟩ : BufTy).Contents (Elt Ideal)) (x15 : (⟨S2x64x1, .f32⟩ : BufTy).Contents (Elt Ideal)) (x16 : (⟨S2x1, .f32⟩ : BufTy).Contents (Elt Ideal)) (e : Fin 800000) (d : Fin 3) :
    val_main_v96 (F := Ideal) x0 x1 x2 x4 x5 x6 x7 x8 x13 x14 x15 x16 (ix2 e d)
      = Cert.Spec.edgeW (fun k => val_main_v71 (F := Ideal) x0 x1 x2 x4 x5 x6 x7 x8 (ix2 e k))
          (fun k j => x13 (ix3 0 k j)) (fun j => x14 (ix2 0 j)) (fun k j => x15 (ix3 0 k j)) (fun j => x16 (ix2 0 j))
        * val_main_v25 (F := Ideal) x1 x2 (ix2 e d) := by
  have ei : idx_main_v95 (ix2 e d) = ix2 e (0 : Fin 1) := funext fun a => Fin.ext (by match a with | ⟨0, _⟩ => rfl | ⟨1, _⟩ => rfl)
  rw [val_main_v96_apply, val_main_v95_apply, ei, v94_row, Ideal.mulf_def]
  unfold Cert.Spec.edgeW
  simp only [v86_silu, v79_row]

private theorem cat2_apply (x0 : (⟨S50000, .i32⟩ : BufTy).Contents (Elt Ideal)) (x1 : (⟨S50000x3, .f32⟩ : BufTy).Contents (Elt Ideal)) (x2 : (⟨S2x800000, .i32⟩ : BufTy).Contents (Elt Ideal)) (x4 : (⟨S100x64, .f32⟩ : BufTy).Contents (Elt Ideal)) (x5 : (⟨S2x129x64, .f32⟩ : BufTy).Contents (Elt Ideal)) (x6 : (⟨S2x64, .f32⟩ : BufTy).Contents (Elt Ideal)) (x7 : (⟨S2x64x64, .f32⟩ : BufTy).Contents (Elt Ideal)) (x8 : (⟨S2x64, .f32⟩ : BufTy).Contents (Elt Ideal)) (e : Fin 50000) (k : Fin 128) :
    val_main_v104 (F := Ideal) x0 x1 x2 x4 x5 x6 x7 x8 (ix2 e k)
      = Cert.Spec.cat128 (fun k => val_main_v10 (F := Ideal) x0 x4 (ix2 e k)) (fun k => val_main_v103 (F := Ideal) x0 x1 x2 x4 x5 x6 x7 x8 (ix2 e k)) k := by
  unfold val_main_v104
  generalize val_main_v10 (F := Ideal) x0 x4 = y0
  generalize val_main_v103 (F := Ideal) x0 x1 x2 x4 x5 x6 x7 x8 = y1
  have hk := k.isLt
  by_cases h : k.val < 64
  · have hs : Cert.Spec.cat128 (fun k => y0 (ix2 e k)) (fun k => y1 (ix2 e k)) k = y0 (ix2 e ⟨k.val, h⟩) := by
      unfold Cert.Spec.cat128; exact dif_pos h
    rw [hs]
    exact concatenate_apply_piece (1 : Fin S50000x128.rank) _ _ (ix2 e k) 0 (by show 0 < 2; omega) S50000x64 y0 rfl rfl 0 rfl
      (ix2 e ⟨k.val, h⟩) (fun b hb => match b with
        | ⟨0, _⟩ => rfl
        | ⟨1, _⟩ => absurd rfl hb) (Nat.zero_add _)
  · have hs : Cert.Spec.cat128 (fun k => y0 (ix2 e k)) (fun k => y1 (ix2 e k)) k = y1 (ix2 e ⟨k.val - 64, by omega⟩) := by
      unfold Cert.Spec.cat128; exact dif_neg h
    rw [hs]
    exact concatenate_apply_piece (1 : Fin S50000x128.rank) _ _ (ix2 e k) 1 (by show 1 < 2; omega) S50000x64 y1 rfl rfl 64 rfl
      (ix2 e ⟨k.val - 64, by omega⟩) (fun b hb => match b with
        | ⟨0, _⟩ => rfl
        | ⟨1, _⟩ => absurd rfl hb) (by show 64 + (k.val - 64) = k.val; omega)

private theorem wh1_apply (x9 : (⟨S2x128x64, .f32⟩ : BufTy).Contents (Elt Ideal)) (k : Fin 128) (j : Fin 64) :
    val_main_v106 (F := Ideal) x9 (ix2 k j) = x9 (ix3 0 k j) := by
  rw [val_main_v106_apply, val_main_v105_apply]
  congr 1
  funext a
  apply Fin.ext
  have hk := k.isLt
  have hj := j.isLt
  match a with
  | ⟨0, _⟩ => rfl
  | ⟨1, _⟩ => show (k.val * 64 + j.val) / 64 % 128 = k.val; omega
  | ⟨2, _⟩ => show (k.val * 64 + j.val) % 64 = j.val; omega

private theorem bh1_apply (x10 : (⟨S2x64, .f32⟩ : BufTy).Contents (Elt Ideal)) (e : Fin 50000) (j : Fin 64) :
    val_main_v111 (F := Ideal) x10 (ix2 e j) = x10 (ix2 0 j) := by
  rw [val_main_v111_apply, val_main_v110_apply, val_main_v109_apply, val_main_v108_apply]
  congr 1
  funext a
  apply Fin.ext
  have hj := j.isLt
  match a with
  | ⟨0, _⟩ => rfl
  | ⟨1, _⟩ => show j.val % 64 = j.val; omega

private theorem wh2_apply (x11 : (⟨S2x64x64, .f32⟩ : BufTy).Contents (Elt Ideal)) (k : Fin 64) (j : Fin 64) :
    val_main_v121 (F := Ideal) x11 (ix2 k j) = x11 (ix3 0 k j) := by
  rw [val_main_v121_apply, val_main_v120_apply]
  congr 1
  funext a
  apply Fin.ext
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

private theorem bh2_apply (x12 : (⟨S2x64, .f32⟩ : BufTy).Contents (Elt Ideal)) (e : Fin 50000) (j : Fin 64) :
    val_main_v126 (F := Ideal) x12 (ix2 e j) = x12 (ix2 0 j) := by
  rw [val_main_v126_apply, val_main_v125_apply, val_main_v124_apply, val_main_v123_apply]
  congr 1
  funext a
  apply Fin.ext
  have hj := j.isLt
  match a with
  | ⟨0, _⟩ => rfl
  | ⟨1, _⟩ => show j.val % 64 = j.val; omega

private theorem v112_row (x0 : (⟨S50000, .i32⟩ : BufTy).Contents (Elt Ideal)) (x1 : (⟨S50000x3, .f32⟩ : BufTy).Contents (Elt Ideal)) (x2 : (⟨S2x800000, .i32⟩ : BufTy).Contents (Elt Ideal)) (x4 : (⟨S100x64, .f32⟩ : BufTy).Contents (Elt Ideal)) (x5 : (⟨S2x129x64, .f32⟩ : BufTy).Contents (Elt Ideal)) (x6 : (⟨S2x64, .f32⟩ : BufTy).Contents (Elt Ideal)) (x7 : (⟨S2x64x64, .f32⟩ : BufTy).Contents (Elt Ideal)) (x8 : (⟨S2x64, .f32⟩ : BufTy).Contents (Elt Ideal)) (x9 : (⟨S2x128x64, .f32⟩ : BufTy).Contents (Elt Ideal)) (x10 : (⟨S2x64, .f32⟩ : BufTy).Contents (Elt Ideal)) (e : Fin 50000) (j : Fin 64) :
    val_main_v112 (F := Ideal) x0 x1 x2 x4 x5 x6 x7 x8 x9 x10 (ix2 e j)
      = Cert.Spec.dense (Cert.Spec.cat128 (fun k => val_main_v10 (F := Ideal) x0 x4 (ix2 e k)) (fun k => val_main_v103 (F := Ideal) x0 x1 x2 x4 x5 x6 x7 x8 (ix2 e k))) (fun k j => x9 (ix3 0 k j)) (fun j => x10 (ix2 0 j)) j := by
  rw [val_main_v112_apply, val_main_v107_apply, bh1_apply, Ideal.addf_def]
  unfold Cert.Spec.dense
  refine congrArg₂ (· + ·) (Finset.sum_congr rfl fun k _ => ?_) rfl
  have el : lidx_main_v107 (ix2 e j) k = ix2 e k := funext fun a => Fin.ext (by match a with | ⟨0, _⟩ => rfl | ⟨1, _⟩ => rfl)
  have er : ridx_main_v107 (ix2 e j) k = ix2 k j := funext fun a => Fin.ext (by match a with | ⟨0, _⟩ => rfl | ⟨1, _⟩ => rfl)
  rw [el, er, cat2_apply, wh1_apply]

private theorem v119_silu (x0 : (⟨S50000, .i32⟩ : BufTy).Contents (Elt Ideal)) (x1 : (⟨S50000x3, .f32⟩ : BufTy).Contents (Elt Ideal)) (x2 : (⟨S2x800000, .i32⟩ : BufTy).Contents (Elt Ideal)) (x4 : (⟨S100x64, .f32⟩ : BufTy).Contents (Elt Ideal)) (x5 : (⟨S2x129x64, .f32⟩ : BufTy).Contents (Elt Ideal)) (x6 : (⟨S2x64, .f32⟩ : BufTy).Contents (Elt Ideal)) (x7 : (⟨S2x64x64, .f32⟩ : BufTy).Contents (Elt Ideal)) (x8 : (⟨S2x64, .f32⟩ : BufTy).Contents (Elt Ideal)) (x9 : (⟨S2x128x64, .f32⟩ : BufTy).Contents (Elt Ideal)) (x10 : (⟨S2x64, .f32⟩ : BufTy).Contents (Elt Ideal)) (i : S50000x64.Idx) :
    val_main_v119 (F := Ideal) x0 x1 x2 x4 x5 x6 x7 x8 x9 x10 i = Cert.Spec.silu (val_main_v112 (F := Ideal) x0 x1 x2 x4 x5 x6 x7 x8 x9 x10 i) := by
  rw [val_main_v119_apply, val_main_v118_apply, val_main_v117_apply, val_main_cst_17_apply, val_main_v116_apply, val_main_v115_apply,
    val_main_cst_16_apply, val_main_v114_apply, val_main_v113_apply]
  exact silu_spelled _

private theorem v127_row (x0 : (⟨S50000, .i32⟩ : BufTy).Contents (Elt Ideal)) (x1 : (⟨S50000x3, .f32⟩ : BufTy).Contents (Elt Ideal)) (x2 : (⟨S2x800000, .i32⟩ : BufTy).Contents (Elt Ideal)) (x4 : (⟨S100x64, .f32⟩ : BufTy).Contents (Elt Ideal)) (x5 : (⟨S2x129x64, .f32⟩ : BufTy).Contents (Elt Ideal)) (x6 : (⟨S2x64, .f32⟩ : BufTy).Contents (Elt Ideal)) (x7 : (⟨S2x64x64, .f32⟩ : BufTy).Contents (Elt Ideal)) (x8 : (⟨S2x64, .f32⟩ : BufTy).Contents (Elt Ideal)) (x9 : (⟨S2x128x64, .f32⟩ : BufTy).Contents (Elt Ideal)) (x10 : (⟨S2x64, .f32⟩ : BufTy).Contents (Elt Ideal)) (x11 : (⟨S2x64x64, .f32⟩ : BufTy).Contents (Elt Ideal)) (x12 : (⟨S2x64, .f32⟩ : BufTy).Contents (Elt Ideal)) (e : Fin 50000) (j : Fin 64) :
    val_main_v127 (F := Ideal) x0 x1 x2 x4 x5 x6 x7 x8 x9 x10 x11 x12 (ix2 e j)
      = Cert.Spec.dense (fun k => val_main_v119 (F := Ideal) x0 x1 x2 x4 x5 x6 x7 x8 x9 x10 (ix2 e k)) (fun k j => x11 (ix3 0 k j)) (fun j => x12 (ix2 0 j)) j := by
  rw [val_main_v127_apply, val_main_v122_apply, bh2_apply, Ideal.addf_def]
  unfold Cert.Spec.dense
  refine congrArg₂ (· + ·) (Finset.sum_congr rfl fun k _ => ?_) rfl
  have el : lidx_main_v122 (ix2 e j) k = ix2 e k := funext fun a => Fin.ext (by match a with | ⟨0, _⟩ => rfl | ⟨1, _⟩ => rfl)
  have er : ridx_main_v122 (ix2 e j) k = ix2 k j := funext fun a => Fin.ext (by match a with | ⟨0, _⟩ => rfl | ⟨1, _⟩ => rfl)
  rw [el, er, wh2_apply]

theorem h_apply (x0 : (⟨S50000, .i32⟩ : BufTy).Contents (Elt Ideal)) (x1 : (⟨S50000x3, .f32⟩ : BufTy).Contents (Elt Ideal)) (x2 : (⟨S2x800000, .i32⟩ : BufTy).Contents (Elt Ideal)) (x4 : (⟨S100x64, .f32⟩ : BufTy).Contents (Elt Ideal)) (x5 : (⟨S2x129x64, .f32⟩ : BufTy).Contents (Elt Ideal)) (x6 : (⟨S2x64, .f32⟩ : BufTy).Contents (Elt Ideal)) (x7 : (⟨S2x64x64, .f32⟩ : BufTy).Contents (Elt Ideal)) (x8 : (⟨S2x64, .f32⟩ : BufTy).Contents (Elt Ideal)) (x9 : (⟨S2x128x64, .f32⟩ : BufTy).Contents (Elt Ideal)) (x10 : (⟨S2x64, .f32⟩ : BufTy).Contents (Elt Ideal)) (x11 : (⟨S2x64x64, .f32⟩ : BufTy).Contents (Elt Ideal)) (x12 : (⟨S2x64, .f32⟩ : BufTy).Contents (Elt Ideal)) (x13 : (⟨S2x64x64, .f32⟩ : BufTy).Contents (Elt Ideal)) (x14 : (⟨S2x64, .f32⟩ : BufTy).Contents (Elt Ideal)) (x15 : (⟨S2x64x1, .f32⟩ : BufTy).Contents (Elt Ideal)) (x16 : (⟨S2x1, .f32⟩ : BufTy).Contents (Elt Ideal)) (n : Fin 50000) (j : Fin 64) :
    val_main_v128 (F := Ideal) x0 x1 x2 x4 x5 x6 x7 x8 x9 x10 x11 x12 (ix2 n j)
      = Cert.Spec.nodeH (fun k => val_main_v10 (F := Ideal) x0 x4 (ix2 n k)) (fun k => val_main_v103 (F := Ideal) x0 x1 x2 x4 x5 x6 x7 x8 (ix2 n k))
          (fun k j => x9 (ix3 0 k j)) (fun j => x10 (ix2 0 j)) (fun k j => x11 (ix3 0 k j)) (fun j => x12 (ix2 0 j)) j := by
  rw [val_main_v128_apply, v127_row, Ideal.addf_def]
  unfold Cert.Spec.nodeH
  simp only [v119_silu, v112_row]

end Cert.ReferenceIdeal.RLayer0

end
-- ==== Proof.KLayer0.lean ====
import proofs.«428515_j67688684585222_1_alg».proof.Proof.KFold
import proofs.«428515_j67688684585222_1_alg».proof.Proof.KCarry
import proofs.«428515_j67688684585222_1_alg».proof.Proof.KTake
import proofs.«428515_j67688684585222_1_alg».proof.Proof.Take
import proofs.«428515_j67688684585222_1_alg».proof.Proof.EdgeArr0
import proofs.«428515_j67688684585222_1_alg».proof.Proof.NodeArr1
import proofs.«428515_j67688684585222_1_alg».proof.Proof.RLayer0
import proofs.«428515_j67688684585222_1_alg».proof.Proof.ReadP

/-! Layer 1 of the tiled program against the plain array program's stages, row by row: lookups by `Take`, perceptrons by `Spec`. -/

set_option maxRecDepth 16384

noncomputable section

namespace Cert.KernelIdeal.KLayer0

open Idealize.ShloMosaic Idealize.ShloMosaic.TcCoe Idealize.ShloMosaic.ValueIdx Idealize.SL.Sem
open Cert.KernelIdeal Cert.KernelIdeal.Gen Cert.KernelIdeal.KFold
open Cert.KernelIdeal.Facts₀ Cert.KernelIdeal.Facts

variable (m : (ℓ : Loc nD τ sig) → Buf (Elt Ideal) ℓ) (ρ : Dev nD → PrngReg)

open Cert.ReferenceIdeal.ReadP

section Plain

def normOf (d : FVec Ideal S800000x3 .f32) : FVec Ideal S800000x1 .f32 :=
  Host.sqrt (broadcastInDim S800000x1 ![0] Facts₀.bcast_S800000_S800000x1_0
    (Host.reduceAdd (mulf d d) (constant S_ .f32 0x00000000#32) Facts₀.reducesTo_S800000x3_S800000_d1 Facts₀.h_S_))

def sum3 (idx : IVec S800000 32) (u : FVec Ideal S800000x3 .f32) : FVec Ideal S50000x3 .f32 :=
  Host.scatterAdd scatter_S50000x3_S800000x1_S800000x3_1_0_0_1
    (broadcastInDim S50000x3 ![] Facts₀.bcast_S_S50000x3 (constant S_ .f32 0x00000000#32))
    (broadcastInDim S800000x1 ![0] Facts₀.bcast_S800000_S800000x1_0 idx) u

def sum64 (idx : IVec S800000 32) (u : FVec Ideal S800000x64 .f32) : FVec Ideal S50000x64 .f32 :=
  Host.scatterAdd scatter_S50000x64_S800000x1_S800000x64_1_0_0_1
    (broadcastInDim S50000x64 ![] Facts₀.bcast_S_S50000x64 (constant S_ .f32 0x00000000#32))
    (broadcastInDim S800000x1 ![0] Facts₀.bcast_S800000_S800000x1_0 idx) u

variable (x0 : IVec S50000 32) (x1 : FVec Ideal S50000x3 .f32) (x2 : IVec S2x800000 32) (x4 : FVec Ideal S100x64 .f32)

theorem R_v33 : val_main_v33 (F := Ideal) x0 x2 x4
    = Host.gather gather_S50000x64_S800000x1_S800000x64_1_0_n_n_0_1_164 (val_main_v10 (F := Ideal) x0 x4) (Take.wrap (Take.dst x2)) := rfl

theorem R_v40 : val_main_v40 (F := Ideal) x0 x2 x4
    = Host.gather gather_S50000x64_S800000x1_S800000x64_1_0_n_n_0_1_164 (val_main_v10 (F := Ideal) x0 x4) (Take.wrap (Take.src x2)) := rfl

theorem R_v24 : val_main_v24 (F := Ideal) x1 x2
    = Host.gather gather_S50000x3_S800000x1_S800000x3_1_0_n_n_0_1_13 x1 (Take.wrap (Take.dst x2)) := rfl

theorem R_v17 : val_main_v17 (F := Ideal) x1 x2
    = Host.gather gather_S50000x3_S800000x1_S800000x3_1_0_n_n_0_1_13 x1 (Take.wrap (Take.src x2)) := rfl

theorem R_v26 : val_main_v26 (F := Ideal) x1 x2 = normOf (val_main_v25 (F := Ideal) x1 x2) := rfl

end Plain

section Stretches

theorem ofBuf_toBuf {T : BufTy} (x : StableHlo.TRef sig T) (v : T.Contents (Elt Ideal)) : x.ofBuf (x.toBuf v) = v := by
  obtain ⟨r, h, h2, h3⟩ := x
  subst h
  rfl

variable (V : Valuation τ sig (Elt Ideal))

theorem leaf_v17 (h1 h2 h3) : (StableHlo.TRef.of main_v17 h1 h2 h3 : StableHlo.TRef sig ⟨S800000x3, .f32⟩).ofBuf (V (Proc.devRef .tc main_v17))
    = V (Proc.devRef .tc main_v17) := rfl

theorem S0_v10 : @Eq (FVec Ideal S50000x64 .f32) (StableHlo.after hostOps0 V (Proc.devRef .tc main_v10))
    (val_main_v10 (F := Ideal) (V (Proc.devRef .tc main_arg0)) (V (Proc.devRef .tc main_arg4))) := by
  after_results <;> rfl

theorem S02_v12 : @Eq (S800000x64.Idx → EReal) (StableHlo.after hostOps0_2 V (Proc.devRef .tc main_v12)) (V (Proc.devRef .tc main_v11)) := by
  after_results <;> rfl

theorem S04_v14 : @Eq (S800000x64.Idx → EReal) (StableHlo.after hostOps0_4 V (Proc.devRef .tc main_v14)) (V (Proc.devRef .tc main_v13)) := by
  after_results <;> rfl

theorem S07_v17 : @Eq (FVec Ideal S800000x3 .f32) (StableHlo.after hostOps0_7 V (Proc.devRef .tc main_v17))
    (subf (F := Ideal) (V (Proc.devRef .tc main_v16)) (V (Proc.devRef .tc main_v15))) := by
  after_results <;> rfl

theorem S08_v18 : @Eq (FVec Ideal S800000x1 .f32) (StableHlo.after hostOps0_8 V (Proc.devRef .tc main_v18))
    (normOf (V (Proc.devRef .tc main_v17))) := by
  after_results
  simp only [ofBuf_toBuf, leaf_v17]
  refine eq_of_heq ((cast_heq _ _).trans (heq_of_eq ?_))
  unfold normOf
  rfl

theorem S09_v19 : @Eq (FVec Ideal S800000x4 .f32) (StableHlo.after hostOps0_9 V (Proc.devRef .tc main_v19))
    (concatenate S800000x4 1 [⟨S800000x1, (V (Proc.devRef .tc main_v18) : FVec Ideal S800000x1 .f32)⟩, ⟨S800000x3, (V (Proc.devRef .tc main_v17) : FVec Ideal S800000x3 .f32)⟩] Facts₀.concatenates_S800000x1_S800000x3_S800000x4_d1) := by
  after_results <;> rfl

theorem S09_v21 : @Eq (FVec Ideal S129x64 .f32) (StableHlo.after hostOps0_9 V (Proc.devRef .tc main_v21))
    (val_main_v43 (F := Ideal) (V (Proc.devRef .tc main_arg5))) := by
  after_results <;> rfl

theorem S09_v26 : @Eq (FVec Ideal S64x64 .f32) (StableHlo.after hostOps0_9 V (Proc.devRef .tc main_v26))
    (val_main_v58 (F := Ideal) (V (Proc.devRef .tc main_arg7))) := by
  after_results <;> rfl

theorem S09_v31 : @Eq (FVec Ideal S64x64 .f32) (StableHlo.after hostOps0_9 V (Proc.devRef .tc main_v31))
    (val_main_v73 (F := Ideal) (V (Proc.devRef .tc main_arg13))) := by
  after_results <;> rfl

theorem S09_v36 : @Eq (FVec Ideal S64x1 .f32) (StableHlo.after hostOps0_9 V (Proc.devRef .tc main_v36))
    (val_main_v88 (F := Ideal) (V (Proc.devRef .tc main_arg15))) := by
  after_results <;> rfl

def biasRow (x : FVec Ideal S2x64 .f32) : FVec Ideal S1x64 .f32 :=
  shapeCast S1x64 (shapeCast S64 (extractStridedSlice S1x64 ![0, 0] x Facts₀.slices_S2x64_S1x64_0_0) Facts₀.shapeCasts_S1x64_S64) Facts₀.shapeCasts_S64_S1x64

def biasOne (x : FVec Ideal S2x1 .f32) : FVec Ideal S1x1 .f32 :=
  shapeCast S1x1 (shapeCast S1 (extractStridedSlice S1x1 ![0, 0] x Facts₀.slices_S2x1_S1x1_0_0) Facts₀.shapeCasts_S1x1_S1) Facts₀.shapeCasts_S1_S1x1

theorem S09_v24 : @Eq (FVec Ideal S1x64 .f32) (StableHlo.after hostOps0_9 V (Proc.devRef .tc main_v24)) (biasRow (V (Proc.devRef .tc main_arg6))) := by
  after_results <;> rfl
theorem S09_v29 : @Eq (FVec Ideal S1x64 .f32) (StableHlo.after hostOps0_9 V (Proc.devRef .tc main_v29)) (biasRow (V (Proc.devRef .tc main_arg8))) := by
  after_results <;> rfl
theorem S09_v34 : @Eq (FVec Ideal S1x64 .f32) (StableHlo.after hostOps0_9 V (Proc.devRef .tc main_v34)) (biasRow (V (Proc.devRef .tc main_arg14))) := by
  after_results <;> rfl
theorem S09_v39 : @Eq (FVec Ideal S1x1 .f32) (StableHlo.after hostOps0_9 V (Proc.devRef .tc main_v39)) (biasOne (V (Proc.devRef .tc main_arg16))) := by
  after_results <;> rfl

theorem S1_v46 : @Eq (FVec Ideal S50000x64 .f32) (StableHlo.after hostOps1 V (Proc.devRef .tc main_v46))
    (sum64 (V (Proc.devRef .tc main_v3)) (V (Proc.devRef .tc main_v40_0))) := by
  after_results <;> rfl

theorem S1_v47 : @Eq (FVec Ideal S50000x3 .f32) (StableHlo.after hostOps1 V (Proc.devRef .tc main_v47))
    (addf (F := Ideal) (V (Proc.devRef .tc main_arg1)) (sum3 (V (Proc.devRef .tc main_v3)) (V (Proc.devRef .tc main_v40_1)))) := by
  after_results <;> rfl

theorem S1_v49 : @Eq (FVec Ideal S128x64 .f32) (StableHlo.after hostOps1 V (Proc.devRef .tc main_v49))
    (val_main_v106 (F := Ideal) (V (Proc.devRef .tc main_arg9))) := by
  after_results <;> rfl

theorem S1_v54 : @Eq (FVec Ideal S64x64 .f32) (StableHlo.after hostOps1 V (Proc.devRef .tc main_v54))
    (val_main_v121 (F := Ideal) (V (Proc.devRef .tc main_arg11))) := by
  after_results <;> rfl
theorem S1_v52 : @Eq (FVec Ideal S1x64 .f32) (StableHlo.after hostOps1 V (Proc.devRef .tc main_v52)) (biasRow (V (Proc.devRef .tc main_arg10))) := by
  after_results <;> rfl
theorem S1_v57 : @Eq (FVec Ideal S1x64 .f32) (StableHlo.after hostOps1 V (Proc.devRef .tc main_v57)) (biasRow (V (Proc.devRef .tc main_arg12))) := by
  after_results <;> rfl

end Stretches

section Rows

theorem w1_at (x : FVec Ideal S2x129x64 .f32) (k : Fin 129) (j : Fin 64) : val_main_v43 (F := Ideal) x (ix2 k j) = x (ix3 0 k j) := by
  rw [val_main_v43_apply, val_main_v42_apply]
  refine congrArg x (funext fun a => Fin.ext ?_)
  have hk := k.isLt
  have hj := j.isLt
  match a with
  | ⟨0, _⟩ => rfl
  | ⟨1, _⟩ => show (k.val * 64 + j.val) / 64 % 129 = k.val; omega
  | ⟨2, _⟩ => show (k.val * 64 + j.val) % 64 = j.val; omega

theorem w2_at (x : FVec Ideal S2x64x64 .f32) (k : Fin 64) (j : Fin 64) : val_main_v58 (F := Ideal) x (ix2 k j) = x (ix3 0 k j) := by
  rw [val_main_v58_apply, val_main_v57_apply]
  refine congrArg x (funext fun a => Fin.ext ?_)
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

theorem wx1_at (x : FVec Ideal S2x64x64 .f32) (k : Fin 64) (j : Fin 64) : val_main_v73 (F := Ideal) x (ix2 k j) = x (ix3 0 k j) := by
  rw [val_main_v73_apply, val_main_v72_apply]
  refine congrArg x (funext fun a => Fin.ext ?_)
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

theorem wx2_at (x : FVec Ideal S2x64x1 .f32) (k : Fin 64) (j : Fin 1) : val_main_v88 (F := Ideal) x (ix2 k j) = x (ix3 0 k j) := by
  rw [val_main_v88_apply, val_main_v87_apply]
  refine congrArg x (funext fun a => Fin.ext ?_)
  have hk := k.isLt
  have hj := j.isLt
  match a with
  | ⟨0, _⟩ => rfl
  | ⟨1, _⟩ => show (k.val * 1 + j.val) / 1 % 64 = k.val; omega
  | ⟨2, _⟩ => show 0 = j.val; omega

theorem wh1_at (x : FVec Ideal S2x128x64 .f32) (k : Fin 128) (j : Fin 64) : val_main_v106 (F := Ideal) x (ix2 k j) = x (ix3 0 k j) := by
  rw [val_main_v106_apply, val_main_v105_apply]
  refine congrArg x (funext fun a => Fin.ext ?_)
  have hk := k.isLt
  have hj := j.isLt
  match a with
  | ⟨0, _⟩ => rfl
  | ⟨1, _⟩ => show (k.val * 64 + j.val) / 64 % 128 = k.val; omega
  | ⟨2, _⟩ => show (k.val * 64 + j.val) % 64 = j.val; omega

theorem wh2_at (x : FVec Ideal S2x64x64 .f32) (k : Fin 64) (j : Fin 64) : val_main_v121 (F := Ideal) x (ix2 k j) = x (ix3 0 k j) := by
  rw [val_main_v121_apply, val_main_v120_apply]
  refine congrArg x (funext fun a => Fin.ext ?_)
  have hk := k.isLt
  have hj := j.isLt
  match a with
  | ⟨0, _⟩ => rfl
  | ⟨1, _⟩ => show (k.val * 64 + j.val) / 64 % 64 = k.val; omega
  | ⟨2, _⟩ => show (k.val * 64 + j.val) % 64 = j.val; omega

theorem biasRow_at (x : FVec Ideal S2x64 .f32) (j : Fin 64) : biasRow x (ix2 0 j) = x (ix2 0 j) := by
  unfold biasRow
  rw [shapeCast_shapeCast]
  exact extractStridedSlice_apply _ x _ (ix2 0 j) (ix2 0 j) fun a => match a with
    | ⟨0, _⟩ => rfl
    | ⟨1, _⟩ => by show j.val = 0 + j.val; omega

theorem biasOne_at (x : FVec Ideal S2x1 .f32) (j : Fin 1) : biasOne x (ix2 0 j) = x (ix2 0 j) := by
  unfold biasOne
  rw [shapeCast_shapeCast]
  exact extractStridedSlice_apply _ x _ (ix2 0 j) (ix2 0 j) fun a => match a with
    | ⟨0, _⟩ => rfl
    | ⟨1, _⟩ => by show j.val = 0 + j.val; omega

theorem aux_r (r : FVec Ideal S800000x1 .f32) (d : FVec Ideal S800000x3 .f32) (e : Fin 800000) :
    concatenate S800000x4 1 [⟨S800000x1, r⟩, ⟨S800000x3, d⟩] Facts₀.concatenates_S800000x1_S800000x3_S800000x4_d1 (ix2 e 0) = r (ix2 e 0) :=
  concatenate_apply_piece (1 : Fin S800000x4.rank) _ _ (ix2 e 0) 0 (by show 0 < 2; omega) S800000x1 r rfl rfl 0 rfl
    (ix2 e 0) (fun b hb => match b with
      | ⟨0, _⟩ => rfl
      | ⟨1, _⟩ => absurd rfl hb) (Nat.zero_add _)

theorem aux_d (r : FVec Ideal S800000x1 .f32) (d : FVec Ideal S800000x3 .f32) (e : Fin 800000) (k : Fin 3) (hk : k.val + 1 < 4) :
    concatenate S800000x4 1 [⟨S800000x1, r⟩, ⟨S800000x3, d⟩] Facts₀.concatenates_S800000x1_S800000x3_S800000x4_d1 (ix2 e ⟨k.val + 1, hk⟩) = d (ix2 e k) :=
  concatenate_apply_piece (1 : Fin S800000x4.rank) _ _ (ix2 e ⟨k.val + 1, hk⟩) 1 (by show 1 < 2; omega) S800000x3 d rfl rfl 1 rfl
    (ix2 e k) (fun b hb => match b with
      | ⟨0, _⟩ => rfl
      | ⟨1, _⟩ => absurd rfl hb) (by show 1 + k.val = k.val + 1; omega)

end Rows

section Boundaries

abbrev arg (c : Dev nD) (b : Ref sig .tc) : Buf (Elt Ideal) ((c.tc : Thread nD τ).loc b) := m ((c.tc : Thread nD τ).loc b)

variable (c : Dev nD)

theorem src_eq :
    W1 m ρ c (Proc.devRef .tc main_v1) = Take.src (m ((c.tc : Thread nD τ).loc main_arg2)) := by
  show StableHlo.after hostOps0 (W0 m ρ c) (Proc.devRef .tc main_v1) = _
  after_results
  rfl

theorem dst_eq :
    W1 m ρ c (Proc.devRef .tc main_v3) = Take.dst (m ((c.tc : Thread nD τ).loc main_arg2)) := by
  show StableHlo.after hostOps0 (W0 m ρ c) (Proc.devRef .tc main_v3) = _
  after_results
  rfl

theorem h0_W1 : @Eq (FVec Ideal S50000x64 .f32) (W1 m ρ c (Proc.devRef .tc main_v10))
    (val_main_v10 (F := Ideal) (arg m c main_arg0) (arg m c main_arg4)) :=
  S0_v10 (W0 m ρ c)

theorem hd_W3 (hpre : Cert.Pre_KernelIdeal m) : @Eq (S800000x64.Idx → EReal) (W3 m ρ c (Proc.devRef .tc main_v12))
    (val_main_v33 (F := Ideal) (arg m c main_arg0) (arg m c main_arg2) (arg m c main_arg4)) := by
  refine (S02_v12 (W2 m ρ c)).trans ?_
  refine (KTake.take_v11 (W1 m ρ c)).trans ?_
  rw [h0_W1, dst_eq, Take.take64_eq _ _ (Take.inRange_of_pre m hpre c).2]
  exact (R_v33 _ _ _).symm

theorem hd_W10 (hpre : Cert.Pre_KernelIdeal m) : @Eq (S800000x64.Idx → EReal) (V10 m ρ c main_v12)
    (val_main_v33 (F := Ideal) (arg m c main_arg0) (arg m c main_arg2) (arg m c main_arg4)) := by
  have e : W10 m ρ c (Proc.devRef .tc main_v12) = W3 m ρ c (Proc.devRef .tc main_v12) :=
    calc W10 m ρ c (Proc.devRef .tc main_v12)
      _ = W9 m ρ c (Proc.devRef .tc main_v12) := by stretch_skip
      _ = W8 m ρ c (Proc.devRef .tc main_v12) := by stretch_skip
      _ = W7 m ρ c (Proc.devRef .tc main_v12) := by stretch_skip
      _ = W6 m ρ c (Proc.devRef .tc main_v12) := by stretch_skip
      _ = W5 m ρ c (Proc.devRef .tc main_v12) := by stretch_skip
      _ = W4 m ρ c (Proc.devRef .tc main_v12) := by stretch_skip
      _ = W3 m ρ c (Proc.devRef .tc main_v12) := by stretch_skip
  exact e.trans (hd_W3 m ρ c hpre)

theorem hs_W5 (hpre : Cert.Pre_KernelIdeal m) : @Eq (S800000x64.Idx → EReal) (W5 m ρ c (Proc.devRef .tc main_v14))
    (val_main_v40 (F := Ideal) (arg m c main_arg0) (arg m c main_arg2) (arg m c main_arg4)) := by
  refine (S04_v14 (W4 m ρ c)).trans ?_
  refine (KTake.take_v13 (W3 m ρ c)).trans ?_
  rw [KCarry.v10_W3, KCarry.v1_W3, h0_W1, src_eq, Take.take64_eq _ _ (Take.inRange_of_pre m hpre c).1]
  exact (R_v40 _ _ _).symm

theorem hs_W10 (hpre : Cert.Pre_KernelIdeal m) : @Eq (S800000x64.Idx → EReal) (V10 m ρ c main_v14)
    (val_main_v40 (F := Ideal) (arg m c main_arg0) (arg m c main_arg2) (arg m c main_arg4)) := by
  have e : W10 m ρ c (Proc.devRef .tc main_v14) = W5 m ρ c (Proc.devRef .tc main_v14) :=
    calc W10 m ρ c (Proc.devRef .tc main_v14)
      _ = W9 m ρ c (Proc.devRef .tc main_v14) := by stretch_skip
      _ = W8 m ρ c (Proc.devRef .tc main_v14) := by stretch_skip
      _ = W7 m ρ c (Proc.devRef .tc main_v14) := by stretch_skip
      _ = W6 m ρ c (Proc.devRef .tc main_v14) := by stretch_skip
      _ = W5 m ρ c (Proc.devRef .tc main_v14) := by stretch_skip
  exact e.trans (hs_W5 m ρ c hpre)

theorem xd_W7 (hpre : Cert.Pre_KernelIdeal m) : @Eq (FVec Ideal S800000x3 .f32) (W7 m ρ c (Proc.devRef .tc main_v15))
    (val_main_v24 (F := Ideal) (arg m c main_arg1) (arg m c main_arg2)) := by
  have e : W7 m ρ c (Proc.devRef .tc main_v15) = W6 m ρ c (Proc.devRef .tc main_v15) := by stretch_skip
  refine e.trans ?_
  refine (KTake.take_v15 (W5 m ρ c)).trans ?_
  rw [KCarry.arg1_W5, KCarry.v3_W5, dst_eq, Take.take3_eq _ _ (Take.inRange_of_pre m hpre c).2]
  exact (R_v24 _ _).symm

theorem xs_W7 (hpre : Cert.Pre_KernelIdeal m) : @Eq (FVec Ideal S800000x3 .f32) (W7 m ρ c (Proc.devRef .tc main_v16))
    (val_main_v17 (F := Ideal) (arg m c main_arg1) (arg m c main_arg2)) := by
  refine (KTake.take_v16 (W6 m ρ c)).trans ?_
  rw [KCarry.arg1_W6, KCarry.v1_W6, src_eq, Take.take3_eq _ _ (Take.inRange_of_pre m hpre c).1]
  exact (R_v17 _ _).symm

theorem diff_W8 (hpre : Cert.Pre_KernelIdeal m) : @Eq (FVec Ideal S800000x3 .f32) (W8 m ρ c (Proc.devRef .tc main_v17))
    (val_main_v25 (F := Ideal) (arg m c main_arg1) (arg m c main_arg2)) := by
  refine (S07_v17 (W7 m ρ c)).trans ?_
  rw [xs_W7 m ρ c hpre, xd_W7 m ρ c hpre]
  rfl

theorem diff_W9 (hpre : Cert.Pre_KernelIdeal m) : @Eq (FVec Ideal S800000x3 .f32) (W9 m ρ c (Proc.devRef .tc main_v17))
    (val_main_v25 (F := Ideal) (arg m c main_arg1) (arg m c main_arg2)) := by
  have e : W9 m ρ c (Proc.devRef .tc main_v17) = W8 m ρ c (Proc.devRef .tc main_v17) := by stretch_skip
  exact e.trans (diff_W8 m ρ c hpre)

theorem r_W9 (hpre : Cert.Pre_KernelIdeal m) : @Eq (FVec Ideal S800000x1 .f32) (W9 m ρ c (Proc.devRef .tc main_v18))
    (val_main_v26 (F := Ideal) (arg m c main_arg1) (arg m c main_arg2)) := by
  refine (S08_v18 (W8 m ρ c)).trans ?_
  rw [diff_W8 m ρ c hpre]
  exact (R_v26 _ _).symm

theorem aux_W10 (hpre : Cert.Pre_KernelIdeal m) : @Eq (FVec Ideal S800000x4 .f32) (V10 m ρ c main_v19)
    (concatenate S800000x4 1 [⟨S800000x1, val_main_v26 (F := Ideal) (arg m c main_arg1) (arg m c main_arg2)⟩,
      ⟨S800000x3, val_main_v25 (F := Ideal) (arg m c main_arg1) (arg m c main_arg2)⟩] Facts₀.concatenates_S800000x1_S800000x3_S800000x4_d1) := by
  refine (S09_v19 (W9 m ρ c)).trans ?_
  rw [r_W9 m ρ c hpre, diff_W9 m ρ c hpre]

end Boundaries

section Regions

variable (c : Dev nD)

theorem w1_W10 : @Eq (FVec Ideal S129x64 .f32) (V10 m ρ c main_v21) (val_main_v43 (F := Ideal) (arg m c main_arg5)) := by
  refine (S09_v21 (W9 m ρ c)).trans ?_
  rw [KCarry.arg5_W9]

theorem b1_W10 : @Eq (FVec Ideal S1x64 .f32) (V10 m ρ c main_v24) (biasRow (arg m c main_arg6)) := by
  refine (S09_v24 (W9 m ρ c)).trans ?_
  rw [KCarry.arg6_W9]

theorem w2_W10 : @Eq (FVec Ideal S64x64 .f32) (V10 m ρ c main_v26) (val_main_v58 (F := Ideal) (arg m c main_arg7)) := by
  refine (S09_v26 (W9 m ρ c)).trans ?_
  rw [KCarry.arg7_W9]

theorem b2_W10 : @Eq (FVec Ideal S1x64 .f32) (V10 m ρ c main_v29) (biasRow (arg m c main_arg8)) := by
  refine (S09_v29 (W9 m ρ c)).trans ?_
  rw [KCarry.arg8_W9]

theorem wx1_W10 : @Eq (FVec Ideal S64x64 .f32) (V10 m ρ c main_v31) (val_main_v73 (F := Ideal) (arg m c main_arg13)) := by
  refine (S09_v31 (W9 m ρ c)).trans ?_
  rw [KCarry.arg13_W9]

theorem bx1_W10 : @Eq (FVec Ideal S1x64 .f32) (V10 m ρ c main_v34) (biasRow (arg m c main_arg14)) := by
  refine (S09_v34 (W9 m ρ c)).trans ?_
  rw [KCarry.arg14_W9]

theorem wx2_W10 : @Eq (FVec Ideal S64x1 .f32) (V10 m ρ c main_v36) (val_main_v88 (F := Ideal) (arg m c main_arg15)) := by
  refine (S09_v36 (W9 m ρ c)).trans ?_
  rw [KCarry.arg15_W9]

theorem bx2_W10 : @Eq (FVec Ideal S1x1 .f32) (V10 m ρ c main_v39) (biasOne (arg m c main_arg16)) := by
  refine (S09_v39 (W9 m ρ c)).trans ?_
  rw [KCarry.arg16_W9]

theorem M_at (hpre : Cert.Pre_KernelIdeal m) (e : Fin 800000) (j : Fin 64) :
    (dat0 (F := Ideal) (V10 m ρ) c).arrAt 11 cfg0.N (ix2 e j)
      = val_main_v71 (F := Ideal) (arg m c main_arg0) (arg m c main_arg1) (arg m c main_arg2) (arg m c main_arg4) (arg m c main_arg5) (arg m c main_arg6) (arg m c main_arg7) (arg m c main_arg8) (ix2 e j) := by
  rw [EdgeArr0.m_apply, Cert.ReferenceIdeal.RLayer0.m_apply (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16)]
  rw [hd_W10 m ρ c hpre, hs_W10 m ρ c hpre, aux_W10 m ρ c hpre, aux_r, w1_W10, b1_W10, w2_W10, b2_W10]
  simp only [w1_at, w2_at, biasRow_at]

theorem M_eq (hpre : Cert.Pre_KernelIdeal m) : @Eq (S800000x64.Idx → EReal) ((dat0 (F := Ideal) (V10 m ρ) c).arrAt 11 cfg0.N)
    (val_main_v71 (F := Ideal) (arg m c main_arg0) (arg m c main_arg1) (arg m c main_arg2) (arg m c main_arg4) (arg m c main_arg5) (arg m c main_arg6) (arg m c main_arg7) (arg m c main_arg8)) := by
  funext i
  obtain ⟨e, j, rfl⟩ : ∃ (e : Fin 800000) (j : Fin 64), i = ix2 e j := ⟨i 0, i 1, eq_ix2 i⟩
  exact M_at m ρ c hpre e j

theorem WX_at (hpre : Cert.Pre_KernelIdeal m) (e : Fin 800000) (d : Fin 3) :
    (dat0 (F := Ideal) (V10 m ρ) c).arrAt 12 cfg0.N (ix2 e d)
      = val_main_v96 (F := Ideal) (arg m c main_arg0) (arg m c main_arg1) (arg m c main_arg2) (arg m c main_arg4) (arg m c main_arg5) (arg m c main_arg6) (arg m c main_arg7) (arg m c main_arg8) (arg m c main_arg13) (arg m c main_arg14) (arg m c main_arg15) (arg m c main_arg16) (ix2 e d) := by
  rw [EdgeArr0.wx_apply, Cert.ReferenceIdeal.RLayer0.wx_apply (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16)]
  have hm : (fun k => (dat0 (F := Ideal) (V10 m ρ) c).arrAt 11 cfg0.N (ix2 e k))
      = fun k => val_main_v71 (F := Ideal) (arg m c main_arg0) (arg m c main_arg1) (arg m c main_arg2) (arg m c main_arg4) (arg m c main_arg5) (arg m c main_arg6) (arg m c main_arg7) (arg m c main_arg8) (ix2 e k) := funext fun k => M_at m ρ c hpre e k
  rw [hm, aux_W10 m ρ c hpre, aux_d, wx1_W10, bx1_W10, wx2_W10, bx2_W10]
  simp only [wx1_at, wx2_at, biasRow_at, biasOne_at]

theorem WX_eq (hpre : Cert.Pre_KernelIdeal m) : @Eq (S800000x3.Idx → EReal) ((dat0 (F := Ideal) (V10 m ρ) c).arrAt 12 cfg0.N)
    (val_main_v96 (F := Ideal) (arg m c main_arg0) (arg m c main_arg1) (arg m c main_arg2) (arg m c main_arg4) (arg m c main_arg5) (arg m c main_arg6) (arg m c main_arg7) (arg m c main_arg8) (arg m c main_arg13) (arg m c main_arg14) (arg m c main_arg15) (arg m c main_arg16)) := by
  funext i
  obtain ⟨e, d, rfl⟩ : ∃ (e : Fin 800000) (d : Fin 3), i = ix2 e d := ⟨i 0, i 1, eq_ix2 i⟩
  exact WX_at m ρ c hpre e d

theorem mi_W12 (hpre : Cert.Pre_KernelIdeal m) : @Eq (FVec Ideal S50000x64 .f32) (V12 m ρ c main_v46)
    (val_main_v103 (F := Ideal) (arg m c main_arg0) (arg m c main_arg1) (arg m c main_arg2) (arg m c main_arg4) (arg m c main_arg5) (arg m c main_arg6) (arg m c main_arg7) (arg m c main_arg8)) := by
  refine (S1_v46 (W11 m ρ c)).trans ?_
  have h40 : @Eq (S800000x64.Idx → EReal) (W11 m ρ c (Proc.devRef .tc main_v40_0))
      (val_main_v71 (F := Ideal) (arg m c main_arg0) (arg m c main_arg1) (arg m c main_arg2) (arg m c main_arg4) (arg m c main_arg5) (arg m c main_arg6) (arg m c main_arg7) (arg m c main_arg8)) := (W11_arr m ρ c 11).trans (M_eq m ρ c hpre)
  rw [KCarry.v3_W11, dst_eq, h40]
  rfl

theorem h0_W12 : @Eq (FVec Ideal S50000x64 .f32) (V12 m ρ c main_v10)
    (val_main_v10 (F := Ideal) (arg m c main_arg0) (arg m c main_arg4)) :=
  (KCarry.v10_W12 m ρ c).trans (h0_W1 m ρ c)

theorem wh1_W12 : @Eq (FVec Ideal S128x64 .f32) (V12 m ρ c main_v49) (val_main_v106 (F := Ideal) (arg m c main_arg9)) := by
  refine (S1_v49 (W11 m ρ c)).trans ?_
  rw [KCarry.arg9_W11]

theorem bh1_W12 : @Eq (FVec Ideal S1x64 .f32) (V12 m ρ c main_v52) (biasRow (arg m c main_arg10)) := by
  refine (S1_v52 (W11 m ρ c)).trans ?_
  rw [KCarry.arg10_W11]

theorem wh2_W12 : @Eq (FVec Ideal S64x64 .f32) (V12 m ρ c main_v54) (val_main_v121 (F := Ideal) (arg m c main_arg11)) := by
  refine (S1_v54 (W11 m ρ c)).trans ?_
  rw [KCarry.arg11_W11]

theorem bh2_W12 : @Eq (FVec Ideal S1x64 .f32) (V12 m ρ c main_v57) (biasRow (arg m c main_arg12)) := by
  refine (S1_v57 (W11 m ρ c)).trans ?_
  rw [KCarry.arg12_W11]

end Regions

theorem h1_eq (hpre : Cert.Pre_KernelIdeal m) (c : Dev nD) :
    W13 m ρ c (Proc.devRef .tc main_v58) = Cert.ReferenceIdeal.ReadP.val_main_v128 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (W13_arr m ρ c 6).trans ?_
  show @Eq (S50000x64.Idx → EReal) _ _
  funext i
  obtain ⟨n, j, rfl⟩ : ∃ (n : Fin 50000) (j : Fin 64), i = ix2 n j := ⟨i 0, i 1, eq_ix2 i⟩
  rw [NodeArr1.h_apply, Cert.ReferenceIdeal.RLayer0.h_apply (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16)]
  rw [h0_W12, mi_W12 m ρ c hpre, wh1_W12, bh1_W12, wh2_W12, bh2_W12]
  simp only [wh1_at, wh2_at, biasRow_at]

theorem x1_eq (hpre : Cert.Pre_KernelIdeal m) (c : Dev nD) :
    W12 m ρ c (Proc.devRef .tc main_v47) = Cert.ReferenceIdeal.ReadP.val_main_v100 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14)) (m ((c.tc : Thread nD τ).loc main_arg15)) (m ((c.tc : Thread nD τ).loc main_arg16)) := by
  refine (S1_v47 (W11 m ρ c)).trans ?_
  have h40 : @Eq (S800000x3.Idx → EReal) (W11 m ρ c (Proc.devRef .tc main_v40_1))
      (val_main_v96 (F := Ideal) (arg m c main_arg0) (arg m c main_arg1) (arg m c main_arg2) (arg m c main_arg4) (arg m c main_arg5) (arg m c main_arg6) (arg m c main_arg7) (arg m c main_arg8) (arg m c main_arg13) (arg m c main_arg14) (arg m c main_arg15) (arg m c main_arg16)) := (W11_arr m ρ c 12).trans (WX_eq m ρ c hpre)
  rw [KCarry.arg1_W11, KCarry.v3_W11, dst_eq, h40]
  rfl

end Cert.KernelIdeal.KLayer0

end
-- ==== Proof.KLayer1.lean ====
import proofs.«428515_j67688684585222_1_alg».proof.Proof.KFold
import proofs.«428515_j67688684585222_1_alg».proof.Proof.Take
import proofs.«428515_j67688684585222_1_alg».proof.Proof.EdgeArr2
import proofs.«428515_j67688684585222_1_alg».proof.Proof.NodeArr3
import proofs.«428515_j67688684585222_1_alg».proof.Proof.RLayer1
import proofs.«428515_j67688684585222_1_alg».proof.Proof.ReadP
import proofs.«428515_j67688684585222_1_alg».proof.Proof.KLayer0
import proofs.«428515_j67688684585222_1_alg».proof.Proof.KCarry
import proofs.«428515_j67688684585222_1_alg».proof.Proof.KTake

/-! Layer 2 of the tiled program against the plain array program's stages, row by row, from layer 1's equalities. -/

set_option maxRecDepth 16384

noncomputable section

namespace Cert.KernelIdeal.KLayer1

open Idealize.ShloMosaic Idealize.ShloMosaic.TcCoe Idealize.ShloMosaic.ValueIdx Idealize.SL.Sem
open Cert.KernelIdeal Cert.KernelIdeal.Gen Cert.KernelIdeal.KFold
open Cert.KernelIdeal.Facts₀ Cert.KernelIdeal.Facts

section Layout
variable {α : Type}

theorem w129_at (x : S2x129x64.Idx → α) (k : Fin 129) (j : Fin 64) :
    shapeCast S129x64 (extractStridedSlice S1x129x64 ![1, 0, 0] x Gen.slices_S2x129x64_S1x129x64_1_0_0) Gen.shapeCasts_S1x129x64_S129x64 (ix2 k j)
      = x (ix3 1 k j) := by
  refine (shapeCast_1ab_ab_apply _ _ k j).trans ?_
  refine extractStridedSlice_apply _ x _ _ _ fun a => ?_
  match a with
  | ⟨0, _⟩ => rfl
  | ⟨1, _⟩ => show k.val = 0 + k.val; omega
  | ⟨2, _⟩ => show j.val = 0 + j.val; omega

theorem b64_at (x : S2x64.Idx → α) (j : Fin 64) :
    shapeCast S1x64 (shapeCast S64 (extractStridedSlice S1x64 ![1, 0] x Gen.slices_S2x64_S1x64_1_0) Gen.shapeCasts_S1x64_S64) Gen.shapeCasts_S64_S1x64 (ix2 0 j)
      = x (ix2 1 j) := by
  refine (shapeCast_a_1a_apply _ _ 0 j).trans ?_
  refine (shapeCast_1a_a_apply _ _ j).trans ?_
  refine extractStridedSlice_apply _ x _ _ _ fun a => ?_
  match a with
  | ⟨0, _⟩ => rfl
  | ⟨1, _⟩ => show j.val = 0 + j.val; omega

theorem cat_r (a : S800000x1.Idx → α) (b : S800000x3.Idx → α) (e : Fin 800000) :
    concatenate S800000x4 1 [⟨S800000x1, a⟩, ⟨S800000x3, b⟩] Gen.concatenates_S800000x1_S800000x3_S800000x4_d1 (ix2 e 0) = a (ix2 e 0) := by
  refine concatenate_pair_apply_left (t := S800000x4) 1 a b Gen.concatenates_S800000x1_S800000x3_S800000x4_d1 _ rfl (ix2 e 0) fun b' => ?_
  match b' with
  | ⟨0, _⟩ => rfl
  | ⟨1, _⟩ => rfl

theorem cat_d (a : S800000x1.Idx → α) (b : S800000x3.Idx → α) (e : Fin 800000) (d : Fin 3) :
    concatenate S800000x4 1 [⟨S800000x1, a⟩, ⟨S800000x3, b⟩] Gen.concatenates_S800000x1_S800000x3_S800000x4_d1 (ix2 e ⟨d.val + 1, by omega⟩) = b (ix2 e d) := by
  refine concatenate_pair_apply_right (t := S800000x4) 1 a b Gen.concatenates_S800000x1_S800000x3_S800000x4_d1 _ rfl rfl (ix2 e d) (fun b' hb => ?_) ?_
  · match b' with
    | ⟨0, _⟩ => rfl
    | ⟨1, _⟩ => exact absurd rfl hb
  · rfl

theorem w64_at (x : S2x64x64.Idx → α) (k : Fin 64) (j : Fin 64) :
    shapeCast S64x64 (extractStridedSlice S1x64x64 ![1, 0, 0] x Gen.slices_S2x64x64_S1x64x64_1_0_0) Gen.shapeCasts_S1x64x64_S64x64 (ix2 k j)
      = x (ix3 1 k j) := by
  refine (shapeCast_1ab_ab_apply _ _ k j).trans ?_
  refine extractStridedSlice_apply _ x _ _ _ fun a => ?_
  match a with
  | ⟨0, _⟩ => rfl
  | ⟨1, _⟩ => show k.val = 0 + k.val; omega
  | ⟨2, _⟩ => show j.val = 0 + j.val; omega

theorem w128_at (x : S2x128x64.Idx → α) (k : Fin 128) (j : Fin 64) :
    shapeCast S128x64 (extractStridedSlice S1x128x64 ![1, 0, 0] x Gen.slices_S2x128x64_S1x128x64_1_0_0) Gen.shapeCasts_S1x128x64_S128x64 (ix2 k j)
      = x (ix3 1 k j) := by
  refine (shapeCast_1ab_ab_apply _ _ k j).trans ?_
  refine extractStridedSlice_apply _ x _ _ _ fun a => ?_
  match a with
  | ⟨0, _⟩ => rfl
  | ⟨1, _⟩ => show k.val = 0 + k.val; omega
  | ⟨2, _⟩ => show j.val = 0 + j.val; omega

theorem w64x1_at (x : S2x64x1.Idx → α) (k : Fin 64) (j : Fin 1) :
    shapeCast S64x1 (extractStridedSlice S1x64x1 ![1, 0, 0] x Gen.slices_S2x64x1_S1x64x1_1_0_0) Gen.shapeCasts_S1x64x1_S64x1 (ix2 k j)
      = x (ix3 1 k j) := by
  refine (shapeCast_1ab_ab_apply _ _ k j).trans ?_
  refine extractStridedSlice_apply _ x _ _ _ fun a => ?_
  match a with
  | ⟨0, _⟩ => rfl
  | ⟨1, _⟩ => show k.val = 0 + k.val; omega
  | ⟨2, _⟩ => show j.val = 0 + j.val; omega

theorem b1_at (x : S2x1.Idx → α) (j : Fin 1) :
    shapeCast S1x1 (shapeCast S1 (extractStridedSlice S1x1 ![1, 0] x Gen.slices_S2x1_S1x1_1_0) Gen.shapeCasts_S1x1_S1) Gen.shapeCasts_S1_S1x1 (ix2 0 j)
      = x (ix2 1 j) := by
  refine (shapeCast_a_1a_apply _ _ 0 j).trans ?_
  refine (shapeCast_1a_a_apply _ _ j).trans ?_
  refine extractStridedSlice_apply _ x _ _ _ fun a => ?_
  match a with
  | ⟨0, _⟩ => rfl
  | ⟨1, _⟩ => show j.val = 0 + j.val; omega

theorem truncf_at (X : FVec Ideal S800000x64 .f32) (e : Fin 800000) (k : Fin 64) :
    (truncf (F := Ideal) (s := S800000x64) .bf16 X Gen.bitsLt_bf16_f32 : FVec Ideal S800000x64 .bf16) (ix2 e k) = X (ix2 e k) := rfl

theorem ext2 {n0 n1 : Nat} {f g : (⟨2, ![n0, n1]⟩ : Shape).Idx → α} (h : ∀ a b, f (ix2 a b) = g (ix2 a b)) : f = g :=
  funext fun i => by rw [eq_ix2 i]; exact h _ _

end Layout

section AnyFamily
variable {F : FTy → Type} [FloatOps F]

attribute [local irreducible] Host.reduceAdd Host.sqrt in

theorem norm_v66 (V : Valuation τ sig (Elt F)) :
    StableHlo.after (hostOps2_7 (F := F)) V (Proc.devRef .tc main_v66)
      = Host.sqrt (F := F) (broadcastInDim S800000x1 ![0] Gen.bcast_S800000_S800000x1_0
          (Host.reduceAdd (F := F) (mulf (F := F) (s := S800000x3) (φ := .f32) (V (Proc.devRef .tc main_v65)) (V (Proc.devRef .tc main_v65)))
            (constant (F := F) S_ .f32 0x00000000#32) Gen.reducesTo_S800000x3_S800000_d1 Gen.h_S_)) := by
  simp only [StableHlo.after_cons, StableHlo.after_nil]
  rfl

attribute [local irreducible] Host.scatterAdd in

theorem agg_v94 (V : Valuation τ sig (Elt F)) :
    StableHlo.after (hostOps3 (F := F)) V (Proc.devRef .tc main_v94)
      = Host.scatterAdd (F := F) scatter_S50000x64_S800000x1_S800000x64_1_0_0_1
          (broadcastInDim S50000x64 ![] Gen.bcast_S_S50000x64 (constant (F := F) S_ .f32 0x00000000#32))
          (broadcastInDim S800000x1 ![0] Gen.bcast_S800000_S800000x1_0 (V (Proc.devRef .tc main_v3) : IVec S800000 32))
          (V (Proc.devRef .tc main_v88_0) : FVec F S800000x64 .f32) := by
  simp only [StableHlo.after_cons, StableHlo.after_nil]
  rfl

attribute [local irreducible] Host.scatterAdd in

theorem upd_v95 (V : Valuation τ sig (Elt F)) :
    StableHlo.after (hostOps3 (F := F)) V (Proc.devRef .tc main_v95)
      = addf (F := F) (s := S50000x3) (φ := .f32) (V (Proc.devRef .tc main_v47))
          (Host.scatterAdd (F := F) scatter_S50000x3_S800000x1_S800000x3_1_0_0_1
            (broadcastInDim S50000x3 ![] Gen.bcast_S_S50000x3 (constant (F := F) S_ .f32 0x00000000#32))
            (broadcastInDim S800000x1 ![0] Gen.bcast_S800000_S800000x1_0 (V (Proc.devRef .tc main_v3) : IVec S800000 32))
            (V (Proc.devRef .tc main_v88_1) : FVec F S800000x3 .f32)) := by
  simp only [StableHlo.after_cons, StableHlo.after_nil]
  rfl

end AnyFamily

variable (m : (ℓ : Loc nD τ sig) → Buf (Elt Ideal) ℓ) (ρ : Dev nD → PrngReg)

abbrev A0 (c : Dev nD) := m ((c.tc : Thread nD τ).loc main_arg0)
abbrev A1 (c : Dev nD) := m ((c.tc : Thread nD τ).loc main_arg1)
abbrev A2 (c : Dev nD) := m ((c.tc : Thread nD τ).loc main_arg2)
abbrev A4 (c : Dev nD) := m ((c.tc : Thread nD τ).loc main_arg4)
abbrev A5 (c : Dev nD) := m ((c.tc : Thread nD τ).loc main_arg5)
abbrev A6 (c : Dev nD) := m ((c.tc : Thread nD τ).loc main_arg6)
abbrev A7 (c : Dev nD) := m ((c.tc : Thread nD τ).loc main_arg7)
abbrev A8 (c : Dev nD) := m ((c.tc : Thread nD τ).loc main_arg8)
abbrev A9 (c : Dev nD) := m ((c.tc : Thread nD τ).loc main_arg9)
abbrev A10 (c : Dev nD) := m ((c.tc : Thread nD τ).loc main_arg10)
abbrev A11 (c : Dev nD) := m ((c.tc : Thread nD τ).loc main_arg11)
abbrev A12 (c : Dev nD) := m ((c.tc : Thread nD τ).loc main_arg12)
abbrev A13 (c : Dev nD) := m ((c.tc : Thread nD τ).loc main_arg13)
abbrev A14 (c : Dev nD) := m ((c.tc : Thread nD τ).loc main_arg14)
abbrev A15 (c : Dev nD) := m ((c.tc : Thread nD τ).loc main_arg15)
abbrev A16 (c : Dev nD) := m ((c.tc : Thread nD τ).loc main_arg16)

abbrev P100 (c : Dev nD) := Cert.ReferenceIdeal.ReadP.val_main_v100 (F := Ideal) (A0 m c) (A1 m c) (A2 m c) (A4 m c) (A5 m c) (A6 m c) (A7 m c) (A8 m c) (A13 m c) (A14 m c) (A15 m c) (A16 m c)

abbrev P128 (c : Dev nD) := Cert.ReferenceIdeal.ReadP.val_main_v128 (F := Ideal) (A0 m c) (A1 m c) (A2 m c) (A4 m c) (A5 m c) (A6 m c) (A7 m c) (A8 m c) (A9 m c) (A10 m c) (A11 m c) (A12 m c)

abbrev P135 (c : Dev nD) := Cert.ReferenceIdeal.ReadP.val_main_v135 (F := Ideal) (A0 m c) (A1 m c) (A2 m c) (A4 m c) (A5 m c) (A6 m c) (A7 m c) (A8 m c) (A13 m c) (A14 m c) (A15 m c) (A16 m c)

abbrev P142 (c : Dev nD) := Cert.ReferenceIdeal.ReadP.val_main_v142 (F := Ideal) (A0 m c) (A1 m c) (A2 m c) (A4 m c) (A5 m c) (A6 m c) (A7 m c) (A8 m c) (A13 m c) (A14 m c) (A15 m c) (A16 m c)

abbrev P143 (c : Dev nD) := Cert.ReferenceIdeal.ReadP.val_main_v143 (F := Ideal) (A0 m c) (A1 m c) (A2 m c) (A4 m c) (A5 m c) (A6 m c) (A7 m c) (A8 m c) (A13 m c) (A14 m c) (A15 m c) (A16 m c)

abbrev P144 (c : Dev nD) := Cert.ReferenceIdeal.ReadP.val_main_v144 (F := Ideal) (A0 m c) (A1 m c) (A2 m c) (A4 m c) (A5 m c) (A6 m c) (A7 m c) (A8 m c) (A13 m c) (A14 m c) (A15 m c) (A16 m c)

abbrev P151 (c : Dev nD) := Cert.ReferenceIdeal.ReadP.val_main_v151 (F := Ideal) (A0 m c) (A1 m c) (A2 m c) (A4 m c) (A5 m c) (A6 m c) (A7 m c) (A8 m c) (A9 m c) (A10 m c) (A11 m c) (A12 m c)

abbrev P158 (c : Dev nD) := Cert.ReferenceIdeal.ReadP.val_main_v158 (F := Ideal) (A0 m c) (A1 m c) (A2 m c) (A4 m c) (A5 m c) (A6 m c) (A7 m c) (A8 m c) (A9 m c) (A10 m c) (A11 m c) (A12 m c)

abbrev P189 (c : Dev nD) := Cert.ReferenceIdeal.ReadP.val_main_v189 (F := Ideal) (A0 m c) (A1 m c) (A2 m c) (A4 m c) (A5 m c) (A6 m c) (A7 m c) (A8 m c) (A9 m c) (A10 m c) (A11 m c) (A12 m c) (A13 m c) (A14 m c) (A15 m c) (A16 m c)

abbrev P214 (c : Dev nD) := Cert.ReferenceIdeal.ReadP.val_main_v214 (F := Ideal) (A0 m c) (A1 m c) (A2 m c) (A4 m c) (A5 m c) (A6 m c) (A7 m c) (A8 m c) (A9 m c) (A10 m c) (A11 m c) (A12 m c) (A13 m c) (A14 m c) (A15 m c) (A16 m c)

abbrev P218 (c : Dev nD) := Cert.ReferenceIdeal.ReadP.val_main_v218 (F := Ideal) (A0 m c) (A1 m c) (A2 m c) (A4 m c) (A5 m c) (A6 m c) (A7 m c) (A8 m c) (A9 m c) (A10 m c) (A11 m c) (A12 m c) (A13 m c) (A14 m c) (A15 m c) (A16 m c)

abbrev P221 (c : Dev nD) := Cert.ReferenceIdeal.ReadP.val_main_v221 (F := Ideal) (A0 m c) (A1 m c) (A2 m c) (A4 m c) (A5 m c) (A6 m c) (A7 m c) (A8 m c) (A9 m c) (A10 m c) (A11 m c) (A12 m c) (A13 m c) (A14 m c) (A15 m c) (A16 m c)

theorem wrap_v134 (x2 : IVec S2x800000 32) : Cert.ReferenceIdeal.ReadP.val_main_v134 (F := Ideal) x2 = Take.wrap (Take.src x2) := rfl
theorem wrap_v141 (x2 : IVec S2x800000 32) : Cert.ReferenceIdeal.ReadP.val_main_v141 (F := Ideal) x2 = Take.wrap (Take.dst x2) := rfl
theorem wrap_v150 (x2 : IVec S2x800000 32) : Cert.ReferenceIdeal.ReadP.val_main_v150 (F := Ideal) x2 = Take.wrap (Take.dst x2) := rfl
theorem wrap_v157 (x2 : IVec S2x800000 32) : Cert.ReferenceIdeal.ReadP.val_main_v157 (F := Ideal) x2 = Take.wrap (Take.src x2) := rfl

theorem edgeM_congr {hd hd' hs hs' : Fin 64 → EReal} {r r' : EReal} {W1 W1' : Fin 129 → Fin 64 → EReal} {b1 b1' : Fin 64 → EReal}
    {W2 W2' : Fin 64 → Fin 64 → EReal} {b2 b2' : Fin 64 → EReal}
    (h1 : ∀ k, hd k = hd' k) (h2 : ∀ k, hs k = hs' k) (h3 : r = r') (h4 : ∀ k j, W1 k j = W1' k j) (h5 : ∀ j, b1 j = b1' j)
    (h6 : ∀ k j, W2 k j = W2' k j) (h7 : ∀ j, b2 j = b2' j) (j : Fin 64) :
    Cert.Spec.edgeM hd hs r W1 b1 W2 b2 j = Cert.Spec.edgeM hd' hs' r' W1' b1' W2' b2' j := by
  obtain rfl : hd = hd' := funext h1
  obtain rfl : hs = hs' := funext h2
  subst h3
  obtain rfl : W1 = W1' := funext fun k => funext (h4 k)
  obtain rfl : b1 = b1' := funext h5
  obtain rfl : W2 = W2' := funext fun k => funext (h6 k)
  obtain rfl : b2 = b2' := funext h7
  rfl

theorem edgeW_congr {mr mr' : Fin 64 → EReal} {W1 W1' : Fin 64 → Fin 64 → EReal} {b1 b1' : Fin 64 → EReal}
    {W2 W2' : Fin 64 → Fin 1 → EReal} {b2 b2' : Fin 1 → EReal}
    (h1 : ∀ k, mr k = mr' k) (h4 : ∀ k j, W1 k j = W1' k j) (h5 : ∀ j, b1 j = b1' j)
    (h6 : ∀ k j, W2 k j = W2' k j) (h7 : ∀ j, b2 j = b2' j) :
    Cert.Spec.edgeW mr W1 b1 W2 b2 = Cert.Spec.edgeW mr' W1' b1' W2' b2' := by
  obtain rfl : mr = mr' := funext h1
  obtain rfl : W1 = W1' := funext fun k => funext (h4 k)
  obtain rfl : b1 = b1' := funext h5
  obtain rfl : W2 = W2' := funext fun k => funext (h6 k)
  obtain rfl : b2 = b2' := funext h7
  rfl

theorem nodeH_congr {h h' mi mi' : Fin 64 → EReal} {W1 W1' : Fin 128 → Fin 64 → EReal} {b1 b1' : Fin 64 → EReal}
    {W2 W2' : Fin 64 → Fin 64 → EReal} {b2 b2' : Fin 64 → EReal}
    (h1 : ∀ k, h k = h' k) (h2 : ∀ k, mi k = mi' k) (h4 : ∀ k j, W1 k j = W1' k j) (h5 : ∀ j, b1 j = b1' j)
    (h6 : ∀ k j, W2 k j = W2' k j) (h7 : ∀ j, b2 j = b2' j) (j : Fin 64) :
    Cert.Spec.nodeH h mi W1 b1 W2 b2 j = Cert.Spec.nodeH h' mi' W1' b1' W2' b2' j := by
  obtain rfl : h = h' := funext h1
  obtain rfl : mi = mi' := funext h2
  obtain rfl : W1 = W1' := funext fun k => funext (h4 k)
  obtain rfl : b1 = b1' := funext h5
  obtain rfl : W2 = W2' := funext fun k => funext (h6 k)
  obtain rfl : b2 = b2' := funext h7
  rfl

theorem v60_W15 (c : Dev nD) :
    W15 m ρ c (Proc.devRef .tc main_v60)
      = (truncf (F := Ideal) (s := S800000x64) .bf16 (W14 m ρ c (Proc.devRef .tc main_v59)) Gen.bitsLt_bf16_f32 : FVec Ideal S800000x64 .bf16) := by
  show StableHlo.after hostOps2_1 (W14 m ρ c) (Proc.devRef .tc main_v60) = _
  rfl

theorem v62_W17 (c : Dev nD) :
    W17 m ρ c (Proc.devRef .tc main_v62)
      = (truncf (F := Ideal) (s := S800000x64) .bf16 (W16 m ρ c (Proc.devRef .tc main_v61)) Gen.bitsLt_bf16_f32 : FVec Ideal S800000x64 .bf16) := by
  show StableHlo.after hostOps2_3 (W16 m ρ c) (Proc.devRef .tc main_v62) = _
  rfl

theorem v65_W20 (c : Dev nD) :
    W20 m ρ c (Proc.devRef .tc main_v65)
      = subf (F := Ideal) (s := S800000x3) (φ := .f32) (W19 m ρ c (Proc.devRef .tc main_v64) : FVec Ideal S800000x3 .f32) (W19 m ρ c (Proc.devRef .tc main_v63)) := by
  show StableHlo.after hostOps2_6 (W19 m ρ c) (Proc.devRef .tc main_v65) = _
  rfl

theorem v66_W21 (c : Dev nD) :
    W21 m ρ c (Proc.devRef .tc main_v66)
      = Host.sqrt (F := Ideal) (broadcastInDim S800000x1 ![0] Gen.bcast_S800000_S800000x1_0
          (Host.reduceAdd (F := Ideal) (mulf (F := Ideal) (s := S800000x3) (φ := .f32) (W20 m ρ c (Proc.devRef .tc main_v65)) (W20 m ρ c (Proc.devRef .tc main_v65)))
            (constant (F := Ideal) S_ .f32 0x00000000#32) Gen.reducesTo_S800000x3_S800000_d1 Gen.h_S_)) :=
  norm_v66 (F := Ideal) (W20 m ρ c)

theorem v67_W22 (c : Dev nD) :
    W22 m ρ c (Proc.devRef .tc main_v67)
      = concatenate S800000x4 1 [⟨S800000x1, W21 m ρ c (Proc.devRef .tc main_v66)⟩, ⟨S800000x3, W21 m ρ c (Proc.devRef .tc main_v65)⟩] Gen.concatenates_S800000x1_S800000x3_S800000x4_d1 := by
  show StableHlo.after hostOps2_8 (W21 m ρ c) (Proc.devRef .tc main_v67) = _
  rfl

theorem v69_W22 (c : Dev nD) :
    W22 m ρ c (Proc.devRef .tc main_v69)
      = shapeCast S129x64 (extractStridedSlice S1x129x64 ![1, 0, 0] (W21 m ρ c (Proc.devRef .tc main_arg5)) Gen.slices_S2x129x64_S1x129x64_1_0_0) Gen.shapeCasts_S1x129x64_S129x64 := by
  show StableHlo.after hostOps2_8 (W21 m ρ c) (Proc.devRef .tc main_v69) = _
  rfl

theorem v72_W22 (c : Dev nD) :
    W22 m ρ c (Proc.devRef .tc main_v72)
      = shapeCast S1x64 (shapeCast S64 (extractStridedSlice S1x64 ![1, 0] (W21 m ρ c (Proc.devRef .tc main_arg6)) Gen.slices_S2x64_S1x64_1_0) Gen.shapeCasts_S1x64_S64) Gen.shapeCasts_S64_S1x64 := by
  show StableHlo.after hostOps2_8 (W21 m ρ c) (Proc.devRef .tc main_v72) = _
  rfl

theorem v74_W22 (c : Dev nD) :
    W22 m ρ c (Proc.devRef .tc main_v74)
      = shapeCast S64x64 (extractStridedSlice S1x64x64 ![1, 0, 0] (W21 m ρ c (Proc.devRef .tc main_arg7)) Gen.slices_S2x64x64_S1x64x64_1_0_0) Gen.shapeCasts_S1x64x64_S64x64 := by
  show StableHlo.after hostOps2_8 (W21 m ρ c) (Proc.devRef .tc main_v74) = _
  rfl

theorem v77_W22 (c : Dev nD) :
    W22 m ρ c (Proc.devRef .tc main_v77)
      = shapeCast S1x64 (shapeCast S64 (extractStridedSlice S1x64 ![1, 0] (W21 m ρ c (Proc.devRef .tc main_arg8)) Gen.slices_S2x64_S1x64_1_0) Gen.shapeCasts_S1x64_S64) Gen.shapeCasts_S64_S1x64 := by
  show StableHlo.after hostOps2_8 (W21 m ρ c) (Proc.devRef .tc main_v77) = _
  rfl

theorem v79_W22 (c : Dev nD) :
    W22 m ρ c (Proc.devRef .tc main_v79)
      = shapeCast S64x64 (extractStridedSlice S1x64x64 ![1, 0, 0] (W21 m ρ c (Proc.devRef .tc main_arg13)) Gen.slices_S2x64x64_S1x64x64_1_0_0) Gen.shapeCasts_S1x64x64_S64x64 := by
  show StableHlo.after hostOps2_8 (W21 m ρ c) (Proc.devRef .tc main_v79) = _
  rfl

theorem v82_W22 (c : Dev nD) :
    W22 m ρ c (Proc.devRef .tc main_v82)
      = shapeCast S1x64 (shapeCast S64 (extractStridedSlice S1x64 ![1, 0] (W21 m ρ c (Proc.devRef .tc main_arg14)) Gen.slices_S2x64_S1x64_1_0) Gen.shapeCasts_S1x64_S64) Gen.shapeCasts_S64_S1x64 := by
  show StableHlo.after hostOps2_8 (W21 m ρ c) (Proc.devRef .tc main_v82) = _
  rfl

theorem v84_W22 (c : Dev nD) :
    W22 m ρ c (Proc.devRef .tc main_v84)
      = shapeCast S64x1 (extractStridedSlice S1x64x1 ![1, 0, 0] (W21 m ρ c (Proc.devRef .tc main_arg15)) Gen.slices_S2x64x1_S1x64x1_1_0_0) Gen.shapeCasts_S1x64x1_S64x1 := by
  show StableHlo.after hostOps2_8 (W21 m ρ c) (Proc.devRef .tc main_v84) = _
  rfl

theorem v87_W22 (c : Dev nD) :
    W22 m ρ c (Proc.devRef .tc main_v87)
      = shapeCast S1x1 (shapeCast S1 (extractStridedSlice S1x1 ![1, 0] (W21 m ρ c (Proc.devRef .tc main_arg16)) Gen.slices_S2x1_S1x1_1_0) Gen.shapeCasts_S1x1_S1) Gen.shapeCasts_S1_S1x1 := by
  show StableHlo.after hostOps2_8 (W21 m ρ c) (Proc.devRef .tc main_v87) = _
  rfl

theorem v94_W24 (c : Dev nD) :
    W24 m ρ c (Proc.devRef .tc main_v94)
      = Host.scatterAdd (F := Ideal) scatter_S50000x64_S800000x1_S800000x64_1_0_0_1
          (broadcastInDim S50000x64 ![] Gen.bcast_S_S50000x64 (constant (F := Ideal) S_ .f32 0x00000000#32))
          (broadcastInDim S800000x1 ![0] Gen.bcast_S800000_S800000x1_0 (W23 m ρ c (Proc.devRef .tc main_v3) : IVec S800000 32))
          (W23 m ρ c (Proc.devRef .tc main_v88_0) : FVec Ideal S800000x64 .f32) :=
  agg_v94 (F := Ideal) (W23 m ρ c)

theorem v95_W24 (c : Dev nD) :
    W24 m ρ c (Proc.devRef .tc main_v95)
      = addf (F := Ideal) (s := S50000x3) (φ := .f32) (W23 m ρ c (Proc.devRef .tc main_v47))
          (Host.scatterAdd (F := Ideal) scatter_S50000x3_S800000x1_S800000x3_1_0_0_1
            (broadcastInDim S50000x3 ![] Gen.bcast_S_S50000x3 (constant (F := Ideal) S_ .f32 0x00000000#32))
            (broadcastInDim S800000x1 ![0] Gen.bcast_S800000_S800000x1_0 (W23 m ρ c (Proc.devRef .tc main_v3) : IVec S800000 32))
            (W23 m ρ c (Proc.devRef .tc main_v88_1) : FVec Ideal S800000x3 .f32)) :=
  upd_v95 (F := Ideal) (W23 m ρ c)

theorem v97_W24 (c : Dev nD) :
    W24 m ρ c (Proc.devRef .tc main_v97)
      = shapeCast S128x64 (extractStridedSlice S1x128x64 ![1, 0, 0] (W23 m ρ c (Proc.devRef .tc main_arg9)) Gen.slices_S2x128x64_S1x128x64_1_0_0) Gen.shapeCasts_S1x128x64_S128x64 := by
  show StableHlo.after hostOps3 (W23 m ρ c) (Proc.devRef .tc main_v97) = _
  rfl

theorem v100_W24 (c : Dev nD) :
    W24 m ρ c (Proc.devRef .tc main_v100)
      = shapeCast S1x64 (shapeCast S64 (extractStridedSlice S1x64 ![1, 0] (W23 m ρ c (Proc.devRef .tc main_arg10)) Gen.slices_S2x64_S1x64_1_0) Gen.shapeCasts_S1x64_S64) Gen.shapeCasts_S64_S1x64 := by
  show StableHlo.after hostOps3 (W23 m ρ c) (Proc.devRef .tc main_v100) = _
  rfl

theorem v102_W24 (c : Dev nD) :
    W24 m ρ c (Proc.devRef .tc main_v102)
      = shapeCast S64x64 (extractStridedSlice S1x64x64 ![1, 0, 0] (W23 m ρ c (Proc.devRef .tc main_arg11)) Gen.slices_S2x64x64_S1x64x64_1_0_0) Gen.shapeCasts_S1x64x64_S64x64 := by
  show StableHlo.after hostOps3 (W23 m ρ c) (Proc.devRef .tc main_v102) = _
  rfl

theorem v105_W24 (c : Dev nD) :
    W24 m ρ c (Proc.devRef .tc main_v105)
      = shapeCast S1x64 (shapeCast S64 (extractStridedSlice S1x64 ![1, 0] (W23 m ρ c (Proc.devRef .tc main_arg12)) Gen.slices_S2x64_S1x64_1_0) Gen.shapeCasts_S1x64_S64) Gen.shapeCasts_S64_S1x64 := by
  show StableHlo.after hostOps3 (W23 m ρ c) (Proc.devRef .tc main_v105) = _
  rfl

theorem v60_W22 (c : Dev nD) : W22 m ρ c (Proc.devRef .tc main_v60) = W15 m ρ c (Proc.devRef .tc main_v60) :=
  calc W22 m ρ c (Proc.devRef .tc main_v60)
    _ = W21 m ρ c (Proc.devRef .tc main_v60) := by stretch_skip
    _ = W20 m ρ c (Proc.devRef .tc main_v60) := by stretch_skip
    _ = W19 m ρ c (Proc.devRef .tc main_v60) := by stretch_skip
    _ = W18 m ρ c (Proc.devRef .tc main_v60) := by stretch_skip
    _ = W17 m ρ c (Proc.devRef .tc main_v60) := by stretch_skip
    _ = W16 m ρ c (Proc.devRef .tc main_v60) := by stretch_skip
    _ = W15 m ρ c (Proc.devRef .tc main_v60) := by stretch_skip

theorem v62_W22 (c : Dev nD) : W22 m ρ c (Proc.devRef .tc main_v62) = W17 m ρ c (Proc.devRef .tc main_v62) :=
  calc W22 m ρ c (Proc.devRef .tc main_v62)
    _ = W21 m ρ c (Proc.devRef .tc main_v62) := by stretch_skip
    _ = W20 m ρ c (Proc.devRef .tc main_v62) := by stretch_skip
    _ = W19 m ρ c (Proc.devRef .tc main_v62) := by stretch_skip
    _ = W18 m ρ c (Proc.devRef .tc main_v62) := by stretch_skip
    _ = W17 m ρ c (Proc.devRef .tc main_v62) := by stretch_skip

theorem v63_W19 (c : Dev nD) : W19 m ρ c (Proc.devRef .tc main_v63) = W18 m ρ c (Proc.devRef .tc main_v63) := by stretch_skip

theorem v65_W21 (c : Dev nD) : W21 m ρ c (Proc.devRef .tc main_v65) = W20 m ρ c (Proc.devRef .tc main_v65) := by stretch_skip

theorem hdv_eq (hpre : Cert.Pre_KernelIdeal m) (c : Dev nD) : W14 m ρ c (Proc.devRef .tc main_v59) = P151 m c := by
  have hr := (Take.inRange_of_pre m hpre c).2
  refine (KTake.take_v59 (W13 m ρ c)).trans ?_
  rw [KLayer0.h1_eq m ρ hpre c, KCarry.v3_W13 m ρ c, KLayer0.dst_eq m ρ c, Take.take64_eq _ _ hr]
  exact congrArg (Host.gather _ _) (wrap_v150 _).symm

theorem hsv_eq (hpre : Cert.Pre_KernelIdeal m) (c : Dev nD) : W16 m ρ c (Proc.devRef .tc main_v61) = P158 m c := by
  have hr := (Take.inRange_of_pre m hpre c).1
  refine (KTake.take_v61 (W15 m ρ c)).trans ?_
  rw [KCarry.v58_W15 m ρ c, KLayer0.h1_eq m ρ hpre c, KCarry.v1_W15 m ρ c, KLayer0.src_eq m ρ c, Take.take64_eq _ _ hr]
  exact congrArg (Host.gather _ _) (wrap_v157 _).symm

theorem xdv_eq (hpre : Cert.Pre_KernelIdeal m) (c : Dev nD) : W19 m ρ c (Proc.devRef .tc main_v63) = P142 m c := by
  have hr := (Take.inRange_of_pre m hpre c).2
  rw [v63_W19]
  refine (KTake.take_v63 (W17 m ρ c)).trans ?_
  rw [KCarry.v47_W17 m ρ c, KLayer0.x1_eq m ρ hpre c, KCarry.v3_W17 m ρ c, KLayer0.dst_eq m ρ c, Take.take3_eq _ _ hr]
  exact congrArg (Host.gather _ _) (wrap_v141 _).symm

theorem xsv_eq (hpre : Cert.Pre_KernelIdeal m) (c : Dev nD) : W19 m ρ c (Proc.devRef .tc main_v64) = P135 m c := by
  have hr := (Take.inRange_of_pre m hpre c).1
  refine (KTake.take_v64 (W18 m ρ c)).trans ?_
  rw [KCarry.v47_W18 m ρ c, KLayer0.x1_eq m ρ hpre c, KCarry.v1_W18 m ρ c, KLayer0.src_eq m ρ c, Take.take3_eq _ _ hr]
  exact congrArg (Host.gather _ _) (wrap_v134 _).symm

theorem diff_eq (hpre : Cert.Pre_KernelIdeal m) (c : Dev nD) : W20 m ρ c (Proc.devRef .tc main_v65) = P143 m c := by
  rw [v65_W20, xsv_eq m ρ hpre c, xdv_eq m ρ hpre c]
  rfl

theorem norm_eq (hpre : Cert.Pre_KernelIdeal m) (c : Dev nD) : W21 m ρ c (Proc.devRef .tc main_v66) = P144 m c := by
  rw [v66_W21, diff_eq m ρ hpre c]
  rfl

theorem hd_at (hpre : Cert.Pre_KernelIdeal m) (c : Dev nD) (e : Fin 800000) (k : Fin 64) :
    W22 m ρ c (Proc.devRef .tc main_v60) (ix2 e k) = P151 m c (ix2 e k) := by
  rw [v60_W22, v60_W15]
  exact (truncf_at _ e k).trans (congrFun (hdv_eq m ρ hpre c) (ix2 e k))

theorem hs_at (hpre : Cert.Pre_KernelIdeal m) (c : Dev nD) (e : Fin 800000) (k : Fin 64) :
    W22 m ρ c (Proc.devRef .tc main_v62) (ix2 e k) = P158 m c (ix2 e k) := by
  rw [v62_W22, v62_W17]
  exact (truncf_at _ e k).trans (congrFun (hsv_eq m ρ hpre c) (ix2 e k))

theorem r_at (hpre : Cert.Pre_KernelIdeal m) (c : Dev nD) (e : Fin 800000) :
    W22 m ρ c (Proc.devRef .tc main_v67) (ix2 e 0) = P144 m c (ix2 e 0) := by
  rw [v67_W22]
  refine (cat_r _ _ e).trans ?_
  exact congrFun (norm_eq m ρ hpre c) (ix2 e 0)

theorem xd_at (hpre : Cert.Pre_KernelIdeal m) (c : Dev nD) (e : Fin 800000) (d : Fin 3) :
    W22 m ρ c (Proc.devRef .tc main_v67) (ix2 e ⟨d.val + 1, by omega⟩) = P143 m c (ix2 e d) := by
  rw [v67_W22]
  refine (cat_d _ _ e d).trans ?_
  rw [v65_W21]
  exact congrFun (diff_eq m ρ hpre c) (ix2 e d)

theorem w1_at (c : Dev nD) (k : Fin 129) (j : Fin 64) : W22 m ρ c (Proc.devRef .tc main_v69) (ix2 k j) = A5 m c (ix3 1 k j) := by
  rw [v69_W22, KCarry.arg5_W21 m ρ c]; exact w129_at _ k j
theorem b1_at' (c : Dev nD) (j : Fin 64) : W22 m ρ c (Proc.devRef .tc main_v72) (ix2 0 j) = A6 m c (ix2 1 j) := by
  rw [v72_W22, KCarry.arg6_W21 m ρ c]; exact b64_at _ j
theorem w2_at (c : Dev nD) (k : Fin 64) (j : Fin 64) : W22 m ρ c (Proc.devRef .tc main_v74) (ix2 k j) = A7 m c (ix3 1 k j) := by
  rw [v74_W22, KCarry.arg7_W21 m ρ c]; exact w64_at _ k j
theorem b2_at (c : Dev nD) (j : Fin 64) : W22 m ρ c (Proc.devRef .tc main_v77) (ix2 0 j) = A8 m c (ix2 1 j) := by
  rw [v77_W22, KCarry.arg8_W21 m ρ c]; exact b64_at _ j
theorem wx1_at (c : Dev nD) (k : Fin 64) (j : Fin 64) : W22 m ρ c (Proc.devRef .tc main_v79) (ix2 k j) = A13 m c (ix3 1 k j) := by
  rw [v79_W22, KCarry.arg13_W21 m ρ c]; exact w64_at _ k j
theorem bx1_at (c : Dev nD) (j : Fin 64) : W22 m ρ c (Proc.devRef .tc main_v82) (ix2 0 j) = A14 m c (ix2 1 j) := by
  rw [v82_W22, KCarry.arg14_W21 m ρ c]; exact b64_at _ j
theorem wx2_at (c : Dev nD) (k : Fin 64) (j : Fin 1) : W22 m ρ c (Proc.devRef .tc main_v84) (ix2 k j) = A15 m c (ix3 1 k j) := by
  rw [v84_W22, KCarry.arg15_W21 m ρ c]; exact w64x1_at _ k j
theorem bx2_at (c : Dev nD) (j : Fin 1) : W22 m ρ c (Proc.devRef .tc main_v87) (ix2 0 j) = A16 m c (ix2 1 j) := by
  rw [v87_W22, KCarry.arg16_W21 m ρ c]; exact b1_at _ j
theorem wn1_at (c : Dev nD) (k : Fin 128) (j : Fin 64) : W24 m ρ c (Proc.devRef .tc main_v97) (ix2 k j) = A9 m c (ix3 1 k j) := by
  rw [v97_W24, KCarry.arg9_W23 m ρ c]; exact w128_at _ k j
theorem bn1_at (c : Dev nD) (j : Fin 64) : W24 m ρ c (Proc.devRef .tc main_v100) (ix2 0 j) = A10 m c (ix2 1 j) := by
  rw [v100_W24, KCarry.arg10_W23 m ρ c]; exact b64_at _ j
theorem wn2_at (c : Dev nD) (k : Fin 64) (j : Fin 64) : W24 m ρ c (Proc.devRef .tc main_v102) (ix2 k j) = A11 m c (ix3 1 k j) := by
  rw [v102_W24, KCarry.arg11_W23 m ρ c]; exact w64_at _ k j
theorem bn2_at (c : Dev nD) (j : Fin 64) : W24 m ρ c (Proc.devRef .tc main_v105) (ix2 0 j) = A12 m c (ix2 1 j) := by
  rw [v105_W24, KCarry.arg12_W23 m ρ c]; exact b64_at _ j

theorem msg_at (hpre : Cert.Pre_KernelIdeal m) (c : Dev nD) (e : Fin 800000) (j : Fin 64) :
    (dat2 (F := Ideal) (V22 m ρ) c).arrAt 11 cfg2.N (ix2 e j) = P189 m c (ix2 e j) := by
  refine ((EdgeArr2.m_apply (V22 m ρ) c e j).trans ?_).trans
    (Cert.ReferenceIdeal.RLayer1.m_apply (A0 m c) (A1 m c) (A2 m c) (A4 m c) (A5 m c) (A6 m c) (A7 m c) (A8 m c) (A9 m c) (A10 m c) (A11 m c) (A12 m c) (A13 m c) (A14 m c) (A15 m c) (A16 m c) e j).symm
  exact edgeM_congr (fun k => hd_at m ρ hpre c e k) (fun k => hs_at m ρ hpre c e k) (r_at m ρ hpre c e)
    (fun k j => w1_at m ρ c k j) (fun j => b1_at' m ρ c j) (fun k j => w2_at m ρ c k j) (fun j => b2_at m ρ c j) j

theorem wx_at (hpre : Cert.Pre_KernelIdeal m) (c : Dev nD) (e : Fin 800000) (d : Fin 3) :
    (dat2 (F := Ideal) (V22 m ρ) c).arrAt 12 cfg2.N (ix2 e d) = P214 m c (ix2 e d) := by
  refine ((EdgeArr2.wx_apply (V22 m ρ) c e d).trans ?_).trans
    (Cert.ReferenceIdeal.RLayer1.wx_apply (A0 m c) (A1 m c) (A2 m c) (A4 m c) (A5 m c) (A6 m c) (A7 m c) (A8 m c) (A9 m c) (A10 m c) (A11 m c) (A12 m c) (A13 m c) (A14 m c) (A15 m c) (A16 m c) e d).symm
  exact congrArg₂ (· * ·)
    (edgeW_congr (fun k => msg_at m ρ hpre c e k) (fun k j => wx1_at m ρ c k j) (fun j => bx1_at m ρ c j)
      (fun k j => wx2_at m ρ c k j) (fun j => bx2_at m ρ c j))
    (xd_at m ρ hpre c e d)

theorem msg_eq (hpre : Cert.Pre_KernelIdeal m) (c : Dev nD) : W23 m ρ c (Proc.devRef .tc main_v88_0) = P189 m c := by
  have h : W23 m ρ c (Proc.devRef .tc main_v88_0) = (dat2 (F := Ideal) (V22 m ρ) c).arrAt 11 cfg2.N := W23_arr m ρ c 11
  rw [h]
  exact ext2 (n0 := 800000) (n1 := 64) fun e j => msg_at m ρ hpre c e j

theorem wx_eq (hpre : Cert.Pre_KernelIdeal m) (c : Dev nD) : W23 m ρ c (Proc.devRef .tc main_v88_1) = P214 m c := by
  have h : W23 m ρ c (Proc.devRef .tc main_v88_1) = (dat2 (F := Ideal) (V22 m ρ) c).arrAt 12 cfg2.N := W23_arr m ρ c 12
  rw [h]
  exact ext2 (n0 := 800000) (n1 := 3) fun e d => wx_at m ρ hpre c e d

theorem agg_eq (hpre : Cert.Pre_KernelIdeal m) (c : Dev nD) : W24 m ρ c (Proc.devRef .tc main_v94) = P221 m c := by
  rw [v94_W24, KCarry.v3_W23 m ρ c, KLayer0.dst_eq m ρ c, msg_eq m ρ hpre c]
  rfl

theorem x2_eq (hpre : Cert.Pre_KernelIdeal m) (c : Dev nD) :
    W25 m ρ c (Proc.devRef .tc main_v95) = Cert.ReferenceIdeal.ReadP.val_main_v218 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  refine (W25_of_ne m ρ c main_v95 (by decide)).trans ?_
  rw [v95_W24, KCarry.v47_W23 m ρ c, KLayer0.x1_eq m ρ hpre c, KCarry.v3_W23 m ρ c, KLayer0.dst_eq m ρ c, wx_eq m ρ hpre c]
  rfl

theorem h2_eq (hpre : Cert.Pre_KernelIdeal m) (c : Dev nD) :
    W25 m ρ c (Proc.devRef .tc main_v106) = Cert.ReferenceIdeal.ReadP.val_main_v246 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  have h : W25 m ρ c (Proc.devRef .tc main_v106) = (dat3 (F := Ideal) (V24 m ρ) c).arrAt 6 cfg3.N := W25_arr m ρ c 6
  rw [h]
  refine ext2 (n0 := 50000) (n1 := 64) fun n j => ?_
  refine ((NodeArr3.h_apply (V24 m ρ) c n j).trans ?_).trans
    (Cert.ReferenceIdeal.RLayer1.h_apply (A0 m c) (A1 m c) (A2 m c) (A4 m c) (A5 m c) (A6 m c) (A7 m c) (A8 m c) (A9 m c) (A10 m c) (A11 m c) (A12 m c) (A13 m c) (A14 m c) (A15 m c) (A16 m c) n j).symm
  exact nodeH_congr
    (fun k => (congrFun ((KCarry.v58_W24 m ρ c).trans (KLayer0.h1_eq m ρ hpre c)) (ix2 n k)))
    (fun k => congrFun (agg_eq m ρ hpre c) (ix2 n k))
    (fun k j => wn1_at m ρ c k j) (fun j => bn1_at m ρ c j) (fun k j => wn2_at m ρ c k j) (fun j => bn2_at m ρ c j) j

end Cert.KernelIdeal.KLayer1

end
-- ==== Proof.RRunLib.lean ====
import proofs.«428515_j67688684585222_1_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- A line of operations in which the one at place k writes exactly the buffer numbered N + k. -/
def Numbered : Nat → List (HloOp τ sig (Elt F)) → Prop
  | _, [] => True
  | N, op :: rest => (∃ y : Ref sig .tc, op.writes = {Proc.devRef .tc y} ∧ y.idx.val = N) ∧ Numbered (N + 1) rest

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- No operation of the line writes a buffer numbered below N. -/
theorem Numbered.after_lt : ∀ (ops : List (HloOp τ sig (Elt F))) (N : Nat), Numbered N ops →
    ∀ (V : Valuation τ sig (Elt F)) (r : Ref sig .tc), r.idx.val < N →
      after ops V (Proc.devRef .tc r) = V (Proc.devRef .tc r)
  | [], _, _, _, _, _ => rfl
  | op :: rest, N, ⟨⟨y, hw, hy⟩, hrest⟩, V, r, hr => by
    rw [after_cons, Numbered.after_lt rest (N + 1) hrest _ r (Nat.lt_succ_of_lt hr)]
    refine op.result_of_not_mem V ?_
    rw [hw, Finset.mem_singleton]
    intro e
    have h : r = y := Proc.devRef_injective _ e
    subst h
    omega

theorem Numbered.append : ∀ (l₁ l₂ : List (HloOp τ sig (Elt F))) (N : Nat),
    Numbered N l₁ → Numbered (N + l₁.length) l₂ → Numbered N (l₁ ++ l₂)
  | [], _, _, _, h => h
  | _ :: l₁, l₂, N, ⟨h, h₁⟩, h₂ =>
    ⟨h, Numbered.append l₁ l₂ (N + 1) h₁ (by
      have e : N + 1 + l₁.length = N + (l₁.length + 1) := by omega
      rw [e]; exact h₂)⟩

theorem Numbered.of_append : ∀ (l₁ l₂ : List (HloOp τ sig (Elt F))) (N : Nat),
    Numbered N (l₁ ++ l₂) → Numbered (N + l₁.length) l₂
  | [], _, _, h => h
  | _ :: l₁, l₂, N, ⟨_, h⟩ => by
    have h' := Numbered.of_append l₁ l₂ (N + 1) h
    have e : N + 1 + l₁.length = N + (l₁.length + 1) := by omega
    rw [e] at h'; exact h'

theorem Numbered.at_split (l₁ : List (HloOp τ sig (Elt F))) (op : HloOp τ sig (Elt F)) (l₂ : List (HloOp τ sig (Elt F))) (N : Nat)
    (h : Numbered N (l₁ ++ op :: l₂)) (V : Valuation τ sig (Elt F)) :
    (∀ r : Ref sig .tc, r.idx.val < N + l₁.length →
        after (l₁ ++ op :: l₂) V (Proc.devRef .tc r) = after l₁ V (Proc.devRef .tc r))
    ∧ (∀ r : Ref sig .tc, r.idx.val = N + l₁.length →
        after (l₁ ++ op :: l₂) V (Proc.devRef .tc r) = op.result (after l₁ V) (Proc.devRef .tc r)) := by
  have hN := Numbered.of_append l₁ (op :: l₂) N h
  refine ⟨fun r hr => ?_, fun r hr => ?_⟩
  · rw [after_app, Numbered.after_lt _ _ hN _ r hr]
  · rw [after_app, after_cons, Numbered.after_lt _ _ hN.2 _ r (by omega)]

/-- Every buffer is written once, so at the end a buffer numbered below the operation at place j holds what it held when
    that operation ran, and the operation's own buffer what the operation left in it. -/
theorem Numbered.at (ops : List (HloOp τ sig (Elt F))) (N : Nat) (h : Numbered N ops) (V : Valuation τ sig (Elt F))
    (j : Nat) (op : HloOp τ sig (Elt F)) (hop : ops[j]? = some op) :
    (∀ r : Ref sig .tc, r.idx.val < N + j →
        after ops V (Proc.devRef .tc r) = after (ops.take j) V (Proc.devRef .tc r))
    ∧ (∀ r : Ref sig .tc, r.idx.val = N + j →
        after ops V (Proc.devRef .tc r) = op.result (after (ops.take j) V) (Proc.devRef .tc r)) := by
  obtain ⟨hj, rfl⟩ := List.getElem?_eq_some_iff.mp hop
  have hsplit : ops.take j ++ ops[j] :: ops.drop (j + 1) = ops := by
    rw [← List.drop_eq_getElem_cons hj, List.take_append_drop]
  have hlen : (ops.take j).length = j := by rw [List.length_take]; omega
  have key := Numbered.at_split (ops.take j) ops[j] (ops.drop (j + 1)) N (by rw [hsplit]; exact h) V
  rw [hsplit, hlen] at key
  exact key

theorem forall_app {p : HloOp τ sig (Elt F) → Prop} {l₁ l₂ : List (HloOp τ sig (Elt F))} (h₁ : l₁.Forall p) (h₂ : l₂.Forall p) :
    (l₁ ++ l₂).Forall p := List.forall_append.mpr ⟨h₁, h₂⟩

theorem Numbered.append' (l₁ l₂ : List (HloOp τ sig (Elt F))) (N n M : Nat) (h₁ : Numbered N l₁) (hl : l₁.length = n)
    (hM : N + n = M) (h₂ : Numbered M l₂) : Numbered N (l₁ ++ l₂) :=
  Numbered.append l₁ l₂ N h₁ (by rw [hl, hM]; exact h₂)

theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-! An operation's operands are numbered below its result, so at the end of the line the result is the operation's function of
    its operands AS THEY STAND AT THE END: one equation per kind of operation. -/

section
variable {ops : List (HloOp τ sig (Elt F))} {N : Nat} (h : Numbered N ops) (V : Valuation τ sig (Elt F)) (j : Nat)
  {x a b c y : Ref sig .tc}
include h

theorem Numbered.nullary_at {v hy} (hop : ops[j]? = some (nullary y v hy)) (ey : y.idx.val = N + j := by rfl) :
    after ops V y = v := by
  rw [(Numbered.at ops N h V j _ hop).2 y ey, nullary_result]

theorem Numbered.unary_at {f hx hy} (hop : ops[j]? = some (unary x y f hx hy)) (ey : y.idx.val = N + j := by rfl)
    (lx : x.idx.val < N + j := by decide) : after ops V y = f (after ops V x) := by
  have k := Numbered.at ops N h V j _ hop
  rw [k.2 y ey, unary_result, ← k.1 x lx]

theorem Numbered.reshape_at {he hn hx hy} (hop : ops[j]? = some (reshape x y he hn hx hy)) (ey : y.idx.val = N + j := by rfl)
    (lx : x.idx.val < N + j := by decide) : after ops V y = fun i => he ▸ shapeCast y.ty.shape (after ops V x) hn i := by
  have k := Numbered.at ops N h V j _ hop
  rw [k.2 y ey, reshape_result, ← k.1 x lx]

theorem Numbered.binary_at {f ha hb hy} (hop : ops[j]? = some (binary a b y f ha hb hy)) (ey : y.idx.val = N + j := by rfl)
    (la : a.idx.val < N + j := by decide) (lb : b.idx.val < N + j := by decide) :
    after ops V y = f (after ops V a) (after ops V b) := by
  have k := Numbered.at ops N h V j _ hop
  rw [k.2 y ey, binary_result, ← k.1 a la, ← k.1 b lb]

theorem Numbered.ternary_at {f hc ha hb hy} (hop : ops[j]? = some (ternary c a b y f hc ha hb hy))
    (ey : y.idx.val = N + j := by rfl) (lc : c.idx.val < N + j := by decide) (la : a.idx.val < N + j := by decide)
    (lb : b.idx.val < N + j := by decide) : after ops V y = f (after ops V c) (after ops V a) (after ops V b) := by
  have k := Numbered.at ops N h V j _ hop
  rw [k.2 y ey, ternary_result, ← k.1 c lc, ← k.1 a la, ← k.1 b lb]

theorem Numbered.nary3_at {f hxs hy} (hop : ops[j]? = some (nary ![x, a, b] y f hxs hy)) (ey : y.idx.val = N + j := by rfl)
    (lx : x.idx.val < N + j := by decide) (la : a.idx.val < N + j := by decide) (lb : b.idx.val < N + j := by decide) :
    after ops V y = f (Fin.cons (after ops V x) (Fin.cons (after ops V a) (Fin.cons (after ops V b) (fun i => i.elim0)))) := by
  have k := Numbered.at ops N h V j _ hop
  rw [k.2 y ey, nary3_result, ← k.1 x lx, ← k.1 a la, ← k.1 b lb]

end

end Cert.ReferenceIdeal.RRun

end
-- ==== Proof.RRunOpsA.lean ====
import proofs.«428515_j67688684585222_1_alg».proof.Proof.RRunLib

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The program's operations 0 … 36 (counting from 0), in order. -/
def opsA0 : List (HloOp τ sig (Elt F)) :=
  [ unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S50000 ![] bcast_S_S50000 : (⟨S_, .i32⟩ : BufTy).Contents (Elt F) → (⟨S50000, .i32⟩ : BufTy).Contents (Elt F)),
    binary main_arg0 main_v4 main_v5 (cmpi .slt : (⟨S50000, .i32⟩ : BufTy).Contents (Elt F) → (⟨S50000, .i32⟩ : BufTy).Contents (Elt F) → (⟨S50000, .i1⟩ : BufTy).Contents (Elt F)),
    nullary main_c_0 (constantI S_ 32 100#32),
    unary main_c_0 main_v6 (broadcastInDim S50000 ![] bcast_S_S50000 : (⟨S_, .i32⟩ : BufTy).Contents (Elt F) → (⟨S50000, .i32⟩ : BufTy).Contents (Elt F)),
    binary main_arg0 main_v6 main_v7 (addi : (⟨S50000, .i32⟩ : BufTy).Contents (Elt F) → (⟨S50000, .i32⟩ : BufTy).Contents (Elt F) → (⟨S50000, .i32⟩ : BufTy).Contents (Elt F)),
    ternary main_v5 main_v7 main_arg0 main_v8 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v8 main_v9 (broadcastInDim S50000x1 ![0] bcast_S50000_S50000x1_0 : (⟨S50000, .i32⟩ : BufTy).Contents (Elt F) → (⟨S50000x1, .i32⟩ : BufTy).Contents (Elt F)),
    binary main_arg4 main_v9 main_v10 ((fun x i => Host.gather gather_S100x64_S50000x1_S50000x64_1_0_n_n_0_1_164 x i) : (⟨S100x64, .f32⟩ : BufTy).Contents (Elt F) → (⟨S50000x1, .i32⟩ : BufTy).Contents (Elt F) → (⟨S50000x64, .f32⟩ : BufTy).Contents (Elt F)),
    nullary main_c_1 (constantI S_ 32 0#32),
    unary main_c_1 main_v11 (broadcastInDim S800000 ![] bcast_S_S800000 : (⟨S_, .i32⟩ : BufTy).Contents (Elt F) → (⟨S800000, .i32⟩ : BufTy).Contents (Elt F)),
    binary main_v1 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v1 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg1 main_v16 main_v17 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    nullary main_c_3 (constantI S_ 32 0#32),
    unary main_c_3 main_v18 (broadcastInDim S800000 ![] bcast_S_S800000 : (⟨S_, .i32⟩ : BufTy).Contents (Elt F) → (⟨S800000, .i32⟩ : BufTy).Contents (Elt F)),
    binary main_v3 main_v18 main_v19 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v20 (broadcastInDim S800000 ![] bcast_S_S800000 : (⟨S_, .i32⟩ : BufTy).Contents (Elt F) → (⟨S800000, .i32⟩ : BufTy).Contents (Elt F)),
    binary main_v3 main_v20 main_v21 (addi : (⟨S800000, .i32⟩ : BufTy).Contents (Elt F) → (⟨S800000, .i32⟩ : BufTy).Contents (Elt F) → (⟨S800000, .i32⟩ : BufTy).Contents (Elt F)),
    ternary main_v19 main_v21 main_v3 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v22 main_v23 (broadcastInDim S800000x1 ![0] bcast_S800000_S800000x1_0 : (⟨S800000, .i32⟩ : BufTy).Contents (Elt F) → (⟨S800000x1, .i32⟩ : BufTy).Contents (Elt F)),
    binary main_arg1 main_v23 main_v24 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    binary main_v17 main_v24 main_v25 (subf : (⟨S800000x3, .f32⟩ : BufTy).Contents (Elt F) → (⟨S800000x3, .f32⟩ : BufTy).Contents (Elt F) → (⟨S800000x3, .f32⟩ : BufTy).Contents (Elt F)),
    TRef.binary (TRef.of (T := ⟨S800000x3, .f32⟩) main_v25) (TRef.of (T := ⟨S800000x3, .f32⟩) main_v25) (TRef.of (T := ⟨S800000x3, .f32⟩) main_call0_v0) mulf,
    TRef.nullary (TRef.of (T := ⟨S_, .f32⟩) main_call0_cst) (constant S_ .f32 0x00000000#32),
    TRef.binary (TRef.of (T := ⟨S800000x3, .f32⟩) main_call0_v0) (TRef.of (T := ⟨S_, .f32⟩) main_call0_cst) (TRef.of (T := ⟨S800000, .f32⟩) main_call0_v1) (fun x v => Host.reduceAdd x v reducesTo_S800000x3_S800000_d1 h_S_),
    TRef.unary (TRef.of (T := ⟨S800000, .f32⟩) main_call0_v1) (TRef.of (T := ⟨S800000x1, .f32⟩) main_call0_v2) (broadcastInDim S800000x1 ![0] bcast_S800000_S800000x1_0),
    TRef.unary (TRef.of (T := ⟨S800000x1, .f32⟩) main_call0_v2) (TRef.of (T := ⟨S800000x1, .f32⟩) main_v26) Host.sqrt ]

/-- Each touches TensorCore references only. -/
theorem opsA0_sub : (opsA0 (F := F)).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., unary_bufs_sub ..⟩

/-- Each determines what it writes. -/
theorem opsA0_fresh : (opsA0 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The operation at place k of this line (counting from 0) writes exactly buffer 17 + k. -/
theorem opsA0_numbered : Numbered 17 (opsA0 (F := F)) :=
  ⟨⟨main_v0, rfl, rfl⟩, ⟨main_v1, rfl, rfl⟩, ⟨main_v2, rfl, rfl⟩, ⟨main_v3, rfl, rfl⟩, ⟨main_c, rfl, rfl⟩, ⟨main_v4, rfl, rfl⟩, ⟨main_v5, rfl, rfl⟩, ⟨main_c_0, rfl, rfl⟩, ⟨main_v6, rfl, rfl⟩, ⟨main_v7, rfl, rfl⟩, ⟨main_v8, rfl, rfl⟩, ⟨main_v9, rfl, rfl⟩, ⟨main_v10, rfl, rfl⟩, ⟨main_c_1, rfl, rfl⟩, ⟨main_v11, rfl, rfl⟩, ⟨main_v12, rfl, rfl⟩, ⟨main_c_2, rfl, rfl⟩, ⟨main_v13, rfl, rfl⟩, ⟨main_v14, rfl, rfl⟩, ⟨main_v15, rfl, rfl⟩, ⟨main_v16, rfl, rfl⟩, ⟨main_v17, rfl, rfl⟩, ⟨main_c_3, rfl, rfl⟩, ⟨main_v18, rfl, rfl⟩, ⟨main_v19, rfl, rfl⟩, ⟨main_c_4, rfl, rfl⟩, ⟨main_v20, rfl, rfl⟩, ⟨main_v21, rfl, rfl⟩, ⟨main_v22, rfl, rfl⟩, ⟨main_v23, rfl, rfl⟩, ⟨main_v24, rfl, rfl⟩, ⟨main_v25, rfl, rfl⟩, ⟨main_call0_v0, rfl, rfl⟩, ⟨main_call0_cst, rfl, rfl⟩, ⟨main_call0_v1, rfl, rfl⟩, ⟨main_call0_v2, rfl, rfl⟩, ⟨main_v26, rfl, rfl⟩, trivial⟩

theorem opsA0_length : (opsA0 (F := F)).length = 37 := rfl

set_option maxRecDepth 8192 in
set_option maxHeartbeats 4000000 in
/-- The program's operations 37 … 63 (counting from 0), in order. -/
def opsA1 : List (HloOp τ sig (Elt F)) :=
  [ nullary main_c_5 (constantI S_ 32 0#32),
    unary main_c_5 main_v27 (broadcastInDim S800000 ![] bcast_S_S800000 : (⟨S_, .i32⟩ : BufTy).Contents (Elt F) → (⟨S800000, .i32⟩ : BufTy).Contents (Elt F)),
    binary main_v3 main_v27 main_v28 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v29 (broadcastInDim S800000 ![] bcast_S_S800000 : (⟨S_, .i32⟩ : BufTy).Contents (Elt F) → (⟨S800000, .i32⟩ : BufTy).Contents (Elt F)),
    binary main_v3 main_v29 main_v30 (addi : (⟨S800000, .i32⟩ : BufTy).Contents (Elt F) → (⟨S800000, .i32⟩ : BufTy).Contents (Elt F) → (⟨S800000, .i32⟩ : BufTy).Contents (Elt F)),
    ternary main_v28 main_v30 main_v3 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v31 main_v32 (broadcastInDim S800000x1 ![0] bcast_S800000_S800000x1_0 : (⟨S800000, .i32⟩ : BufTy).Contents (Elt F) → (⟨S800000x1, .i32⟩ : BufTy).Contents (Elt F)),
    binary main_v10 main_v32 main_v33 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_7 (constantI S_ 32 0#32),
    unary main_c_7 main_v34 (broadcastInDim S800000 ![] bcast_S_S800000 : (⟨S_, .i32⟩ : BufTy).Contents (Elt F) → (⟨S800000, .i32⟩ : BufTy).Contents (Elt F)),
    binary main_v1 main_v34 main_v35 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v36 (broadcastInDim S800000 ![] bcast_S_S800000 : (⟨S_, .i32⟩ : BufTy).Contents (Elt F) → (⟨S800000, .i32⟩ : BufTy).Contents (Elt F)),
    binary main_v1 main_v36 main_v37 (addi : (⟨S800000, .i32⟩ : BufTy).Contents (Elt F) → (⟨S800000, .i32⟩ : BufTy).Contents (Elt F) → (⟨S800000, .i32⟩ : BufTy).Contents (Elt F)),
    ternary main_v35 main_v37 main_v1 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v38 main_v39 (broadcastInDim S800000x1 ![0] bcast_S800000_S800000x1_0 : (⟨S800000, .i32⟩ : BufTy).Contents (Elt F) → (⟨S800000x1, .i32⟩ : BufTy).Contents (Elt F)),
    binary main_v10 main_v39 main_v40 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nary ![main_v33, main_v40, main_v26] main_v41 (fun u => concatenate S800000x129 1 [⟨S800000x64, u 0⟩, ⟨S800000x64, u 1⟩, ⟨S800000x1, u 2⟩] concatenates_S800000x64_S800000x64_S800000x1_S800000x129_d1),
    unary main_arg5 main_v42 ((extractStridedSlice S1x129x64 ![0, 0, 0] · slices_S2x129x64_S1x129x64_0_0_0) : (⟨S2x129x64, .f32⟩ : BufTy).Contents (Elt F) → (⟨S1x129x64, .f32⟩ : BufTy).Contents (Elt F)),
    reshape main_v42 main_v43 rfl shapeCasts_S1x129x64_S129x64,
    binary main_v41 main_v43 main_v44 ((fun l r => Host.dotGeneral dot_S800000x129_S129x64_S800000x64_1_0_0_1_n_n none l r) : (⟨S800000x129, .f32⟩ : BufTy).Contents (Elt F) → (⟨S129x64, .f32⟩ : BufTy).Contents (Elt F) → (⟨S800000x64, .f32⟩ : BufTy).Contents (Elt F)),
    unary main_arg6 main_v45 ((extractStridedSlice S1x64 ![0, 0] · slices_S2x64_S1x64_0_0) : (⟨S2x64, .f32⟩ : BufTy).Contents (Elt F) → (⟨S1x64, .f32⟩ : BufTy).Contents (Elt F)),
    reshape main_v45 main_v46 rfl shapeCasts_S1x64_S64,
    unary main_v46 main_v47 (broadcastInDim S1x64 ![1] bcast_S64_S1x64_1 : (⟨S64, .f32⟩ : BufTy).Contents (Elt F) → (⟨S1x64, .f32⟩ : BufTy).Contents (Elt F)),
    unary main_v47 main_v48 (broadcastInDim S800000x64 ![0, 1] bcast_S1x64_S800000x64_0_1 : (⟨S1x64, .f32⟩ : BufTy).Contents (Elt F) → (⟨S800000x64, .f32⟩ : BufTy).Contents (Elt F)),
    binary main_v44 main_v48 main_v49 (addf : (⟨S800000x64, .f32⟩ : BufTy).Contents (Elt F) → (⟨S800000x64, .f32⟩ : BufTy).Contents (Elt F) → (⟨S800000x64, .f32⟩ : BufTy).Contents (Elt F)) ]

/-- Each touches TensorCore references only. -/
theorem opsA1_sub : (opsA1 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., unary_bufs_sub .., reshape_bufs_sub .., binary_bufs_sub .., unary_bufs_sub .., reshape_bufs_sub .., unary_bufs_sub .., unary_bufs_sub .., binary_bufs_sub ..⟩

/-- Each determines what it writes. -/
theorem opsA1_fresh : (opsA1 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The operation at place k of this line (counting from 0) writes exactly buffer 54 + k. -/
theorem opsA1_numbered : Numbered 54 (opsA1 (F := F)) :=
  ⟨⟨main_c_5, rfl, rfl⟩, ⟨main_v27, rfl, rfl⟩, ⟨main_v28, rfl, rfl⟩, ⟨main_c_6, rfl, rfl⟩, ⟨main_v29, rfl, rfl⟩, ⟨main_v30, rfl, rfl⟩, ⟨main_v31, rfl, rfl⟩, ⟨main_v32, rfl, rfl⟩, ⟨main_v33, rfl, rfl⟩, ⟨main_c_7, rfl, rfl⟩, ⟨main_v34, rfl, rfl⟩, ⟨main_v35, rfl, rfl⟩, ⟨main_c_8, rfl, rfl⟩, ⟨main_v36, rfl, rfl⟩, ⟨main_v37, rfl, rfl⟩, ⟨main_v38, rfl, rfl⟩, ⟨main_v39, rfl, rfl⟩, ⟨main_v40, rfl, rfl⟩, ⟨main_v41, rfl, rfl⟩, ⟨main_v42, rfl, rfl⟩, ⟨main_v43, rfl, rfl⟩, ⟨main_v44, rfl, rfl⟩, ⟨main_v45, rfl, rfl⟩, ⟨main_v46, rfl, rfl⟩, ⟨main_v47, rfl, rfl⟩, ⟨main_v48, rfl, rfl⟩, ⟨main_v49, rfl, rfl⟩, trivial⟩

theorem opsA1_length : (opsA1 (F := F)).length = 27 := rfl

set_option maxRecDepth 8192 in
set_option maxHeartbeats 4000000 in
/-- The program's operations 64 … 93 (counting from 0), in order. -/
def opsA2 : List (HloOp τ sig (Elt F)) :=
  [ unary main_v49 main_v50 (Host.negf : (⟨S800000x64, .f32⟩ : BufTy).Contents (Elt F) → (⟨S800000x64, .f32⟩ : BufTy).Contents (Elt F)),
    unary main_v50 main_v51 (Host.exp : (⟨S800000x64, .f32⟩ : BufTy).Contents (Elt F) → (⟨S800000x64, .f32⟩ : BufTy).Contents (Elt F)),
    nullary main_cst (constant S_ .f32 0x3F800000#32),
    unary main_cst main_v52 (broadcastInDim S800000x64 ![] bcast_S_S800000x64 : (⟨S_, .f32⟩ : BufTy).Contents (Elt F) → (⟨S800000x64, .f32⟩ : BufTy).Contents (Elt F)),
    binary main_v52 main_v51 main_v53 (addf : (⟨S800000x64, .f32⟩ : BufTy).Contents (Elt F) → (⟨S800000x64, .f32⟩ : BufTy).Contents (Elt F) → (⟨S800000x64, .f32⟩ : BufTy).Contents (Elt F)),
    nullary main_cst_9 (constant S_ .f32 0x3F800000#32),
    unary main_cst_9 main_v54 (broadcastInDim S800000x64 ![] bcast_S_S800000x64 : (⟨S_, .f32⟩ : BufTy).Contents (Elt F) → (⟨S800000x64, .f32⟩ : BufTy).Contents (Elt F)),
    binary main_v54 main_v53 main_v55 (Host.divf : (⟨S800000x64, .f32⟩ : BufTy).Contents (Elt F) → (⟨S800000x64, .f32⟩ : BufTy).Contents (Elt F) → (⟨S800000x64, .f32⟩ : BufTy).Contents (Elt F)),
    binary main_v49 main_v55 main_v56 (mulf : (⟨S800000x64, .f32⟩ : BufTy).Contents (Elt F) → (⟨S800000x64, .f32⟩ : BufTy).Contents (Elt F) → (⟨S800000x64, .f32⟩ : BufTy).Contents (Elt F)),
    unary main_arg7 main_v57 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v57 main_v58 rfl shapeCasts_S1x64x64_S64x64,
    binary main_v56 main_v58 main_v59 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg8 main_v60 ((extractStridedSlice S1x64 ![0, 0] · slices_S2x64_S1x64_0_0) : (⟨S2x64, .f32⟩ : BufTy).Contents (Elt F) → (⟨S1x64, .f32⟩ : BufTy).Contents (Elt F)),
    reshape main_v60 main_v61 rfl shapeCasts_S1x64_S64,
    unary main_v61 main_v62 (broadcastInDim S1x64 ![1] bcast_S64_S1x64_1 : (⟨S64, .f32⟩ : BufTy).Contents (Elt F) → (⟨S1x64, .f32⟩ : BufTy).Contents (Elt F)),
    unary main_v62 main_v63 (broadcastInDim S800000x64 ![0, 1] bcast_S1x64_S800000x64_0_1 : (⟨S1x64, .f32⟩ : BufTy).Contents (Elt F) → (⟨S800000x64, .f32⟩ : BufTy).Contents (Elt F)),
    binary main_v59 main_v63 main_v64 (addf : (⟨S800000x64, .f32⟩ : BufTy).Contents (Elt F) → (⟨S800000x64, .f32⟩ : BufTy).Contents (Elt F) → (⟨S800000x64, .f32⟩ : BufTy).Contents (Elt F)),
    unary main_v64 main_v65 (Host.negf : (⟨S800000x64, .f32⟩ : BufTy).Contents (Elt F) → (⟨S800000x64, .f32⟩ : BufTy).Contents (Elt F)),
    unary main_v65 main_v66 (Host.exp : (⟨S800000x64, .f32⟩ : BufTy).Contents (Elt F) → (⟨S800000x64, .f32⟩ : BufTy).Contents (Elt F)),
    nullary main_cst_10 (constant S_ .f32 0x3F800000#32),
    unary main_cst_10 main_v67 (broadcastInDim S800000x64 ![] bcast_S_S800000x64 : (⟨S_, .f32⟩ : BufTy).Contents (Elt F) → (⟨S800000x64, .f32⟩ : BufTy).Contents (Elt F)),
    binary main_v67 main_v66 main_v68 (addf : (⟨S800000x64, .f32⟩ : BufTy).Contents (Elt F) → (⟨S800000x64, .f32⟩ : BufTy).Contents (Elt F) → (⟨S800000x64, .f32⟩ : BufTy).Contents (Elt F)),
    nullary main_cst_11 (constant S_ .f32 0x3F800000#32),
    unary main_cst_11 main_v69 (broadcastInDim S800000x64 ![] bcast_S_S800000x64 : (⟨S_, .f32⟩ : BufTy).Contents (Elt F) → (⟨S800000x64, .f32⟩ : BufTy).Contents (Elt F)),
    binary main_v69 main_v68 main_v70 (Host.divf : (⟨S800000x64, .f32⟩ : BufTy).Contents (Elt F) → (⟨S800000x64, .f32⟩ : BufTy).Contents (Elt F) → (⟨S800000x64, .f32⟩ : BufTy).Contents (Elt F)),
    binary main_v64 main_v70 main_v71 (mulf : (⟨S800000x64, .f32⟩ : BufTy).Contents (Elt F) → (⟨S800000x64, .f32⟩ : BufTy).Contents (Elt F) → (⟨S800000x64, .f32⟩ : BufTy).Contents (Elt F)),
    unary main_arg13 main_v72 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v72 main_v73 rfl shapeCasts_S1x64x64_S64x64,
    binary main_v71 main_v73 main_v74 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg14 main_v75 ((extractStridedSlice S1x64 ![0, 0] · slices_S2x64_S1x64_0_0) : (⟨S2x64, .f32⟩ : BufTy).Contents (Elt F) → (⟨S1x64, .f32⟩ : BufTy).Contents (Elt F)) ]

/-- Each touches TensorCore references only. -/
theorem opsA2_sub : (opsA2 (F := F)).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., unary_bufs_sub ..⟩

/-- Each determines what it writes. -/
theorem opsA2_fresh : (opsA2 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The operation at place k of this line (counting from 0) writes exactly buffer 81 + k. -/
theorem opsA2_numbered : Numbered 81 (opsA2 (F := F)) :=
  ⟨⟨main_v50, rfl, rfl⟩, ⟨main_v51, rfl, rfl⟩, ⟨main_cst, rfl, rfl⟩, ⟨main_v52, rfl, rfl⟩, ⟨main_v53, rfl, rfl⟩, ⟨main_cst_9, rfl, rfl⟩, ⟨main_v54, rfl, rfl⟩, ⟨main_v55, rfl, rfl⟩, ⟨main_v56, rfl, rfl⟩, ⟨main_v57, rfl, rfl⟩, ⟨main_v58, rfl, rfl⟩, ⟨main_v59, rfl, rfl⟩, ⟨main_v60, rfl, rfl⟩, ⟨main_v61, rfl, rfl⟩, ⟨main_v62, rfl, rfl⟩, ⟨main_v63, rfl, rfl⟩, ⟨main_v64, rfl, rfl⟩, ⟨main_v65, rfl, rfl⟩, ⟨main_v66, rfl, rfl⟩, ⟨main_cst_10, rfl, rfl⟩, ⟨main_v67, rfl, rfl⟩, ⟨main_v68, rfl, rfl⟩, ⟨main_cst_11, rfl, rfl⟩, ⟨main_v69, rfl, rfl⟩, ⟨main_v70, rfl, rfl⟩, ⟨main_v71, rfl, rfl⟩, ⟨main_v72, rfl, rfl⟩, ⟨main_v73, rfl, rfl⟩, ⟨main_v74, rfl, rfl⟩, ⟨main_v75, rfl, rfl⟩, trivial⟩

theorem opsA2_length : (opsA2 (F := F)).length = 30 := rfl

set_option maxRecDepth 8192 in
set_option maxHeartbeats 4000000 in
/-- The program's operations 94 … 123 (counting from 0), in order. -/
def opsA3 : List (HloOp τ sig (Elt F)) :=
  [ reshape main_v75 main_v76 rfl shapeCasts_S1x64_S64,
    unary main_v76 main_v77 (broadcastInDim S1x64 ![1] bcast_S64_S1x64_1 : (⟨S64, .f32⟩ : BufTy).Contents (Elt F) → (⟨S1x64, .f32⟩ : BufTy).Contents (Elt F)),
    unary main_v77 main_v78 (broadcastInDim S800000x64 ![0, 1] bcast_S1x64_S800000x64_0_1 : (⟨S1x64, .f32⟩ : BufTy).Contents (Elt F) → (⟨S800000x64, .f32⟩ : BufTy).Contents (Elt F)),
    binary main_v74 main_v78 main_v79 (addf : (⟨S800000x64, .f32⟩ : BufTy).Contents (Elt F) → (⟨S800000x64, .f32⟩ : BufTy).Contents (Elt F) → (⟨S800000x64, .f32⟩ : BufTy).Contents (Elt F)),
    unary main_v79 main_v80 (Host.negf : (⟨S800000x64, .f32⟩ : BufTy).Contents (Elt F) → (⟨S800000x64, .f32⟩ : BufTy).Contents (Elt F)),
    unary main_v80 main_v81 (Host.exp : (⟨S800000x64, .f32⟩ : BufTy).Contents (Elt F) → (⟨S800000x64, .f32⟩ : BufTy).Contents (Elt F)),
    nullary main_cst_12 (constant S_ .f32 0x3F800000#32),
    unary main_cst_12 main_v82 (broadcastInDim S800000x64 ![] bcast_S_S800000x64 : (⟨S_, .f32⟩ : BufTy).Contents (Elt F) → (⟨S800000x64, .f32⟩ : BufTy).Contents (Elt F)),
    binary main_v82 main_v81 main_v83 (addf : (⟨S800000x64, .f32⟩ : BufTy).Contents (Elt F) → (⟨S800000x64, .f32⟩ : BufTy).Contents (Elt F) → (⟨S800000x64, .f32⟩ : BufTy).Contents (Elt F)),
    nullary main_cst_13 (constant S_ .f32 0x3F800000#32),
    unary main_cst_13 main_v84 (broadcastInDim S800000x64 ![] bcast_S_S800000x64 : (⟨S_, .f32⟩ : BufTy).Contents (Elt F) → (⟨S800000x64, .f32⟩ : BufTy).Contents (Elt F)),
    binary main_v84 main_v83 main_v85 (Host.divf : (⟨S800000x64, .f32⟩ : BufTy).Contents (Elt F) → (⟨S800000x64, .f32⟩ : BufTy).Contents (Elt F) → (⟨S800000x64, .f32⟩ : BufTy).Contents (Elt F)),
    binary main_v79 main_v85 main_v86 (mulf : (⟨S800000x64, .f32⟩ : BufTy).Contents (Elt F) → (⟨S800000x64, .f32⟩ : BufTy).Contents (Elt F) → (⟨S800000x64, .f32⟩ : BufTy).Contents (Elt F)),
    unary main_arg15 main_v87 ((extractStridedSlice S1x64x1 ![0, 0, 0] · slices_S2x64x1_S1x64x1_0_0_0) : (⟨S2x64x1, .f32⟩ : BufTy).Contents (Elt F) → (⟨S1x64x1, .f32⟩ : BufTy).Contents (Elt F)),
    reshape main_v87 main_v88 rfl shapeCasts_S1x64x1_S64x1,
    binary main_v86 main_v88 main_v89 ((fun l r => Host.dotGeneral dot_S800000x64_S64x1_S800000x1_1_0_0_1_n_n none l r) : (⟨S800000x64, .f32⟩ : BufTy).Contents (Elt F) → (⟨S64x1, .f32⟩ : BufTy).Contents (Elt F) → (⟨S800000x1, .f32⟩ : BufTy).Contents (Elt F)),
    unary main_arg16 main_v90 ((extractStridedSlice S1x1 ![0, 0] · slices_S2x1_S1x1_0_0) : (⟨S2x1, .f32⟩ : BufTy).Contents (Elt F) → (⟨S1x1, .f32⟩ : BufTy).Contents (Elt F)),
    reshape main_v90 main_v91 rfl shapeCasts_S1x1_S1,
    unary main_v91 main_v92 (broadcastInDim S1x1 ![1] bcast_S1_S1x1_1 : (⟨S1, .f32⟩ : BufTy).Contents (Elt F) → (⟨S1x1, .f32⟩ : BufTy).Contents (Elt F)),
    unary main_v92 main_v93 (broadcastInDim S800000x1 ![0, 1] bcast_S1x1_S800000x1_0_1 : (⟨S1x1, .f32⟩ : BufTy).Contents (Elt F) → (⟨S800000x1, .f32⟩ : BufTy).Contents (Elt F)),
    binary main_v89 main_v93 main_v94 (addf : (⟨S800000x1, .f32⟩ : BufTy).Contents (Elt F) → (⟨S800000x1, .f32⟩ : BufTy).Contents (Elt F) → (⟨S800000x1, .f32⟩ : BufTy).Contents (Elt F)),
    unary main_v94 main_v95 (broadcastInDim S800000x3 ![0, 1] bcast_S800000x1_S800000x3_0_1 : (⟨S800000x1, .f32⟩ : BufTy).Contents (Elt F) → (⟨S800000x3, .f32⟩ : BufTy).Contents (Elt F)),
    binary main_v95 main_v25 main_v96 (mulf : (⟨S800000x3, .f32⟩ : BufTy).Contents (Elt F) → (⟨S800000x3, .f32⟩ : BufTy).Contents (Elt F) → (⟨S800000x3, .f32⟩ : BufTy).Contents (Elt F)),
    nullary main_cst_14 (constant S_ .f32 0x00000000#32),
    unary main_cst_14 main_v97 (broadcastInDim S50000x3 ![] bcast_S_S50000x3 : (⟨S_, .f32⟩ : BufTy).Contents (Elt F) → (⟨S50000x3, .f32⟩ : BufTy).Contents (Elt F)),
    unary main_v3 main_v98 (broadcastInDim S800000x1 ![0] bcast_S800000_S800000x1_0 : (⟨S800000, .i32⟩ : BufTy).Contents (Elt F) → (⟨S800000x1, .i32⟩ : BufTy).Contents (Elt F)),
    ternary main_v97 main_v98 main_v96 main_v99 ((fun x i u => Host.scatterAdd scatter_S50000x3_S800000x1_S800000x3_1_0_0_1 x i u) : (⟨S50000x3, .f32⟩ : BufTy).Contents (Elt F) → (⟨S800000x1, .i32⟩ : BufTy).Contents (Elt F) → (⟨S800000x3, .f32⟩ : BufTy).Contents (Elt F) → (⟨S50000x3, .f32⟩ : BufTy).Contents (Elt F)),
    binary main_arg1 main_v99 main_v100 (addf : (⟨S50000x3, .f32⟩ : BufTy).Contents (Elt F) → (⟨S50000x3, .f32⟩ : BufTy).Contents (Elt F) → (⟨S50000x3, .f32⟩ : BufTy).Contents (Elt F)),
    nullary main_cst_15 (constant S_ .f32 0x00000000#32),
    unary main_cst_15 main_v101 (broadcastInDim S50000x64 ![] bcast_S_S50000x64 : (⟨S_, .f32⟩ : BufTy).Contents (Elt F) → (⟨S50000x64, .f32⟩ : BufTy).Contents (Elt F)) ]

/-- Each touches TensorCore references only. -/
theorem opsA3_sub : (opsA3 (F := F)).Forall fun op => op.bufs ⊆ tcRefs τ sig :=
  ⟨reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., binary_bufs_sub .., nullary_bufs_sub .., unary_bufs_sub .., unary_bufs_sub .., ternary_bufs_sub .., binary_bufs_sub .., nullary_bufs_sub .., unary_bufs_sub ..⟩

/-- Each determines what it writes. -/
theorem opsA3_fresh : (opsA3 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The operation at place k of this line (counting from 0) writes exactly buffer 111 + k. -/
theorem opsA3_numbered : Numbered 111 (opsA3 (F := F)) :=
  ⟨⟨main_v76, rfl, rfl⟩, ⟨main_v77, rfl, rfl⟩, ⟨main_v78, rfl, rfl⟩, ⟨main_v79, rfl, rfl⟩, ⟨main_v80, rfl, rfl⟩, ⟨main_v81, rfl, rfl⟩, ⟨main_cst_12, rfl, rfl⟩, ⟨main_v82, rfl, rfl⟩, ⟨main_v83, rfl, rfl⟩, ⟨main_cst_13, rfl, rfl⟩, ⟨main_v84, rfl, rfl⟩, ⟨main_v85, rfl, rfl⟩, ⟨main_v86, rfl, rfl⟩, ⟨main_v87, rfl, rfl⟩, ⟨main_v88, rfl, rfl⟩, ⟨main_v89, rfl, rfl⟩, ⟨main_v90, rfl, rfl⟩, ⟨main_v91, rfl, rfl⟩, ⟨main_v92, rfl, rfl⟩, ⟨main_v93, rfl, rfl⟩, ⟨main_v94, rfl, rfl⟩, ⟨main_v95, rfl, rfl⟩, ⟨main_v96, rfl, rfl⟩, ⟨main_cst_14, rfl, rfl⟩, ⟨main_v97, rfl, rfl⟩, ⟨main_v98, rfl, rfl⟩, ⟨main_v99, rfl, rfl⟩, ⟨main_v100, rfl, rfl⟩, ⟨main_cst_15, rfl, rfl⟩, ⟨main_v101, rfl, rfl⟩, trivial⟩

theorem opsA3_length : (opsA3 (F := F)).length = 30 := rfl

set_option maxRecDepth 8192 in
set_option maxHeartbeats 4000000 in
/-- The program's operations 124 … 155 (counting from 0), in order. -/
def opsA4 : List (HloOp τ sig (Elt F)) :=
  [ unary main_v3 main_v102 (broadcastInDim S800000x1 ![0] bcast_S800000_S800000x1_0 : (⟨S800000, .i32⟩ : BufTy).Contents (Elt F) → (⟨S800000x1, .i32⟩ : BufTy).Contents (Elt F)),
    ternary main_v101 main_v102 main_v71 main_v103 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v10 main_v103 main_v104 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg9 main_v105 ((extractStridedSlice S1x128x64 ![0, 0, 0] · slices_S2x128x64_S1x128x64_0_0_0) : (⟨S2x128x64, .f32⟩ : BufTy).Contents (Elt F) → (⟨S1x128x64, .f32⟩ : BufTy).Contents (Elt F)),
    reshape main_v105 main_v106 rfl shapeCasts_S1x128x64_S128x64,
    binary main_v104 main_v106 main_v107 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg10 main_v108 ((extractStridedSlice S1x64 ![0, 0] · slices_S2x64_S1x64_0_0) : (⟨S2x64, .f32⟩ : BufTy).Contents (Elt F) → (⟨S1x64, .f32⟩ : BufTy).Contents (Elt F)),
    reshape main_v108 main_v109 rfl shapeCasts_S1x64_S64,
    unary main_v109 main_v110 (broadcastInDim S1x64 ![1] bcast_S64_S1x64_1 : (⟨S64, .f32⟩ : BufTy).Contents (Elt F) → (⟨S1x64, .f32⟩ : BufTy).Contents (Elt F)),
    unary main_v110 main_v111 (broadcastInDim S50000x64 ![0, 1] bcast_S1x64_S50000x64_0_1 : (⟨S1x64, .f32⟩ : BufTy).Contents (Elt F) → (⟨S50000x64, .f32⟩ : BufTy).Contents (Elt F)),
    binary main_v107 main_v111 main_v112 (addf : (⟨S50000x64, .f32⟩ : BufTy).Contents (Elt F) → (⟨S50000x64, .f32⟩ : BufTy).Contents (Elt F) → (⟨S50000x64, .f32⟩ : BufTy).Contents (Elt F)),
    unary main_v112 main_v113 (Host.negf : (⟨S50000x64, .f32⟩ : BufTy).Contents (Elt F) → (⟨S50000x64, .f32⟩ : BufTy).Contents (Elt F)),
    unary main_v113 main_v114 (Host.exp : (⟨S50000x64, .f32⟩ : BufTy).Contents (Elt F) → (⟨S50000x64, .f32⟩ : BufTy).Contents (Elt F)),
    nullary main_cst_16 (constant S_ .f32 0x3F800000#32),
    unary main_cst_16 main_v115 (broadcastInDim S50000x64 ![] bcast_S_S50000x64 : (⟨S_, .f32⟩ : BufTy).Contents (Elt F) → (⟨S50000x64, .f32⟩ : BufTy).Contents (Elt F)),
    binary main_v115 main_v114 main_v116 (addf : (⟨S50000x64, .f32⟩ : BufTy).Contents (Elt F) → (⟨S50000x64, .f32⟩ : BufTy).Contents (Elt F) → (⟨S50000x64, .f32⟩ : BufTy).Contents (Elt F)),
    nullary main_cst_17 (constant S_ .f32 0x3F800000#32),
    unary main_cst_17 main_v117 (broadcastInDim S50000x64 ![] bcast_S_S50000x64 : (⟨S_, .f32⟩ : BufTy).Contents (Elt F) → (⟨S50000x64, .f32⟩ : BufTy).Contents (Elt F)),
    binary main_v117 main_v116 main_v118 (Host.divf : (⟨S50000x64, .f32⟩ : BufTy).Contents (Elt F) → (⟨S50000x64, .f32⟩ : BufTy).Contents (Elt F) → (⟨S50000x64, .f32⟩ : BufTy).Contents (Elt F)),
    binary main_v112 main_v118 main_v119 (mulf : (⟨S50000x64, .f32⟩ : BufTy).Contents (Elt F) → (⟨S50000x64, .f32⟩ : BufTy).Contents (Elt F) → (⟨S50000x64, .f32⟩ : BufTy).Contents (Elt F)),
    unary main_arg11 main_v120 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v120 main_v121 rfl shapeCasts_S1x64x64_S64x64,
    binary main_v119 main_v121 main_v122 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg12 main_v123 ((extractStridedSlice S1x64 ![0, 0] · slices_S2x64_S1x64_0_0) : (⟨S2x64, .f32⟩ : BufTy).Contents (Elt F) → (⟨S1x64, .f32⟩ : BufTy).Contents (Elt F)),
    reshape main_v123 main_v124 rfl shapeCasts_S1x64_S64,
    unary main_v124 main_v125 (broadcastInDim S1x64 ![1] bcast_S64_S1x64_1 : (⟨S64, .f32⟩ : BufTy).Contents (Elt F) → (⟨S1x64, .f32⟩ : BufTy).Contents (Elt F)),
    unary main_v125 main_v126 (broadcastInDim S50000x64 ![0, 1] bcast_S1x64_S50000x64_0_1 : (⟨S1x64, .f32⟩ : BufTy).Contents (Elt F) → (⟨S50000x64, .f32⟩ : BufTy).Contents (Elt F)),
    binary main_v122 main_v126 main_v127 (addf : (⟨S50000x64, .f32⟩ : BufTy).Contents (Elt F) → (⟨S50000x64, .f32⟩ : BufTy).Contents (Elt F) → (⟨S50000x64, .f32⟩ : BufTy).Contents (Elt F)),
    binary main_v10 main_v127 main_v128 (addf : (⟨S50000x64, .f32⟩ : BufTy).Contents (Elt F) → (⟨S50000x64, .f32⟩ : BufTy).Contents (Elt F) → (⟨S50000x64, .f32⟩ : BufTy).Contents (Elt F)),
    nullary main_c_18 (constantI S_ 32 0#32),
    unary main_c_18 main_v129 (broadcastInDim S800000 ![] bcast_S_S800000 : (⟨S_, .i32⟩ : BufTy).Contents (Elt F) → (⟨S800000, .i32⟩ : BufTy).Contents (Elt F)),
    binary main_v1 main_v129 main_v130 (cmpi .slt : (⟨S800000, .i32⟩ : BufTy).Contents (Elt F) → (⟨S800000, .i32⟩ : BufTy).Contents (Elt F) → (⟨S800000, .i1⟩ : BufTy).Contents (Elt F)) ]

/-- Each touches TensorCore references only. -/
theorem opsA4_sub : (opsA4 (F := F)).Forall fun op => op.bufs ⊆ tcRefs τ sig :=
  ⟨unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub ..⟩

/-- Each determines what it writes. -/
theorem opsA4_fresh : (opsA4 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The operation at place k of this line (counting from 0) writes exactly buffer 141 + k. -/
theorem opsA4_numbered : Numbered 141 (opsA4 (F := F)) :=
  ⟨⟨main_v102, rfl, rfl⟩, ⟨main_v103, rfl, rfl⟩, ⟨main_v104, rfl, rfl⟩, ⟨main_v105, rfl, rfl⟩, ⟨main_v106, rfl, rfl⟩, ⟨main_v107, rfl, rfl⟩, ⟨main_v108, rfl, rfl⟩, ⟨main_v109, rfl, rfl⟩, ⟨main_v110, rfl, rfl⟩, ⟨main_v111, rfl, rfl⟩, ⟨main_v112, rfl, rfl⟩, ⟨main_v113, rfl, rfl⟩, ⟨main_v114, rfl, rfl⟩, ⟨main_cst_16, rfl, rfl⟩, ⟨main_v115, rfl, rfl⟩, ⟨main_v116, rfl, rfl⟩, ⟨main_cst_17, rfl, rfl⟩, ⟨main_v117, rfl, rfl⟩, ⟨main_v118, rfl, rfl⟩, ⟨main_v119, rfl, rfl⟩, ⟨main_v120, rfl, rfl⟩, ⟨main_v121, rfl, rfl⟩, ⟨main_v122, rfl, rfl⟩, ⟨main_v123, rfl, rfl⟩, ⟨main_v124, rfl, rfl⟩, ⟨main_v125, rfl, rfl⟩, ⟨main_v126, rfl, rfl⟩, ⟨main_v127, rfl, rfl⟩, ⟨main_v128, rfl, rfl⟩, ⟨main_c_18, rfl, rfl⟩, ⟨main_v129, rfl, rfl⟩, ⟨main_v130, rfl, rfl⟩, trivial⟩

theorem opsA4_length : (opsA4 (F := F)).length = 32 := rfl

end Cert.ReferenceIdeal.RRun

end
-- ==== Proof.RRunOpsB.lean ====
import proofs.«428515_j67688684585222_1_alg».proof.Proof.RRunLib

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The program's operations 156 … 187 (counting from 0), in order. -/
def opsA5 : List (HloOp τ sig (Elt F)) :=
  [ nullary main_c_19 (constantI S_ 32 50000#32),
    unary main_c_19 main_v131 (broadcastInDim S800000 ![] bcast_S_S800000 : (⟨S_, .i32⟩ : BufTy).Contents (Elt F) → (⟨S800000, .i32⟩ : BufTy).Contents (Elt F)),
    binary main_v1 main_v131 main_v132 (addi : (⟨S800000, .i32⟩ : BufTy).Contents (Elt F) → (⟨S800000, .i32⟩ : BufTy).Contents (Elt F) → (⟨S800000, .i32⟩ : BufTy).Contents (Elt F)),
    ternary main_v130 main_v132 main_v1 main_v133 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v133 main_v134 (broadcastInDim S800000x1 ![0] bcast_S800000_S800000x1_0 : (⟨S800000, .i32⟩ : BufTy).Contents (Elt F) → (⟨S800000x1, .i32⟩ : BufTy).Contents (Elt F)),
    binary main_v100 main_v134 main_v135 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    nullary main_c_20 (constantI S_ 32 0#32),
    unary main_c_20 main_v136 (broadcastInDim S800000 ![] bcast_S_S800000 : (⟨S_, .i32⟩ : BufTy).Contents (Elt F) → (⟨S800000, .i32⟩ : BufTy).Contents (Elt F)),
    binary main_v3 main_v136 main_v137 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v138 (broadcastInDim S800000 ![] bcast_S_S800000 : (⟨S_, .i32⟩ : BufTy).Contents (Elt F) → (⟨S800000, .i32⟩ : BufTy).Contents (Elt F)),
    binary main_v3 main_v138 main_v139 (addi : (⟨S800000, .i32⟩ : BufTy).Contents (Elt F) → (⟨S800000, .i32⟩ : BufTy).Contents (Elt F) → (⟨S800000, .i32⟩ : BufTy).Contents (Elt F)),
    ternary main_v137 main_v139 main_v3 main_v140 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v140 main_v141 (broadcastInDim S800000x1 ![0] bcast_S800000_S800000x1_0 : (⟨S800000, .i32⟩ : BufTy).Contents (Elt F) → (⟨S800000x1, .i32⟩ : BufTy).Contents (Elt F)),
    binary main_v100 main_v141 main_v142 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    binary main_v135 main_v142 main_v143 (subf : (⟨S800000x3, .f32⟩ : BufTy).Contents (Elt F) → (⟨S800000x3, .f32⟩ : BufTy).Contents (Elt F) → (⟨S800000x3, .f32⟩ : BufTy).Contents (Elt F)),
    TRef.binary (TRef.of (T := ⟨S800000x3, .f32⟩) main_v143) (TRef.of (T := ⟨S800000x3, .f32⟩) main_v143) (TRef.of (T := ⟨S800000x3, .f32⟩) main_call1_v0) mulf,
    TRef.nullary (TRef.of (T := ⟨S_, .f32⟩) main_call1_cst) (constant S_ .f32 0x00000000#32),
    TRef.binary (TRef.of (T := ⟨S800000x3, .f32⟩) main_call1_v0) (TRef.of (T := ⟨S_, .f32⟩) main_call1_cst) (TRef.of (T := ⟨S800000, .f32⟩) main_call1_v1) (fun x v => Host.reduceAdd x v reducesTo_S800000x3_S800000_d1 h_S_),
    TRef.unary (TRef.of (T := ⟨S800000, .f32⟩) main_call1_v1) (TRef.of (T := ⟨S800000x1, .f32⟩) main_call1_v2) (broadcastInDim S800000x1 ![0] bcast_S800000_S800000x1_0),
    TRef.unary (TRef.of (T := ⟨S800000x1, .f32⟩) main_call1_v2) (TRef.of (T := ⟨S800000x1, .f32⟩) main_v144) Host.sqrt,
    nullary main_c_22 (constantI S_ 32 0#32),
    unary main_c_22 main_v145 (broadcastInDim S800000 ![] bcast_S_S800000 : (⟨S_, .i32⟩ : BufTy).Contents (Elt F) → (⟨S800000, .i32⟩ : BufTy).Contents (Elt F)),
    binary main_v3 main_v145 main_v146 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v147 (broadcastInDim S800000 ![] bcast_S_S800000 : (⟨S_, .i32⟩ : BufTy).Contents (Elt F) → (⟨S800000, .i32⟩ : BufTy).Contents (Elt F)),
    binary main_v3 main_v147 main_v148 (addi : (⟨S800000, .i32⟩ : BufTy).Contents (Elt F) → (⟨S800000, .i32⟩ : BufTy).Contents (Elt F) → (⟨S800000, .i32⟩ : BufTy).Contents (Elt F)),
    ternary main_v146 main_v148 main_v3 main_v149 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v149 main_v150 (broadcastInDim S800000x1 ![0] bcast_S800000_S800000x1_0 : (⟨S800000, .i32⟩ : BufTy).Contents (Elt F) → (⟨S800000x1, .i32⟩ : BufTy).Contents (Elt F)),
    binary main_v128 main_v150 main_v151 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_24 (constantI S_ 32 0#32),
    unary main_c_24 main_v152 (broadcastInDim S800000 ![] bcast_S_S800000 : (⟨S_, .i32⟩ : BufTy).Contents (Elt F) → (⟨S800000, .i32⟩ : BufTy).Contents (Elt F)) ]

/-- Each touches TensorCore references only. -/
theorem opsA5_sub : (opsA5 (F := F)).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub ..⟩

/-- Each determines what it writes. -/
theorem opsA5_fresh : (opsA5 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The operation at place k of this line (counting from 0) writes exactly buffer 173 + k. -/
theorem opsA5_numbered : Numbered 173 (opsA5 (F := F)) :=
  ⟨⟨main_c_19, rfl, rfl⟩, ⟨main_v131, rfl, rfl⟩, ⟨main_v132, rfl, rfl⟩, ⟨main_v133, rfl, rfl⟩, ⟨main_v134, rfl, rfl⟩, ⟨main_v135, rfl, rfl⟩, ⟨main_c_20, rfl, rfl⟩, ⟨main_v136, rfl, rfl⟩, ⟨main_v137, rfl, rfl⟩, ⟨main_c_21, rfl, rfl⟩, ⟨main_v138, rfl, rfl⟩, ⟨main_v139, rfl, rfl⟩, ⟨main_v140, rfl, rfl⟩, ⟨main_v141, rfl, rfl⟩, ⟨main_v142, rfl, rfl⟩, ⟨main_v143, rfl, rfl⟩, ⟨main_call1_v0, rfl, rfl⟩, ⟨main_call1_cst, rfl, rfl⟩, ⟨main_call1_v1, rfl, rfl⟩, ⟨main_call1_v2, rfl, rfl⟩, ⟨main_v144, rfl, rfl⟩, ⟨main_c_22, rfl, rfl⟩, ⟨main_v145, rfl, rfl⟩, ⟨main_v146, rfl, rfl⟩, ⟨main_c_23, rfl, rfl⟩, ⟨main_v147, rfl, rfl⟩, ⟨main_v148, rfl, rfl⟩, ⟨main_v149, rfl, rfl⟩, ⟨main_v150, rfl, rfl⟩, ⟨main_v151, rfl, rfl⟩, ⟨main_c_24, rfl, rfl⟩, ⟨main_v152, rfl, rfl⟩, trivial⟩

theorem opsA5_length : (opsA5 (F := F)).length = 32 := rfl

set_option maxRecDepth 8192 in
set_option maxHeartbeats 4000000 in
/-- The program's operations 188 … 217 (counting from 0), in order. -/
def opsA6 : List (HloOp τ sig (Elt F)) :=
  [ binary main_v1 main_v152 main_v153 (cmpi .slt : (⟨S800000, .i32⟩ : BufTy).Contents (Elt F) → (⟨S800000, .i32⟩ : BufTy).Contents (Elt F) → (⟨S800000, .i1⟩ : BufTy).Contents (Elt F)),
    nullary main_c_25 (constantI S_ 32 50000#32),
    unary main_c_25 main_v154 (broadcastInDim S800000 ![] bcast_S_S800000 : (⟨S_, .i32⟩ : BufTy).Contents (Elt F) → (⟨S800000, .i32⟩ : BufTy).Contents (Elt F)),
    binary main_v1 main_v154 main_v155 (addi : (⟨S800000, .i32⟩ : BufTy).Contents (Elt F) → (⟨S800000, .i32⟩ : BufTy).Contents (Elt F) → (⟨S800000, .i32⟩ : BufTy).Contents (Elt F)),
    ternary main_v153 main_v155 main_v1 main_v156 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v156 main_v157 (broadcastInDim S800000x1 ![0] bcast_S800000_S800000x1_0 : (⟨S800000, .i32⟩ : BufTy).Contents (Elt F) → (⟨S800000x1, .i32⟩ : BufTy).Contents (Elt F)),
    binary main_v128 main_v157 main_v158 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nary ![main_v151, main_v158, main_v144] main_v159 (fun u => concatenate S800000x129 1 [⟨S800000x64, u 0⟩, ⟨S800000x64, u 1⟩, ⟨S800000x1, u 2⟩] concatenates_S800000x64_S800000x64_S800000x1_S800000x129_d1),
    unary main_arg5 main_v160 ((extractStridedSlice S1x129x64 ![1, 0, 0] · slices_S2x129x64_S1x129x64_1_0_0) : (⟨S2x129x64, .f32⟩ : BufTy).Contents (Elt F) → (⟨S1x129x64, .f32⟩ : BufTy).Contents (Elt F)),
    reshape main_v160 main_v161 rfl shapeCasts_S1x129x64_S129x64,
    binary main_v159 main_v161 main_v162 ((fun l r => Host.dotGeneral dot_S800000x129_S129x64_S800000x64_1_0_0_1_n_n none l r) : (⟨S800000x129, .f32⟩ : BufTy).Contents (Elt F) → (⟨S129x64, .f32⟩ : BufTy).Contents (Elt F) → (⟨S800000x64, .f32⟩ : BufTy).Contents (Elt F)),
    unary main_arg6 main_v163 ((extractStridedSlice S1x64 ![1, 0] · slices_S2x64_S1x64_1_0) : (⟨S2x64, .f32⟩ : BufTy).Contents (Elt F) → (⟨S1x64, .f32⟩ : BufTy).Contents (Elt F)),
    reshape main_v163 main_v164 rfl shapeCasts_S1x64_S64,
    unary main_v164 main_v165 (broadcastInDim S1x64 ![1] bcast_S64_S1x64_1 : (⟨S64, .f32⟩ : BufTy).Contents (Elt F) → (⟨S1x64, .f32⟩ : BufTy).Contents (Elt F)),
    unary main_v165 main_v166 (broadcastInDim S800000x64 ![0, 1] bcast_S1x64_S800000x64_0_1 : (⟨S1x64, .f32⟩ : BufTy).Contents (Elt F) → (⟨S800000x64, .f32⟩ : BufTy).Contents (Elt F)),
    binary main_v162 main_v166 main_v167 (addf : (⟨S800000x64, .f32⟩ : BufTy).Contents (Elt F) → (⟨S800000x64, .f32⟩ : BufTy).Contents (Elt F) → (⟨S800000x64, .f32⟩ : BufTy).Contents (Elt F)),
    unary main_v167 main_v168 (Host.negf : (⟨S800000x64, .f32⟩ : BufTy).Contents (Elt F) → (⟨S800000x64, .f32⟩ : BufTy).Contents (Elt F)),
    unary main_v168 main_v169 (Host.exp : (⟨S800000x64, .f32⟩ : BufTy).Contents (Elt F) → (⟨S800000x64, .f32⟩ : BufTy).Contents (Elt F)),
    nullary main_cst_26 (constant S_ .f32 0x3F800000#32),
    unary main_cst_26 main_v170 (broadcastInDim S800000x64 ![] bcast_S_S800000x64 : (⟨S_, .f32⟩ : BufTy).Contents (Elt F) → (⟨S800000x64, .f32⟩ : BufTy).Contents (Elt F)),
    binary main_v170 main_v169 main_v171 (addf : (⟨S800000x64, .f32⟩ : BufTy).Contents (Elt F) → (⟨S800000x64, .f32⟩ : BufTy).Contents (Elt F) → (⟨S800000x64, .f32⟩ : BufTy).Contents (Elt F)),
    nullary main_cst_27 (constant S_ .f32 0x3F800000#32),
    unary main_cst_27 main_v172 (broadcastInDim S800000x64 ![] bcast_S_S800000x64 : (⟨S_, .f32⟩ : BufTy).Contents (Elt F) → (⟨S800000x64, .f32⟩ : BufTy).Contents (Elt F)),
    binary main_v172 main_v171 main_v173 (Host.divf : (⟨S800000x64, .f32⟩ : BufTy).Contents (Elt F) → (⟨S800000x64, .f32⟩ : BufTy).Contents (Elt F) → (⟨S800000x64, .f32⟩ : BufTy).Contents (Elt F)),
    binary main_v167 main_v173 main_v174 (mulf : (⟨S800000x64, .f32⟩ : BufTy).Contents (Elt F) → (⟨S800000x64, .f32⟩ : BufTy).Contents (Elt F) → (⟨S800000x64, .f32⟩ : BufTy).Contents (Elt F)),
    unary main_arg7 main_v175 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v175 main_v176 rfl shapeCasts_S1x64x64_S64x64,
    binary main_v174 main_v176 main_v177 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg8 main_v178 ((extractStridedSlice S1x64 ![1, 0] · slices_S2x64_S1x64_1_0) : (⟨S2x64, .f32⟩ : BufTy).Contents (Elt F) → (⟨S1x64, .f32⟩ : BufTy).Contents (Elt F)),
    reshape main_v178 main_v179 rfl shapeCasts_S1x64_S64 ]

/-- Each touches TensorCore references only. -/
theorem opsA6_sub : (opsA6 (F := F)).Forall fun op => op.bufs ⊆ tcRefs τ sig :=
  ⟨binary_bufs_sub .., nullary_bufs_sub .., unary_bufs_sub .., binary_bufs_sub .., ternary_bufs_sub .., unary_bufs_sub .., binary_bufs_sub .., nary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub ..⟩

/-- Each determines what it writes. -/
theorem opsA6_fresh : (opsA6 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The operation at place k of this line (counting from 0) writes exactly buffer 205 + k. -/
theorem opsA6_numbered : Numbered 205 (opsA6 (F := F)) :=
  ⟨⟨main_v153, rfl, rfl⟩, ⟨main_c_25, rfl, rfl⟩, ⟨main_v154, rfl, rfl⟩, ⟨main_v155, rfl, rfl⟩, ⟨main_v156, rfl, rfl⟩, ⟨main_v157, rfl, rfl⟩, ⟨main_v158, rfl, rfl⟩, ⟨main_v159, rfl, rfl⟩, ⟨main_v160, rfl, rfl⟩, ⟨main_v161, rfl, rfl⟩, ⟨main_v162, rfl, rfl⟩, ⟨main_v163, rfl, rfl⟩, ⟨main_v164, rfl, rfl⟩, ⟨main_v165, rfl, rfl⟩, ⟨main_v166, rfl, rfl⟩, ⟨main_v167, rfl, rfl⟩, ⟨main_v168, rfl, rfl⟩, ⟨main_v169, rfl, rfl⟩, ⟨main_cst_26, rfl, rfl⟩, ⟨main_v170, rfl, rfl⟩, ⟨main_v171, rfl, rfl⟩, ⟨main_cst_27, rfl, rfl⟩, ⟨main_v172, rfl, rfl⟩, ⟨main_v173, rfl, rfl⟩, ⟨main_v174, rfl, rfl⟩, ⟨main_v175, rfl, rfl⟩, ⟨main_v176, rfl, rfl⟩, ⟨main_v177, rfl, rfl⟩, ⟨main_v178, rfl, rfl⟩, ⟨main_v179, rfl, rfl⟩, trivial⟩

theorem opsA6_length : (opsA6 (F := F)).length = 30 := rfl

set_option maxRecDepth 8192 in
set_option maxHeartbeats 4000000 in
/-- The program's operations 218 … 247 (counting from 0), in order. -/
def opsA7 : List (HloOp τ sig (Elt F)) :=
  [ unary main_v179 main_v180 (broadcastInDim S1x64 ![1] bcast_S64_S1x64_1 : (⟨S64, .f32⟩ : BufTy).Contents (Elt F) → (⟨S1x64, .f32⟩ : BufTy).Contents (Elt F)),
    unary main_v180 main_v181 (broadcastInDim S800000x64 ![0, 1] bcast_S1x64_S800000x64_0_1 : (⟨S1x64, .f32⟩ : BufTy).Contents (Elt F) → (⟨S800000x64, .f32⟩ : BufTy).Contents (Elt F)),
    binary main_v177 main_v181 main_v182 (addf : (⟨S800000x64, .f32⟩ : BufTy).Contents (Elt F) → (⟨S800000x64, .f32⟩ : BufTy).Contents (Elt F) → (⟨S800000x64, .f32⟩ : BufTy).Contents (Elt F)),
    unary main_v182 main_v183 (Host.negf : (⟨S800000x64, .f32⟩ : BufTy).Contents (Elt F) → (⟨S800000x64, .f32⟩ : BufTy).Contents (Elt F)),
    unary main_v183 main_v184 (Host.exp : (⟨S800000x64, .f32⟩ : BufTy).Contents (Elt F) → (⟨S800000x64, .f32⟩ : BufTy).Contents (Elt F)),
    nullary main_cst_28 (constant S_ .f32 0x3F800000#32),
    unary main_cst_28 main_v185 (broadcastInDim S800000x64 ![] bcast_S_S800000x64 : (⟨S_, .f32⟩ : BufTy).Contents (Elt F) → (⟨S800000x64, .f32⟩ : BufTy).Contents (Elt F)),
    binary main_v185 main_v184 main_v186 (addf : (⟨S800000x64, .f32⟩ : BufTy).Contents (Elt F) → (⟨S800000x64, .f32⟩ : BufTy).Contents (Elt F) → (⟨S800000x64, .f32⟩ : BufTy).Contents (Elt F)),
    nullary main_cst_29 (constant S_ .f32 0x3F800000#32),
    unary main_cst_29 main_v187 (broadcastInDim S800000x64 ![] bcast_S_S800000x64 : (⟨S_, .f32⟩ : BufTy).Contents (Elt F) → (⟨S800000x64, .f32⟩ : BufTy).Contents (Elt F)),
    binary main_v187 main_v186 main_v188 (Host.divf : (⟨S800000x64, .f32⟩ : BufTy).Contents (Elt F) → (⟨S800000x64, .f32⟩ : BufTy).Contents (Elt F) → (⟨S800000x64, .f32⟩ : BufTy).Contents (Elt F)),
    binary main_v182 main_v188 main_v189 (mulf : (⟨S800000x64, .f32⟩ : BufTy).Contents (Elt F) → (⟨S800000x64, .f32⟩ : BufTy).Contents (Elt F) → (⟨S800000x64, .f32⟩ : BufTy).Contents (Elt F)),
    unary main_arg13 main_v190 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v190 main_v191 rfl shapeCasts_S1x64x64_S64x64,
    binary main_v189 main_v191 main_v192 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg14 main_v193 ((extractStridedSlice S1x64 ![1, 0] · slices_S2x64_S1x64_1_0) : (⟨S2x64, .f32⟩ : BufTy).Contents (Elt F) → (⟨S1x64, .f32⟩ : BufTy).Contents (Elt F)),
    reshape main_v193 main_v194 rfl shapeCasts_S1x64_S64,
    unary main_v194 main_v195 (broadcastInDim S1x64 ![1] bcast_S64_S1x64_1 : (⟨S64, .f32⟩ : BufTy).Contents (Elt F) → (⟨S1x64, .f32⟩ : BufTy).Contents (Elt F)),
    unary main_v195 main_v196 (broadcastInDim S800000x64 ![0, 1] bcast_S1x64_S800000x64_0_1 : (⟨S1x64, .f32⟩ : BufTy).Contents (Elt F) → (⟨S800000x64, .f32⟩ : BufTy).Contents (Elt F)),
    binary main_v192 main_v196 main_v197 (addf : (⟨S800000x64, .f32⟩ : BufTy).Contents (Elt F) → (⟨S800000x64, .f32⟩ : BufTy).Contents (Elt F) → (⟨S800000x64, .f32⟩ : BufTy).Contents (Elt F)),
    unary main_v197 main_v198 (Host.negf : (⟨S800000x64, .f32⟩ : BufTy).Contents (Elt F) → (⟨S800000x64, .f32⟩ : BufTy).Contents (Elt F)),
    unary main_v198 main_v199 (Host.exp : (⟨S800000x64, .f32⟩ : BufTy).Contents (Elt F) → (⟨S800000x64, .f32⟩ : BufTy).Contents (Elt F)),
    nullary main_cst_30 (constant S_ .f32 0x3F800000#32),
    unary main_cst_30 main_v200 (broadcastInDim S800000x64 ![] bcast_S_S800000x64 : (⟨S_, .f32⟩ : BufTy).Contents (Elt F) → (⟨S800000x64, .f32⟩ : BufTy).Contents (Elt F)),
    binary main_v200 main_v199 main_v201 (addf : (⟨S800000x64, .f32⟩ : BufTy).Contents (Elt F) → (⟨S800000x64, .f32⟩ : BufTy).Contents (Elt F) → (⟨S800000x64, .f32⟩ : BufTy).Contents (Elt F)),
    nullary main_cst_31 (constant S_ .f32 0x3F800000#32),
    unary main_cst_31 main_v202 (broadcastInDim S800000x64 ![] bcast_S_S800000x64 : (⟨S_, .f32⟩ : BufTy).Contents (Elt F) → (⟨S800000x64, .f32⟩ : BufTy).Contents (Elt F)),
    binary main_v202 main_v201 main_v203 (Host.divf : (⟨S800000x64, .f32⟩ : BufTy).Contents (Elt F) → (⟨S800000x64, .f32⟩ : BufTy).Contents (Elt F) → (⟨S800000x64, .f32⟩ : BufTy).Contents (Elt F)),
    binary main_v197 main_v203 main_v204 (mulf : (⟨S800000x64, .f32⟩ : BufTy).Contents (Elt F) → (⟨S800000x64, .f32⟩ : BufTy).Contents (Elt F) → (⟨S800000x64, .f32⟩ : BufTy).Contents (Elt F)),
    unary main_arg15 main_v205 ((extractStridedSlice S1x64x1 ![1, 0, 0] · slices_S2x64x1_S1x64x1_1_0_0) : (⟨S2x64x1, .f32⟩ : BufTy).Contents (Elt F) → (⟨S1x64x1, .f32⟩ : BufTy).Contents (Elt F)) ]

/-- Each touches TensorCore references only. -/
theorem opsA7_sub : (opsA7 (F := F)).Forall fun op => op.bufs ⊆ tcRefs τ sig :=
  ⟨unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub ..⟩

/-- Each determines what it writes. -/
theorem opsA7_fresh : (opsA7 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The operation at place k of this line (counting from 0) writes exactly buffer 235 + k. -/
theorem opsA7_numbered : Numbered 235 (opsA7 (F := F)) :=
  ⟨⟨main_v180, rfl, rfl⟩, ⟨main_v181, rfl, rfl⟩, ⟨main_v182, rfl, rfl⟩, ⟨main_v183, rfl, rfl⟩, ⟨main_v184, rfl, rfl⟩, ⟨main_cst_28, rfl, rfl⟩, ⟨main_v185, rfl, rfl⟩, ⟨main_v186, rfl, rfl⟩, ⟨main_cst_29, rfl, rfl⟩, ⟨main_v187, rfl, rfl⟩, ⟨main_v188, rfl, rfl⟩, ⟨main_v189, rfl, rfl⟩, ⟨main_v190, rfl, rfl⟩, ⟨main_v191, rfl, rfl⟩, ⟨main_v192, rfl, rfl⟩, ⟨main_v193, rfl, rfl⟩, ⟨main_v194, rfl, rfl⟩, ⟨main_v195, rfl, rfl⟩, ⟨main_v196, rfl, rfl⟩, ⟨main_v197, rfl, rfl⟩, ⟨main_v198, rfl, rfl⟩, ⟨main_v199, rfl, rfl⟩, ⟨main_cst_30, rfl, rfl⟩, ⟨main_v200, rfl, rfl⟩, ⟨main_v201, rfl, rfl⟩, ⟨main_cst_31, rfl, rfl⟩, ⟨main_v202, rfl, rfl⟩, ⟨main_v203, rfl, rfl⟩, ⟨main_v204, rfl, rfl⟩, ⟨main_v205, rfl, rfl⟩, trivial⟩

theorem opsA7_length : (opsA7 (F := F)).length = 30 := rfl

set_option maxRecDepth 8192 in
set_option maxHeartbeats 4000000 in
/-- The program's operations 248 … 269 (counting from 0), in order. -/
def opsA8 : List (HloOp τ sig (Elt F)) :=
  [ reshape main_v205 main_v206 rfl shapeCasts_S1x64x1_S64x1,
    binary main_v204 main_v206 main_v207 ((fun l r => Host.dotGeneral dot_S800000x64_S64x1_S800000x1_1_0_0_1_n_n none l r) : (⟨S800000x64, .f32⟩ : BufTy).Contents (Elt F) → (⟨S64x1, .f32⟩ : BufTy).Contents (Elt F) → (⟨S800000x1, .f32⟩ : BufTy).Contents (Elt F)),
    unary main_arg16 main_v208 ((extractStridedSlice S1x1 ![1, 0] · slices_S2x1_S1x1_1_0) : (⟨S2x1, .f32⟩ : BufTy).Contents (Elt F) → (⟨S1x1, .f32⟩ : BufTy).Contents (Elt F)),
    reshape main_v208 main_v209 rfl shapeCasts_S1x1_S1,
    unary main_v209 main_v210 (broadcastInDim S1x1 ![1] bcast_S1_S1x1_1 : (⟨S1, .f32⟩ : BufTy).Contents (Elt F) → (⟨S1x1, .f32⟩ : BufTy).Contents (Elt F)),
    unary main_v210 main_v211 (broadcastInDim S800000x1 ![0, 1] bcast_S1x1_S800000x1_0_1 : (⟨S1x1, .f32⟩ : BufTy).Contents (Elt F) → (⟨S800000x1, .f32⟩ : BufTy).Contents (Elt F)),
    binary main_v207 main_v211 main_v212 (addf : (⟨S800000x1, .f32⟩ : BufTy).Contents (Elt F) → (⟨S800000x1, .f32⟩ : BufTy).Contents (Elt F) → (⟨S800000x1, .f32⟩ : BufTy).Contents (Elt F)),
    unary main_v212 main_v213 (broadcastInDim S800000x3 ![0, 1] bcast_S800000x1_S800000x3_0_1 : (⟨S800000x1, .f32⟩ : BufTy).Contents (Elt F) → (⟨S800000x3, .f32⟩ : BufTy).Contents (Elt F)),
    binary main_v213 main_v143 main_v214 (mulf : (⟨S800000x3, .f32⟩ : BufTy).Contents (Elt F) → (⟨S800000x3, .f32⟩ : BufTy).Contents (Elt F) → (⟨S800000x3, .f32⟩ : BufTy).Contents (Elt F)),
    nullary main_cst_32 (constant S_ .f32 0x00000000#32),
    unary main_cst_32 main_v215 (broadcastInDim S50000x3 ![] bcast_S_S50000x3 : (⟨S_, .f32⟩ : BufTy).Contents (Elt F) → (⟨S50000x3, .f32⟩ : BufTy).Contents (Elt F)),
    unary main_v3 main_v216 (broadcastInDim S800000x1 ![0] bcast_S800000_S800000x1_0 : (⟨S800000, .i32⟩ : BufTy).Contents (Elt F) → (⟨S800000x1, .i32⟩ : BufTy).Contents (Elt F)),
    ternary main_v215 main_v216 main_v214 main_v217 ((fun x i u => Host.scatterAdd scatter_S50000x3_S800000x1_S800000x3_1_0_0_1 x i u) : (⟨S50000x3, .f32⟩ : BufTy).Contents (Elt F) → (⟨S800000x1, .i32⟩ : BufTy).Contents (Elt F) → (⟨S800000x3, .f32⟩ : BufTy).Contents (Elt F) → (⟨S50000x3, .f32⟩ : BufTy).Contents (Elt F)),
    binary main_v100 main_v217 main_v218 (addf : (⟨S50000x3, .f32⟩ : BufTy).Contents (Elt F) → (⟨S50000x3, .f32⟩ : BufTy).Contents (Elt F) → (⟨S50000x3, .f32⟩ : BufTy).Contents (Elt F)),
    nullary main_cst_33 (constant S_ .f32 0x00000000#32),
    unary main_cst_33 main_v219 (broadcastInDim S50000x64 ![] bcast_S_S50000x64 : (⟨S_, .f32⟩ : BufTy).Contents (Elt F) → (⟨S50000x64, .f32⟩ : BufTy).Contents (Elt F)),
    unary main_v3 main_v220 (broadcastInDim S800000x1 ![0] bcast_S800000_S800000x1_0 : (⟨S800000, .i32⟩ : BufTy).Contents (Elt F) → (⟨S800000x1, .i32⟩ : BufTy).Contents (Elt F)),
    ternary main_v219 main_v220 main_v189 main_v221 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v128 main_v221 main_v222 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg9 main_v223 ((extractStridedSlice S1x128x64 ![1, 0, 0] · slices_S2x128x64_S1x128x64_1_0_0) : (⟨S2x128x64, .f32⟩ : BufTy).Contents (Elt F) → (⟨S1x128x64, .f32⟩ : BufTy).Contents (Elt F)),
    reshape main_v223 main_v224 rfl shapeCasts_S1x128x64_S128x64,
    binary main_v222 main_v224 main_v225 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]

/-- Each touches TensorCore references only. -/
theorem opsA8_sub : (opsA8 (F := F)).Forall fun op => op.bufs ⊆ tcRefs τ sig :=
  ⟨reshape_bufs_sub .., binary_bufs_sub .., unary_bufs_sub .., reshape_bufs_sub .., unary_bufs_sub .., unary_bufs_sub .., binary_bufs_sub .., unary_bufs_sub .., binary_bufs_sub .., nullary_bufs_sub .., unary_bufs_sub .., unary_bufs_sub .., ternary_bufs_sub .., binary_bufs_sub .., nullary_bufs_sub .., unary_bufs_sub .., unary_bufs_sub .., ternary_bufs_sub .., binary_bufs_sub .., unary_bufs_sub .., reshape_bufs_sub .., binary_bufs_sub ..⟩

/-- Each determines what it writes. -/
theorem opsA8_fresh : (opsA8 (F := F)).Forall fun op => op.fresh = ∅ :=
  ⟨rfl, rfl, rfl, rfl, rfl, rfl, rfl, rfl, rfl, rfl, rfl, rfl, rfl, rfl, rfl, rfl, rfl, rfl, rfl, rfl, rfl, rfl⟩

set_option maxRecDepth 8192 in
/-- The operation at place k of this line (counting from 0) writes exactly buffer 265 + k. -/
theorem opsA8_numbered : Numbered 265 (opsA8 (F := F)) :=
  ⟨⟨main_v206, rfl, rfl⟩, ⟨main_v207, rfl, rfl⟩, ⟨main_v208, rfl, rfl⟩, ⟨main_v209, rfl, rfl⟩, ⟨main_v210, rfl, rfl⟩, ⟨main_v211, rfl, rfl⟩, ⟨main_v212, rfl, rfl⟩, ⟨main_v213, rfl, rfl⟩, ⟨main_v214, rfl, rfl⟩, ⟨main_cst_32, rfl, rfl⟩, ⟨main_v215, rfl, rfl⟩, ⟨main_v216, rfl, rfl⟩, ⟨main_v217, rfl, rfl⟩, ⟨main_v218, rfl, rfl⟩, ⟨main_cst_33, rfl, rfl⟩, ⟨main_v219, rfl, rfl⟩, ⟨main_v220, rfl, rfl⟩, ⟨main_v221, rfl, rfl⟩, ⟨main_v222, rfl, rfl⟩, ⟨main_v223, rfl, rfl⟩, ⟨main_v224, rfl, rfl⟩, ⟨main_v225, rfl, rfl⟩, trivial⟩

theorem opsA8_length : (opsA8 (F := F)).length = 22 := rfl

set_option maxRecDepth 8192 in
set_option maxHeartbeats 4000000 in
/-- The program's operations 270 … 292 (counting from 0), in order. -/
def opsA9 : List (HloOp τ sig (Elt F)) :=
  [ unary main_arg10 main_v226 ((extractStridedSlice S1x64 ![1, 0] · slices_S2x64_S1x64_1_0) : (⟨S2x64, .f32⟩ : BufTy).Contents (Elt F) → (⟨S1x64, .f32⟩ : BufTy).Contents (Elt F)),
    reshape main_v226 main_v227 rfl shapeCasts_S1x64_S64,
    unary main_v227 main_v228 (broadcastInDim S1x64 ![1] bcast_S64_S1x64_1 : (⟨S64, .f32⟩ : BufTy).Contents (Elt F) → (⟨S1x64, .f32⟩ : BufTy).Contents (Elt F)),
    unary main_v228 main_v229 (broadcastInDim S50000x64 ![0, 1] bcast_S1x64_S50000x64_0_1 : (⟨S1x64, .f32⟩ : BufTy).Contents (Elt F) → (⟨S50000x64, .f32⟩ : BufTy).Contents (Elt F)),
    binary main_v225 main_v229 main_v230 (addf : (⟨S50000x64, .f32⟩ : BufTy).Contents (Elt F) → (⟨S50000x64, .f32⟩ : BufTy).Contents (Elt F) → (⟨S50000x64, .f32⟩ : BufTy).Contents (Elt F)),
    unary main_v230 main_v231 (Host.negf : (⟨S50000x64, .f32⟩ : BufTy).Contents (Elt F) → (⟨S50000x64, .f32⟩ : BufTy).Contents (Elt F)),
    unary main_v231 main_v232 (Host.exp : (⟨S50000x64, .f32⟩ : BufTy).Contents (Elt F) → (⟨S50000x64, .f32⟩ : BufTy).Contents (Elt F)),
    nullary main_cst_34 (constant S_ .f32 0x3F800000#32),
    unary main_cst_34 main_v233 (broadcastInDim S50000x64 ![] bcast_S_S50000x64 : (⟨S_, .f32⟩ : BufTy).Contents (Elt F) → (⟨S50000x64, .f32⟩ : BufTy).Contents (Elt F)),
    binary main_v233 main_v232 main_v234 (addf : (⟨S50000x64, .f32⟩ : BufTy).Contents (Elt F) → (⟨S50000x64, .f32⟩ : BufTy).Contents (Elt F) → (⟨S50000x64, .f32⟩ : BufTy).Contents (Elt F)),
    nullary main_cst_35 (constant S_ .f32 0x3F800000#32),
    unary main_cst_35 main_v235 (broadcastInDim S50000x64 ![] bcast_S_S50000x64 : (⟨S_, .f32⟩ : BufTy).Contents (Elt F) → (⟨S50000x64, .f32⟩ : BufTy).Contents (Elt F)),
    binary main_v235 main_v234 main_v236 (Host.divf : (⟨S50000x64, .f32⟩ : BufTy).Contents (Elt F) → (⟨S50000x64, .f32⟩ : BufTy).Contents (Elt F) → (⟨S50000x64, .f32⟩ : BufTy).Contents (Elt F)),
    binary main_v230 main_v236 main_v237 (mulf : (⟨S50000x64, .f32⟩ : BufTy).Contents (Elt F) → (⟨S50000x64, .f32⟩ : BufTy).Contents (Elt F) → (⟨S50000x64, .f32⟩ : BufTy).Contents (Elt F)),
    unary main_arg11 main_v238 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v238 main_v239 rfl shapeCasts_S1x64x64_S64x64,
    binary main_v237 main_v239 main_v240 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg12 main_v241 ((extractStridedSlice S1x64 ![1, 0] · slices_S2x64_S1x64_1_0) : (⟨S2x64, .f32⟩ : BufTy).Contents (Elt F) → (⟨S1x64, .f32⟩ : BufTy).Contents (Elt F)),
    reshape main_v241 main_v242 rfl shapeCasts_S1x64_S64,
    unary main_v242 main_v243 (broadcastInDim S1x64 ![1] bcast_S64_S1x64_1 : (⟨S64, .f32⟩ : BufTy).Contents (Elt F) → (⟨S1x64, .f32⟩ : BufTy).Contents (Elt F)),
    unary main_v243 main_v244 (broadcastInDim S50000x64 ![0, 1] bcast_S1x64_S50000x64_0_1 : (⟨S1x64, .f32⟩ : BufTy).Contents (Elt F) → (⟨S50000x64, .f32⟩ : BufTy).Contents (Elt F)),
    binary main_v240 main_v244 main_v245 (addf : (⟨S50000x64, .f32⟩ : BufTy).Contents (Elt F) → (⟨S50000x64, .f32⟩ : BufTy).Contents (Elt F) → (⟨S50000x64, .f32⟩ : BufTy).Contents (Elt F)),
    binary main_v128 main_v245 main_v246 (addf : (⟨S50000x64, .f32⟩ : BufTy).Contents (Elt F) → (⟨S50000x64, .f32⟩ : BufTy).Contents (Elt F) → (⟨S50000x64, .f32⟩ : BufTy).Contents (Elt F)) ]

/-- Each touches TensorCore references only. -/
theorem opsA9_sub : (opsA9 (F := F)).Forall fun op => op.bufs ⊆ tcRefs τ sig :=
  ⟨unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., binary_bufs_sub ..⟩

/-- Each determines what it writes. -/
theorem opsA9_fresh : (opsA9 (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

set_option maxRecDepth 8192 in
/-- The operation at place k of this line (counting from 0) writes exactly buffer 287 + k. -/
theorem opsA9_numbered : Numbered 287 (opsA9 (F := F)) :=
  ⟨⟨main_v226, rfl, rfl⟩, ⟨main_v227, rfl, rfl⟩, ⟨main_v228, rfl, rfl⟩, ⟨main_v229, rfl, rfl⟩, ⟨main_v230, rfl, rfl⟩, ⟨main_v231, rfl, rfl⟩, ⟨main_v232, rfl, rfl⟩, ⟨main_cst_34, rfl, rfl⟩, ⟨main_v233, rfl, rfl⟩, ⟨main_v234, rfl, rfl⟩, ⟨main_cst_35, rfl, rfl⟩, ⟨main_v235, rfl, rfl⟩, ⟨main_v236, rfl, rfl⟩, ⟨main_v237, rfl, rfl⟩, ⟨main_v238, rfl, rfl⟩, ⟨main_v239, rfl, rfl⟩, ⟨main_v240, rfl, rfl⟩, ⟨main_v241, rfl, rfl⟩, ⟨main_v242, rfl, rfl⟩, ⟨main_v243, rfl, rfl⟩, ⟨main_v244, rfl, rfl⟩, ⟨main_v245, rfl, rfl⟩, ⟨main_v246, rfl, rfl⟩, trivial⟩

theorem opsA9_length : (opsA9 (F := F)).length = 23 := rfl

end Cert.ReferenceIdeal.RRun

end
-- ==== Proof.RRunMain.lean ====
import proofs.«428515_j67688684585222_1_alg».proof.Proof.RRunOpsA
import proofs.«428515_j67688684585222_1_alg».proof.Proof.RRunOpsB
import Idealize.ShloMosaic.Lib.Pipeline.Regions

/-! The plain array program is the line of its 293 operations, numbered from buffer 17 on, and its run ends at the fold of that line. -/

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

def ops : List (HloOp τ sig (Elt F)) :=
  (opsA0 ++ opsA1) ++ ((opsA2 ++ opsA3) ++ ((opsA4 ++ opsA5) ++ ((opsA6 ++ opsA7) ++ (opsA8 ++ opsA9))))

theorem ops_sub : (ops (F := F)).Forall fun op => op.bufs ⊆ tcRefs τ sig :=
  forall_app (forall_app opsA0_sub opsA1_sub) (forall_app (forall_app opsA2_sub opsA3_sub) (forall_app (forall_app opsA4_sub opsA5_sub)
    (forall_app (forall_app opsA6_sub opsA7_sub) (forall_app opsA8_sub opsA9_sub))))

theorem ops_fresh : (ops (F := F)).Forall fun op => op.fresh = ∅ :=
  forall_app (forall_app opsA0_fresh opsA1_fresh) (forall_app (forall_app opsA2_fresh opsA3_fresh) (forall_app (forall_app opsA4_fresh opsA5_fresh)
    (forall_app (forall_app opsA6_fresh opsA7_fresh) (forall_app opsA8_fresh opsA9_fresh))))

theorem ops_numbered : Numbered 17 (ops (F := F)) := by
  have w0 : Numbered 17 (opsA0 (F := F) ++ opsA1) := Numbered.append' _ _ 17 37 54 opsA0_numbered opsA0_length rfl opsA1_numbered
  have w1 : Numbered 81 (opsA2 (F := F) ++ opsA3) := Numbered.append' _ _ 81 30 111 opsA2_numbered opsA2_length rfl opsA3_numbered
  have w2 : Numbered 141 (opsA4 (F := F) ++ opsA5) := Numbered.append' _ _ 141 32 173 opsA4_numbered opsA4_length rfl opsA5_numbered
  have w3 : Numbered 205 (opsA6 (F := F) ++ opsA7) := Numbered.append' _ _ 205 30 235 opsA6_numbered opsA6_length rfl opsA7_numbered
  have w4 : Numbered 265 (opsA8 (F := F) ++ opsA9) := Numbered.append' _ _ 265 22 287 opsA8_numbered opsA8_length rfl opsA9_numbered
  have l0 : (opsA0 (F := F) ++ opsA1).length = 64 := by rw [List.length_append, opsA0_length, opsA1_length]
  have l1 : (opsA2 (F := F) ++ opsA3).length = 60 := by rw [List.length_append, opsA2_length, opsA3_length]
  have l2 : (opsA4 (F := F) ++ opsA5).length = 64 := by rw [List.length_append, opsA4_length, opsA5_length]
  have l3 : (opsA6 (F := F) ++ opsA7).length = 60 := by rw [List.length_append, opsA6_length, opsA7_length]
  exact Numbered.append' _ _ 17 64 81 w0 l0 rfl (Numbered.append' _ _ 81 60 141 w1 l1 rfl
    (Numbered.append' _ _ 141 64 205 w2 l2 rfl (Numbered.append' _ _ 205 60 265 w3 l3 rfl w4)))

theorem main_part0_eq (c : Dev nD) : main_part0 (F := F) c = seq (opsA0 ++ opsA1) := by chain_rfl
theorem main_part1_eq (c : Dev nD) : main_part1 (F := F) c = seq (opsA2 ++ opsA3) := by chain_rfl
theorem main_part2_eq (c : Dev nD) : main_part2 (F := F) c = seq (opsA4 ++ opsA5) := by chain_rfl
theorem main_part3_eq (c : Dev nD) : main_part3 (F := F) c = seq (opsA6 ++ opsA7) := by chain_rfl
theorem main_part4_eq (c : Dev nD) : main_part4 (F := F) c = seq (opsA8 ++ opsA9) := by chain_rfl

theorem main_eq (c : Dev nD) : main (F := F) c = seq ops := by
  have e : main (F := F) c = (main_part0 c >>= fun _ => main_part1 c >>= fun _ => main_part2 c >>= fun _ =>
      main_part3 c >>= fun _ => main_part4 c) := rfl
  rw [e, main_part0_eq, main_part1_eq, main_part2_eq, main_part3_eq, main_part4_eq, ← seq_append, ← seq_append, ← seq_append,
    ← seq_append]
  rfl

theorem scopedRefs_eq : (Finset.univ.filter fun b : Ref sig .tc => b.isScoped) = ∅ := by decide
theorem scopedSems_eq : (Finset.univ.filter fun sm : SemLoc sig => sm.isScoped .tc) = ∅ := by decide

theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ
    (hfresh := fun _ => List.forall_iff_forall_mem.mp ops_fresh)

end Cert.ReferenceIdeal.RRun

end
-- ==== Proof.RRunSt.lean ====
import proofs.«428515_j67688684585222_1_alg».proof.Proof.RRunMain
import proofs.«428515_j67688684585222_1_alg».proof.Proof.ReadP

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-! From any contents V, with xK what argument K holds at the end of the line: each buffer then holds its stage of x0 … x16.
    One row per operation, in program order: the operation's equation at the end of the line with its operands' rows put in.
    The rows are cut into five theorems, each handing on the stages that later rows still read. -/

section
variable (V : Valuation τ sig (Elt F))
  {x0 : (⟨S50000, .i32⟩ : BufTy).Contents (Elt F)}
  {x1 : (⟨S50000x3, .f32⟩ : BufTy).Contents (Elt F)}
  {x2 : (⟨S2x800000, .i32⟩ : BufTy).Contents (Elt F)}
  {x4 : (⟨S100x64, .f32⟩ : BufTy).Contents (Elt F)}
  {x5 : (⟨S2x129x64, .f32⟩ : BufTy).Contents (Elt F)}
  {x6 : (⟨S2x64, .f32⟩ : BufTy).Contents (Elt F)}
  {x7 : (⟨S2x64x64, .f32⟩ : BufTy).Contents (Elt F)}
  {x8 : (⟨S2x64, .f32⟩ : BufTy).Contents (Elt F)}
  {x9 : (⟨S2x128x64, .f32⟩ : BufTy).Contents (Elt F)}
  {x10 : (⟨S2x64, .f32⟩ : BufTy).Contents (Elt F)}
  {x11 : (⟨S2x64x64, .f32⟩ : BufTy).Contents (Elt F)}
  {x12 : (⟨S2x64, .f32⟩ : BufTy).Contents (Elt F)}
  {x13 : (⟨S2x64x64, .f32⟩ : BufTy).Contents (Elt F)}
  {x14 : (⟨S2x64, .f32⟩ : BufTy).Contents (Elt F)}
  {x15 : (⟨S2x64x1, .f32⟩ : BufTy).Contents (Elt F)}
  {x16 : (⟨S2x1, .f32⟩ : BufTy).Contents (Elt F)}
  (e0 : after ops V main_arg0 = x0) (e1 : after ops V main_arg1 = x1) (e2 : after ops V main_arg2 = x2) (e4 : after ops V main_arg4 = x4) (e5 : after ops V main_arg5 = x5) (e6 : after ops V main_arg6 = x6) (e7 : after ops V main_arg7 = x7) (e8 : after ops V main_arg8 = x8) (e9 : after ops V main_arg9 = x9) (e10 : after ops V main_arg10 = x10) (e11 : after ops V main_arg11 = x11) (e12 : after ops V main_arg12 = x12) (e13 : after ops V main_arg13 = x13) (e14 : after ops V main_arg14 = x14) (e15 : after ops V main_arg15 = x15) (e16 : after ops V main_arg16 = x16)
include e0 e1 e2 e4 e5 e6 e7 e8 e9 e10 e11 e12 e13 e14 e15 e16

theorem stages1 :
    (after ops V main_v1 = ReadP.val_main_v1 x2)
    ∧ (after ops V main_v3 = ReadP.val_main_v3 x2)
    ∧ (after ops V main_v10 = ReadP.val_main_v10 x0 x4)
    ∧ (after ops V main_v25 = ReadP.val_main_v25 x1 x2)
    ∧ (after ops V main_v49 = ReadP.val_main_v49 x0 x1 x2 x4 x5 x6) := by
  have n := ops_numbered (F := F)
  have s_main_v0 : after ops V main_v0 = ReadP.val_main_v0 x2 := by rw [n.unary_at V 0 rfl, e2]; rfl
  have s_main_v1 : after ops V main_v1 = ReadP.val_main_v1 x2 := by rw [n.reshape_at V 1 rfl, s_main_v0]; rfl
  have s_main_v2 : after ops V main_v2 = ReadP.val_main_v2 x2 := by rw [n.unary_at V 2 rfl, e2]; rfl
  have s_main_v3 : after ops V main_v3 = ReadP.val_main_v3 x2 := by rw [n.reshape_at V 3 rfl, s_main_v2]; rfl
  have s_main_c : after ops V main_c = ReadP.val_main_c := by rw [n.nullary_at V 4 rfl]; rfl
  have s_main_v4 : after ops V main_v4 = ReadP.val_main_v4 := by rw [n.unary_at V 5 rfl, s_main_c]; rfl
  have s_main_v5 : after ops V main_v5 = ReadP.val_main_v5 x0 := by rw [n.binary_at V 6 rfl, e0, s_main_v4]; rfl
  have s_main_c_0 : after ops V main_c_0 = ReadP.val_main_c_0 := by rw [n.nullary_at V 7 rfl]; rfl
  have s_main_v6 : after ops V main_v6 = ReadP.val_main_v6 := by rw [n.unary_at V 8 rfl, s_main_c_0]; rfl
  have s_main_v7 : after ops V main_v7 = ReadP.val_main_v7 x0 := by rw [n.binary_at V 9 rfl, e0, s_main_v6]; rfl
  have s_main_v8 : after ops V main_v8 = ReadP.val_main_v8 x0 := by rw [n.ternary_at V 10 rfl, s_main_v5, s_main_v7, e0]; rfl
  have s_main_v9 : after ops V main_v9 = ReadP.val_main_v9 x0 := by rw [n.unary_at V 11 rfl, s_main_v8]; rfl
  have s_main_v10 : after ops V main_v10 = ReadP.val_main_v10 x0 x4 := by rw [n.binary_at V 12 rfl, e4, s_main_v9]; rfl
  have s_main_c_1 : after ops V main_c_1 = ReadP.val_main_c_1 := by rw [n.nullary_at V 13 rfl]; rfl
  have s_main_v11 : after ops V main_v11 = ReadP.val_main_v11 := by rw [n.unary_at V 14 rfl, s_main_c_1]; rfl
  have s_main_v12 : after ops V main_v12 = ReadP.val_main_v12 x2 := by rw [n.binary_at V 15 rfl, s_main_v1, s_main_v11]; rfl
  have s_main_c_2 : after ops V main_c_2 = ReadP.val_main_c_2 := by rw [n.nullary_at V 16 rfl]; rfl
  have s_main_v13 : after ops V main_v13 = ReadP.val_main_v13 := by rw [n.unary_at V 17 rfl, s_main_c_2]; rfl
  have s_main_v14 : after ops V main_v14 = ReadP.val_main_v14 x2 := by rw [n.binary_at V 18 rfl, s_main_v1, s_main_v13]; rfl
  have s_main_v15 : after ops V main_v15 = ReadP.val_main_v15 x2 := by rw [n.ternary_at V 19 rfl, s_main_v12, s_main_v14, s_main_v1]; rfl
  have s_main_v16 : after ops V main_v16 = ReadP.val_main_v16 x2 := by rw [n.unary_at V 20 rfl, s_main_v15]; rfl
  have s_main_v17 : after ops V main_v17 = ReadP.val_main_v17 x1 x2 := by rw [n.binary_at V 21 rfl, e1, s_main_v16]; rfl
  have s_main_c_3 : after ops V main_c_3 = ReadP.val_main_c_3 := by rw [n.nullary_at V 22 rfl]; rfl
  have s_main_v18 : after ops V main_v18 = ReadP.val_main_v18 := by rw [n.unary_at V 23 rfl, s_main_c_3]; rfl
  have s_main_v19 : after ops V main_v19 = ReadP.val_main_v19 x2 := by rw [n.binary_at V 24 rfl, s_main_v3, s_main_v18]; rfl
  have s_main_c_4 : after ops V main_c_4 = ReadP.val_main_c_4 := by rw [n.nullary_at V 25 rfl]; rfl
  have s_main_v20 : after ops V main_v20 = ReadP.val_main_v20 := by rw [n.unary_at V 26 rfl, s_main_c_4]; rfl
  have s_main_v21 : after ops V main_v21 = ReadP.val_main_v21 x2 := by rw [n.binary_at V 27 rfl, s_main_v3, s_main_v20]; rfl
  have s_main_v22 : after ops V main_v22 = ReadP.val_main_v22 x2 := by rw [n.ternary_at V 28 rfl, s_main_v19, s_main_v21, s_main_v3]; rfl
  have s_main_v23 : after ops V main_v23 = ReadP.val_main_v23 x2 := by rw [n.unary_at V 29 rfl, s_main_v22]; rfl
  have s_main_v24 : after ops V main_v24 = ReadP.val_main_v24 x1 x2 := by rw [n.binary_at V 30 rfl, e1, s_main_v23]; rfl
  have s_main_v25 : after ops V main_v25 = ReadP.val_main_v25 x1 x2 := by rw [n.binary_at V 31 rfl, s_main_v17, s_main_v24]; rfl
  have s_main_call0_v0 : after ops V main_call0_v0 = ReadP.val_main_call0_v0 x1 x2 := by rw [n.binary_at V 32 rfl, s_main_v25]; rfl
  have s_main_call0_cst : after ops V main_call0_cst = ReadP.val_main_call0_cst := by rw [n.nullary_at V 33 rfl]; rfl
  have s_main_call0_v1 : after ops V main_call0_v1 = ReadP.val_main_call0_v1 x1 x2 := by rw [n.binary_at V 34 rfl, s_main_call0_v0, s_main_call0_cst]; rfl
  have s_main_call0_v2 : after ops V main_call0_v2 = ReadP.val_main_call0_v2 x1 x2 := by rw [n.unary_at V 35 rfl, s_main_call0_v1]; rfl
  have s_main_v26 : after ops V main_v26 = ReadP.val_main_v26 x1 x2 := by rw [n.unary_at V 36 rfl, s_main_call0_v2]; rfl
  have s_main_c_5 : after ops V main_c_5 = ReadP.val_main_c_5 := by rw [n.nullary_at V 37 rfl]; rfl
  have s_main_v27 : after ops V main_v27 = ReadP.val_main_v27 := by rw [n.unary_at V 38 rfl, s_main_c_5]; rfl
  have s_main_v28 : after ops V main_v28 = ReadP.val_main_v28 x2 := by rw [n.binary_at V 39 rfl, s_main_v3, s_main_v27]; rfl
  have s_main_c_6 : after ops V main_c_6 = ReadP.val_main_c_6 := by rw [n.nullary_at V 40 rfl]; rfl
  have s_main_v29 : after ops V main_v29 = ReadP.val_main_v29 := by rw [n.unary_at V 41 rfl, s_main_c_6]; rfl
  have s_main_v30 : after ops V main_v30 = ReadP.val_main_v30 x2 := by rw [n.binary_at V 42 rfl, s_main_v3, s_main_v29]; rfl
  have s_main_v31 : after ops V main_v31 = ReadP.val_main_v31 x2 := by rw [n.ternary_at V 43 rfl, s_main_v28, s_main_v30, s_main_v3]; rfl
  have s_main_v32 : after ops V main_v32 = ReadP.val_main_v32 x2 := by rw [n.unary_at V 44 rfl, s_main_v31]; rfl
  have s_main_v33 : after ops V main_v33 = ReadP.val_main_v33 x0 x2 x4 := by rw [n.binary_at V 45 rfl, s_main_v10, s_main_v32]; rfl
  have s_main_c_7 : after ops V main_c_7 = ReadP.val_main_c_7 := by rw [n.nullary_at V 46 rfl]; rfl
  have s_main_v34 : after ops V main_v34 = ReadP.val_main_v34 := by rw [n.unary_at V 47 rfl, s_main_c_7]; rfl
  have s_main_v35 : after ops V main_v35 = ReadP.val_main_v35 x2 := by rw [n.binary_at V 48 rfl, s_main_v1, s_main_v34]; rfl
  have s_main_c_8 : after ops V main_c_8 = ReadP.val_main_c_8 := by rw [n.nullary_at V 49 rfl]; rfl
  have s_main_v36 : after ops V main_v36 = ReadP.val_main_v36 := by rw [n.unary_at V 50 rfl, s_main_c_8]; rfl
  have s_main_v37 : after ops V main_v37 = ReadP.val_main_v37 x2 := by rw [n.binary_at V 51 rfl, s_main_v1, s_main_v36]; rfl
  have s_main_v38 : after ops V main_v38 = ReadP.val_main_v38 x2 := by rw [n.ternary_at V 52 rfl, s_main_v35, s_main_v37, s_main_v1]; rfl
  have s_main_v39 : after ops V main_v39 = ReadP.val_main_v39 x2 := by rw [n.unary_at V 53 rfl, s_main_v38]; rfl
  have s_main_v40 : after ops V main_v40 = ReadP.val_main_v40 x0 x2 x4 := by rw [n.binary_at V 54 rfl, s_main_v10, s_main_v39]; rfl
  have s_main_v41 : after ops V main_v41 = ReadP.val_main_v41 x0 x1 x2 x4 := by rw [n.nary3_at V 55 rfl, s_main_v33, s_main_v40, s_main_v26]; rfl
  have s_main_v42 : after ops V main_v42 = ReadP.val_main_v42 x5 := by rw [n.unary_at V 56 rfl, e5]; rfl
  have s_main_v43 : after ops V main_v43 = ReadP.val_main_v43 x5 := by rw [n.reshape_at V 57 rfl, s_main_v42]; rfl
  have s_main_v44 : after ops V main_v44 = ReadP.val_main_v44 x0 x1 x2 x4 x5 := by rw [n.binary_at V 58 rfl, s_main_v41, s_main_v43]; rfl
  have s_main_v45 : after ops V main_v45 = ReadP.val_main_v45 x6 := by rw [n.unary_at V 59 rfl, e6]; rfl
  have s_main_v46 : after ops V main_v46 = ReadP.val_main_v46 x6 := by rw [n.reshape_at V 60 rfl, s_main_v45]; rfl
  have s_main_v47 : after ops V main_v47 = ReadP.val_main_v47 x6 := by rw [n.unary_at V 61 rfl, s_main_v46]; rfl
  have s_main_v48 : after ops V main_v48 = ReadP.val_main_v48 x6 := by rw [n.unary_at V 62 rfl, s_main_v47]; rfl
  have s_main_v49 : after ops V main_v49 = ReadP.val_main_v49 x0 x1 x2 x4 x5 x6 := by rw [n.binary_at V 63 rfl, s_main_v44, s_main_v48]; rfl
  exact ⟨s_main_v1, s_main_v3, s_main_v10, s_main_v25, s_main_v49⟩

theorem stages2 :
    (after ops V main_v1 = ReadP.val_main_v1 x2)
    ∧ (after ops V main_v3 = ReadP.val_main_v3 x2)
    ∧ (after ops V main_v10 = ReadP.val_main_v10 x0 x4)
    ∧ (after ops V main_v71 = ReadP.val_main_v71 x0 x1 x2 x4 x5 x6 x7 x8)
    ∧ (after ops V main_v100 = ReadP.val_main_v100 x0 x1 x2 x4 x5 x6 x7 x8 x13 x14 x15 x16)
    ∧ (after ops V main_v101 = ReadP.val_main_v101) := by
  have n := ops_numbered (F := F)
  obtain ⟨s_main_v1, s_main_v3, s_main_v10, s_main_v25, s_main_v49⟩ := stages1 V e0 e1 e2 e4 e5 e6 e7 e8 e9 e10 e11 e12 e13 e14 e15 e16
  have s_main_v50 : after ops V main_v50 = ReadP.val_main_v50 x0 x1 x2 x4 x5 x6 := by rw [n.unary_at V 64 rfl, s_main_v49]; rfl
  have s_main_v51 : after ops V main_v51 = ReadP.val_main_v51 x0 x1 x2 x4 x5 x6 := by rw [n.unary_at V 65 rfl, s_main_v50]; rfl
  have s_main_cst : after ops V main_cst = ReadP.val_main_cst := by rw [n.nullary_at V 66 rfl]; rfl
  have s_main_v52 : after ops V main_v52 = ReadP.val_main_v52 := by rw [n.unary_at V 67 rfl, s_main_cst]; rfl
  have s_main_v53 : after ops V main_v53 = ReadP.val_main_v53 x0 x1 x2 x4 x5 x6 := by rw [n.binary_at V 68 rfl, s_main_v52, s_main_v51]; rfl
  have s_main_cst_9 : after ops V main_cst_9 = ReadP.val_main_cst_9 := by rw [n.nullary_at V 69 rfl]; rfl
  have s_main_v54 : after ops V main_v54 = ReadP.val_main_v54 := by rw [n.unary_at V 70 rfl, s_main_cst_9]; rfl
  have s_main_v55 : after ops V main_v55 = ReadP.val_main_v55 x0 x1 x2 x4 x5 x6 := by rw [n.binary_at V 71 rfl, s_main_v54, s_main_v53]; rfl
  have s_main_v56 : after ops V main_v56 = ReadP.val_main_v56 x0 x1 x2 x4 x5 x6 := by rw [n.binary_at V 72 rfl, s_main_v49, s_main_v55]; rfl
  have s_main_v57 : after ops V main_v57 = ReadP.val_main_v57 x7 := by rw [n.unary_at V 73 rfl, e7]; rfl
  have s_main_v58 : after ops V main_v58 = ReadP.val_main_v58 x7 := by rw [n.reshape_at V 74 rfl, s_main_v57]; rfl
  have s_main_v59 : after ops V main_v59 = ReadP.val_main_v59 x0 x1 x2 x4 x5 x6 x7 := by rw [n.binary_at V 75 rfl, s_main_v56, s_main_v58]; rfl
  have s_main_v60 : after ops V main_v60 = ReadP.val_main_v60 x8 := by rw [n.unary_at V 76 rfl, e8]; rfl
  have s_main_v61 : after ops V main_v61 = ReadP.val_main_v61 x8 := by rw [n.reshape_at V 77 rfl, s_main_v60]; rfl
  have s_main_v62 : after ops V main_v62 = ReadP.val_main_v62 x8 := by rw [n.unary_at V 78 rfl, s_main_v61]; rfl
  have s_main_v63 : after ops V main_v63 = ReadP.val_main_v63 x8 := by rw [n.unary_at V 79 rfl, s_main_v62]; rfl
  have s_main_v64 : after ops V main_v64 = ReadP.val_main_v64 x0 x1 x2 x4 x5 x6 x7 x8 := by rw [n.binary_at V 80 rfl, s_main_v59, s_main_v63]; rfl
  have s_main_v65 : after ops V main_v65 = ReadP.val_main_v65 x0 x1 x2 x4 x5 x6 x7 x8 := by rw [n.unary_at V 81 rfl, s_main_v64]; rfl
  have s_main_v66 : after ops V main_v66 = ReadP.val_main_v66 x0 x1 x2 x4 x5 x6 x7 x8 := by rw [n.unary_at V 82 rfl, s_main_v65]; rfl
  have s_main_cst_10 : after ops V main_cst_10 = ReadP.val_main_cst_10 := by rw [n.nullary_at V 83 rfl]; rfl
  have s_main_v67 : after ops V main_v67 = ReadP.val_main_v67 := by rw [n.unary_at V 84 rfl, s_main_cst_10]; rfl
  have s_main_v68 : after ops V main_v68 = ReadP.val_main_v68 x0 x1 x2 x4 x5 x6 x7 x8 := by rw [n.binary_at V 85 rfl, s_main_v67, s_main_v66]; rfl
  have s_main_cst_11 : after ops V main_cst_11 = ReadP.val_main_cst_11 := by rw [n.nullary_at V 86 rfl]; rfl
  have s_main_v69 : after ops V main_v69 = ReadP.val_main_v69 := by rw [n.unary_at V 87 rfl, s_main_cst_11]; rfl
  have s_main_v70 : after ops V main_v70 = ReadP.val_main_v70 x0 x1 x2 x4 x5 x6 x7 x8 := by rw [n.binary_at V 88 rfl, s_main_v69, s_main_v68]; rfl
  have s_main_v71 : after ops V main_v71 = ReadP.val_main_v71 x0 x1 x2 x4 x5 x6 x7 x8 := by rw [n.binary_at V 89 rfl, s_main_v64, s_main_v70]; rfl
  have s_main_v72 : after ops V main_v72 = ReadP.val_main_v72 x13 := by rw [n.unary_at V 90 rfl, e13]; rfl
  have s_main_v73 : after ops V main_v73 = ReadP.val_main_v73 x13 := by rw [n.reshape_at V 91 rfl, s_main_v72]; rfl
  have s_main_v74 : after ops V main_v74 = ReadP.val_main_v74 x0 x1 x2 x4 x5 x6 x7 x8 x13 := by rw [n.binary_at V 92 rfl, s_main_v71, s_main_v73]; rfl
  have s_main_v75 : after ops V main_v75 = ReadP.val_main_v75 x14 := by rw [n.unary_at V 93 rfl, e14]; rfl
  have s_main_v76 : after ops V main_v76 = ReadP.val_main_v76 x14 := by rw [n.reshape_at V 94 rfl, s_main_v75]; rfl
  have s_main_v77 : after ops V main_v77 = ReadP.val_main_v77 x14 := by rw [n.unary_at V 95 rfl, s_main_v76]; rfl
  have s_main_v78 : after ops V main_v78 = ReadP.val_main_v78 x14 := by rw [n.unary_at V 96 rfl, s_main_v77]; rfl
  have s_main_v79 : after ops V main_v79 = ReadP.val_main_v79 x0 x1 x2 x4 x5 x6 x7 x8 x13 x14 := by rw [n.binary_at V 97 rfl, s_main_v74, s_main_v78]; rfl
  have s_main_v80 : after ops V main_v80 = ReadP.val_main_v80 x0 x1 x2 x4 x5 x6 x7 x8 x13 x14 := by rw [n.unary_at V 98 rfl, s_main_v79]; rfl
  have s_main_v81 : after ops V main_v81 = ReadP.val_main_v81 x0 x1 x2 x4 x5 x6 x7 x8 x13 x14 := by rw [n.unary_at V 99 rfl, s_main_v80]; rfl
  have s_main_cst_12 : after ops V main_cst_12 = ReadP.val_main_cst_12 := by rw [n.nullary_at V 100 rfl]; rfl
  have s_main_v82 : after ops V main_v82 = ReadP.val_main_v82 := by rw [n.unary_at V 101 rfl, s_main_cst_12]; rfl
  have s_main_v83 : after ops V main_v83 = ReadP.val_main_v83 x0 x1 x2 x4 x5 x6 x7 x8 x13 x14 := by rw [n.binary_at V 102 rfl, s_main_v82, s_main_v81]; rfl
  have s_main_cst_13 : after ops V main_cst_13 = ReadP.val_main_cst_13 := by rw [n.nullary_at V 103 rfl]; rfl
  have s_main_v84 : after ops V main_v84 = ReadP.val_main_v84 := by rw [n.unary_at V 104 rfl, s_main_cst_13]; rfl
  have s_main_v85 : after ops V main_v85 = ReadP.val_main_v85 x0 x1 x2 x4 x5 x6 x7 x8 x13 x14 := by rw [n.binary_at V 105 rfl, s_main_v84, s_main_v83]; rfl
  have s_main_v86 : after ops V main_v86 = ReadP.val_main_v86 x0 x1 x2 x4 x5 x6 x7 x8 x13 x14 := by rw [n.binary_at V 106 rfl, s_main_v79, s_main_v85]; rfl
  have s_main_v87 : after ops V main_v87 = ReadP.val_main_v87 x15 := by rw [n.unary_at V 107 rfl, e15]; rfl
  have s_main_v88 : after ops V main_v88 = ReadP.val_main_v88 x15 := by rw [n.reshape_at V 108 rfl, s_main_v87]; rfl
  have s_main_v89 : after ops V main_v89 = ReadP.val_main_v89 x0 x1 x2 x4 x5 x6 x7 x8 x13 x14 x15 := by rw [n.binary_at V 109 rfl, s_main_v86, s_main_v88]; rfl
  have s_main_v90 : after ops V main_v90 = ReadP.val_main_v90 x16 := by rw [n.unary_at V 110 rfl, e16]; rfl
  have s_main_v91 : after ops V main_v91 = ReadP.val_main_v91 x16 := by rw [n.reshape_at V 111 rfl, s_main_v90]; rfl
  have s_main_v92 : after ops V main_v92 = ReadP.val_main_v92 x16 := by rw [n.unary_at V 112 rfl, s_main_v91]; rfl
  have s_main_v93 : after ops V main_v93 = ReadP.val_main_v93 x16 := by rw [n.unary_at V 113 rfl, s_main_v92]; rfl
  have s_main_v94 : after ops V main_v94 = ReadP.val_main_v94 x0 x1 x2 x4 x5 x6 x7 x8 x13 x14 x15 x16 := by rw [n.binary_at V 114 rfl, s_main_v89, s_main_v93]; rfl
  have s_main_v95 : after ops V main_v95 = ReadP.val_main_v95 x0 x1 x2 x4 x5 x6 x7 x8 x13 x14 x15 x16 := by rw [n.unary_at V 115 rfl, s_main_v94]; rfl
  have s_main_v96 : after ops V main_v96 = ReadP.val_main_v96 x0 x1 x2 x4 x5 x6 x7 x8 x13 x14 x15 x16 := by rw [n.binary_at V 116 rfl, s_main_v95, s_main_v25]; rfl
  have s_main_cst_14 : after ops V main_cst_14 = ReadP.val_main_cst_14 := by rw [n.nullary_at V 117 rfl]; rfl
  have s_main_v97 : after ops V main_v97 = ReadP.val_main_v97 := by rw [n.unary_at V 118 rfl, s_main_cst_14]; rfl
  have s_main_v98 : after ops V main_v98 = ReadP.val_main_v98 x2 := by rw [n.unary_at V 119 rfl, s_main_v3]; rfl
  have s_main_v99 : after ops V main_v99 = ReadP.val_main_v99 x0 x1 x2 x4 x5 x6 x7 x8 x13 x14 x15 x16 := by rw [n.ternary_at V 120 rfl, s_main_v97, s_main_v98, s_main_v96]; rfl
  have s_main_v100 : after ops V main_v100 = ReadP.val_main_v100 x0 x1 x2 x4 x5 x6 x7 x8 x13 x14 x15 x16 := by rw [n.binary_at V 121 rfl, e1, s_main_v99]; rfl
  have s_main_cst_15 : after ops V main_cst_15 = ReadP.val_main_cst_15 := by rw [n.nullary_at V 122 rfl]; rfl
  have s_main_v101 : after ops V main_v101 = ReadP.val_main_v101 := by rw [n.unary_at V 123 rfl, s_main_cst_15]; rfl
  exact ⟨s_main_v1, s_main_v3, s_main_v10, s_main_v71, s_main_v100, s_main_v101⟩

theorem stages3 :
    (after ops V main_v1 = ReadP.val_main_v1 x2)
    ∧ (after ops V main_v3 = ReadP.val_main_v3 x2)
    ∧ (after ops V main_v100 = ReadP.val_main_v100 x0 x1 x2 x4 x5 x6 x7 x8 x13 x14 x15 x16)
    ∧ (after ops V main_v128 = ReadP.val_main_v128 x0 x1 x2 x4 x5 x6 x7 x8 x9 x10 x11 x12)
    ∧ (after ops V main_v143 = ReadP.val_main_v143 x0 x1 x2 x4 x5 x6 x7 x8 x13 x14 x15 x16)
    ∧ (after ops V main_v144 = ReadP.val_main_v144 x0 x1 x2 x4 x5 x6 x7 x8 x13 x14 x15 x16)
    ∧ (after ops V main_v151 = ReadP.val_main_v151 x0 x1 x2 x4 x5 x6 x7 x8 x9 x10 x11 x12)
    ∧ (after ops V main_v152 = ReadP.val_main_v152) := by
  have n := ops_numbered (F := F)
  obtain ⟨s_main_v1, s_main_v3, s_main_v10, s_main_v71, s_main_v100, s_main_v101⟩ := stages2 V e0 e1 e2 e4 e5 e6 e7 e8 e9 e10 e11 e12 e13 e14 e15 e16
  have s_main_v102 : after ops V main_v102 = ReadP.val_main_v102 x2 := by rw [n.unary_at V 124 rfl, s_main_v3]; rfl
  have s_main_v103 : after ops V main_v103 = ReadP.val_main_v103 x0 x1 x2 x4 x5 x6 x7 x8 := by rw [n.ternary_at V 125 rfl, s_main_v101, s_main_v102, s_main_v71]; rfl
  have s_main_v104 : after ops V main_v104 = ReadP.val_main_v104 x0 x1 x2 x4 x5 x6 x7 x8 := by rw [n.binary_at V 126 rfl, s_main_v10, s_main_v103]; rfl
  have s_main_v105 : after ops V main_v105 = ReadP.val_main_v105 x9 := by rw [n.unary_at V 127 rfl, e9]; rfl
  have s_main_v106 : after ops V main_v106 = ReadP.val_main_v106 x9 := by rw [n.reshape_at V 128 rfl, s_main_v105]; rfl
  have s_main_v107 : after ops V main_v107 = ReadP.val_main_v107 x0 x1 x2 x4 x5 x6 x7 x8 x9 := by rw [n.binary_at V 129 rfl, s_main_v104, s_main_v106]; rfl
  have s_main_v108 : after ops V main_v108 = ReadP.val_main_v108 x10 := by rw [n.unary_at V 130 rfl, e10]; rfl
  have s_main_v109 : after ops V main_v109 = ReadP.val_main_v109 x10 := by rw [n.reshape_at V 131 rfl, s_main_v108]; rfl
  have s_main_v110 : after ops V main_v110 = ReadP.val_main_v110 x10 := by rw [n.unary_at V 132 rfl, s_main_v109]; rfl
  have s_main_v111 : after ops V main_v111 = ReadP.val_main_v111 x10 := by rw [n.unary_at V 133 rfl, s_main_v110]; rfl
  have s_main_v112 : after ops V main_v112 = ReadP.val_main_v112 x0 x1 x2 x4 x5 x6 x7 x8 x9 x10 := by rw [n.binary_at V 134 rfl, s_main_v107, s_main_v111]; rfl
  have s_main_v113 : after ops V main_v113 = ReadP.val_main_v113 x0 x1 x2 x4 x5 x6 x7 x8 x9 x10 := by rw [n.unary_at V 135 rfl, s_main_v112]; rfl
  have s_main_v114 : after ops V main_v114 = ReadP.val_main_v114 x0 x1 x2 x4 x5 x6 x7 x8 x9 x10 := by rw [n.unary_at V 136 rfl, s_main_v113]; rfl
  have s_main_cst_16 : after ops V main_cst_16 = ReadP.val_main_cst_16 := by rw [n.nullary_at V 137 rfl]; rfl
  have s_main_v115 : after ops V main_v115 = ReadP.val_main_v115 := by rw [n.unary_at V 138 rfl, s_main_cst_16]; rfl
  have s_main_v116 : after ops V main_v116 = ReadP.val_main_v116 x0 x1 x2 x4 x5 x6 x7 x8 x9 x10 := by rw [n.binary_at V 139 rfl, s_main_v115, s_main_v114]; rfl
  have s_main_cst_17 : after ops V main_cst_17 = ReadP.val_main_cst_17 := by rw [n.nullary_at V 140 rfl]; rfl
  have s_main_v117 : after ops V main_v117 = ReadP.val_main_v117 := by rw [n.unary_at V 141 rfl, s_main_cst_17]; rfl
  have s_main_v118 : after ops V main_v118 = ReadP.val_main_v118 x0 x1 x2 x4 x5 x6 x7 x8 x9 x10 := by rw [n.binary_at V 142 rfl, s_main_v117, s_main_v116]; rfl
  have s_main_v119 : after ops V main_v119 = ReadP.val_main_v119 x0 x1 x2 x4 x5 x6 x7 x8 x9 x10 := by rw [n.binary_at V 143 rfl, s_main_v112, s_main_v118]; rfl
  have s_main_v120 : after ops V main_v120 = ReadP.val_main_v120 x11 := by rw [n.unary_at V 144 rfl, e11]; rfl
  have s_main_v121 : after ops V main_v121 = ReadP.val_main_v121 x11 := by rw [n.reshape_at V 145 rfl, s_main_v120]; rfl
  have s_main_v122 : after ops V main_v122 = ReadP.val_main_v122 x0 x1 x2 x4 x5 x6 x7 x8 x9 x10 x11 := by rw [n.binary_at V 146 rfl, s_main_v119, s_main_v121]; rfl
  have s_main_v123 : after ops V main_v123 = ReadP.val_main_v123 x12 := by rw [n.unary_at V 147 rfl, e12]; rfl
  have s_main_v124 : after ops V main_v124 = ReadP.val_main_v124 x12 := by rw [n.reshape_at V 148 rfl, s_main_v123]; rfl
  have s_main_v125 : after ops V main_v125 = ReadP.val_main_v125 x12 := by rw [n.unary_at V 149 rfl, s_main_v124]; rfl
  have s_main_v126 : after ops V main_v126 = ReadP.val_main_v126 x12 := by rw [n.unary_at V 150 rfl, s_main_v125]; rfl
  have s_main_v127 : after ops V main_v127 = ReadP.val_main_v127 x0 x1 x2 x4 x5 x6 x7 x8 x9 x10 x11 x12 := by rw [n.binary_at V 151 rfl, s_main_v122, s_main_v126]; rfl
  have s_main_v128 : after ops V main_v128 = ReadP.val_main_v128 x0 x1 x2 x4 x5 x6 x7 x8 x9 x10 x11 x12 := by rw [n.binary_at V 152 rfl, s_main_v10, s_main_v127]; rfl
  have s_main_c_18 : after ops V main_c_18 = ReadP.val_main_c_18 := by rw [n.nullary_at V 153 rfl]; rfl
  have s_main_v129 : after ops V main_v129 = ReadP.val_main_v129 := by rw [n.unary_at V 154 rfl, s_main_c_18]; rfl
  have s_main_v130 : after ops V main_v130 = ReadP.val_main_v130 x2 := by rw [n.binary_at V 155 rfl, s_main_v1, s_main_v129]; rfl
  have s_main_c_19 : after ops V main_c_19 = ReadP.val_main_c_19 := by rw [n.nullary_at V 156 rfl]; rfl
  have s_main_v131 : after ops V main_v131 = ReadP.val_main_v131 := by rw [n.unary_at V 157 rfl, s_main_c_19]; rfl
  have s_main_v132 : after ops V main_v132 = ReadP.val_main_v132 x2 := by rw [n.binary_at V 158 rfl, s_main_v1, s_main_v131]; rfl
  have s_main_v133 : after ops V main_v133 = ReadP.val_main_v133 x2 := by rw [n.ternary_at V 159 rfl, s_main_v130, s_main_v132, s_main_v1]; rfl
  have s_main_v134 : after ops V main_v134 = ReadP.val_main_v134 x2 := by rw [n.unary_at V 160 rfl, s_main_v133]; rfl
  have s_main_v135 : after ops V main_v135 = ReadP.val_main_v135 x0 x1 x2 x4 x5 x6 x7 x8 x13 x14 x15 x16 := by rw [n.binary_at V 161 rfl, s_main_v100, s_main_v134]; rfl
  have s_main_c_20 : after ops V main_c_20 = ReadP.val_main_c_20 := by rw [n.nullary_at V 162 rfl]; rfl
  have s_main_v136 : after ops V main_v136 = ReadP.val_main_v136 := by rw [n.unary_at V 163 rfl, s_main_c_20]; rfl
  have s_main_v137 : after ops V main_v137 = ReadP.val_main_v137 x2 := by rw [n.binary_at V 164 rfl, s_main_v3, s_main_v136]; rfl
  have s_main_c_21 : after ops V main_c_21 = ReadP.val_main_c_21 := by rw [n.nullary_at V 165 rfl]; rfl
  have s_main_v138 : after ops V main_v138 = ReadP.val_main_v138 := by rw [n.unary_at V 166 rfl, s_main_c_21]; rfl
  have s_main_v139 : after ops V main_v139 = ReadP.val_main_v139 x2 := by rw [n.binary_at V 167 rfl, s_main_v3, s_main_v138]; rfl
  have s_main_v140 : after ops V main_v140 = ReadP.val_main_v140 x2 := by rw [n.ternary_at V 168 rfl, s_main_v137, s_main_v139, s_main_v3]; rfl
  have s_main_v141 : after ops V main_v141 = ReadP.val_main_v141 x2 := by rw [n.unary_at V 169 rfl, s_main_v140]; rfl
  have s_main_v142 : after ops V main_v142 = ReadP.val_main_v142 x0 x1 x2 x4 x5 x6 x7 x8 x13 x14 x15 x16 := by rw [n.binary_at V 170 rfl, s_main_v100, s_main_v141]; rfl
  have s_main_v143 : after ops V main_v143 = ReadP.val_main_v143 x0 x1 x2 x4 x5 x6 x7 x8 x13 x14 x15 x16 := by rw [n.binary_at V 171 rfl, s_main_v135, s_main_v142]; rfl
  have s_main_call1_v0 : after ops V main_call1_v0 = ReadP.val_main_call1_v0 x0 x1 x2 x4 x5 x6 x7 x8 x13 x14 x15 x16 := by rw [n.binary_at V 172 rfl, s_main_v143]; rfl
  have s_main_call1_cst : after ops V main_call1_cst = ReadP.val_main_call1_cst := by rw [n.nullary_at V 173 rfl]; rfl
  have s_main_call1_v1 : after ops V main_call1_v1 = ReadP.val_main_call1_v1 x0 x1 x2 x4 x5 x6 x7 x8 x13 x14 x15 x16 := by rw [n.binary_at V 174 rfl, s_main_call1_v0, s_main_call1_cst]; rfl
  have s_main_call1_v2 : after ops V main_call1_v2 = ReadP.val_main_call1_v2 x0 x1 x2 x4 x5 x6 x7 x8 x13 x14 x15 x16 := by rw [n.unary_at V 175 rfl, s_main_call1_v1]; rfl
  have s_main_v144 : after ops V main_v144 = ReadP.val_main_v144 x0 x1 x2 x4 x5 x6 x7 x8 x13 x14 x15 x16 := by rw [n.unary_at V 176 rfl, s_main_call1_v2]; rfl
  have s_main_c_22 : after ops V main_c_22 = ReadP.val_main_c_22 := by rw [n.nullary_at V 177 rfl]; rfl
  have s_main_v145 : after ops V main_v145 = ReadP.val_main_v145 := by rw [n.unary_at V 178 rfl, s_main_c_22]; rfl
  have s_main_v146 : after ops V main_v146 = ReadP.val_main_v146 x2 := by rw [n.binary_at V 179 rfl, s_main_v3, s_main_v145]; rfl
  have s_main_c_23 : after ops V main_c_23 = ReadP.val_main_c_23 := by rw [n.nullary_at V 180 rfl]; rfl
  have s_main_v147 : after ops V main_v147 = ReadP.val_main_v147 := by rw [n.unary_at V 181 rfl, s_main_c_23]; rfl
  have s_main_v148 : after ops V main_v148 = ReadP.val_main_v148 x2 := by rw [n.binary_at V 182 rfl, s_main_v3, s_main_v147]; rfl
  have s_main_v149 : after ops V main_v149 = ReadP.val_main_v149 x2 := by rw [n.ternary_at V 183 rfl, s_main_v146, s_main_v148, s_main_v3]; rfl
  have s_main_v150 : after ops V main_v150 = ReadP.val_main_v150 x2 := by rw [n.unary_at V 184 rfl, s_main_v149]; rfl
  have s_main_v151 : after ops V main_v151 = ReadP.val_main_v151 x0 x1 x2 x4 x5 x6 x7 x8 x9 x10 x11 x12 := by rw [n.binary_at V 185 rfl, s_main_v128, s_main_v150]; rfl
  have s_main_c_24 : after ops V main_c_24 = ReadP.val_main_c_24 := by rw [n.nullary_at V 186 rfl]; rfl
  have s_main_v152 : after ops V main_v152 = ReadP.val_main_v152 := by rw [n.unary_at V 187 rfl, s_main_c_24]; rfl
  exact ⟨s_main_v1, s_main_v3, s_main_v100, s_main_v128, s_main_v143, s_main_v144, s_main_v151, s_main_v152⟩

theorem stages4 :
    (after ops V main_v3 = ReadP.val_main_v3 x2)
    ∧ (after ops V main_v100 = ReadP.val_main_v100 x0 x1 x2 x4 x5 x6 x7 x8 x13 x14 x15 x16)
    ∧ (after ops V main_v128 = ReadP.val_main_v128 x0 x1 x2 x4 x5 x6 x7 x8 x9 x10 x11 x12)
    ∧ (after ops V main_v143 = ReadP.val_main_v143 x0 x1 x2 x4 x5 x6 x7 x8 x13 x14 x15 x16)
    ∧ (after ops V main_v189 = ReadP.val_main_v189 x0 x1 x2 x4 x5 x6 x7 x8 x9 x10 x11 x12 x13 x14 x15 x16)
    ∧ (after ops V main_v204 = ReadP.val_main_v204 x0 x1 x2 x4 x5 x6 x7 x8 x9 x10 x11 x12 x13 x14 x15 x16)
    ∧ (after ops V main_v205 = ReadP.val_main_v205 x15) := by
  have n := ops_numbered (F := F)
  obtain ⟨s_main_v1, s_main_v3, s_main_v100, s_main_v128, s_main_v143, s_main_v144, s_main_v151, s_main_v152⟩ := stages3 V e0 e1 e2 e4 e5 e6 e7 e8 e9 e10 e11 e12 e13 e14 e15 e16
  have s_main_v153 : after ops V main_v153 = ReadP.val_main_v153 x2 := by rw [n.binary_at V 188 rfl, s_main_v1, s_main_v152]; rfl
  have s_main_c_25 : after ops V main_c_25 = ReadP.val_main_c_25 := by rw [n.nullary_at V 189 rfl]; rfl
  have s_main_v154 : after ops V main_v154 = ReadP.val_main_v154 := by rw [n.unary_at V 190 rfl, s_main_c_25]; rfl
  have s_main_v155 : after ops V main_v155 = ReadP.val_main_v155 x2 := by rw [n.binary_at V 191 rfl, s_main_v1, s_main_v154]; rfl
  have s_main_v156 : after ops V main_v156 = ReadP.val_main_v156 x2 := by rw [n.ternary_at V 192 rfl, s_main_v153, s_main_v155, s_main_v1]; rfl
  have s_main_v157 : after ops V main_v157 = ReadP.val_main_v157 x2 := by rw [n.unary_at V 193 rfl, s_main_v156]; rfl
  have s_main_v158 : after ops V main_v158 = ReadP.val_main_v158 x0 x1 x2 x4 x5 x6 x7 x8 x9 x10 x11 x12 := by rw [n.binary_at V 194 rfl, s_main_v128, s_main_v157]; rfl
  have s_main_v159 : after ops V main_v159 = ReadP.val_main_v159 x0 x1 x2 x4 x5 x6 x7 x8 x9 x10 x11 x12 x13 x14 x15 x16 := by rw [n.nary3_at V 195 rfl, s_main_v151, s_main_v158, s_main_v144]; rfl
  have s_main_v160 : after ops V main_v160 = ReadP.val_main_v160 x5 := by rw [n.unary_at V 196 rfl, e5]; rfl
  have s_main_v161 : after ops V main_v161 = ReadP.val_main_v161 x5 := by rw [n.reshape_at V 197 rfl, s_main_v160]; rfl
  have s_main_v162 : after ops V main_v162 = ReadP.val_main_v162 x0 x1 x2 x4 x5 x6 x7 x8 x9 x10 x11 x12 x13 x14 x15 x16 := by rw [n.binary_at V 198 rfl, s_main_v159, s_main_v161]; rfl
  have s_main_v163 : after ops V main_v163 = ReadP.val_main_v163 x6 := by rw [n.unary_at V 199 rfl, e6]; rfl
  have s_main_v164 : after ops V main_v164 = ReadP.val_main_v164 x6 := by rw [n.reshape_at V 200 rfl, s_main_v163]; rfl
  have s_main_v165 : after ops V main_v165 = ReadP.val_main_v165 x6 := by rw [n.unary_at V 201 rfl, s_main_v164]; rfl
  have s_main_v166 : after ops V main_v166 = ReadP.val_main_v166 x6 := by rw [n.unary_at V 202 rfl, s_main_v165]; rfl
  have s_main_v167 : after ops V main_v167 = ReadP.val_main_v167 x0 x1 x2 x4 x5 x6 x7 x8 x9 x10 x11 x12 x13 x14 x15 x16 := by rw [n.binary_at V 203 rfl, s_main_v162, s_main_v166]; rfl
  have s_main_v168 : after ops V main_v168 = ReadP.val_main_v168 x0 x1 x2 x4 x5 x6 x7 x8 x9 x10 x11 x12 x13 x14 x15 x16 := by rw [n.unary_at V 204 rfl, s_main_v167]; rfl
  have s_main_v169 : after ops V main_v169 = ReadP.val_main_v169 x0 x1 x2 x4 x5 x6 x7 x8 x9 x10 x11 x12 x13 x14 x15 x16 := by rw [n.unary_at V 205 rfl, s_main_v168]; rfl
  have s_main_cst_26 : after ops V main_cst_26 = ReadP.val_main_cst_26 := by rw [n.nullary_at V 206 rfl]; rfl
  have s_main_v170 : after ops V main_v170 = ReadP.val_main_v170 := by rw [n.unary_at V 207 rfl, s_main_cst_26]; rfl
  have s_main_v171 : after ops V main_v171 = ReadP.val_main_v171 x0 x1 x2 x4 x5 x6 x7 x8 x9 x10 x11 x12 x13 x14 x15 x16 := by rw [n.binary_at V 208 rfl, s_main_v170, s_main_v169]; rfl
  have s_main_cst_27 : after ops V main_cst_27 = ReadP.val_main_cst_27 := by rw [n.nullary_at V 209 rfl]; rfl
  have s_main_v172 : after ops V main_v172 = ReadP.val_main_v172 := by rw [n.unary_at V 210 rfl, s_main_cst_27]; rfl
  have s_main_v173 : after ops V main_v173 = ReadP.val_main_v173 x0 x1 x2 x4 x5 x6 x7 x8 x9 x10 x11 x12 x13 x14 x15 x16 := by rw [n.binary_at V 211 rfl, s_main_v172, s_main_v171]; rfl
  have s_main_v174 : after ops V main_v174 = ReadP.val_main_v174 x0 x1 x2 x4 x5 x6 x7 x8 x9 x10 x11 x12 x13 x14 x15 x16 := by rw [n.binary_at V 212 rfl, s_main_v167, s_main_v173]; rfl
  have s_main_v175 : after ops V main_v175 = ReadP.val_main_v175 x7 := by rw [n.unary_at V 213 rfl, e7]; rfl
  have s_main_v176 : after ops V main_v176 = ReadP.val_main_v176 x7 := by rw [n.reshape_at V 214 rfl, s_main_v175]; rfl
  have s_main_v177 : after ops V main_v177 = ReadP.val_main_v177 x0 x1 x2 x4 x5 x6 x7 x8 x9 x10 x11 x12 x13 x14 x15 x16 := by rw [n.binary_at V 215 rfl, s_main_v174, s_main_v176]; rfl
  have s_main_v178 : after ops V main_v178 = ReadP.val_main_v178 x8 := by rw [n.unary_at V 216 rfl, e8]; rfl
  have s_main_v179 : after ops V main_v179 = ReadP.val_main_v179 x8 := by rw [n.reshape_at V 217 rfl, s_main_v178]; rfl
  have s_main_v180 : after ops V main_v180 = ReadP.val_main_v180 x8 := by rw [n.unary_at V 218 rfl, s_main_v179]; rfl
  have s_main_v181 : after ops V main_v181 = ReadP.val_main_v181 x8 := by rw [n.unary_at V 219 rfl, s_main_v180]; rfl
  have s_main_v182 : after ops V main_v182 = ReadP.val_main_v182 x0 x1 x2 x4 x5 x6 x7 x8 x9 x10 x11 x12 x13 x14 x15 x16 := by rw [n.binary_at V 220 rfl, s_main_v177, s_main_v181]; rfl
  have s_main_v183 : after ops V main_v183 = ReadP.val_main_v183 x0 x1 x2 x4 x5 x6 x7 x8 x9 x10 x11 x12 x13 x14 x15 x16 := by rw [n.unary_at V 221 rfl, s_main_v182]; rfl
  have s_main_v184 : after ops V main_v184 = ReadP.val_main_v184 x0 x1 x2 x4 x5 x6 x7 x8 x9 x10 x11 x12 x13 x14 x15 x16 := by rw [n.unary_at V 222 rfl, s_main_v183]; rfl
  have s_main_cst_28 : after ops V main_cst_28 = ReadP.val_main_cst_28 := by rw [n.nullary_at V 223 rfl]; rfl
  have s_main_v185 : after ops V main_v185 = ReadP.val_main_v185 := by rw [n.unary_at V 224 rfl, s_main_cst_28]; rfl
  have s_main_v186 : after ops V main_v186 = ReadP.val_main_v186 x0 x1 x2 x4 x5 x6 x7 x8 x9 x10 x11 x12 x13 x14 x15 x16 := by rw [n.binary_at V 225 rfl, s_main_v185, s_main_v184]; rfl
  have s_main_cst_29 : after ops V main_cst_29 = ReadP.val_main_cst_29 := by rw [n.nullary_at V 226 rfl]; rfl
  have s_main_v187 : after ops V main_v187 = ReadP.val_main_v187 := by rw [n.unary_at V 227 rfl, s_main_cst_29]; rfl
  have s_main_v188 : after ops V main_v188 = ReadP.val_main_v188 x0 x1 x2 x4 x5 x6 x7 x8 x9 x10 x11 x12 x13 x14 x15 x16 := by rw [n.binary_at V 228 rfl, s_main_v187, s_main_v186]; rfl
  have s_main_v189 : after ops V main_v189 = ReadP.val_main_v189 x0 x1 x2 x4 x5 x6 x7 x8 x9 x10 x11 x12 x13 x14 x15 x16 := by rw [n.binary_at V 229 rfl, s_main_v182, s_main_v188]; rfl
  have s_main_v190 : after ops V main_v190 = ReadP.val_main_v190 x13 := by rw [n.unary_at V 230 rfl, e13]; rfl
  have s_main_v191 : after ops V main_v191 = ReadP.val_main_v191 x13 := by rw [n.reshape_at V 231 rfl, s_main_v190]; rfl
  have s_main_v192 : after ops V main_v192 = ReadP.val_main_v192 x0 x1 x2 x4 x5 x6 x7 x8 x9 x10 x11 x12 x13 x14 x15 x16 := by rw [n.binary_at V 232 rfl, s_main_v189, s_main_v191]; rfl
  have s_main_v193 : after ops V main_v193 = ReadP.val_main_v193 x14 := by rw [n.unary_at V 233 rfl, e14]; rfl
  have s_main_v194 : after ops V main_v194 = ReadP.val_main_v194 x14 := by rw [n.reshape_at V 234 rfl, s_main_v193]; rfl
  have s_main_v195 : after ops V main_v195 = ReadP.val_main_v195 x14 := by rw [n.unary_at V 235 rfl, s_main_v194]; rfl
  have s_main_v196 : after ops V main_v196 = ReadP.val_main_v196 x14 := by rw [n.unary_at V 236 rfl, s_main_v195]; rfl
  have s_main_v197 : after ops V main_v197 = ReadP.val_main_v197 x0 x1 x2 x4 x5 x6 x7 x8 x9 x10 x11 x12 x13 x14 x15 x16 := by rw [n.binary_at V 237 rfl, s_main_v192, s_main_v196]; rfl
  have s_main_v198 : after ops V main_v198 = ReadP.val_main_v198 x0 x1 x2 x4 x5 x6 x7 x8 x9 x10 x11 x12 x13 x14 x15 x16 := by rw [n.unary_at V 238 rfl, s_main_v197]; rfl
  have s_main_v199 : after ops V main_v199 = ReadP.val_main_v199 x0 x1 x2 x4 x5 x6 x7 x8 x9 x10 x11 x12 x13 x14 x15 x16 := by rw [n.unary_at V 239 rfl, s_main_v198]; rfl
  have s_main_cst_30 : after ops V main_cst_30 = ReadP.val_main_cst_30 := by rw [n.nullary_at V 240 rfl]; rfl
  have s_main_v200 : after ops V main_v200 = ReadP.val_main_v200 := by rw [n.unary_at V 241 rfl, s_main_cst_30]; rfl
  have s_main_v201 : after ops V main_v201 = ReadP.val_main_v201 x0 x1 x2 x4 x5 x6 x7 x8 x9 x10 x11 x12 x13 x14 x15 x16 := by rw [n.binary_at V 242 rfl, s_main_v200, s_main_v199]; rfl
  have s_main_cst_31 : after ops V main_cst_31 = ReadP.val_main_cst_31 := by rw [n.nullary_at V 243 rfl]; rfl
  have s_main_v202 : after ops V main_v202 = ReadP.val_main_v202 := by rw [n.unary_at V 244 rfl, s_main_cst_31]; rfl
  have s_main_v203 : after ops V main_v203 = ReadP.val_main_v203 x0 x1 x2 x4 x5 x6 x7 x8 x9 x10 x11 x12 x13 x14 x15 x16 := by rw [n.binary_at V 245 rfl, s_main_v202, s_main_v201]; rfl
  have s_main_v204 : after ops V main_v204 = ReadP.val_main_v204 x0 x1 x2 x4 x5 x6 x7 x8 x9 x10 x11 x12 x13 x14 x15 x16 := by rw [n.binary_at V 246 rfl, s_main_v197, s_main_v203]; rfl
  have s_main_v205 : after ops V main_v205 = ReadP.val_main_v205 x15 := by rw [n.unary_at V 247 rfl, e15]; rfl
  exact ⟨s_main_v3, s_main_v100, s_main_v128, s_main_v143, s_main_v189, s_main_v204, s_main_v205⟩

theorem stages5 :
    (after ops V main_v246 = ReadP.val_main_v246 x0 x1 x2 x4 x5 x6 x7 x8 x9 x10 x11 x12 x13 x14 x15 x16)
    ∧ (after ops V main_v218 = ReadP.val_main_v218 x0 x1 x2 x4 x5 x6 x7 x8 x9 x10 x11 x12 x13 x14 x15 x16) := by
  have n := ops_numbered (F := F)
  obtain ⟨s_main_v3, s_main_v100, s_main_v128, s_main_v143, s_main_v189, s_main_v204, s_main_v205⟩ := stages4 V e0 e1 e2 e4 e5 e6 e7 e8 e9 e10 e11 e12 e13 e14 e15 e16
  have s_main_v206 : after ops V main_v206 = ReadP.val_main_v206 x15 := by rw [n.reshape_at V 248 rfl, s_main_v205]; rfl
  have s_main_v207 : after ops V main_v207 = ReadP.val_main_v207 x0 x1 x2 x4 x5 x6 x7 x8 x9 x10 x11 x12 x13 x14 x15 x16 := by rw [n.binary_at V 249 rfl, s_main_v204, s_main_v206]; rfl
  have s_main_v208 : after ops V main_v208 = ReadP.val_main_v208 x16 := by rw [n.unary_at V 250 rfl, e16]; rfl
  have s_main_v209 : after ops V main_v209 = ReadP.val_main_v209 x16 := by rw [n.reshape_at V 251 rfl, s_main_v208]; rfl
  have s_main_v210 : after ops V main_v210 = ReadP.val_main_v210 x16 := by rw [n.unary_at V 252 rfl, s_main_v209]; rfl
  have s_main_v211 : after ops V main_v211 = ReadP.val_main_v211 x16 := by rw [n.unary_at V 253 rfl, s_main_v210]; rfl
  have s_main_v212 : after ops V main_v212 = ReadP.val_main_v212 x0 x1 x2 x4 x5 x6 x7 x8 x9 x10 x11 x12 x13 x14 x15 x16 := by rw [n.binary_at V 254 rfl, s_main_v207, s_main_v211]; rfl
  have s_main_v213 : after ops V main_v213 = ReadP.val_main_v213 x0 x1 x2 x4 x5 x6 x7 x8 x9 x10 x11 x12 x13 x14 x15 x16 := by rw [n.unary_at V 255 rfl, s_main_v212]; rfl
  have s_main_v214 : after ops V main_v214 = ReadP.val_main_v214 x0 x1 x2 x4 x5 x6 x7 x8 x9 x10 x11 x12 x13 x14 x15 x16 := by rw [n.binary_at V 256 rfl, s_main_v213, s_main_v143]; rfl
  have s_main_cst_32 : after ops V main_cst_32 = ReadP.val_main_cst_32 := by rw [n.nullary_at V 257 rfl]; rfl
  have s_main_v215 : after ops V main_v215 = ReadP.val_main_v215 := by rw [n.unary_at V 258 rfl, s_main_cst_32]; rfl
  have s_main_v216 : after ops V main_v216 = ReadP.val_main_v216 x2 := by rw [n.unary_at V 259 rfl, s_main_v3]; rfl
  have s_main_v217 : after ops V main_v217 = ReadP.val_main_v217 x0 x1 x2 x4 x5 x6 x7 x8 x9 x10 x11 x12 x13 x14 x15 x16 := by rw [n.ternary_at V 260 rfl, s_main_v215, s_main_v216, s_main_v214]; rfl
  have s_main_v218 : after ops V main_v218 = ReadP.val_main_v218 x0 x1 x2 x4 x5 x6 x7 x8 x9 x10 x11 x12 x13 x14 x15 x16 := by rw [n.binary_at V 261 rfl, s_main_v100, s_main_v217]; rfl
  have s_main_cst_33 : after ops V main_cst_33 = ReadP.val_main_cst_33 := by rw [n.nullary_at V 262 rfl]; rfl
  have s_main_v219 : after ops V main_v219 = ReadP.val_main_v219 := by rw [n.unary_at V 263 rfl, s_main_cst_33]; rfl
  have s_main_v220 : after ops V main_v220 = ReadP.val_main_v220 x2 := by rw [n.unary_at V 264 rfl, s_main_v3]; rfl
  have s_main_v221 : after ops V main_v221 = ReadP.val_main_v221 x0 x1 x2 x4 x5 x6 x7 x8 x9 x10 x11 x12 x13 x14 x15 x16 := by rw [n.ternary_at V 265 rfl, s_main_v219, s_main_v220, s_main_v189]; rfl
  have s_main_v222 : after ops V main_v222 = ReadP.val_main_v222 x0 x1 x2 x4 x5 x6 x7 x8 x9 x10 x11 x12 x13 x14 x15 x16 := by rw [n.binary_at V 266 rfl, s_main_v128, s_main_v221]; rfl
  have s_main_v223 : after ops V main_v223 = ReadP.val_main_v223 x9 := by rw [n.unary_at V 267 rfl, e9]; rfl
  have s_main_v224 : after ops V main_v224 = ReadP.val_main_v224 x9 := by rw [n.reshape_at V 268 rfl, s_main_v223]; rfl
  have s_main_v225 : after ops V main_v225 = ReadP.val_main_v225 x0 x1 x2 x4 x5 x6 x7 x8 x9 x10 x11 x12 x13 x14 x15 x16 := by rw [n.binary_at V 269 rfl, s_main_v222, s_main_v224]; rfl
  have s_main_v226 : after ops V main_v226 = ReadP.val_main_v226 x10 := by rw [n.unary_at V 270 rfl, e10]; rfl
  have s_main_v227 : after ops V main_v227 = ReadP.val_main_v227 x10 := by rw [n.reshape_at V 271 rfl, s_main_v226]; rfl
  have s_main_v228 : after ops V main_v228 = ReadP.val_main_v228 x10 := by rw [n.unary_at V 272 rfl, s_main_v227]; rfl
  have s_main_v229 : after ops V main_v229 = ReadP.val_main_v229 x10 := by rw [n.unary_at V 273 rfl, s_main_v228]; rfl
  have s_main_v230 : after ops V main_v230 = ReadP.val_main_v230 x0 x1 x2 x4 x5 x6 x7 x8 x9 x10 x11 x12 x13 x14 x15 x16 := by rw [n.binary_at V 274 rfl, s_main_v225, s_main_v229]; rfl
  have s_main_v231 : after ops V main_v231 = ReadP.val_main_v231 x0 x1 x2 x4 x5 x6 x7 x8 x9 x10 x11 x12 x13 x14 x15 x16 := by rw [n.unary_at V 275 rfl, s_main_v230]; rfl
  have s_main_v232 : after ops V main_v232 = ReadP.val_main_v232 x0 x1 x2 x4 x5 x6 x7 x8 x9 x10 x11 x12 x13 x14 x15 x16 := by rw [n.unary_at V 276 rfl, s_main_v231]; rfl
  have s_main_cst_34 : after ops V main_cst_34 = ReadP.val_main_cst_34 := by rw [n.nullary_at V 277 rfl]; rfl
  have s_main_v233 : after ops V main_v233 = ReadP.val_main_v233 := by rw [n.unary_at V 278 rfl, s_main_cst_34]; rfl
  have s_main_v234 : after ops V main_v234 = ReadP.val_main_v234 x0 x1 x2 x4 x5 x6 x7 x8 x9 x10 x11 x12 x13 x14 x15 x16 := by rw [n.binary_at V 279 rfl, s_main_v233, s_main_v232]; rfl
  have s_main_cst_35 : after ops V main_cst_35 = ReadP.val_main_cst_35 := by rw [n.nullary_at V 280 rfl]; rfl
  have s_main_v235 : after ops V main_v235 = ReadP.val_main_v235 := by rw [n.unary_at V 281 rfl, s_main_cst_35]; rfl
  have s_main_v236 : after ops V main_v236 = ReadP.val_main_v236 x0 x1 x2 x4 x5 x6 x7 x8 x9 x10 x11 x12 x13 x14 x15 x16 := by rw [n.binary_at V 282 rfl, s_main_v235, s_main_v234]; rfl
  have s_main_v237 : after ops V main_v237 = ReadP.val_main_v237 x0 x1 x2 x4 x5 x6 x7 x8 x9 x10 x11 x12 x13 x14 x15 x16 := by rw [n.binary_at V 283 rfl, s_main_v230, s_main_v236]; rfl
  have s_main_v238 : after ops V main_v238 = ReadP.val_main_v238 x11 := by rw [n.unary_at V 284 rfl, e11]; rfl
  have s_main_v239 : after ops V main_v239 = ReadP.val_main_v239 x11 := by rw [n.reshape_at V 285 rfl, s_main_v238]; rfl
  have s_main_v240 : after ops V main_v240 = ReadP.val_main_v240 x0 x1 x2 x4 x5 x6 x7 x8 x9 x10 x11 x12 x13 x14 x15 x16 := by rw [n.binary_at V 286 rfl, s_main_v237, s_main_v239]; rfl
  have s_main_v241 : after ops V main_v241 = ReadP.val_main_v241 x12 := by rw [n.unary_at V 287 rfl, e12]; rfl
  have s_main_v242 : after ops V main_v242 = ReadP.val_main_v242 x12 := by rw [n.reshape_at V 288 rfl, s_main_v241]; rfl
  have s_main_v243 : after ops V main_v243 = ReadP.val_main_v243 x12 := by rw [n.unary_at V 289 rfl, s_main_v242]; rfl
  have s_main_v244 : after ops V main_v244 = ReadP.val_main_v244 x12 := by rw [n.unary_at V 290 rfl, s_main_v243]; rfl
  have s_main_v245 : after ops V main_v245 = ReadP.val_main_v245 x0 x1 x2 x4 x5 x6 x7 x8 x9 x10 x11 x12 x13 x14 x15 x16 := by rw [n.binary_at V 291 rfl, s_main_v240, s_main_v244]; rfl
  have s_main_v246 : after ops V main_v246 = ReadP.val_main_v246 x0 x1 x2 x4 x5 x6 x7 x8 x9 x10 x11 x12 x13 x14 x15 x16 := by rw [n.binary_at V 292 rfl, s_main_v128, s_main_v245]; rfl
  exact ⟨s_main_v246, s_main_v218⟩

end

/-- The arguments are numbered below every operation's buffer, so they still hold what V gave them. -/
theorem stages (V : Valuation τ sig (Elt F)) :
    after ops V main_v246 = ReadP.val_main_v246 (F := F) (V main_arg0) (V main_arg1) (V main_arg2) (V main_arg4) (V main_arg5) (V main_arg6) (V main_arg7) (V main_arg8) (V main_arg9) (V main_arg10) (V main_arg11) (V main_arg12) (V main_arg13) (V main_arg14) (V main_arg15) (V main_arg16)
    ∧ after ops V main_v218 = ReadP.val_main_v218 (F := F) (V main_arg0) (V main_arg1) (V main_arg2) (V main_arg4) (V main_arg5) (V main_arg6) (V main_arg7) (V main_arg8) (V main_arg9) (V main_arg10) (V main_arg11) (V main_arg12) (V main_arg13) (V main_arg14) (V main_arg15) (V main_arg16) :=
  have a := Numbered.after_lt ops 17 (ops_numbered (F := F)) V
  stages5 V (a main_arg0 (by decide)) (a main_arg1 (by decide)) (a main_arg2 (by decide)) (a main_arg4 (by decide)) (a main_arg5 (by decide)) (a main_arg6 (by decide)) (a main_arg7 (by decide)) (a main_arg8 (by decide)) (a main_arg9 (by decide)) (a main_arg10 (by decide)) (a main_arg11 (by decide)) (a main_arg12 (by decide)) (a main_arg13 (by decide)) (a main_arg14 (by decide)) (a main_arg15 (by decide)) (a main_arg16 (by decide))

end Cert.ReferenceIdeal.RRun

end
-- ==== Proof.RRun.lean ====
import proofs.«428515_j67688684585222_1_alg».proof.Proof.RRunSt
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- The run ends at the fold of the line over the launch contents: the results are their last stages (`stages`), and the
    arguments, numbered below every operation's buffer, are never written. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v246) = ReadP.val_main_v246 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v218) = ReadP.val_main_v218 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun r h c =>
    have a : ∀ b : Ref sig .tc, b.idx.val < 17 → r.2.mem ((c.tc : Thread nD τ).loc b) = m ((c.tc : Thread nD τ).loc b) :=
      fun b hb => (h c b).trans (Numbered.after_lt ops 17 ops_numbered (launchContents m c) b hb)
    ⟨(h c main_v246).trans (stages (launchContents m c)).1, (h c main_v218).trans (stages (launchContents m c)).2,
      a main_arg0 (by decide), a main_arg1 (by decide), a main_arg2 (by decide), a main_arg3 (by decide), a main_arg4 (by decide), a main_arg5 (by decide), a main_arg6 (by decide), a main_arg7 (by decide), a main_arg8 (by decide), a main_arg9 (by decide), a main_arg10 (by decide), a main_arg11 (by decide), a main_arg12 (by decide), a main_arg13 (by decide), a main_arg14 (by decide), a main_arg15 (by decide), a main_arg16 (by decide)⟩) (run_after m ρ)

end Cert.ReferenceIdeal.RRun

end
-- ==== Proof.lean ====
/-
  A two-layer message-passing network on 50000 nodes and 800000 edges, tiled against whole-array.

  Per layer and per edge: the two endpoint rows (looked up by edge index), their coordinate difference and its norm, a message
  (a two-layer perceptron of the two rows and the norm) and a scalar weight (a perceptron of the message); per node: the sums
  over incoming edges of messages and of weighted differences, then new coordinates and new features. Row by row the two
  programs compute the same extended reals: a blocked product summed over column blocks is the product over the concatenated
  row (+ is commutative and associative), and the two spellings of the logistic function are one function. The lookups agree
  where every edge index is a node index, which the precondition asks.
-/
import proofs.«428515_j67688684585222_1_alg».proof.Defs
import proofs.«428515_j67688684585222_1_alg».proof.Proof.Gen.Kernel
import proofs.«428515_j67688684585222_1_alg».proof.Proof.Gen.Kernel.Skeleton
import proofs.«428515_j67688684585222_1_alg».proof.Proof.Gen.Kernel.Launch
import proofs.«428515_j67688684585222_1_alg».proof.Proof.Gen.Kernel.Points
import proofs.«428515_j67688684585222_1_alg».proof.Proof.Gen.Kernel.Frame
import proofs.«428515_j67688684585222_1_alg».proof.Proof.Gen.KernelIdeal
import proofs.«428515_j67688684585222_1_alg».proof.Proof.Gen.KernelIdeal.Skeleton
import proofs.«428515_j67688684585222_1_alg».proof.Proof.Gen.KernelIdeal.Launch
import proofs.«428515_j67688684585222_1_alg».proof.Proof.Gen.KernelIdeal.Points
import proofs.«428515_j67688684585222_1_alg».proof.Proof.Gen.KernelIdeal.Frame
import proofs.«428515_j67688684585222_1_alg».proof.Proof.Gen.ReferenceIdeal
import proofs.«428515_j67688684585222_1_alg».proof.Proof.Gen.Pre_finite_inputs
import proofs.«428515_j67688684585222_1_alg».proof.Proof.KRun
import proofs.«428515_j67688684585222_1_alg».proof.Proof.KLayer1
import proofs.«428515_j67688684585222_1_alg».proof.Proof.RRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.RRun.run (F := Ideal) m ρ)

theorem preserves : Cert.preserves_Kernel_KernelIdeal := trivial

/-- Both runs end at the plain array program's last stages of arguments that agree: the tiled program's by the layer-by-layer
    comparison, the plain program's by its own run. -/
theorem algebraic : Cert.algebraic_KernelIdeal_ReferenceIdeal := by
  intro m ρ m' ρ' hpre hagree
  refine ⟨_, _, (θ_run Cert.KernelIdeal.defs _ _).mono
      (fun r h c => ⟨(h c).1.trans (Cert.KernelIdeal.KLayer1.h2_eq m ρ hpre c),
        (h c).2.1.trans (Cert.KernelIdeal.KLayer1.x2_eq m ρ hpre c), (h c).2.2⟩)
      (Cert.KernelIdeal.Gen.run_results m ρ), ?_⟩
  refine (θ_run Cert.ReferenceIdeal.defs _ _).mono (fun r h c => ?_) (Cert.ReferenceIdeal.RRun.run (F := Ideal) m' ρ')
  obtain ⟨e0, e1, e2, e3, e4, e5, e6, e7, e8, e9, e10, e11, e12, e13, e14, e15, e16⟩ := hagree c
  refine ⟨(h c).1.trans ?_, (h c).2.1.trans ?_, (h c).2.2⟩ <;>
    rw [e0, e1, e2, e4, e5, e6, e7, e8, e9, e10, e11, e12, e13, e14, e15, e16]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
